-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Pre_finite_inputs_ReferenceIdeal.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  main_v3
-- ==== Kernel.lean ====
abbrev S1024x512 : Shape := ⟨2, ![1024, 512]⟩
abbrev S2x256x256 : Shape := ⟨3, ![2, 256, 256]⟩
abbrev S2x2x256x256 : Shape := ⟨4, ![2, 2, 256, 256]⟩
abbrev S2x4 : Shape := ⟨2, ![2, 4]⟩
abbrev S2x2x4 : Shape := ⟨3, ![2, 2, 4]⟩
abbrev S4x4 : Shape := ⟨2, ![4, 4]⟩
abbrev S_ : Shape := ⟨0, ![]⟩
abbrev S1x1 : Shape := ⟨2, ![1, 1]⟩
abbrev S1x64x256 : Shape := ⟨3, ![1, 64, 256]⟩
abbrev S64x256 : Shape := ⟨2, ![64, 256]⟩
abbrev S1x1x1 : Shape := ⟨3, ![1, 1, 1]⟩
abbrev S1x1x64x256 : Shape := ⟨4, ![1, 1, 64, 256]⟩
abbrev S64x512 : Shape := ⟨2, ![64, 512]⟩

abbrev nBuf : Space → Nat
  | .hbm => 2
  | .vmem => 5
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S2x256x256, .f32⟩
  | .local _ .vmem, ⟨3, _⟩ => ⟨S2x256x256, .f32⟩
  | .local _ .vmem, ⟨4, _⟩ => ⟨S2x2x256x256, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  (ofTc nBuf bufTy 1 82 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_off1 (d0 : Dev nD) (c2_i32_20 : BitVec 32) (c0_i32_28 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v31 : BitVec 32 := Scalar.addi v2 c2_i32_20
  let c4_i32_21 : BitVec 32 := 4#32
  let v32 : BitVec 32 := Scalar.addi v31 c4_i32_21
  let c4_i32_22 : BitVec 32 := 4#32
  let c0_i32_23 : BitVec 32 := 0#32
  let v33 : BitVec 1 := Scalar.cmpi .eq c4_i32_22 c0_i32_23
  let c1_i32_24 : BitVec 32 := 1#32
  let v34 : BitVec 32 := Scalar.select v33 c1_i32_24 c4_i32_22
  let v35 : BitVec 32 := Scalar.remsi v32 v34
  let c0_i32_26 : BitVec 32 := 0#32
  let v37 : BitVec 1 := Scalar.cmpi .slt v35 c0_i32_26
  let c0_i32_27 : BitVec 32 := 0#32
  let v38 : BitVec 1 := Scalar.cmpi .slt v34 c0_i32_27
  let v39 : BitVec 1 := Scalar.xori v37 v38
  let c0_i32_25 : BitVec 32 := 0#32
  let v36 : BitVec 1 := Scalar.cmpi .ne v35 c0_i32_25
  let v40 : BitVec 1 := Scalar.andi v39 v36
  let v41 : BitVec 32 := Scalar.addi v35 v34
  let v42 : BitVec 32 := Scalar.select v40 v41 v35
  let c256_i32 : BitVec 32 := 256#32
  let v43 : BitVec 32 := Scalar.muli v42 c256_i32
  let v44 : BitVec 32 := Scalar.addi v43 c0_i32_28
  let c0_i32_38 : BitVec 32 := 0#32
  ![v44.toNat, 0]
def k0_dev3 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_34 : BitVec 32 := 1#32
  let v45 : BitVec 32 := Scalar.muli v25 c1_i32_34
  let v46 : BitVec 32 := Scalar.addi c0_i32_35 v45
  v46.toNat
def k0_off2 (d0 : Dev nD) (c2_i32_39 : BitVec 32) (c0_i32_48 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v54 : BitVec 32 := Scalar.addi v2 c2_i32_39
  let c4_i32_40 : BitVec 32 := 4#32
  let v55 : BitVec 32 := Scalar.addi v54 c4_i32_40
  let c4_i32_41 : BitVec 32 := 4#32
  let c0_i32_42 : BitVec 32 := 0#32
  let v56 : BitVec 1 := Scalar.cmpi .eq c4_i32_41 c0_i32_42
  let c1_i32_43 : BitVec 32 := 1#32
  let v57 : BitVec 32 := Scalar.select v56 c1_i32_43 c4_i32_41
  let v58 : BitVec 32 := Scalar.remsi v55 v57
  let c0_i32_45 : BitVec 32 := 0#32
  let v60 : BitVec 1 := Scalar.cmpi .slt v58 c0_i32_45
  let c0_i32_46 : BitVec 32 := 0#32
  let v61 : BitVec 1 := Scalar.cmpi .slt v57 c0_i32_46
  let v62 : BitVec 1 := Scalar.xori v60 v61
  let c0_i32_44 : BitVec 32 := 0#32
  let v59 : BitVec 1 := Scalar.cmpi .ne v58 c0_i32_44
  let v63 : BitVec 1 := Scalar.andi v62 v59
  let v64 : BitVec 32 := Scalar.addi v58 v57
  let v65 : BitVec 32 := Scalar.select v63 v64 v58
  let c256_i32_47 : BitVec 32 := 256#32
  let v66 : BitVec 32 := Scalar.muli v65 c256_i32_47
  let v67 : BitVec 32 := Scalar.addi v66 c0_i32_48
  let c256_i32_58 : BitVec 32 := 256#32
  ![v67.toNat, 256]
def k0_dev4 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_54 : BitVec 32 := 1#32
  let v68 : BitVec 32 := Scalar.muli v14 c1_i32_54
  let v69 : BitVec 32 := Scalar.addi c0_i32_55 v68
  v69.toNat
def k0_dev5 (d0 : Dev nD) : Nat :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_77 : BitVec 32 := 1#32
  let v91 : BitVec 32 := Scalar.muli v25 c1_i32_77
  let v92 : BitVec 32 := Scalar.addi c0_i32_78 v91
  v92.toNat
def k0_dev6 (d0 : Dev nD) : Nat :=
  let c0_i32_100 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_99 : BitVec 32 := 1#32
  let v114 : BitVec 32 := Scalar.muli v14 c1_i32_99
  let v115 : BitVec 32 := Scalar.addi c0_i32_100 v114
  v115.toNat
def k0_dev7 (d0 : Dev nD) : Nat :=
  let c0_i32_119 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_118 : BitVec 32 := 1#32
  let v137 : BitVec 32 := Scalar.muli v25 c1_i32_118
  let v138 : BitVec 32 := Scalar.addi c0_i32_119 v137
  v138.toNat
def k0_dev8 (d0 : Dev nD) : Nat :=
  let c0_i32_139 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_138 : BitVec 32 := 1#32
  let v160 : BitVec 32 := Scalar.muli v14 c1_i32_138
  let v161 : BitVec 32 := Scalar.addi c0_i32_139 v160
  v161.toNat
def k0_dev9 (d0 : Dev nD) : Nat :=
  let c0_i32_162 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_161 : BitVec 32 := 1#32
  let v183 : BitVec 32 := Scalar.muli v25 c1_i32_161
  let v184 : BitVec 32 := Scalar.addi c0_i32_162 v183
  v184.toNat
def k0_dev10 (d0 : Dev nD) : Nat :=
  let c0_i32_185 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_184 : BitVec 32 := 1#32
  let v206 : BitVec 32 := Scalar.muli v14 c1_i32_184
  let v207 : BitVec 32 := Scalar.addi c0_i32_185 v206
  v207.toNat
def k0_dev11 (d0 : Dev nD) : Nat :=
  let c0_i32_204 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_203 : BitVec 32 := 1#32
  let v229 : BitVec 32 := Scalar.muli v25 c1_i32_203
  let v230 : BitVec 32 := Scalar.addi c0_i32_204 v229
  v230.toNat
def k0_dev12 (d0 : Dev nD) : Nat :=
  let c0_i32_224 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_223 : BitVec 32 := 1#32
  let v252 : BitVec 32 := Scalar.muli v14 c1_i32_223
  let v253 : BitVec 32 := Scalar.addi c0_i32_224 v252
  v253.toNat
def k0_dev13 (d0 : Dev nD) : Nat :=
  let c0_i32_247 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_246 : BitVec 32 := 1#32
  let v275 : BitVec 32 := Scalar.muli v25 c1_i32_246
  let v276 : BitVec 32 := Scalar.addi c0_i32_247 v275
  v276.toNat
def k0_dev14 (d0 : Dev nD) : Nat :=
  let c0_i32_270 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_269 : BitVec 32 := 1#32
  let v298 : BitVec 32 := Scalar.muli v14 c1_i32_269
  let v299 : BitVec 32 := Scalar.addi c0_i32_270 v298
  v299.toNat
def k0_dev15 (d0 : Dev nD) : Nat :=
  let c0_i32_288 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_287 : BitVec 32 := 1#32
  let v321 : BitVec 32 := Scalar.muli v25 c1_i32_287
  let v322 : BitVec 32 := Scalar.addi c0_i32_288 v321
  v322.toNat
def k0_dev16 (d0 : Dev nD) : Nat :=
  let c0_i32_308 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_307 : BitVec 32 := 1#32
  let v344 : BitVec 32 := Scalar.muli v14 c1_i32_307
  let v345 : BitVec 32 := Scalar.addi c0_i32_308 v344
  v345.toNat
def k0_dev17 (d0 : Dev nD) : Nat :=
  let c0_i32_331 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_330 : BitVec 32 := 1#32
  let v367 : BitVec 32 := Scalar.muli v25 c1_i32_330
  let v368 : BitVec 32 := Scalar.addi c0_i32_331 v367
  v368.toNat
def k0_dev18 (d0 : Dev nD) : Nat :=
  let c0_i32_354 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_353 : BitVec 32 := 1#32
  let v390 : BitVec 32 := Scalar.muli v14 c1_i32_353
  let v391 : BitVec 32 := Scalar.addi c0_i32_354 v390
  v391.toNat
def k0_off3 (d0 : Dev nD) (c1_i32_372 : BitVec 32) (c0_i32_381 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v409 : BitVec 32 := Scalar.addi v2 c1_i32_372
  let c4_i32_373 : BitVec 32 := 4#32
  let v410 : BitVec 32 := Scalar.addi v409 c4_i32_373
  let c4_i32_374 : BitVec 32 := 4#32
  let c0_i32_375 : BitVec 32 := 0#32
  let v411 : BitVec 1 := Scalar.cmpi .eq c4_i32_374 c0_i32_375
  let c1_i32_376 : BitVec 32 := 1#32
  let v412 : BitVec 32 := Scalar.select v411 c1_i32_376 c4_i32_374
  let v413 : BitVec 32 := Scalar.remsi v410 v412
  let c0_i32_378 : BitVec 32 := 0#32
  let v415 : BitVec 1 := Scalar.cmpi .slt v413 c0_i32_378
  let c0_i32_379 : BitVec 32 := 0#32
  let v416 : BitVec 1 := Scalar.cmpi .slt v412 c0_i32_379
  let v417 : BitVec 1 := Scalar.xori v415 v416
  let c0_i32_377 : BitVec 32 := 0#32
  let v414 : BitVec 1 := Scalar.cmpi .ne v413 c0_i32_377
  let v418 : BitVec 1 := Scalar.andi v417 v414
  let v419 : BitVec 32 := Scalar.addi v413 v412
  let v420 : BitVec 32 := Scalar.select v418 v419 v413
  let c256_i32_380 : BitVec 32 := 256#32
  let v421 : BitVec 32 := Scalar.muli v420 c256_i32_380
  let v422 : BitVec 32 := Scalar.addi v421 c0_i32_381
  let v423 : Index := Scalar.indexCast v422
  let c0_382 : Index := 0#32
  ![v423.toNat, 0]
def k0_dev19 (d0 : Dev nD) : Nat :=
  let c0_i32_396 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_395 : BitVec 32 := 1#32
  let v430 : BitVec 32 := Scalar.muli v25 c1_i32_395
  let v431 : BitVec 32 := Scalar.addi c0_i32_396 v430
  v431.toNat
def k0_off4 (d0 : Dev nD) (c_m1_i32_415 : BitVec 32) (c0_i32_424 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v450 : BitVec 32 := Scalar.addi v2 c_m1_i32_415
  let c4_i32_416 : BitVec 32 := 4#32
  let v451 : BitVec 32 := Scalar.addi v450 c4_i32_416
  let c4_i32_417 : BitVec 32 := 4#32
  let c0_i32_418 : BitVec 32 := 0#32
  let v452 : BitVec 1 := Scalar.cmpi .eq c4_i32_417 c0_i32_418
  let c1_i32_419 : BitVec 32 := 1#32
  let v453 : BitVec 32 := Scalar.select v452 c1_i32_419 c4_i32_417
  let v454 : BitVec 32 := Scalar.remsi v451 v453
  let c0_i32_421 : BitVec 32 := 0#32
  let v456 : BitVec 1 := Scalar.cmpi .slt v454 c0_i32_421
  let c0_i32_422 : BitVec 32 := 0#32
  let v457 : BitVec 1 := Scalar.cmpi .slt v453 c0_i32_422
  let v458 : BitVec 1 := Scalar.xori v456 v457
  let c0_i32_420 : BitVec 32 := 0#32
  let v455 : BitVec 1 := Scalar.cmpi .ne v454 c0_i32_420
  let v459 : BitVec 1 := Scalar.andi v458 v455
  let v460 : BitVec 32 := Scalar.addi v454 v453
  let v461 : BitVec 32 := Scalar.select v459 v460 v454
  let c256_i32_423 : BitVec 32 := 256#32
  let v462 : BitVec 32 := Scalar.muli v461 c256_i32_423
  let v463 : BitVec 32 := Scalar.addi v462 c0_i32_424
  let v464 : Index := Scalar.indexCast v463
  let c256 : Index := 256#32
  ![v464.toNat, 256]
def k0_dev20 (d0 : Dev nD) : Nat :=
  let c0_i32_438 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_437 : BitVec 32 := 1#32
  let v471 : BitVec 32 := Scalar.muli v14 c1_i32_437
  let v472 : BitVec 32 := Scalar.addi c0_i32_438 v471
  v472.toNat
def k0_dev21 (d0 : Dev nD) : Nat :=
  let c0_i32_481 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_480 : BitVec 32 := 1#32
  let v512 : BitVec 32 := Scalar.muli v25 c1_i32_480
  let v513 : BitVec 32 := Scalar.addi c0_i32_481 v512
  v513.toNat
def k0_dev22 (d0 : Dev nD) : Nat :=
  let c0_i32_525 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_524 : BitVec 32 := 1#32
  let v553 : BitVec 32 := Scalar.muli v14 c1_i32_524
  let v554 : BitVec 32 := Scalar.addi c0_i32_525 v553
  v554.toNat
def k0_dev23 (d0 : Dev nD) : Nat :=
  let c0_i32_568 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_567 : BitVec 32 := 1#32
  let v594 : BitVec 32 := Scalar.muli v25 c1_i32_567
  let v595 : BitVec 32 := Scalar.addi c0_i32_568 v594
  v595.toNat
def k0_dev24 (d0 : Dev nD) : Nat :=
  let c0_i32_612 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_611 : BitVec 32 := 1#32
  let v635 : BitVec 32 := Scalar.muli v14 c1_i32_611
  let v636 : BitVec 32 := Scalar.addi c0_i32_612 v635
  v636.toNat
def k0_dev25 (d0 : Dev nD) : Nat :=
  let c0_i32_655 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_654 : BitVec 32 := 1#32
  let v676 : BitVec 32 := Scalar.muli v25 c1_i32_654
  let v677 : BitVec 32 := Scalar.addi c0_i32_655 v676
  v677.toNat
def k0_dev26 (d0 : Dev nD) : Nat :=
  let c0_i32_699 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_698 : BitVec 32 := 1#32
  let v717 : BitVec 32 := Scalar.muli v14 c1_i32_698
  let v718 : BitVec 32 := Scalar.addi c0_i32_699 v717
  v718.toNat
def k0_off5 (d0 : Dev nD) (c0_i32_847 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_838 : BitVec 32 := 0#32
  let v851 : BitVec 32 := Scalar.addi v2 c0_i32_838
  let c4_i32_839 : BitVec 32 := 4#32
  let v852 : BitVec 32 := Scalar.addi v851 c4_i32_839
  let c4_i32_840 : BitVec 32 := 4#32
  let c0_i32_841 : BitVec 32 := 0#32
  let v853 : BitVec 1 := Scalar.cmpi .eq c4_i32_840 c0_i32_841
  let c1_i32_842 : BitVec 32 := 1#32
  let v854 : BitVec 32 := Scalar.select v853 c1_i32_842 c4_i32_840
  let v855 : BitVec 32 := Scalar.remsi v852 v854
  let c0_i32_844 : BitVec 32 := 0#32
  let v857 : BitVec 1 := Scalar.cmpi .slt v855 c0_i32_844
  let c0_i32_845 : BitVec 32 := 0#32
  let v858 : BitVec 1 := Scalar.cmpi .slt v854 c0_i32_845
  let v859 : BitVec 1 := Scalar.xori v857 v858
  let c0_i32_843 : BitVec 32 := 0#32
  let v856 : BitVec 1 := Scalar.cmpi .ne v855 c0_i32_843
  let v860 : BitVec 1 := Scalar.andi v859 v856
  let v861 : BitVec 32 := Scalar.addi v855 v854
  let v862 : BitVec 32 := Scalar.select v860 v861 v855
  let c256_i32_846 : BitVec 32 := 256#32
  let v863 : BitVec 32 := Scalar.muli v862 c256_i32_846
  let v864 : BitVec 32 := Scalar.addi v863 c0_i32_847
  let c0_i32_854 : BitVec 32 := 0#32
  ![v864.toNat, 0]
def k0_dev27 (d0 : Dev nD) : Nat :=
  let c0_i32_853 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_852 : BitVec 32 := 1#32
  let v865 : BitVec 32 := Scalar.muli v25 c1_i32_852
  let v866 : BitVec 32 := Scalar.addi c0_i32_853 v865
  v866.toNat
def k0_dev28 (d0 : Dev nD) : Nat :=
  let c0_i32_881 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_880 : BitVec 32 := 1#32
  let v901 : BitVec 32 := Scalar.muli v14 c1_i32_880
  let v902 : BitVec 32 := Scalar.addi c0_i32_881 v901
  v902.toNat
def k0_dev29 (d0 : Dev nD) : Nat :=
  let c0_i32_1033 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1032 : BitVec 32 := 1#32
  let v1047 : BitVec 32 := Scalar.muli v25 c1_i32_1032
  let v1048 : BitVec 32 := Scalar.addi c0_i32_1033 v1047
  v1048.toNat
def k0_dev30 (d0 : Dev nD) : Nat :=
  let c0_i32_1061 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1060 : BitVec 32 := 1#32
  let v1083 : BitVec 32 := Scalar.muli v14 c1_i32_1060
  let v1084 : BitVec 32 := Scalar.addi c0_i32_1061 v1083
  v1084.toNat
def k0_dev31 (d0 : Dev nD) : Nat :=
  let c0_i32_1213 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1212 : BitVec 32 := 1#32
  let v1229 : BitVec 32 := Scalar.muli v25 c1_i32_1212
  let v1230 : BitVec 32 := Scalar.addi c0_i32_1213 v1229
  v1230.toNat
def k0_dev32 (d0 : Dev nD) : Nat :=
  let c0_i32_1241 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1240 : BitVec 32 := 1#32
  let v1265 : BitVec 32 := Scalar.muli v14 c1_i32_1240
  let v1266 : BitVec 32 := Scalar.addi c0_i32_1241 v1265
  v1266.toNat
def k0_dev33 (d0 : Dev nD) : Nat :=
  let c0_i32_1393 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1392 : BitVec 32 := 1#32
  let v1411 : BitVec 32 := Scalar.muli v25 c1_i32_1392
  let v1412 : BitVec 32 := Scalar.addi c0_i32_1393 v1411
  v1412.toNat
def k0_dev34 (d0 : Dev nD) : Nat :=
  let c0_i32_1421 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1420 : BitVec 32 := 1#32
  let v1447 : BitVec 32 := Scalar.muli v14 c1_i32_1420
  let v1448 : BitVec 32 := Scalar.addi c0_i32_1421 v1447
  v1448.toNat
def k0_dev35 (d0 : Dev nD) : Nat :=
  let c0_i32_1459 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1458 : BitVec 32 := 1#32
  let v1489 : BitVec 32 := Scalar.muli v25 c1_i32_1458
  let v1490 : BitVec 32 := Scalar.addi c0_i32_1459 v1489
  v1490.toNat
def k0_dev36 (d0 : Dev nD) : Nat :=
  let c0_i32_1497 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1496 : BitVec 32 := 1#32
  let v1531 : BitVec 32 := Scalar.muli v14 c1_i32_1496
  let v1532 : BitVec 32 := Scalar.addi c0_i32_1497 v1531
  v1532.toNat
def k0_dev37 (d0 : Dev nD) : Nat :=
  let c0_i32_1535 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1534 : BitVec 32 := 1#32
  let v1573 : BitVec 32 := Scalar.muli v25 c1_i32_1534
  let v1574 : BitVec 32 := Scalar.addi c0_i32_1535 v1573
  v1574.toNat
def k0_dev38 (d0 : Dev nD) : Nat :=
  let c0_i32_1573 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1572 : BitVec 32 := 1#32
  let v1615 : BitVec 32 := Scalar.muli v14 c1_i32_1572
  let v1616 : BitVec 32 := Scalar.addi c0_i32_1573 v1615
  v1616.toNat
def k0_dev39 (d0 : Dev nD) : Nat :=
  let c0_i32_1611 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1610 : BitVec 32 := 1#32
  let v1657 : BitVec 32 := Scalar.muli v25 c1_i32_1610
  let v1658 : BitVec 32 := Scalar.addi c0_i32_1611 v1657
  v1658.toNat
def k0_dev40 (d0 : Dev nD) : Nat :=
  let c0_i32_1649 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1648 : BitVec 32 := 1#32
  let v1699 : BitVec 32 := Scalar.muli v14 c1_i32_1648
  let v1700 : BitVec 32 := Scalar.addi c0_i32_1649 v1699
  v1700.toNat
def k0_dev41 (d0 : Dev nD) : Nat :=
  let c0_i32_1687 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1686 : BitVec 32 := 1#32
  let v1741 : BitVec 32 := Scalar.muli v25 c1_i32_1686
  let v1742 : BitVec 32 := Scalar.addi c0_i32_1687 v1741
  v1742.toNat
def k0_dev42 (d0 : Dev nD) : Nat :=
  let c0_i32_1725 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1724 : BitVec 32 := 1#32
  let v1783 : BitVec 32 := Scalar.muli v14 c1_i32_1724
  let v1784 : BitVec 32 := Scalar.addi c0_i32_1725 v1783
  v1784.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_2 : (2#32 : BitVec 32).msb = false
  inb_S2x4_S1x1_0_0 : ∀ a, (![0, 0] : Fin 2 → Nat) a + S1x1.size a ≤ S2x4.size a
  squeezes_S1x1_S_ : S1x1.Squeezes S_
  inb_S2x256x256_S1x64x256_0_0_0 : ∀ a, (![0, 0, 0] : Fin 3 → Nat) a + S1x64x256.size a ≤ S2x256x256.size a
  squeezes_S1x64x256_S64x256 : S1x64x256.Squeezes S64x256
  inb_S2x4_S1x1_1_0 : ∀ a, (![1, 0] : Fin 2 → Nat) a + S1x1.size a ≤ S2x4.size a
  inb_S2x256x256_S1x64x256_1_0_0 : ∀ a, (![1, 0, 0] : Fin 3 → Nat) a + S1x64x256.size a ≤ S2x256x256.size a
  inb_S2x2x4_S1x1x1_0_1_0 : ∀ a, (![0, 1, 0] : Fin 3 → Nat) a + S1x1x1.size a ≤ S2x2x4.size a
  squeezes_S1x1x1_S_ : S1x1x1.Squeezes S_
  inb_S2x2x256x256_S1x1x64x256_0_1_0_0 : ∀ a, (![0, 1, 0, 0] : Fin 4 → Nat) a + S1x1x64x256.size a ≤ S2x2x256x256.size a
  squeezes_S1x1x64x256_S64x256 : S1x1x64x256.Squeezes S64x256
  inb_S2x2x4_S1x1x1_1_0_0 : ∀ a, (![1, 0, 0] : Fin 3 → Nat) a + S1x1x1.size a ≤ S2x2x4.size a
  inb_S2x2x256x256_S1x1x64x256_1_0_0_0 : ∀ a, (![1, 0, 0, 0] : Fin 4 → Nat) a + S1x1x64x256.size a ≤ S2x2x256x256.size a
  inb_S2x4_S1x1_0_1 : ∀ a, (![0, 1] : Fin 2 → Nat) a + S1x1.size a ≤ S2x4.size a
  inb_S2x256x256_S1x64x256_0_64_0 : ∀ a, (![0, 64, 0] : Fin 3 → Nat) a + S1x64x256.size a ≤ S2x256x256.size a
  inb_S2x4_S1x1_1_1 : ∀ a, (![1, 1] : Fin 2 → Nat) a + S1x1.size a ≤ S2x4.size a
  inb_S2x256x256_S1x64x256_1_64_0 : ∀ a, (![1, 64, 0] : Fin 3 → Nat) a + S1x64x256.size a ≤ S2x256x256.size a
  inb_S2x2x4_S1x1x1_0_1_1 : ∀ a, (![0, 1, 1] : Fin 3 → Nat) a + S1x1x1.size a ≤ S2x2x4.size a
  inb_S2x2x256x256_S1x1x64x256_0_1_64_0 : ∀ a, (![0, 1, 64, 0] : Fin 4 → Nat) a + S1x1x64x256.size a ≤ S2x2x256x256.size a
  inb_S2x2x4_S1x1x1_1_0_1 : ∀ a, (![1, 0, 1] : Fin 3 → Nat) a + S1x1x1.size a ≤ S2x2x4.size a
  inb_S2x2x256x256_S1x1x64x256_1_0_64_0 : ∀ a, (![1, 0, 64, 0] : Fin 4 → Nat) a + S1x1x64x256.size a ≤ S2x2x256x256.size a
  inb_S2x4_S1x1_0_2 : ∀ a, (![0, 2] : Fin 2 → Nat) a + S1x1.size a ≤ S2x4.size a
  inb_S2x256x256_S1x64x256_0_128_0 : ∀ a, (![0, 128, 0] : Fin 3 → Nat) a + S1x64x256.size a ≤ S2x256x256.size a
  inb_S2x4_S1x1_1_2 : ∀ a, (![1, 2] : Fin 2 → Nat) a + S1x1.size a ≤ S2x4.size a
  inb_S2x256x256_S1x64x256_1_128_0 : ∀ a, (![1, 128, 0] : Fin 3 → Nat) a + S1x64x256.size a ≤ S2x256x256.size a
  inb_S2x2x4_S1x1x1_0_1_2 : ∀ a, (![0, 1, 2] : Fin 3 → Nat) a + S1x1x1.size a ≤ S2x2x4.size a
  inb_S2x2x256x256_S1x1x64x256_0_1_128_0 : ∀ a, (![0, 1, 128, 0] : Fin 4 → Nat) a + S1x1x64x256.size a ≤ S2x2x256x256.size a
  inb_S2x2x4_S1x1x1_1_0_2 : ∀ a, (![1, 0, 2] : Fin 3 → Nat) a + S1x1x1.size a ≤ S2x2x4.size a
  inb_S2x2x256x256_S1x1x64x256_1_0_128_0 : ∀ a, (![1, 0, 128, 0] : Fin 4 → Nat) a + S1x1x64x256.size a ≤ S2x2x256x256.size a
  inb_S2x4_S1x1_0_3 : ∀ a, (![0, 3] : Fin 2 → Nat) a + S1x1.size a ≤ S2x4.size a
  inb_S2x256x256_S1x64x256_0_192_0 : ∀ a, (![0, 192, 0] : Fin 3 → Nat) a + S1x64x256.size a ≤ S2x256x256.size a
  inb_S2x4_S1x1_1_3 : ∀ a, (![1, 3] : Fin 2 → Nat) a + S1x1.size a ≤ S2x4.size a
  inb_S2x256x256_S1x64x256_1_192_0 : ∀ a, (![1, 192, 0] : Fin 3 → Nat) a + S1x64x256.size a ≤ S2x256x256.size a
  inb_S2x2x4_S1x1x1_0_1_3 : ∀ a, (![0, 1, 3] : Fin 3 → Nat) a + S1x1x1.size a ≤ S2x2x4.size a
  inb_S2x2x256x256_S1x1x64x256_0_1_192_0 : ∀ a, (![0, 1, 192, 0] : Fin 4 → Nat) a + S1x1x64x256.size a ≤ S2x2x256x256.size a
  inb_S2x2x4_S1x1x1_1_0_3 : ∀ a, (![1, 0, 3] : Fin 3 → Nat) a + S1x1x1.size a ≤ S2x2x4.size a
  inb_S2x2x256x256_S1x1x64x256_1_0_192_0 : ∀ a, (![1, 0, 192, 0] : Fin 4 → Nat) a + S1x1x64x256.size a ≤ S2x2x256x256.size a
  h_S1x64x256 : 0 < S1x64x256.numel
  shapeCasts_S1x64x256_S64x256 : S1x64x256.ShapeCasts S64x256
  h_S64x256 : 0 < S64x256.numel
  shapeCasts_S64x256_S64x256 : S64x256.ShapeCasts S64x256
  shapeCasts_S64x256_S1x64x256 : S64x256.ShapeCasts S1x64x256
  inb_S2x2x4_S1x1x1_0_0_0 : ∀ a, (![0, 0, 0] : Fin 3 → Nat) a + S1x1x1.size a ≤ S2x2x4.size a
  inb_S2x2x256x256_S1x1x64x256_0_0_0_0 : ∀ a, (![0, 0, 0, 0] : Fin 4 → Nat) a + S1x1x64x256.size a ≤ S2x2x256x256.size a
  inb_S2x2x4_S1x1x1_1_1_0 : ∀ a, (![1, 1, 0] : Fin 3 → Nat) a + S1x1x1.size a ≤ S2x2x4.size a
  inb_S2x2x256x256_S1x1x64x256_1_1_0_0 : ∀ a, (![1, 1, 0, 0] : Fin 4 → Nat) a + S1x1x64x256.size a ≤ S2x2x256x256.size a
  inb_S2x2x4_S1x1x1_0_0_1 : ∀ a, (![0, 0, 1] : Fin 3 → Nat) a + S1x1x1.size a ≤ S2x2x4.size a
  inb_S2x2x256x256_S1x1x64x256_0_0_64_0 : ∀ a, (![0, 0, 64, 0] : Fin 4 → Nat) a + S1x1x64x256.size a ≤ S2x2x256x256.size a
  inb_S2x2x4_S1x1x1_1_1_1 : ∀ a, (![1, 1, 1] : Fin 3 → Nat) a + S1x1x1.size a ≤ S2x2x4.size a
  inb_S2x2x256x256_S1x1x64x256_1_1_64_0 : ∀ a, (![1, 1, 64, 0] : Fin 4 → Nat) a + S1x1x64x256.size a ≤ S2x2x256x256.size a
  inb_S2x2x4_S1x1x1_0_0_2 : ∀ a, (![0, 0, 2] : Fin 3 → Nat) a + S1x1x1.size a ≤ S2x2x4.size a
  inb_S2x2x256x256_S1x1x64x256_0_0_128_0 : ∀ a, (![0, 0, 128, 0] : Fin 4 → Nat) a + S1x1x64x256.size a ≤ S2x2x256x256.size a
  inb_S2x2x4_S1x1x1_1_1_2 : ∀ a, (![1, 1, 2] : Fin 3 → Nat) a + S1x1x1.size a ≤ S2x2x4.size a
  inb_S2x2x256x256_S1x1x64x256_1_1_128_0 : ∀ a, (![1, 1, 128, 0] : Fin 4 → Nat) a + S1x1x64x256.size a ≤ S2x2x256x256.size a
  inb_S2x2x4_S1x1x1_0_0_3 : ∀ a, (![0, 0, 3] : Fin 3 → Nat) a + S1x1x1.size a ≤ S2x2x4.size a
  inb_S2x2x256x256_S1x1x64x256_0_0_192_0 : ∀ a, (![0, 0, 192, 0] : Fin 4 → Nat) a + S1x1x64x256.size a ≤ S2x2x256x256.size a
  inb_S2x2x4_S1x1x1_1_1_3 : ∀ a, (![1, 1, 3] : Fin 3 → Nat) a + S1x1x1.size a ≤ S2x2x4.size a
  inb_S2x2x256x256_S1x1x64x256_1_1_192_0 : ∀ a, (![1, 1, 192, 0] : Fin 4 → Nat) a + S1x1x64x256.size a ≤ S2x2x256x256.size a
  h_S1x1x64x256 : 0 < S1x1x64x256.numel
  shapeCasts_S1x1x64x256_S64x256 : S1x1x64x256.ShapeCasts S64x256
  inb_S4x4_S1x1_0_0 : ∀ a, (![0, 0] : Fin 2 → Nat) a + S1x1.size a ≤ S4x4.size a
  inb_S4x4_S1x1_1_0 : ∀ a, (![1, 0] : Fin 2 → Nat) a + S1x1.size a ≤ S4x4.size a
  inb_S4x4_S1x1_0_1 : ∀ a, (![0, 1] : Fin 2 → Nat) a + S1x1.size a ≤ S4x4.size a
  inb_S4x4_S1x1_1_1 : ∀ a, (![1, 1] : Fin 2 → Nat) a + S1x1.size a ≤ S4x4.size a
  inb_S4x4_S1x1_0_2 : ∀ a, (![0, 2] : Fin 2 → Nat) a + S1x1.size a ≤ S4x4.size a
  inb_S4x4_S1x1_1_2 : ∀ a, (![1, 2] : Fin 2 → Nat) a + S1x1.size a ≤ S4x4.size a
  inb_S4x4_S1x1_0_3 : ∀ a, (![0, 3] : Fin 2 → Nat) a + S1x1.size a ≤ S4x4.size a
  inb_S4x4_S1x1_1_3 : ∀ a, (![1, 3] : Fin 2 → Nat) a + S1x1.size a ≤ S4x4.size a
  inb_S1024x512_S64x512_0_0 : ∀ a, (![0, 0] : Fin 2 → Nat) a + S64x512.size a ≤ S1024x512.size a
  inb_S4x4_S1x1_2_0 : ∀ a, (![2, 0] : Fin 2 → Nat) a + S1x1.size a ≤ S4x4.size a
  inb_S4x4_S1x1_3_0 : ∀ a, (![3, 0] : Fin 2 → Nat) a + S1x1.size a ≤ S4x4.size a
  inb_S1024x512_S64x512_64_0 : ∀ a, (![64, 0] : Fin 2 → Nat) a + S64x512.size a ≤ S1024x512.size a
  inb_S4x4_S1x1_2_1 : ∀ a, (![2, 1] : Fin 2 → Nat) a + S1x1.size a ≤ S4x4.size a
  inb_S4x4_S1x1_3_1 : ∀ a, (![3, 1] : Fin 2 → Nat) a + S1x1.size a ≤ S4x4.size a
  inb_S1024x512_S64x512_128_0 : ∀ a, (![128, 0] : Fin 2 → Nat) a + S64x512.size a ≤ S1024x512.size a
  inb_S4x4_S1x1_2_2 : ∀ a, (![2, 2] : Fin 2 → Nat) a + S1x1.size a ≤ S4x4.size a
  inb_S4x4_S1x1_3_2 : ∀ a, (![3, 2] : Fin 2 → Nat) a + S1x1.size a ≤ S4x4.size a
  inb_S1024x512_S64x512_192_0 : ∀ a, (![192, 0] : Fin 2 → Nat) a + S64x512.size a ≤ S1024x512.size a
  inb_S4x4_S1x1_2_3 : ∀ a, (![2, 3] : Fin 2 → Nat) a + S1x1.size a ≤ S4x4.size a
  inb_S4x4_S1x1_3_3 : ∀ a, (![3, 3] : Fin 2 → Nat) a + S1x1.size a ≤ S4x4.size a
  inb_S1024x512_S64x256_0_0 : ∀ a, (![0, 0] : Fin 2 → Nat) a + S64x256.size a ≤ S1024x512.size a
  inb_S1024x512_S64x256_0_256 : ∀ a, (![0, 256] : Fin 2 → Nat) a + S64x256.size a ≤ S1024x512.size a
  inb_S1024x512_S64x256_64_0 : ∀ a, (![64, 0] : Fin 2 → Nat) a + S64x256.size a ≤ S1024x512.size a
  inb_S1024x512_S64x256_64_256 : ∀ a, (![64, 256] : Fin 2 → Nat) a + S64x256.size a ≤ S1024x512.size a
  inb_S1024x512_S64x256_128_0 : ∀ a, (![128, 0] : Fin 2 → Nat) a + S64x256.size a ≤ S1024x512.size a
  inb_S1024x512_S64x256_128_256 : ∀ a, (![128, 256] : Fin 2 → Nat) a + S64x256.size a ≤ S1024x512.size a
  inb_S1024x512_S64x256_192_0 : ∀ a, (![192, 0] : Fin 2 → Nat) a + S64x256.size a ≤ S1024x512.size a
  inb_S1024x512_S64x256_192_256 : ∀ a, (![192, 256] : Fin 2 → Nat) a + S64x256.size a ≤ S1024x512.size a
  hcc0_scratch3 : 2 + S2x4.numel ≤ 82
  hcc0_scratch4 : 10 + S2x4.numel ≤ 82
  hcc0_scratch5 : 18 + S2x2x4.numel ≤ 82
  hcc0_scratch6 : 34 + S2x2x4.numel ≤ 82
  hcc0_scratch7 : 50 + S4x4.numel ≤ 82
  hcc0_scratch8 : 66 + S4x4.numel ≤ 82
  k0_dev1_lt : ∀ d0 : Dev nD, (k0_dev1 d0) < nD
  k0_dev2_lt : ∀ d0 : Dev nD, (k0_dev2 d0) < nD
  k0_off1_inb : ∀ d0 : Dev nD, ∀ (r₁ : Fin 2) (r₂ : Fin 4), ∀ a, (k0_off1 d0 (BitVec.ofNat 32 (2 + 4294967293 * r₁.val)) (BitVec.ofNat 32 (64 * r₂.val))) a + S64x256.size a ≤ S1024x512.size a
  k0_dev3_lt : ∀ d0 : Dev nD, (k0_dev3 d0) < nD
  k0_off2_inb : ∀ d0 : Dev nD, ∀ (r₁ : Fin 2) (r₂ : Fin 4), ∀ a, (k0_off2 d0 (BitVec.ofNat 32 (1 + r₁.val)) (BitVec.ofNat 32 (64 * r₂.val))) a + S64x256.size a ≤ S1024x512.size a
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_off3_inb : ∀ d0 : Dev nD, ∀ (r₁ : Fin 2) (r₂ : Fin 4), ∀ a, (k0_off3 d0 (BitVec.ofNat 32 r₁.val) (BitVec.ofNat 32 (64 * r₂.val))) a + S64x256.size a ≤ S1024x512.size a
  k0_dev19_lt : ∀ d0 : Dev nD, (k0_dev19 d0) < nD
  k0_off4_inb : ∀ d0 : Dev nD, ∀ (r₁ : Fin 2) (r₂ : Fin 4), ∀ a, (k0_off4 d0 (BitVec.ofNat 32 (4294967295 * r₁.val)) (BitVec.ofNat 32 (64 * r₂.val))) a + S64x256.size a ≤ S1024x512.size a
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_off5_inb : ∀ d0 : Dev nD, ∀ (r : Fin 4), ∀ a, (k0_off5 d0 (BitVec.ofNat 32 (64 * r.val))) a + S64x512.size a ≤ S1024x512.size a
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  hstage0_0 : ∀ j, (stage0_0 j).IsWhole
  hstage0_1 : ∀ j, (stage0_1 j).IsWhole

variable [Facts₀]

abbrev cc0_scratch3 : DmaSems sig S2x4 := SemArray.consecutive 2 S2x4 hcc0_scratch3
abbrev cc0_scratch4 : DmaSems sig S2x4 := SemArray.consecutive 10 S2x4 hcc0_scratch4
abbrev cc0_scratch5 : DmaSems sig S2x2x4 := SemArray.consecutive 18 S2x2x4 hcc0_scratch5
abbrev cc0_scratch6 : DmaSems sig S2x2x4 := SemArray.consecutive 34 S2x2x4 hcc0_scratch6
abbrev cc0_scratch7 : DmaSems sig S4x4 := SemArray.consecutive 50 S4x4 hcc0_scratch7
abbrev cc0_scratch8 : DmaSems sig S4x4 := SemArray.consecutive 66 S4x4 hcc0_scratch8

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x512 : Shape := ⟨2, ![4096, 512]⟩
abbrev S4x1024x512 : Shape := ⟨3, ![4, 1024, 512]⟩
abbrev S_ : Shape := ⟨0, ![]⟩
abbrev S1024x512 : Shape := ⟨2, ![1024, 512]⟩

abbrev nBuf : Space → Nat
  | .hbm => 4
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4x1024x512, .f32⟩
  | .hbm, ⟨2, _⟩ => ⟨S_, .f32⟩
  | .hbm, ⟨3, _⟩ => ⟨S1024x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S4096x512_S4x1024x512 : S4096x512.ShapeCasts S4x1024x512
  reducesTo_S4x1024x512_S1024x512_d0 : S4x1024x512.ReducesTo [0] S1024x512
  h_S_ : 0 < S_.numel

variable [Facts₀]

class Facts : Prop extends Facts₀ where

variable [Facts]
-- ==== Proof.ArKernelIdeal.Ring.lean ====
import proofs.«900109_g7700000000000110_dist_ar_v7x_i4_i_m1024_n512_f32_1_alg».proof.Proof.Gen.KernelIdeal

namespace Cert.KernelIdeal.AR

open Cert.KernelIdeal Cert.KernelIdeal.Gen
open Idealize.ShloMosaic

def nxt (c : Dev nD) : Dev nD := ⟨(c.val + 1) % 4, Nat.mod_lt _ (by decide)⟩
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide
theorem nxt_ne_prv (c : Dev nD) : nxt c ≠ prv c := by revert c; decide
theorem nxt_ne_self (c : Dev nD) : nxt c ≠ c := by revert c; decide
theorem prv_ne_self (c : Dev nD) : prv c ≠ c := by revert c; decide
theorem nxt_nxt_eq_prv_prv (c : Dev nD) : nxt (nxt c) = prv (prv c) := by revert c; decide

def ring : Dev nD ≃ Dev nD := ⟨nxt, prv, prv_nxt, nxt_prv⟩

def nb (i : Fin 2) (c : Dev nD) : Dev nD := if i = 0 then nxt c else prv c
def bn (i : Fin 2) (c : Dev nD) : Dev nD := if i = 0 then prv c else nxt c

theorem nb_bn (i : Fin 2) (c : Dev nD) : nb i (bn i c) = c := by revert i c; decide
theorem bn_nb (i : Fin 2) (c : Dev nD) : bn i (nb i c) = c := by revert i c; decide
theorem nb_zero (c : Dev nD) : nb 0 c = nxt c := rfl
theorem nb_one (c : Dev nD) : nb 1 c = prv c := rfl

def rowOf (c : Dev nD) (rel : Nat) (s : Fin 4) : Nat := ((c.val + rel) % 4) * 256 + 64 * s.val

theorem off1_two (c : Dev nD) (s : Fin 4) (a : Fin 2) :
    k0_off1 c 2#32 (BitVec.ofNat 32 (64 * s.val)) a = (![rowOf c 2 s, 0] : Fin 2 → Nat) a := by revert c s a; decide +kernel
theorem off1_m1 (c : Dev nD) (s : Fin 4) (a : Fin 2) :
    k0_off1 c 4294967295#32 (BitVec.ofNat 32 (64 * s.val)) a = (![rowOf c 3 s, 0] : Fin 2 → Nat) a := by revert c s a; decide +kernel
theorem off2_two (c : Dev nD) (s : Fin 4) (a : Fin 2) :
    k0_off2 c 2#32 (BitVec.ofNat 32 (64 * s.val)) a = (![rowOf c 2 s, 256] : Fin 2 → Nat) a := by revert c s a; decide +kernel
theorem off2_one (c : Dev nD) (s : Fin 4) (a : Fin 2) :
    k0_off2 c 1#32 (BitVec.ofNat 32 (64 * s.val)) a = (![rowOf c 1 s, 256] : Fin 2 → Nat) a := by revert c s a; decide +kernel
theorem off3_one (c : Dev nD) (s : Fin 4) (a : Fin 2) :
    k0_off3 c 1#32 (BitVec.ofNat 32 (64 * s.val)) a = (![rowOf c 1 s, 0] : Fin 2 → Nat) a := by revert c s a; decide +kernel
theorem off3_zero (c : Dev nD) (s : Fin 4) (a : Fin 2) :
    k0_off3 c 0#32 (BitVec.ofNat 32 (64 * s.val)) a = (![rowOf c 0 s, 0] : Fin 2 → Nat) a := by revert c s a; decide +kernel
theorem off4_m1 (c : Dev nD) (s : Fin 4) (a : Fin 2) :
    k0_off4 c 4294967295#32 (BitVec.ofNat 32 (64 * s.val)) a = (![rowOf c 3 s, 256] : Fin 2 → Nat) a := by revert c s a; decide +kernel
theorem off4_zero (c : Dev nD) (s : Fin 4) (a : Fin 2) :
    k0_off4 c 0#32 (BitVec.ofNat 32 (64 * s.val)) a = (![rowOf c 0 s, 256] : Fin 2 → Nat) a := by revert c s a; decide +kernel
theorem off5_eq (c : Dev nD) (s : Fin 4) (a : Fin 2) :
    k0_off5 c (BitVec.ofNat 32 (64 * s.val)) a = (![rowOf c 0 s, 0] : Fin 2 → Nat) a := by revert c s a; decide +kernel

end Cert.KernelIdeal.AR
-- ==== Proof.ArKernelIdeal.DevEq.lean ====
import proofs.«900109_g7700000000000110_dist_ar_v7x_i4_i_m1024_n512_f32_1_alg».proof.Proof.ArKernelIdeal.Ring

namespace Cert.KernelIdeal.AR

open Cert.KernelIdeal Cert.KernelIdeal.Gen
open Idealize.ShloMosaic

theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel
theorem dev3_eq (c : Dev nD) : (⟨k0_dev3 c, k0_dev3_lt c⟩ : Dev nD) = nxt c := by revert c; decide +kernel
theorem dev4_eq (c : Dev nD) : (⟨k0_dev4 c, k0_dev4_lt c⟩ : Dev nD) = prv c := by revert c; decide +kernel
theorem dev5_eq (c : Dev nD) : (⟨k0_dev5 c, k0_dev5_lt c⟩ : Dev nD) = nxt c := by revert c; decide +kernel
theorem dev6_eq (c : Dev nD) : (⟨k0_dev6 c, k0_dev6_lt c⟩ : Dev nD) = prv c := by revert c; decide +kernel
theorem dev7_eq (c : Dev nD) : (⟨k0_dev7 c, k0_dev7_lt c⟩ : Dev nD) = nxt c := by revert c; decide +kernel
theorem dev8_eq (c : Dev nD) : (⟨k0_dev8 c, k0_dev8_lt c⟩ : Dev nD) = prv c := by revert c; decide +kernel
theorem dev9_eq (c : Dev nD) : (⟨k0_dev9 c, k0_dev9_lt c⟩ : Dev nD) = nxt c := by revert c; decide +kernel
theorem dev10_eq (c : Dev nD) : (⟨k0_dev10 c, k0_dev10_lt c⟩ : Dev nD) = prv c := by revert c; decide +kernel
theorem dev11_eq (c : Dev nD) : (⟨k0_dev11 c, k0_dev11_lt c⟩ : Dev nD) = nxt c := by revert c; decide +kernel
theorem dev12_eq (c : Dev nD) : (⟨k0_dev12 c, k0_dev12_lt c⟩ : Dev nD) = prv c := by revert c; decide +kernel
theorem dev13_eq (c : Dev nD) : (⟨k0_dev13 c, k0_dev13_lt c⟩ : Dev nD) = nxt c := by revert c; decide +kernel
theorem dev14_eq (c : Dev nD) : (⟨k0_dev14 c, k0_dev14_lt c⟩ : Dev nD) = prv c := by revert c; decide +kernel
theorem dev15_eq (c : Dev nD) : (⟨k0_dev15 c, k0_dev15_lt c⟩ : Dev nD) = nxt c := by revert c; decide +kernel
theorem dev16_eq (c : Dev nD) : (⟨k0_dev16 c, k0_dev16_lt c⟩ : Dev nD) = prv c := by revert c; decide +kernel
theorem dev17_eq (c : Dev nD) : (⟨k0_dev17 c, k0_dev17_lt c⟩ : Dev nD) = nxt c := by revert c; decide +kernel
theorem dev18_eq (c : Dev nD) : (⟨k0_dev18 c, k0_dev18_lt c⟩ : Dev nD) = prv c := by revert c; decide +kernel
theorem dev19_eq (c : Dev nD) : (⟨k0_dev19 c, k0_dev19_lt c⟩ : Dev nD) = nxt c := by revert c; decide +kernel
theorem dev20_eq (c : Dev nD) : (⟨k0_dev20 c, k0_dev20_lt c⟩ : Dev nD) = prv c := by revert c; decide +kernel
theorem dev21_eq (c : Dev nD) : (⟨k0_dev21 c, k0_dev21_lt c⟩ : Dev nD) = nxt c := by revert c; decide +kernel
theorem dev22_eq (c : Dev nD) : (⟨k0_dev22 c, k0_dev22_lt c⟩ : Dev nD) = prv c := by revert c; decide +kernel
theorem dev23_eq (c : Dev nD) : (⟨k0_dev23 c, k0_dev23_lt c⟩ : Dev nD) = nxt c := by revert c; decide +kernel
theorem dev24_eq (c : Dev nD) : (⟨k0_dev24 c, k0_dev24_lt c⟩ : Dev nD) = prv c := by revert c; decide +kernel
theorem dev25_eq (c : Dev nD) : (⟨k0_dev25 c, k0_dev25_lt c⟩ : Dev nD) = nxt c := by revert c; decide +kernel
theorem dev26_eq (c : Dev nD) : (⟨k0_dev26 c, k0_dev26_lt c⟩ : Dev nD) = prv c := by revert c; decide +kernel
theorem dev27_eq (c : Dev nD) : (⟨k0_dev27 c, k0_dev27_lt c⟩ : Dev nD) = nxt c := by revert c; decide +kernel
theorem dev28_eq (c : Dev nD) : (⟨k0_dev28 c, k0_dev28_lt c⟩ : Dev nD) = prv c := by revert c; decide +kernel
theorem dev29_eq (c : Dev nD) : (⟨k0_dev29 c, k0_dev29_lt c⟩ : Dev nD) = nxt c := by revert c; decide +kernel
theorem dev30_eq (c : Dev nD) : (⟨k0_dev30 c, k0_dev30_lt c⟩ : Dev nD) = prv c := by revert c; decide +kernel
theorem dev31_eq (c : Dev nD) : (⟨k0_dev31 c, k0_dev31_lt c⟩ : Dev nD) = nxt c := by revert c; decide +kernel
theorem dev32_eq (c : Dev nD) : (⟨k0_dev32 c, k0_dev32_lt c⟩ : Dev nD) = prv c := by revert c; decide +kernel
theorem dev33_eq (c : Dev nD) : (⟨k0_dev33 c, k0_dev33_lt c⟩ : Dev nD) = nxt c := by revert c; decide +kernel
theorem dev34_eq (c : Dev nD) : (⟨k0_dev34 c, k0_dev34_lt c⟩ : Dev nD) = prv c := by revert c; decide +kernel
theorem dev35_eq (c : Dev nD) : (⟨k0_dev35 c, k0_dev35_lt c⟩ : Dev nD) = nxt c := by revert c; decide +kernel
theorem dev36_eq (c : Dev nD) : (⟨k0_dev36 c, k0_dev36_lt c⟩ : Dev nD) = prv c := by revert c; decide +kernel
theorem dev37_eq (c : Dev nD) : (⟨k0_dev37 c, k0_dev37_lt c⟩ : Dev nD) = nxt c := by revert c; decide +kernel
theorem dev38_eq (c : Dev nD) : (⟨k0_dev38 c, k0_dev38_lt c⟩ : Dev nD) = prv c := by revert c; decide +kernel
theorem dev39_eq (c : Dev nD) : (⟨k0_dev39 c, k0_dev39_lt c⟩ : Dev nD) = nxt c := by revert c; decide +kernel
theorem dev40_eq (c : Dev nD) : (⟨k0_dev40 c, k0_dev40_lt c⟩ : Dev nD) = prv c := by revert c; decide +kernel
theorem dev41_eq (c : Dev nD) : (⟨k0_dev41 c, k0_dev41_lt c⟩ : Dev nD) = nxt c := by revert c; decide +kernel
theorem dev42_eq (c : Dev nD) : (⟨k0_dev42 c, k0_dev42_lt c⟩ : Dev nD) = prv c := by revert c; decide +kernel

end Cert.KernelIdeal.AR
-- ==== Proof.ArKernelIdeal.Base.lean ====
import proofs.«900109_g7700000000000110_dist_ar_v7x_i4_i_m1024_n512_f32_1_alg».proof.Proof.ArKernelIdeal.DevEq
import proofs.«900109_g7700000000000110_dist_ar_v7x_i4_i_m1024_n512_f32_1_alg».proof.Proof.Gen.KernelIdeal.Skeleton
import proofs.«900109_g7700000000000110_dist_ar_v7x_i4_i_m1024_n512_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

abbrev xM : Memref sig .tc .vmem S1024x512 .f32 := Memref.whole cc0_stg0_0
abbrev oM : Memref sig .tc .vmem S1024x512 .f32 := Memref.whole cc0_stg1_0
abbrev aM : Memref sig .tc .vmem S2x256x256 .f32 := Memref.whole cc0_scratch0
abbrev mM : Memref sig .tc .vmem S2x256x256 .f32 := Memref.whole cc0_scratch1
abbrev rM : Memref sig .tc .vmem S2x2x256x256 .f32 := Memref.whole cc0_scratch2

theorem inb3 (i : Fin 2) (s : Fin 4) : ∀ a, (![i.val, 64 * s.val, 0] : Fin 3 → Nat) a + S1x64x256.size a ≤ S2x256x256.size a := by
  revert i s; decide
theorem inb4 (i p : Fin 2) (s : Fin 4) : ∀ a, (![i.val, p.val, 64 * s.val, 0] : Fin 4 → Nat) a + S1x1x64x256.size a ≤ S2x2x256x256.size a := by
  revert i p s; decide

def sl3 (b : Memref sig .tc .vmem S2x256x256 .f32) (i : Fin 2) (s : Fin 4) : Memref sig .tc .vmem S64x256 .f32 :=
  (b.slice (Rect.unit (s := S2x256x256) ![i.val, 64 * s.val, 0] S1x64x256.size (inb3 i s)) (fun _ => rfl)).squeeze S64x256 Gen.squeezes_S1x64x256_S64x256
def sl4 (i p : Fin 2) (s : Fin 4) : Memref sig .tc .vmem S64x256 .f32 :=
  (rM.slice (Rect.unit (s := S2x2x256x256) ![i.val, p.val, 64 * s.val, 0] S1x1x64x256.size (inb4 i p s)) (fun _ => rfl)).squeeze S64x256 Gen.squeezes_S1x1x64x256_S64x256

abbrev w64 (s : Fin 4) : BitVec 32 := BitVec.ofNat 32 (64 * s.val)

def pc1 (b : Memref sig .tc .vmem S1024x512 .f32) (c : Dev nD) (s : Fin 4) : Memref sig .tc .vmem S64x256 .f32 :=
  b.slice (Rect.unit (s := S1024x512) (k0_off1 c 2#32 (w64 s)) S64x256.size (Gen.k0_off1_inb c 0 s)) (fun _ => rfl)
def pc1m (b : Memref sig .tc .vmem S1024x512 .f32) (c : Dev nD) (s : Fin 4) : Memref sig .tc .vmem S64x256 .f32 :=
  b.slice (Rect.unit (s := S1024x512) (k0_off1 c 4294967295#32 (w64 s)) S64x256.size (Gen.k0_off1_inb c 1 s)) (fun _ => rfl)
def pc2 (b : Memref sig .tc .vmem S1024x512 .f32) (c : Dev nD) (s : Fin 4) : Memref sig .tc .vmem S64x256 .f32 :=
  b.slice (Rect.unit (s := S1024x512) (k0_off2 c 2#32 (w64 s)) S64x256.size (Gen.k0_off2_inb c 1 s)) (fun _ => rfl)
def pc2o (b : Memref sig .tc .vmem S1024x512 .f32) (c : Dev nD) (s : Fin 4) : Memref sig .tc .vmem S64x256 .f32 :=
  b.slice (Rect.unit (s := S1024x512) (k0_off2 c 1#32 (w64 s)) S64x256.size (Gen.k0_off2_inb c 0 s)) (fun _ => rfl)
def pc5 (b : Memref sig .tc .vmem S1024x512 .f32) (c : Dev nD) (s : Fin 4) : Memref sig .tc .vmem S64x512 .f32 :=
  b.slice (Rect.unit (s := S1024x512) (k0_off5 c (w64 s)) S64x512.size (Gen.k0_off5_inb c s)) (fun _ => rfl)

theorem inbS2 (i : Fin 2) (s : Fin 4) : ∀ a, (![i.val, s.val] : Fin 2 → Nat) a + S1x1.size a ≤ S2x4.size a := by revert i s; decide
theorem inbS3 (i p : Fin 2) (s : Fin 4) : ∀ a, (![i.val, p.val, s.val] : Fin 3 → Nat) a + S1x1x1.size a ≤ S2x2x4.size a := by revert i p s; decide
theorem inbS4 (j s : Fin 4) : ∀ a, (![j.val, s.val] : Fin 2 → Nat) a + S1x1.size a ≤ S4x4.size a := by revert j s; decide

def sm2 (A : DmaSems sig S2x4) (i : Fin 2) (s : Fin 4) : DmaSem sig :=
  ((A.slice (Rect.unit (s := S2x4) ![i.val, s.val] S1x1.size (inbS2 i s))).squeeze S_ Gen.squeezes_S1x1_S_).sem
def sm3 (A : DmaSems sig S2x2x4) (i p : Fin 2) (s : Fin 4) : DmaSem sig :=
  ((A.slice (Rect.unit (s := S2x2x4) ![i.val, p.val, s.val] S1x1x1.size (inbS3 i p s))).squeeze S_ Gen.squeezes_S1x1x1_S_).sem
def sm4 (A : DmaSems sig S4x4) (j s : Fin 4) : DmaSem sig :=
  ((A.slice (Rect.unit (s := S4x4) ![j.val, s.val] S1x1.size (inbS4 j s))).squeeze S_ Gen.squeezes_S1x1_S_).sem

structure Geo where
  shp : Shape
  side : Fin 2
  src : Dev nD → Fin 4 → Memref sig .tc .vmem shp .f32
  dst : Dev nD → Fin 4 → Memref sig .tc .vmem shp .f32
  ssem : Fin 4 → DmaSem sig
  rsem : Fin 4 → DmaSem sig

def geo : Fin 10 → Geo
  | 0 => ⟨S64x256, 0, pc1 xM, fun _ s => sl3 aM 0 s, sm2 cc0_scratch3 0, sm2 cc0_scratch4 0⟩
  | 1 => ⟨S64x256, 1, pc2 xM, fun _ s => sl3 aM 1 s, sm2 cc0_scratch3 1, sm2 cc0_scratch4 1⟩
  | 2 => ⟨S64x256, 0, pc2o xM, fun _ s => sl4 0 1 s, sm3 cc0_scratch5 0 1, sm3 cc0_scratch6 0 1⟩
  | 3 => ⟨S64x256, 1, pc1m xM, fun _ s => sl4 1 0 s, sm3 cc0_scratch5 1 0, sm3 cc0_scratch6 1 0⟩
  | 4 => ⟨S64x256, 0, fun _ s => sl3 mM 0 s, fun _ s => sl4 0 0 s, sm3 cc0_scratch5 0 0, sm3 cc0_scratch6 0 0⟩
  | 5 => ⟨S64x256, 1, fun _ s => sl3 mM 1 s, fun _ s => sl4 1 1 s, sm3 cc0_scratch5 1 1, sm3 cc0_scratch6 1 1⟩
  | 6 => ⟨S64x512, 0, pc5 oM, pc5 oM, sm4 cc0_scratch7 0, sm4 cc0_scratch8 0⟩
  | 7 => ⟨S64x512, 1, pc5 oM, pc5 oM, sm4 cc0_scratch7 1, sm4 cc0_scratch8 1⟩
  | 8 => ⟨S64x256, 0, pc1m oM, pc1m oM, sm4 cc0_scratch7 2, sm4 cc0_scratch8 2⟩
  | 9 => ⟨S64x256, 1, pc2o oM, pc2o oM, sm4 cc0_scratch7 3, sm4 cc0_scratch8 3⟩

theorem ssem_val (j : Fin 10) (s : Fin 4) :
    ((geo j).ssem s).val = (![2, 6, 22, 26, 18, 30, 50, 54, 58, 62] : Fin 10 → Nat) j + s.val := by revert j s; decide +kernel
theorem rsem_val (j : Fin 10) (s : Fin 4) :
    ((geo j).rsem s).val = (![10, 14, 38, 42, 34, 46, 66, 70, 74, 78] : Fin 10 → Nat) j + s.val := by revert j s; decide +kernel

end Cert.KernelIdeal.AR

end
-- ==== Proof.ArKernelIdeal.Sched.lean ====
import proofs.«900109_g7700000000000110_dist_ar_v7x_i4_i_m1024_n512_f32_1_alg».proof.Proof.ArKernelIdeal.Base

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

def zf : F .f32 := FloatOps.ofBits .f32 0#32
def junkA : (cc0_scratch0 : Ref sig .tc).ty.Contents (Elt F) := fun _ => zf
def junkM : (cc0_scratch1 : Ref sig .tc).ty.Contents (Elt F) := fun _ => zf
def junkR : (cc0_scratch2 : Ref sig .tc).ty.Contents (Elt F) := fun _ => zf
def junkO : (cc0_stg1_0 : Ref sig .tc).ty.Contents (Elt F) := fun _ => zf

def X (c : Dev nD) : (cc0_stg0_0 : Ref sig .tc).ty.Contents (Elt F) :=
  (win0_0.blk (0 : Fin 1)).view.read (Elt F) (m ((c : Thread nD τ).loc main_arg0))

def add2 (a : Vec F S1x64x256 .f32) (b : Vec F S64x256 .f32) : FVec F S1x64x256 .f32 :=
  shapeCast S1x64x256 (addf (shapeCast S64x256 a Gen.shapeCasts_S1x64x256_S64x256) (shapeCast S64x256 b Gen.shapeCasts_S64x256_S64x256)) Gen.shapeCasts_S64x256_S1x64x256
def add3 (x : Vec F S64x256 .f32) (r0 r1 : Vec F S1x1x64x256 .f32) : FVec F S64x256 .f32 :=
  addf (addf (shapeCast S64x256 x Gen.shapeCasts_S64x256_S64x256) (shapeCast S64x256 r0 Gen.shapeCasts_S1x1x64x256_S64x256)) (shapeCast S64x256 r1 Gen.shapeCasts_S1x1x64x256_S64x256)

def r3 (i : Fin 2) (s : Fin 4) : Rect S2x256x256 := Rect.unit (s := S2x256x256) ![i.val, 64 * s.val, 0] S1x64x256.size (inb3 i s)
def r4 (i p : Fin 2) (s : Fin 4) : Rect S2x2x256x256 := Rect.unit (s := S2x2x256x256) ![i.val, p.val, 64 * s.val, 0] S1x1x64x256.size (inb4 i p s)
def rx3 (c : Dev nD) (w : Fin 2) (s : Fin 4) : Rect S1024x512 :=
  Rect.unit (s := S1024x512) (k0_off3 c (BitVec.ofNat 32 w.val) (w64 s)) S64x256.size (Gen.k0_off3_inb c w s)
def rx4 (c : Dev nD) (w : Fin 2) (s : Fin 4) : Rect S1024x512 :=
  Rect.unit (s := S1024x512) (k0_off4 c (BitVec.ofNat 32 (4294967295 * w.val)) (w64 s)) S64x256.size (Gen.k0_off4_inb c w s)

def lnd0 (e : Dev nD) (s : Fin 4) : (cc0_scratch0 : Ref sig .tc).ty.Contents (Elt F) :=
  (sl3 aM 0 s).view.write (Elt F) junkA ((pc1 xM (prv e) s).view.read (Elt F) (X m (prv e))) Finset.univ
def lnd1 (e : Dev nD) (s : Fin 4) : (cc0_scratch0 : Ref sig .tc).ty.Contents (Elt F) :=
  (sl3 aM 1 s).view.write (Elt F) junkA ((pc2 xM (nxt e) s).view.read (Elt F) (X m (nxt e))) Finset.univ
def lnd2 (e : Dev nD) (s : Fin 4) : (cc0_scratch2 : Ref sig .tc).ty.Contents (Elt F) :=
  (sl4 0 1 s).view.write (Elt F) junkR ((pc2o xM (prv e) s).view.read (Elt F) (X m (prv e))) Finset.univ
def lnd3 (e : Dev nD) (s : Fin 4) : (cc0_scratch2 : Ref sig .tc).ty.Contents (Elt F) :=
  (sl4 1 0 s).view.write (Elt F) junkR ((pc1m xM (nxt e) s).view.read (Elt F) (X m (nxt e))) Finset.univ

def mC0 (c : Dev nD) (s : Fin 4) : (cc0_scratch1 : Ref sig .tc).ty.Contents (Elt F) :=
  (mM.access (r3 0 s)).write (Elt F) junkM
    (add2 (aM.view.readAt (Elt F) (r3 0 s).toLoadRect (lnd0 m c s)) (xM.view.readAt (Elt F) (rx3 c 1 s).toLoadRect (X m c))) Finset.univ
def mC1 (c : Dev nD) (s : Fin 4) : (cc0_scratch1 : Ref sig .tc).ty.Contents (Elt F) :=
  (mM.access (r3 1 s)).write (Elt F) junkM
    (add2 (aM.view.readAt (Elt F) (r3 1 s).toLoadRect (lnd1 m c s)) (xM.view.readAt (Elt F) (rx4 c 1 s).toLoadRect (X m c))) Finset.univ

def lnd4 (e : Dev nD) (s : Fin 4) : (cc0_scratch2 : Ref sig .tc).ty.Contents (Elt F) :=
  (sl4 0 0 s).view.write (Elt F) junkR ((sl3 mM 0 s).view.read (Elt F) (mC0 m (prv e) s)) Finset.univ
def lnd5 (e : Dev nD) (s : Fin 4) : (cc0_scratch2 : Ref sig .tc).ty.Contents (Elt F) :=
  (sl4 1 1 s).view.write (Elt F) junkR ((sl3 mM 1 s).view.read (Elt F) (mC1 m (nxt e) s)) Finset.univ

def oC (c : Dev nD) (s : Fin 4) : (cc0_stg1_0 : Ref sig .tc).ty.Contents (Elt F) :=
  (oM.access (rx4 c 0 s)).write (Elt F)
    ((oM.access (rx3 c 0 s)).write (Elt F) junkO
      (add3 (xM.view.readAt (Elt F) (rx3 c 0 s).toLoadRect (X m c)) (rM.view.readAt (Elt F) (r4 0 0 s).toLoadRect (lnd4 m c s))
        (rM.view.readAt (Elt F) (r4 1 0 s).toLoadRect (lnd3 m c s))) Finset.univ)
    (add3 (xM.view.readAt (Elt F) (rx4 c 0 s).toLoadRect (X m c)) (rM.view.readAt (Elt F) (r4 0 1 s).toLoadRect (lnd2 m c s))
      (rM.view.readAt (Elt F) (r4 1 1 s).toLoadRect (lnd5 m c s))) Finset.univ

def lnd6 (e : Dev nD) (s : Fin 4) : (cc0_stg1_0 : Ref sig .tc).ty.Contents (Elt F) :=
  (pc5 oM (prv e) s).view.write (Elt F) junkO ((pc5 oM (prv e) s).view.read (Elt F) (oC m (prv e) s)) Finset.univ
def lnd7 (e : Dev nD) (s : Fin 4) : (cc0_stg1_0 : Ref sig .tc).ty.Contents (Elt F) :=
  (pc5 oM (nxt e) s).view.write (Elt F) junkO ((pc5 oM (nxt e) s).view.read (Elt F) (oC m (nxt e) s)) Finset.univ
def lnd8 (e : Dev nD) (s : Fin 4) : (cc0_stg1_0 : Ref sig .tc).ty.Contents (Elt F) :=
  (pc1m oM (prv e) s).view.write (Elt F) junkO ((pc1m oM (prv e) s).view.read (Elt F) (lnd6 m (prv e) s)) Finset.univ
def lnd9 (e : Dev nD) (s : Fin 4) : (cc0_stg1_0 : Ref sig .tc).ty.Contents (Elt F) :=
  (pc2o oM (nxt e) s).view.write (Elt F) junkO ((pc2o oM (nxt e) s).view.read (Elt F) (lnd7 m (nxt e) s)) Finset.univ

def srcC (c : Dev nD) : (j : Fin 10) → (s : Fin 4) → Buf (Elt F) (((geo j).src c s).view.loc (c : Thread nD τ))
  | 0, _ => X m c | 1, _ => X m c | 2, _ => X m c | 3, _ => X m c
  | 4, s => mC0 m c s | 5, s => mC1 m c s
  | 6, s => oC m c s | 7, s => oC m c s
  | 8, s => lnd6 m c s | 9, s => lnd7 m c s

def junkD (e p : Dev nD) : (j : Fin 10) → (s : Fin 4) → Buf (Elt F) (((geo j).dst p s).view.loc (e : Thread nD τ))
  | 0, _ => junkA | 1, _ => junkA | 2, _ => junkR | 3, _ => junkR | 4, _ => junkR | 5, _ => junkR
  | 6, _ => junkO | 7, _ => junkO | 8, _ => junkO | 9, _ => junkO

def lndC (e : Dev nD) (j : Fin 10) (s : Fin 4) : Buf (Elt F) (((geo j).dst (bn (geo j).side e) s).view.loc (e : Thread nD τ)) :=
  ((geo j).dst (bn (geo j).side e) s).view.write (Elt F) (junkD e (bn (geo j).side e) j s)
    (((geo j).src (bn (geo j).side e) s).view.read (Elt F) (srcC m (bn (geo j).side e) j s)) Finset.univ

abbrev barS : Sem sig := (SemArray.scalar (sig.barrier 0 rfl) : Sems sig S_).sem
abbrev barCell (c : Dev nD) : GSem nD τ sig := ((c : Thread nD τ), .reg barS)
abbrev sCell (c : Dev nD) (j : Fin 10) (s : Fin 4) : GSem nD τ sig := ((c : Thread nD τ), .dma ((geo j).ssem s))
abbrev rCell (c : Dev nD) (j : Fin 10) (s : Fin 4) : GSem nD τ sig := ((c : Thread nD τ), .dma ((geo j).rsem s))

abbrev Ncr (j : Fin 10) : ℕ := ((geo j).dst 0 0).view.dmaCredit
theorem Ncr_dst (j : Fin 10) (c : Dev nD) (s : Fin 4) : ((geo j).dst c s).view.dmaCredit = Ncr j := by fin_cases j <;> rfl
theorem Ncr_pos (j : Fin 10) : 0 < Ncr j := View.dmaCredit_pos _ (by fin_cases j <;> decide)

def keys : List (Fin 10 × Fin 4) := (List.finRange 10).flatMap fun j => (List.finRange 4).map fun s => (j, s)
def sideKeys (i : Fin 2) : List (Fin 10 × Fin 4) := keys.filter fun js => decide ((geo js.1).side = i)

def decS (q : DmaSem sig) : Option (Fin 10 × Fin 4) := keys.find? fun js => decide ((geo js.1).ssem js.2 = q)
def decR (q : DmaSem sig) : Option (Fin 10 × Fin 4) := keys.find? fun js => decide ((geo js.1).rsem js.2 = q)
theorem decS_ssem (j : Fin 10) (s : Fin 4) : decS ((geo j).ssem s) = some (j, s) := by revert j s; decide +kernel
theorem decR_rsem (j : Fin 10) (s : Fin 4) : decR ((geo j).rsem s) = some (j, s) := by revert j s; decide +kernel
theorem decS_rsem (j : Fin 10) (s : Fin 4) : decS ((geo j).rsem s) = none := by revert j s; decide +kernel

def xsh (j : Fin 10) (s : Fin 4) : PosShare TreeShare :=
  let q1 := if j.val / 2 = 0 then fullShare.right.left else fullShare.right.right
  let q2 := if j.val % 2 = 0 then q1.left else q1.right
  let q3 := if s.val / 2 = 0 then q2.left else q2.right
  if s.val % 2 = 0 then q3.left else q3.right
def shr (j : Fin 10) (s : Fin 4) : PosShare TreeShare :=
  if j.val < 4 then xsh j s else if j = 6 then fullShare.left else if j = 7 then fullShare.right else fullShare

def sendPay (c : Dev nD) (j : Fin 10) (s : Fin 4) : sProp 𝕄 :=
  ((geo j).src c s).view.loc (c : Thread nD τ) ↦[((geo j).src c s).view.set]{shr j s} srcC m c j s
def recvPay (e : Dev nD) (j : Fin 10) (s : Fin 4) : sProp 𝕄 :=
  ((geo j).dst (bn (geo j).side e) s).view.loc (e : Thread nD τ) ↦[((geo j).dst (bn (geo j).side e) s).view.set]{fullShare} lndC m e j s

def dstAny (c : Dev nD) (js : Fin 10 × Fin 4) : sProp 𝕄 :=
  iprop(∃ f, ((geo js.1).dst c js.2).view.loc (nb (geo js.1).side c : Thread nD τ) ↦[((geo js.1).dst c js.2).view.set]{fullShare} f)
def barPay (c : Dev nD) (d : Bool) : sProp 𝕄 := bigSepL (sideKeys (if d then 0 else 1)) (dstAny (F := F) c)

def ringRd : Rounds.Schedule (GSem nD τ sig) Bool 𝕄 where
  duties g r := if r = 0 ∧ g.1.2 = .tc then
      (match g.2 with
        | .reg sm => if sm = barS then Finset.univ else ∅
        | .dma q => if (decS q).isSome ∨ (decR q).isSome then {false} else ∅)
    else ∅
  unitless _ := False
  amount g _ _ := match g.2 with
    | .reg _ => 1
    | .dma q => match decS q with
      | some js => Ncr js.1
      | none => match decR q with
        | some js => Ncr js.1
        | none => 1
  payload g _ d := match g.2 with
    | .reg _ => barPay g.1.1 d
    | .dma q => match decS q with
      | some js => sendPay m g.1.1 js.1 js.2
      | none => match decR q with
        | some js => recvPay m g.1.1 js.1 js.2
        | none => iprop(emp)
  amount_pos g _ _ _ := by
    rcases g with ⟨t, sm⟩
    cases sm with
    | reg _ => exact Nat.one_pos
    | dma q =>
      dsimp only
      cases decS q with
      | some js => exact Ncr_pos _
      | none =>
        cases decR q with
        | some js => exact Ncr_pos _
        | none => exact Nat.one_pos

section Sched
variable (c : Dev nD) (j : Fin 10) (s : Fin 4)

theorem duties_bar : (ringRd (F := F) m).duties (barCell c) 0 = Finset.univ := by
  dsimp only [ringRd]; rw [if_pos ⟨rfl, rfl⟩]; exact if_pos rfl
theorem duties_s : (ringRd (F := F) m).duties (sCell c j s) 0 = {false} := by
  dsimp only [ringRd]; rw [if_pos ⟨rfl, rfl⟩]; exact if_pos (Or.inl (by rw [decS_ssem]; rfl))
theorem duties_r : (ringRd (F := F) m).duties (rCell c j s) 0 = {false} := by
  dsimp only [ringRd]; rw [if_pos ⟨rfl, rfl⟩]; exact if_pos (Or.inr (by rw [decR_rsem]; rfl))
theorem duties_later (g : GSem nD τ sig) : ∀ r, 1 ≤ r → (ringRd (F := F) m).duties g r = ∅ :=
  fun r hr => by dsimp only [ringRd]; rw [if_neg fun h => by omega]

theorem amount_bar (d : Bool) : (ringRd (F := F) m).amount (barCell c) 0 d = 1 := rfl
theorem amount_s (d : Bool) : (ringRd (F := F) m).amount (sCell c j s) 0 d = Ncr j := by
  dsimp only [ringRd]; rw [decS_ssem]
theorem amount_r (d : Bool) : (ringRd (F := F) m).amount (rCell c j s) 0 d = Ncr j := by
  dsimp only [ringRd]; rw [decS_rsem, decR_rsem]

theorem expect_bar : (ringRd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_s : (ringRd (F := F) m).expect (sCell c j s) 0 = Ncr j := by
  unfold Schedule.expect Schedule.amountOf; rw [duties_s, Finset.sum_singleton, amount_s]
theorem expect_r : (ringRd (F := F) m).expect (rCell c j s) 0 = Ncr j := by
  unfold Schedule.expect Schedule.amountOf; rw [duties_r, Finset.sum_singleton, amount_r]

theorem payload_bar (d : Bool) : (ringRd (F := F) m).payload (barCell c) 0 d = barPay c d := rfl
theorem payload_s (d : Bool) : (ringRd (F := F) m).payload (sCell c j s) 0 d = sendPay m c j s := by
  dsimp only [ringRd]; rw [decS_ssem]
theorem payload_r (d : Bool) : (ringRd (F := F) m).payload (rCell c j s) 0 d = recvPay m c j s := by
  dsimp only [ringRd]; rw [decS_rsem, decR_rsem]

theorem rest_bar : bigSep ((ringRd (F := F) m).duties (barCell c) 0 \ ∅) (fun d => (ringRd (F := F) m).payload (barCell c) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl
theorem rest_s : bigSep ((ringRd (F := F) m).duties (sCell c j s) 0 \ ∅) (fun d => (ringRd (F := F) m).payload (sCell c j s) 0 d) = sendPay m c j s := by
  rw [Finset.sdiff_empty, duties_s, bigSep_singleton, payload_s]
theorem rest_r : bigSep ((ringRd (F := F) m).duties (rCell c j s) 0 \ ∅) (fun d => (ringRd (F := F) m).payload (rCell c j s) 0 d) = recvPay m c j s := by
  rw [Finset.sdiff_empty, duties_r, bigSep_singleton, payload_r]

end Sched

end Cert.KernelIdeal.AR

end
-- ==== Proof.ArKernelIdeal.Steps.lean ====
import proofs.«900109_g7700000000000110_dist_ar_v7x_i4_i_m1024_n512_f32_1_alg».proof.Proof.ArKernelIdeal.Sched

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

theorem wp_send_fam (κ₁ κ₂ : ℕ) (j : Fin 10) (s : Fin 4) (c n n' : Dev nD) (hc : c = bn (geo j).side n) (hn : n' = n)
    {hsc : ((geo j).dst c s : Memref sig (Dev.tc n' : Thread nD τ).2.kind .vmem (geo j).shp .f32).view.ref.isScScratch = false}
    {hsrc : ((geo j).src c s).view.WordExact} {hdst : ((geo j).dst c s).view.WordExact}
    {hsem : DmaTarget.Typed .vmem (.dma ((geo j).rsem s)) (.remote (Dev.tc n' : Thread nD τ) ((geo j).dst c s) (.dma ((geo j).ssem s)) hsc)}
    {α : Type} {Q : α → sProp 𝕄} {k : PUnit → Prog (TpuEff nD τ sig (Elt F) Λ₀ .tc) α}
    (fd : Buf (Elt F) (((geo j).dst c s).view.loc (n : Thread nD τ))) (O : CellTallies nD τ sig Unit) (W : Waits sig Unit) :
    iprop(cellInv ER (ringRd m) κ₁ (sCell c j s) ∗ cellInv ER (ringRd m) κ₂ (rCell n j s)
        ∗ sendPay m c j s
        ∗ (((geo j).dst c s).view.loc (n : Thread nD τ) ↦[((geo j).dst c s).view.set]{fullShare} fd)
        ∗ owes (c : Thread nD τ) (O + tallyAt (rCell n j s) () (Ncr j)) W
        ∗ dutyTok ER (sCell c j s) 0 false ∗ reached ER (sCell c j s) 0
        ∗ dutyTok ER (rCell n j s) 0 false ∗ reached ER (rCell n j s) 0)
      ⊢ iprop(((cred (tallyAt (sCell c j s) () (Ncr j)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((geo j).src c s) (.remote (Dev.tc n' : Thread nD τ) ((geo j).dst c s) (.dma ((geo j).ssem s)) hsc) (.dma ((geo j).rsem s)) hsrc hdst hsem) k) Q) := by
  subst hn; subst hc
  unfold sendPay
  exact Rounds.wp_send_pointsTo 𝒱₀ ER (ringRd m) ((bn (geo j).side n' : Dev nD) : Thread nD τ) none (κ₁ := κ₁) (κ₂ := κ₂)
    (r₁ := 0) (r₂ := 0) (d₁ := false) (d₂ := false) (fd := fd)
    (by rw [duties_s]; exact Finset.mem_singleton_self _) (by rw [duties_r]; exact Finset.mem_singleton_self _)
    () () (Ncr j) (by rw [View.amount_dma]) (amount_s m _ j s false) (amount_r m n' j s false) O rfl (W := W)
    (by rw [payload_s]; exact BI.Entails.refl _)
    (by rw [payload_r]; unfold recvPay lndC
        exact .of_eq (BI.Region.is_congr fun i hi => View.write_congr (fun _ _ _ => rfl) fun h => absurd hi h))

theorem wp_waitR_fam (κ : ℕ) (j : Fin 10) (s : Fin 4) (c : Dev nD)
    {sp' : Space} {s' : Shape} {e' : EltTy} {srcv : Memref sig (c : Thread nD τ).2.kind sp' s' e'} {dstv : Memref sig .tc .vmem (geo j).shp .f32}
    {hs : srcv.view.WordExact} {hd : dstv.view.WordExact}
    {α : Type} {Q : α → sProp 𝕄} {k : PUnit → Prog (TpuEff nD τ sig (Elt F) Λ₀ .tc) α}
    (O : CellTallies nD τ sig Unit) (W : Waits sig Unit) :
    iprop(cellInv ER (ringRd m) κ (rCell c j s) ∗ cred (tallyAt (rCell c j s) () (Ncr j)) ∗ owes (c : Thread nD τ) O W
        ∗ MayWait (c : Thread nD τ) (.dma ((geo j).rsem s)) () O ∗ atPos ER (rCell c j s) 0 ∅ 0)
      ⊢ iprop(((owes (c : Thread nD τ) O (insert (SemLoc.dma ((geo j).rsem s), ()) W) ∗ atPos ER (rCell c j s) 1 ∅ 0 ∗ reached ER (rCell c j s) 1
              ∗ recvPay m c j s) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 ((geo j).rsem s) srcv dstv hs hd) k) Q) := by
  rw [← rest_r m c j s, show Ncr j = dstv.view.dmaCredit from rfl]
  exact Rounds.wp_wait_rest_token 𝒱₀ ER (ringRd m) (c : Thread nD τ) none (κ := κ)
    (wpE_waitDma2_eq 𝒱₀ (c : Thread nD τ) none Set.univ) (Set.mem_univ _) () (O := O) (W := W) (R := 0) (m := 0) (T := ∅)
    (by rw [Nat.zero_add, expect_r])

theorem wp_waitS_fam (κ : ℕ) (j : Fin 10) (s : Fin 4) (c : Dev nD)
    {sp' : Space} {s' : Shape} {e' : EltTy} {srcv : Memref sig (c : Thread nD τ).2.kind sp' s' e'} {dstv : Memref sig .tc .vmem (geo j).shp .f32}
    {hs : srcv.view.WordExact} {hd : dstv.view.WordExact}
    {α : Type} {Q : α → sProp 𝕄} {k : PUnit → Prog (TpuEff nD τ sig (Elt F) Λ₀ .tc) α}
    (W : Waits sig Unit) :
    iprop(cellInv ER (ringRd m) κ (sCell c j s) ∗ cred (tallyAt (sCell c j s) () (Ncr j)) ∗ owes (c : Thread nD τ) 0 W
        ∗ atPos ER (sCell c j s) 0 ∅ 0)
      ⊢ iprop(((owes (c : Thread nD τ) 0 (insert (SemLoc.dma ((geo j).ssem s), ()) W) ∗ atPos ER (sCell c j s) 1 ∅ 0 ∗ reached ER (sCell c j s) 1
              ∗ sendPay m c j s) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 ((geo j).ssem s) srcv dstv hs hd) k) Q) := by
  rw [← rest_s m c j s, show Ncr j = dstv.view.dmaCredit from rfl]
  iintro ⟨#HI, Hc, HO, Hat⟩
  iapply (Rounds.wp_wait_rest_token 𝒱₀ ER (ringRd m) (c : Thread nD τ) none (κ := κ)
    (wpE_waitDma2_eq 𝒱₀ (c : Thread nD τ) none Set.univ) (Set.mem_univ _) () (O := 0) (W := W) (R := 0) (m := 0) (T := ∅)
    (by rw [Nat.zero_add, expect_s])) $$ [Hc HO Hat]
  rw [MayWait_zero]; iframe
  isplitr; · iexact HI
  iempintro

end Cert.KernelIdeal.AR

end
-- ==== Proof.ArKernelIdeal.Ghost.lean ====
import proofs.«900109_g7700000000000110_dist_ar_v7x_i4_i_m1024_n512_f32_1_alg».proof.Proof.ArKernelIdeal.Steps

noncomputable section

namespace Cert.KernelIdeal.AR

open Cert.KernelIdeal Cert.KernelIdeal.Gen
open Idealize.ShloMosaic
open Idealize.ShloMosaic.TcCoe
open Idealize.SL Idealize.SL.BI
open Idealize.SL.BI.BIBase Idealize.SL.ProofMode
open Idealize.ShloMosaic.Rounds

variable {F : FTy → Type} [FloatOps F]

local notation "𝕄" => MT nD τ sig Unit (Elt F) ℕ UU ℕ

variable (m : (ℓ : Loc nD τ sig) → Buf (Elt F) ℓ)

abbrev Cid : Type := Unit ⊕ (Bool × Fin 10 × Fin 4)
def csem : Cid → SemLoc sig
  | .inl _ => .reg barS
  | .inr (true, j, s) => .dma ((geo j).ssem s)
  | .inr (false, j, s) => .dma ((geo j).rsem s)
abbrev kcell (ck : Dev nD × Cid) : GSem nD τ sig := ((ck.1 : Thread nD τ), csem ck.2)

abbrev JS : Type := Fin 10 × Fin 4

def owedTo (c : Dev nD) (js : JS) : CellTallies nD τ sig Unit := tallyAt (rCell (nb (geo js.1).side c) js.1 js.2) () (Ncr js.1)
def owedL (c : Dev nD) (l : List JS) : CellTallies nD τ sig Unit := (l.map (owedTo c)).sum
theorem owedL_cons (c : Dev nD) (js : JS) (l : List JS) : owedL c (js :: l) = owedL c l + owedTo c js := by
  unfold owedL; rw [List.map_cons, List.sum_cons, add_comm]
theorem owedL_nil (c : Dev nD) : owedL c [] = 0 := rfl

def order : List JS :=
  ((List.finRange 4).flatMap fun s => [(0, s), (1, s), (2, s), (3, s)]) ++ ((List.finRange 4).flatMap fun s => [(4, s), (5, s)])
    ++ ((List.finRange 4).flatMap fun s => [(6, s), (7, s)]) ++ ((List.finRange 4).flatMap fun s => [(8, s), (9, s)])

def O₁ (c : Dev nD) : CellTallies nD τ sig Unit := owedL c order + tallyAt (barCell (nxt c)) () 1
def O₀ (c : Dev nD) : CellTallies nD τ sig Unit := O₁ c + tallyAt (barCell (prv c)) () 1

def L (g : GSem nD τ sig) : Finset Unit := if g.1.2 = .tc then {()} else ∅
def lvR (j : Fin 10) (s : Fin 4) : ℕ :=
  (![10, 12, 30, 30, 11, 13, 100, 102, 101, 103] : Fin 10 → ℕ) j + (if j = 2 ∨ j = 3 then 0 else 4 * s.val)
def lv (g : GSem nD τ sig) (_ : Unit) : ℕ :=
  match g.2 with
  | .reg sm => if sm = barS then 1 else 0
  | .dma q => match decR q with
    | some js => lvR js.1 js.2
    | none => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; dsimp only; exact if_pos rfl
theorem lv_r (c : Dev nD) (j : Fin 10) (s : Fin 4) : lv (rCell c j s) () = lvR j s := by
  unfold lv; dsimp only; rw [decR_rsem]

def records (K : Dev nD × Cid → ℕ) : sProp 𝕄 :=
  iprop((bigSep Finset.univ fun ck : Dev nD × Cid => cellInv ER (ringRd m) (K ck) (kcell ck))
    ∗ bigSep Finset.univ fun ck : Dev nD × Cid => reached ER (kcell ck) 0)

instance records_persistent (K : Dev nD × Cid → ℕ) : BI.Persistent (records m K) := by unfold records; infer_instance

def copyToks (c : Dev nD) (js : JS) : sProp 𝕄 :=
  iprop(dutyTok ER (sCell c js.1 js.2) 0 false ∗ dutyTok ER (rCell (nb (geo js.1).side c) js.1 js.2) 0 false)
def payToks (c : Dev nD) : sProp 𝕄 :=
  iprop(dutyTok ER (barCell (prv c)) 0 true ∗ dutyTok ER (barCell (nxt c)) 0 false ∗ bigSep Finset.univ (copyToks (F := F) c))
def positions (c : Dev nD) : sProp 𝕄 := bigSep Finset.univ fun id : Cid => atPos ER (kcell (c, id)) 0 ∅ 0
def ghost (K : Dev nD × Cid → ℕ) (c : Dev nD) : sProp 𝕄 := iprop(records m K ∗ positions c ∗ payToks c)
def creds (c : Dev nD) : sProp 𝕄 :=
  iprop(cred (tallyAt (barCell c) () 2) ∗ bigSep Finset.univ fun js : JS => cred (tallyAt (rCell c js.1 js.2) () (Ncr js.1)))
def start (c : Dev nD) : sProp 𝕄 := iprop((∃ K, ghost m K c) ∗ creds (F := F) c ∗ levAts L lv)

theorem inv_at (K : Dev nD × Cid → ℕ) (ck : Dev nD × Cid) : records m K ⊢ cellInv ER (ringRd m) (K ck) (kcell ck) :=
  (BI.sep_and.trans BI.and_elimL).trans (bigSep_elim (Finset.mem_univ ck))
theorem reached_at (K : Dev nD × Cid → ℕ) (ck : Dev nD × Cid) : records m K ⊢ reached ER (kcell ck) 0 :=
  (BI.sep_and.trans BI.and_elimR).trans (bigSep_elim (Finset.mem_univ ck))

end Cert.KernelIdeal.AR

end
-- ==== Proof.ArKernelIdeal.Levels.lean ====
import proofs.«900109_g7700000000000110_dist_ar_v7x_i4_i_m1024_n512_f32_1_alg».proof.Proof.ArKernelIdeal.Ghost

noncomputable section

namespace Cert.KernelIdeal.AR

open Cert.KernelIdeal Cert.KernelIdeal.Gen
open Idealize.ShloMosaic
open Idealize.ShloMosaic.TcCoe
open Idealize.SL Idealize.SL.BI
open Idealize.SL.BI.BIBase Idealize.SL.ProofMode
open Idealize.ShloMosaic.Rounds

variable {F : FTy → Type} [FloatOps F]

local notation "𝕄" => MT nD τ sig Unit (Elt F) ℕ UU ℕ

def Above (js : JS) (l : List JS) : Prop := ∀ x ∈ l, lvR js.1 js.2 < lvR x.1 x.2
instance (js : JS) (l : List JS) : Decidable (Above js l) := by unfold Above; infer_instance

-- A device owes only on receive cells of its neighbours, for copies in the list: such a cell lies at its copy's level.
theorem owedL_pos {c : Dev nD} {l : List JS} {g : GSem nD τ sig} {u : Unit} (h : 0 < owedL c l g u) :
    ∃ js ∈ l, g.1.2 = .tc ∧ lv g u = lvR js.1 js.2 := by
  induction l with
  | nil => exact absurd h (Nat.lt_irrefl 0)
  | cons js l ih =>
    rw [owedL_cons, Pi.add_apply, Finsupp.add_apply] at h
    by_cases h1 : 0 < owedL c l g u
    · obtain ⟨x, hx, e⟩ := ih h1
      exact ⟨x, List.mem_cons_of_mem _ hx, e⟩
    · by_cases hg : g = rCell (nb (geo js.1).side c) js.1 js.2 ∧ u = ()
      · obtain ⟨rfl, -⟩ := hg
        exact ⟨js, List.mem_cons_self, rfl, lv_r _ js.1 js.2⟩
      · unfold owedTo at h
        rw [tallyAt_apply, if_neg hg] at h
        omega

theorem ten_le_lvR : ∀ (j : Fin 10) (s : Fin 4), 10 ≤ lvR j s := by decide

-- A cut: the waited cell lies at or below b, every owed cell strictly above b.
theorem mayWait_cut {c : Dev nD} {sm : SemLoc sig} {O : CellTallies nD τ sig Unit} (b : ℕ) (hb : lv ((c : Thread nD τ), sm) () ≤ b)
    (hO : ∀ g u, 0 < O g u → g.1.2 = .tc ∧ b < lv g u) : (levAts L lv : sProp 𝕄) ⊢ MayWait (c : Thread nD τ) sm () O :=
  MayOwe.of_cut (L := L) (lev := lv) b
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hb)
    (fun g u hg => (hO g u hg).2)

theorem mayWait_recv (c : Dev nD) (js : JS) (l : List JS) (h : Above js l) :
    (levAts L lv : sProp 𝕄) ⊢ MayWait (c : Thread nD τ) (.dma ((geo js.1).rsem js.2)) () (owedL c l) :=
  mayWait_cut _ (lv_r c js.1 js.2).le fun g u hg => by
    obtain ⟨x, hx, ht, e⟩ := owedL_pos hg
    exact ⟨ht, lt_of_lt_of_eq (h x hx) e.symm⟩

theorem mayWait_bar (c : Dev nD) :
    (levAts L lv : sProp 𝕄) ⊢ MayWait (c : Thread nD τ) (.reg barS) () (owedL c order) :=
  mayWait_cut 1 (lv_bar c).le fun g u hg => by
    obtain ⟨x, hx, ht, e⟩ := owedL_pos hg
    exact ⟨ht, lt_of_lt_of_eq (lt_of_lt_of_le (by decide) (ten_le_lvR x.1 x.2)) e.symm⟩

-- At launch a device also owes one unit on each neighbour's barrier cell, at level 1.
theorem O₀_pos {c : Dev nD} {g : GSem nD τ sig} {u : Unit} (h : 0 < O₀ c g u) : g.1.2 = .tc ∧ 0 < lv g u := by
  unfold O₀ O₁ at h
  rw [Pi.add_apply, Finsupp.add_apply, Pi.add_apply, Finsupp.add_apply, tallyAt_apply, tallyAt_apply] at h
  by_cases h1 : 0 < owedL c order g u
  · obtain ⟨x, hx, ht, e⟩ := owedL_pos h1
    exact ⟨ht, lt_of_lt_of_eq (lt_of_lt_of_le (by decide) (ten_le_lvR x.1 x.2)) e.symm⟩
  · by_cases h2 : g = barCell (nxt c) ∧ u = ()
    · obtain ⟨rfl, -⟩ := h2
      exact ⟨rfl, lt_of_lt_of_eq Nat.one_pos (lv_bar (nxt c)).symm⟩
    · by_cases h3 : g = barCell (prv c) ∧ u = ()
      · obtain ⟨rfl, -⟩ := h3
        exact ⟨rfl, lt_of_lt_of_eq Nat.one_pos (lv_bar (prv c)).symm⟩
      · rw [if_neg h2, if_neg h3] at h; omega

theorem mayWait_stage (c : Dev nD) (q : DmaSem sig) (hq : decR q = none) (O : CellTallies nD τ sig Unit) (hO : O = O₀ c ∨ O = 0) :
    (levAts L lv : sProp 𝕄) ⊢ MayWait (c : Thread nD τ) (.dma q) () O := by
  rcases hO with rfl | rfl
  · exact mayWait_cut 0 (by unfold lv; dsimp only; rw [hq]) fun g u => O₀_pos
  · rw [MayWait_zero]; iintro -; iempintro

end Cert.KernelIdeal.AR

end
-- ==== Proof.ArKernelIdeal.Flow.lean ====
import proofs.«900109_g7700000000000110_dist_ar_v7x_i4_i_m1024_n512_f32_1_alg».proof.Proof.ArKernelIdeal.Levels

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

universe u
abbrev atB {β : Sort u} (p : (a0 : Memref sig .tc .vmem S1024x512 .f32) → a0.IsWhole → (a1 : Memref sig .tc .vmem S1024x512 .f32) → a1.IsWhole
    → (a2 : Memref sig .tc .vmem S2x256x256 .f32) → a2.IsWhole → (a3 : Memref sig .tc .vmem S2x256x256 .f32) → a3.IsWhole
    → (a4 : Memref sig .tc .vmem S2x2x256x256 .f32) → a4.IsWhole → DmaSems sig S2x4 → DmaSems sig S2x4 → DmaSems sig S2x2x4
    → DmaSems sig S2x2x4 → DmaSems sig S4x4 → DmaSems sig S4x4 → β) : β :=
  p xM (Memref.isWhole_whole _) oM (Memref.isWhole_whole _) aM (Memref.isWhole_whole _) mM (Memref.isWhole_whole _) rM (Memref.isWhole_whole _)
    cc0_scratch3 cc0_scratch4 cc0_scratch5 cc0_scratch6 cc0_scratch7 cc0_scratch8

theorem bigSepL_cons' {I : Type} (i : I) (l : List I) (Φ : I → sProp 𝕄) : bigSepL (i :: l) Φ = iprop(Φ i ∗ bigSepL l Φ) :=
  (bigSepL_cons i l Φ).trans rfl

def sendKit (c : Dev nD) (js : JS) : sProp 𝕄 := iprop(dstAny c js ∗ copyToks c js)
def recvKit (c : Dev nD) (js : JS) : sProp 𝕄 :=
  iprop(cred (tallyAt (rCell c js.1 js.2) () (Ncr js.1)) ∗ atPos ER (rCell c js.1 js.2) 0 ∅ 0)
def sentCred (c : Dev nD) (js : JS) : sProp 𝕄 := cred (tallyAt (sCell c js.1 js.2) () (Ncr js.1))

def xLoad (c : Dev nD) : sProp 𝕄 := (xM.view.loc (c : Thread nD τ) ↦[Finset.univ]{fullShare.left} X m c)
def mPiece (c : Dev nD) (i : Fin 2) (s : Fin 4) (f : Buf (Elt F) ((sl3 mM i s).view.loc (c : Thread nD τ))) : sProp 𝕄 :=
  ((sl3 mM i s).view.loc (c : Thread nD τ) ↦[(sl3 mM i s).view.set]{fullShare} f)
def oRows (c : Dev nD) (s : Fin 4) (f : Buf (Elt F) ((pc5 oM c s).view.loc (c : Thread nD τ))) : sProp 𝕄 :=
  ((pc5 oM c s).view.loc (c : Thread nD τ) ↦[(pc5 oM c s).view.set]{fullShare} f)

abbrev sAt (c : Dev nD) (j : Fin 10) (s : Fin 4) (n : ℕ) : sProp 𝕄 := atPos ER (sCell c j s) n ∅ 0
abbrev rAt (c : Dev nD) (j : Fin 10) (s : Fin 4) (n : ℕ) : sProp 𝕄 := atPos ER (rCell c j s) n ∅ 0
abbrev xRd3 (c : Dev nD) (w : Fin 2) (s : Fin 4) := xM.view.readAt (Elt F) (rx3 c w s).toLoadRect (X m c)
abbrev xRd4 (c : Dev nD) (w : Fin 2) (s : Fin 4) := xM.view.readAt (Elt F) (rx4 c w s).toLoadRect (X m c)
abbrev aRd0 (c : Dev nD) (s : Fin 4) := aM.view.readAt (Elt F) (r3 0 s).toLoadRect (lnd0 m c s)
abbrev aRd1 (c : Dev nD) (s : Fin 4) := aM.view.readAt (Elt F) (r3 1 s).toLoadRect (lnd1 m c s)
abbrev sumLo (c : Dev nD) (s : Fin 4) : FVec F S64x256 .f32 :=
  add3 (xRd3 m c 0 s) (rM.view.readAt (Elt F) (r4 0 0 s).toLoadRect (lnd4 m c s)) (rM.view.readAt (Elt F) (r4 1 0 s).toLoadRect (lnd3 m c s))
abbrev sumHi (c : Dev nD) (s : Fin 4) : FVec F S64x256 .f32 :=
  add3 (xRd4 m c 0 s) (rM.view.readAt (Elt F) (r4 0 1 s).toLoadRect (lnd2 m c s)) (rM.view.readAt (Elt F) (r4 1 1 s).toLoadRect (lnd5 m c s))

omit [FloatOps F] in
theorem pts_write_congr_on {sp : Space} {shp : Shape} {e : EltTy} (t : Thread nD τ) (v : View sig t.2.kind sp shp e)
    (S : Finset (Idx (v.loc t))) (hS : S ⊆ v.setOn Finset.univ)
    (f g : Buf (Elt F) (v.loc t)) (w : shp.Idx → Elt F e) (q : PosShare TreeShare) :
    (v.loc t ↦[S]{q} (v.write (Elt F) f w Finset.univ : Buf (Elt F) (v.loc t)) : sProp 𝕄)
      = (v.loc t ↦[S]{q} (v.write (Elt F) g w Finset.univ : Buf (Elt F) (v.loc t))) :=
  BI.Region.is_congr fun i hi => View.write_congr (fun _ _ _ => rfl) (fun h => absurd (hS hi) h)

def St (c : Dev nD) (ls lr sent : List JS) : sProp 𝕄 :=
  iprop((∃ W, owes (c : Thread nD τ) (owedL c ls) W) ∗ bigSepL ls (sendKit (F := F) c) ∗ bigSepL lr (recvKit (F := F) c) ∗ bigSepL sent (sentCred (F := F) c))

theorem st_send (K : Dev nD × Cid → ℕ) (c n' : Dev nD) (j : Fin 10) (s : Fin 4) (ls lr sent : List JS) (hn : n' = nb (geo j).side c)
    {hsc : ((geo j).dst c s : Memref sig (Dev.tc n' : Thread nD τ).2.kind .vmem (geo j).shp .f32).view.ref.isScScratch = false}
    {hsrc : ((geo j).src c s).view.WordExact} {hdst : ((geo j).dst c s).view.WordExact}
    {hsem : DmaTarget.Typed .vmem (.dma ((geo j).rsem s)) (.remote (Dev.tc n' : Thread nD τ) ((geo j).dst c s) (.dma ((geo j).ssem s)) hsc)}
    {α : Type} {Q : α → sProp 𝕄} {k : PUnit → Prog (TpuEff nD τ sig (Elt F) Λ₀ .tc) α} :
    records m K ⊢ iprop(St c ((j, s) :: ls) lr sent -∗ sendPay m c j s -∗ (St c ls lr ((j, s) :: sent) -∗ WP c (k ⟨⟩) Q)
          -∗ WP c (.op (.enqueueDma ((geo j).src c s) (.remote (Dev.tc n' : Thread nD τ) ((geo j).dst c s) (.dma ((geo j).ssem s)) hsc) (.dma ((geo j).rsem s)) hsrc hdst hsem) k) Q) := by
  subst hn
  unfold St sendKit copyToks dstAny sentCred
  rw [bigSepL_cons', bigSepL_cons', owedL_cons]
  unfold owedTo
  dsimp only
  iintro #HR ⟨⟨%W, HO⟩, ⟨⟨⟨%fd, Hdst⟩, Ht1, Ht2⟩, Hls⟩, Hlr, Hsent⟩ Hsrc Hk
  iapply (wp_send_fam m (K (c, .inr (true, j, s))) (K (nb (geo j).side c, .inr (false, j, s))) j s c (nb (geo j).side c) (nb (geo j).side c)
    (bn_nb (geo j).side c).symm rfl fd (owedL c ls) W) $$ [Hsrc Hdst HO Ht1 Ht2]
  · isplitr; · iapply (inv_at m K (c, .inr (true, j, s))); iexact HR
    isplitr; · iapply (inv_at m K (nb (geo j).side c, .inr (false, j, s))); iexact HR
    isplitl [Hsrc]; · iexact Hsrc
    isplitl [Hdst]; · iexact Hdst
    isplitl [HO]; · iexact HO
    isplitl [Ht1]; · iexact Ht1
    isplitr; · iapply (reached_at m K (c, .inr (true, j, s))); iexact HR
    isplitl [Ht2]; · iexact Ht2
    iapply (reached_at m K (nb (geo j).side c, .inr (false, j, s))); iexact HR
  iintro ⟨Hc, HO⟩
  iapply Hk
  isplitl [HO]; · iexists W; iexact HO
  isplitl [Hls]; · iexact Hls
  isplitl [Hlr]; · iexact Hlr
  isplitl [Hc]; · iexact Hc
  iexact Hsent

theorem send_only (K : Dev nD × Cid → ℕ) (c n' : Dev nD) (j : Fin 10) (s : Fin 4) (ls lr sent : List JS) (hn : n' = nb (geo j).side c)
    {hsc : ((geo j).dst c s : Memref sig (Dev.tc n' : Thread nD τ).2.kind .vmem (geo j).shp .f32).view.ref.isScScratch = false}
    {hsrc : ((geo j).src c s).view.WordExact} {hdst : ((geo j).dst c s).view.WordExact}
    {hsem : DmaTarget.Typed .vmem (.dma ((geo j).rsem s)) (.remote (Dev.tc n' : Thread nD τ) ((geo j).dst c s) (.dma ((geo j).ssem s)) hsc)}
    {α : Type} (r : α) (Kt : α → sProp 𝕄) :
    iprop(records m K ∗ levAts L lv ∗ St c ((j, s) :: ls) lr sent ∗ sendPay m c j s ∗ (∀ r, St c ls lr ((j, s) :: sent) -∗ Kt r))
      ⊢ WP c (.op (.enqueueDma ((geo j).src c s) (.remote (Dev.tc n' : Thread nD τ) ((geo j).dst c s) (.dma ((geo j).ssem s)) hsc) (.dma ((geo j).rsem s)) hsrc hdst hsem) fun _ => .ret r) Kt := by
  iintro ⟨#HR, -, HSt, Hp, Hk⟩
  iapply (st_send m K c n' j s ls lr sent hn) $$ HR HSt Hp
  iintro HSt
  unfold WP; rw [wp_ret]; imodintro
  iapply Hk; iexact HSt

theorem st_waitR (K : Dev nD × Cid → ℕ) (c : Dev nD) (j : Fin 10) (s : Fin 4) (ls lr sent : List JS) (h : Above (j, s) ls)
    {sp' : Space} {s' : Shape} {e' : EltTy} {srcv : Memref sig (c : Thread nD τ).2.kind sp' s' e'} {dstv : Memref sig .tc .vmem (geo j).shp .f32}
    {hs : srcv.view.WordExact} {hd : dstv.view.WordExact}
    {α : Type} {Q : α → sProp 𝕄} {k : PUnit → Prog (TpuEff nD τ sig (Elt F) Λ₀ .tc) α} :
    records m K ⊢ iprop(levAts L lv -∗ St c ls ((j, s) :: lr) sent
          -∗ ((St c ls lr sent ∗ recvPay m c j s ∗ atPos ER (rCell c j s) 1 ∅ 0) -∗ WP c (k ⟨⟩) Q)
          -∗ WP c (.op (.waitDma2 ((geo j).rsem s) srcv dstv hs hd) k) Q) := by
  unfold St recvKit
  rw [bigSepL_cons']
  dsimp only
  iintro #HR #Hlev ⟨⟨%W, HO⟩, Hls, ⟨⟨Hcr, Hat⟩, Hlr⟩, Hsent⟩ Hk
  iapply (wp_waitR_fam m (K (c, .inr (false, j, s))) j s c (owedL c ls) W) $$ [Hcr HO Hat]
  · isplitr; · iapply (inv_at m K (c, .inr (false, j, s))); iexact HR
    isplitl [Hcr]; · iexact Hcr
    isplitl [HO]; · iexact HO
    isplitr; · iapply (mayWait_recv c (j, s) ls h); iexact Hlev
    iexact Hat
  iintro ⟨HO, Hat, -, Hpay⟩
  iapply Hk
  isplitl [HO Hls Hlr Hsent]
  · isplitl [HO]; · iexists _; iexact HO
    isplitl [Hls]; · iexact Hls
    isplitl [Hlr]; · iexact Hlr
    iexact Hsent
  isplitl [Hpay]; · iexact Hpay
  iexact Hat

theorem st_waitS (K : Dev nD × Cid → ℕ) (c : Dev nD) (j : Fin 10) (s : Fin 4) (sentL : List JS)
    {sp' : Space} {s' : Shape} {e' : EltTy} {srcv : Memref sig (c : Thread nD τ).2.kind sp' s' e'} {dstv : Memref sig .tc .vmem (geo j).shp .f32}
    {hs : srcv.view.WordExact} {hd : dstv.view.WordExact}
    {α : Type} {Q : α → sProp 𝕄} {k : PUnit → Prog (TpuEff nD τ sig (Elt F) Λ₀ .tc) α} :
    records m K ⊢ iprop(St c [] [] ((j, s) :: sentL) -∗ atPos ER (sCell c j s) 0 ∅ 0
          -∗ ((St c [] [] sentL ∗ sendPay m c j s ∗ atPos ER (sCell c j s) 1 ∅ 0) -∗ WP c (k ⟨⟩) Q)
          -∗ WP c (.op (.waitDma2 ((geo j).ssem s) srcv dstv hs hd) k) Q) := by
  unfold St sentCred
  rw [bigSepL_cons']
  dsimp only
  iintro #HR ⟨⟨%W, HO⟩, Hls, Hlr, ⟨Hcr, Hsent⟩⟩ Hat Hk
  iapply (wp_waitS_fam m (K (c, .inr (true, j, s))) j s c W) $$ [Hcr HO Hat]
  · isplitr; · iapply (inv_at m K (c, .inr (true, j, s))); iexact HR
    isplitl [Hcr]; · iexact Hcr
    isplitl [HO]; · iexact HO
    iexact Hat
  iintro ⟨HO, Hat, -, Hpay⟩
  iapply Hk
  isplitl [HO Hls Hlr Hsent]
  · isplitl [HO]; · iexists _; iexact HO
    isplitl [Hls]; · iexact Hls
    isplitl [Hlr]; · iexact Hlr
    iexact Hsent
  isplitl [Hpay]; · iexact Hpay
  iexact Hat

end Cert.KernelIdeal.AR

end
-- ==== Proof.ArKernelIdeal.Geom.lean ====
import proofs.«900109_g7700000000000110_dist_ar_v7x_i4_i_m1024_n512_f32_1_alg».proof.Proof.ArKernelIdeal.Sched

noncomputable section

namespace Cert.KernelIdeal.AR

open Cert.KernelIdeal Cert.KernelIdeal.Gen
open Idealize.ShloMosaic

theorem sl3_set_eq_access (b : Memref sig .tc .vmem S2x256x256 .f32) (hb : b.IsWhole) (i : Fin 2) (s : Fin 4) :
    (sl3 b i s).view.set = (b.access (r3 i s)).setOn Finset.univ :=
  View.set_reshape _ _
theorem sl3_set_eq_load (b : Memref sig .tc .vmem S2x256x256 .f32) (hb : b.IsWhole) (i : Fin 2) (s : Fin 4) :
    (sl3 b i s).view.set = b.view.setOn (r3 i s).toLoadRect.set :=
  (View.set_reshape _ _).trans (View.set_slice _ _)
theorem sl4_set_eq_load (i p : Fin 2) (s : Fin 4) :
    (sl4 i p s).view.set = rM.view.setOn (r4 i p s).toLoadRect.set :=
  (View.set_reshape _ _).trans (View.set_slice _ _)

theorem r3_disj (i i' : Fin 2) (s s' : Fin 4) (h : (i, s) ≠ (i', s')) : Disjoint (r3 i s).set (r3 i' s').set := by
  by_cases hi : i.val = i'.val
  · refine Rect.unit_disjoint 1 (?_ : 64 * s.val + 64 ≤ 64 * s'.val ∨ 64 * s'.val + 64 ≤ 64 * s.val)
    have : s.val ≠ s'.val := fun e => h (by rw [Fin.ext hi, Fin.ext e])
    omega
  · exact Rect.unit_disjoint 0 (by show i.val + 1 ≤ i'.val ∨ i'.val + 1 ≤ i.val; omega)

theorem r4_disj (i p i' p' : Fin 2) (s s' : Fin 4) (h : (i, p, s) ≠ (i', p', s')) :
    Disjoint (r4 i p s).set (r4 i' p' s').set := by
  by_cases hi : i.val = i'.val
  · by_cases hp : p.val = p'.val
    · refine Rect.unit_disjoint 2 (?_ : 64 * s.val + 64 ≤ 64 * s'.val ∨ 64 * s'.val + 64 ≤ 64 * s.val)
      have : s.val ≠ s'.val := fun e => h (by rw [Fin.ext hi, Fin.ext hp, Fin.ext e])
      omega
    · exact Rect.unit_disjoint 1 (by show p.val + 1 ≤ p'.val ∨ p'.val + 1 ≤ p.val; omega)
  · exact Rect.unit_disjoint 0 (by show i.val + 1 ≤ i'.val ∨ i'.val + 1 ≤ i.val; omega)

theorem sl3_disj (b : Memref sig .tc .vmem S2x256x256 .f32) (hb : b.IsWhole) (i i' : Fin 2) (s s' : Fin 4) (h : (i, s) ≠ (i', s')) :
    Disjoint (sl3 b i s).view.set (sl3 b i' s').view.set := by
  rw [sl3_set_eq_load b hb, sl3_set_eq_load b hb]
  exact (Finset.disjoint_map b.view.emb).mpr (r3_disj i i' s s' h)
theorem sl4_disj (i p i' p' : Fin 2) (s s' : Fin 4) (h : (i, p, s) ≠ (i', p', s')) :
    Disjoint (sl4 i p s).view.set (sl4 i' p' s').view.set := by
  rw [sl4_set_eq_load, sl4_set_eq_load]
  exact (Finset.disjoint_map rM.view.emb).mpr (r4_disj i p i' p' s s' h)

-- The index `i` of the result buffer lies in the 64 rows from `r` and the `b` columns from `a`.
def inBox (r a b : Nat) (i : oM.view.ty.Idx) : Prop :=
  (r ≤ (i (0 : Fin 2)).val ∧ (i (0 : Fin 2)).val < r + 64) ∧ a ≤ (i (1 : Fin 2)).val ∧ (i (1 : Fin 2)).val < a + b

-- A unit-stride rectangle of 64 rows holds the indices between its offsets and its ends.
theorem mem_unit {off size : Fin 2 → Nat} {inb : ∀ a, off a + size a ≤ S1024x512.size a} {r a : Nat}
    (ho : ∀ k, off k = (![r, a] : Fin 2 → Nat) k) (h0 : size 0 = 64) (i : oM.view.ty.Idx) :
    i ∈ (oM.view.slice (Rect.unit (s := S1024x512) off size inb)).set ↔ inBox r a (size 1) i := by
  have e0 : off 0 = r := ho 0
  have e1 : off 1 = a := ho 1
  rw [View.set_slice_whole cc0_stg1_0, ← e0, ← e1]
  exact (Rect.mem_set_unit.trans Fin.forall_fin_two).trans (h0 ▸ Iff.rfl)

theorem mem_pc5 (c : Dev nD) (s : Fin 4) (i : oM.view.ty.Idx) : i ∈ (pc5 oM c s).view.set ↔ inBox (rowOf c 0 s) 0 512 i :=
  mem_unit (off5_eq c s) rfl i
theorem mem_pc1m (c : Dev nD) (s : Fin 4) (i : oM.view.ty.Idx) : i ∈ (pc1m oM c s).view.set ↔ inBox (rowOf c 3 s) 0 256 i :=
  mem_unit (off1_m1 c s) rfl i
theorem mem_pc2o (c : Dev nD) (s : Fin 4) (i : oM.view.ty.Idx) : i ∈ (pc2o oM c s).view.set ↔ inBox (rowOf c 1 s) 256 256 i :=
  mem_unit (off2_one c s) rfl i
theorem mem_st3 (c : Dev nD) (s : Fin 4) (i : oM.view.ty.Idx) :
    i ∈ (oM.access (rx3 c 0 s)).setOn Finset.univ ↔ inBox (rowOf c 0 s) 0 256 i := mem_unit (off3_zero c s) rfl i
theorem mem_st4 (c : Dev nD) (s : Fin 4) (i : oM.view.ty.Idx) :
    i ∈ (oM.access (rx4 c 0 s)).setOn Finset.univ ↔ inBox (rowOf c 0 s) 256 256 i := mem_unit (off4_zero c s) rfl i
-- Loading and storing through the whole buffer reach the same elements.
theorem ld_set (R : Rect S1024x512) : oM.view.setOn R.toLoadRect.set = (oM.access R).setOn Finset.univ :=
  Finset.map_refl.trans (View.set_slice_whole cc0_stg1_0 R).symm

theorem own_rows_halves (c : Dev nD) (s : Fin 4) :
    (oM.access (rx3 c 0 s)).setOn Finset.univ ∪ (oM.access (rx4 c 0 s)).setOn Finset.univ = (pc5 oM c s).view.set := by
  refine Finset.ext fun i => Finset.mem_union.trans (((mem_st3 c s i).or (mem_st4 c s i)).trans (Iff.trans ?_ (mem_pc5 c s i).symm))
  have h1 : (i (1 : Fin 2)).val < 512 := (i (1 : Fin 2)).isLt
  unfold inBox
  omega
theorem own_halves_disj (c : Dev nD) (s : Fin 4) :
    Disjoint ((oM.access (rx3 c 0 s)).setOn Finset.univ) ((oM.access (rx4 c 0 s)).setOn Finset.univ) := by
  refine Finset.disjoint_left.mpr fun i h3 h4 => ?_
  have h3 := (mem_st3 c s i).mp h3
  have h4 := (mem_st4 c s i).mp h4
  unfold inBox at h3 h4
  omega
theorem own_load_low (c : Dev nD) (s : Fin 4) : oM.view.setOn (rx3 c 0 s).toLoadRect.set ⊆ (pc5 oM c s).view.set := by
  rw [ld_set, ← own_rows_halves]; exact Finset.subset_union_left
theorem own_load_high (c : Dev nD) (s : Fin 4) : oM.view.setOn (rx4 c 0 s).toLoadRect.set ⊆ (pc5 oM c s).view.set := by
  rw [ld_set, ← own_rows_halves]; exact Finset.subset_union_right
-- The block three on from `c` is the own block of `prv c`, the block one on that of `nxt c`.
theorem fwd_low_subset (c : Dev nD) (s : Fin 4) : (pc1m oM c s).view.set ⊆ (pc5 oM (prv c) s).view.set := by
  intro i h
  have h := (mem_pc1m c s i).mp h
  refine (mem_pc5 (prv c) s i).mpr ?_
  simp only [inBox, rowOf, prv] at h ⊢
  omega
theorem fwd_high_subset (c : Dev nD) (s : Fin 4) : (pc2o oM c s).view.set ⊆ (pc5 oM (nxt c) s).view.set := by
  intro i h
  have h := (mem_pc2o c s i).mp h
  refine (mem_pc5 (nxt c) s i).mpr ?_
  simp only [inBox, rowOf, nxt] at h ⊢
  omega

def opieces (c : Dev nD) : List (Finset oM.view.ty.Idx) :=
  (List.finRange 4).flatMap fun s =>
    [(pc5 oM c s).view.set, (pc5 oM (prv c) s).view.set, (pc5 oM (nxt c) s).view.set, (pc1m oM (prv c) s).view.set, (pc2o oM (nxt c) s).view.set]

-- Distinct labels, and `key` constant on each set with its label as value: two of the sets share no member.
theorem pairwise_disjoint_of_key {α κ : Type} (key : α → κ) (L : List (κ × Finset α)) (hn : (L.map Prod.fst).Nodup)
    (hk : ∀ p ∈ L, ∀ x ∈ p.2, key x = p.1) : (L.map Prod.snd).Pairwise Disjoint :=
  List.pairwise_map.mpr ((List.pairwise_map.mp hn).imp_of_mem fun hp hq hne =>
    Finset.disjoint_left.mpr fun x hx hx' => hne ((hk _ hp x hx).symm.trans (hk _ hq x hx')))

-- Quarter of an index's row block, and the kind of piece: by the block's distance from `c`, and two blocks on by the column half.
def okey (c : Dev nD) (i : oM.view.ty.Idx) : Nat × Nat :=
  ((i (0 : Fin 2)).val % 256 / 64,
    if ((i (0 : Fin 2)).val / 256 + 4 - c.val) % 4 = 0 then 0
    else if ((i (0 : Fin 2)).val / 256 + 4 - c.val) % 4 = 3 then 1
    else if ((i (0 : Fin 2)).val / 256 + 4 - c.val) % 4 = 1 then 2
    else if (i (1 : Fin 2)).val < 256 then 3 else 4)

def olist (c : Dev nD) : List ((Nat × Nat) × Finset oM.view.ty.Idx) :=
  (List.finRange 4).flatMap fun s =>
    [((s.val, 0), (pc5 oM c s).view.set), ((s.val, 1), (pc5 oM (prv c) s).view.set), ((s.val, 2), (pc5 oM (nxt c) s).view.set),
      ((s.val, 3), (pc1m oM (prv c) s).view.set), ((s.val, 4), (pc2o oM (nxt c) s).view.set)]

theorem olist_key (c : Dev nD) : ∀ p ∈ olist c, ∀ x ∈ p.2, okey c x = p.1 := by
  intro p hp
  obtain ⟨s, -, hp⟩ := List.mem_flatMap.mp hp
  simp only [List.mem_cons, List.mem_nil_iff, or_false] at hp
  have hc : c.val < 4 := c.isLt
  have hs : s.val < 4 := s.isLt
  rcases hp with rfl | rfl | rfl | rfl | rfl <;> intro x hx <;>
    have h0 : (x (0 : Fin 2)).val < 1024 := (x (0 : Fin 2)).isLt <;>
    have h1 : (x (1 : Fin 2)).val < 512 := (x (1 : Fin 2)).isLt
  on_goal 1 => have h := (mem_pc5 c s x).mp hx
  on_goal 2 => have h := (mem_pc5 (prv c) s x).mp hx
  on_goal 3 => have h := (mem_pc5 (nxt c) s x).mp hx
  on_goal 4 => have h := (mem_pc1m (prv c) s x).mp hx
  on_goal 5 => have h := (mem_pc2o (nxt c) s x).mp hx
  all_goals
    simp only [inBox, rowOf, prv, nxt] at h
    refine Prod.ext (show (x (0 : Fin 2)).val % 256 / 64 = s.val by omega) ?_
    simp only [okey]
    split_ifs <;> omega

theorem opieces_disj (c : Dev nD) : (opieces c).Pairwise Disjoint := by
  have h := pairwise_disjoint_of_key (okey c) (olist c)
    (by simp only [olist, List.map_flatMap, List.map_cons, List.map_nil]; decide) (olist_key c)
  simpa only [opieces, olist, List.map_flatMap, List.map_cons, List.map_nil] using h

theorem opieces_cover (c : Dev nD) (i : oM.view.ty.Idx) : ∃ S ∈ opieces c, i ∈ S := by
  have hc : c.val < 4 := c.isLt
  have h0 : (i (0 : Fin 2)).val < 1024 := (i (0 : Fin 2)).isLt
  have h1 : (i (1 : Fin 2)).val < 512 := (i (1 : Fin 2)).isLt
  obtain ⟨s, hs⟩ : ∃ s : Fin 4, s.val = (i (0 : Fin 2)).val % 256 / 64 := ⟨⟨(i (0 : Fin 2)).val % 256 / 64, by omega⟩, rfl⟩
  obtain ⟨D, hD⟩ : ∃ D, D = ((i (0 : Fin 2)).val / 256 + 4 - c.val) % 4 := ⟨_, rfl⟩
  rcases (by omega : D = 0 ∨ D = 3 ∨ D = 1 ∨ D = 2 ∧ (i (1 : Fin 2)).val < 256 ∨ D = 2 ∧ 256 ≤ (i (1 : Fin 2)).val) with h | h | h | h | h
  · exact ⟨_, List.mem_flatMap.mpr ⟨s, List.mem_finRange s, .head _⟩, (mem_pc5 c s i).mpr (by simp only [inBox, rowOf]; omega)⟩
  · exact ⟨_, List.mem_flatMap.mpr ⟨s, List.mem_finRange s, .tail _ (.head _)⟩, (mem_pc5 (prv c) s i).mpr (by simp only [inBox, rowOf, prv]; omega)⟩
  · exact ⟨_, List.mem_flatMap.mpr ⟨s, List.mem_finRange s, .tail _ (.tail _ (.head _))⟩, (mem_pc5 (nxt c) s i).mpr (by simp only [inBox, rowOf, nxt]; omega)⟩
  · exact ⟨_, List.mem_flatMap.mpr ⟨s, List.mem_finRange s, .tail _ (.tail _ (.tail _ (.head _)))⟩, (mem_pc1m (prv c) s i).mpr (by simp only [inBox, rowOf, prv]; omega)⟩
  · exact ⟨_, List.mem_flatMap.mpr ⟨s, List.mem_finRange s, .tail _ (.tail _ (.tail _ (.tail _ (.head _))))⟩, (mem_pc2o (nxt c) s i).mpr (by simp only [inBox, rowOf, nxt]; omega)⟩

end Cert.KernelIdeal.AR

end
-- ==== Proof.ArKernelIdeal.Dats.lean ====
import proofs.«900109_g7700000000000110_dist_ar_v7x_i4_i_m1024_n512_f32_1_alg».proof.Proof.ArKernelIdeal.Flow
import proofs.«900109_g7700000000000110_dist_ar_v7x_i4_i_m1024_n512_f32_1_alg».proof.Proof.ArKernelIdeal.Geom
import proofs.«900109_g7700000000000110_dist_ar_v7x_i4_i_m1024_n512_f32_1_alg».proof.Proof.Gen.KernelIdeal.Points

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def layOver {I V : Type} [DecidableEq I] (l : List (Finset I × (I → V))) (g : I → V) : I → V :=
  l.foldr (fun Sf acc => Sf.1.piecewise Sf.2 acc) g

def opiecesC (c : Dev nD) : List (Finset oM.view.ty.Idx × (oM.view.ty.Idx → Elt F .f32)) :=
  (List.finRange 4).flatMap fun s =>
    [((pc5 oM c s).view.set, oC m c s), ((pc5 oM (prv c) s).view.set, lnd6 m c s), ((pc5 oM (nxt c) s).view.set, lnd7 m c s),
      ((pc1m oM (prv c) s).view.set, lnd8 m c s), ((pc2o oM (nxt c) s).view.set, lnd9 m c s)]

def outFinal (c : Dev nD) : (cc0_stg1_0 : Ref sig .tc).ty.Contents (Elt F) := layOver (opiecesC m c) junkO

abbrev scrAny (c : Dev nD) (b : Ref sig .tc) : sProp 𝕄 := iprop(∃ f : Buf (Elt F) ((c : Thread nD τ).loc b), ((c : Thread nD τ).loc b) ↦{fullShare} f)

def Φ₀ (c : Dev nD) : sProp 𝕄 := iprop(start m c ∗ scrAny c cc0_scratch0 ∗ scrAny c cc0_scratch1 ∗ scrAny c cc0_scratch2)
def ownZero (c : Dev nD) : sProp 𝕄 := bigSep Finset.univ fun js : JS => iprop(semVal (sCell c js.1 js.2) 0 ∗ semVal (rCell c js.1 js.2) 0)
def Φ₁ (c : Dev nD) : sProp 𝕄 := iprop((scrAny c cc0_scratch0 ∗ scrAny c cc0_scratch1 ∗ scrAny c cc0_scratch2) ∗ ownZero (F := F) c)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := m ((cfg0.win w).arr.view.loc (c : Thread nD τ))
  after w _ := match w with
    | ⟨0, _⟩ => X m c
    | ⟨1, _⟩ => outFinal m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Cid → ℕ) (c : Dev nD) : sProp 𝕄 :=
  iprop((ghost m K c ∗ creds (F := F) c ∗ levAts L lv ∗ scrAny c cc0_scratch0 ∗ scrAny c cc0_scratch1 ∗ scrAny c cc0_scratch2)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ c ∗ (dats m 0 c).owesAt () t₀.succ ∗ stg c cc0_stg0_0 (X m c) ∗ stg c cc0_stg1_0 (outFinal m c))

abbrev theBody : Prog (TpuEff nD τ sig (Elt F) Λ₀ .tc) PUnit :=
  cc0_body (Memref.whole cc0_stg0_0) (Memref.isWhole_whole _) (Memref.whole cc0_stg1_0) (Memref.isWhole_whole _)
    (Memref.whole cc0_scratch0) (Memref.isWhole_whole _) (Memref.whole cc0_scratch1) (Memref.isWhole_whole _) (Memref.whole cc0_scratch2) (Memref.isWhole_whole _)
    cc0_scratch3 cc0_scratch4 cc0_scratch5 cc0_scratch6 cc0_scratch7 cc0_scratch8

end Cert.KernelIdeal.AR

end
-- ==== Proof.ArKernelIdeal.Bundles.lean ====
import proofs.«900109_g7700000000000110_dist_ar_v7x_i4_i_m1024_n512_f32_1_alg».proof.Proof.ArKernelIdeal.Dats

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

def rorder : List JS :=
  ((List.finRange 4).flatMap fun s => [(0, s), (1, s)]) ++ ((List.finRange 4).flatMap fun s => [(4, s), (2, s), (3, s), (5, s)])
    ++ ((List.finRange 4).flatMap fun s => [(6, s), (7, s)]) ++ ((List.finRange 4).flatMap fun s => [(8, s), (9, s)])
def xkeys : List JS := (List.finRange 4).flatMap fun s => [(0, s), (1, s), (2, s), (3, s)]
def mkeys : List (Fin 2 × Fin 4) := (List.finRange 4).flatMap fun s => [(0, s), (1, s)]

def restOf (c : Dev nD) (b : Ref sig .tc) (l : List (Finset (Idx ((c : Thread nD τ).loc b)))) : sProp 𝕄 :=
  iprop(∃ f : Buf (Elt F) ((c : Thread nD τ).loc b), ((c : Thread nD τ).loc b) ↦[Finset.univ \ l.foldr (· ∪ ·) ∅]{fullShare} f)
def restA (c : Dev nD) : sProp 𝕄 := restOf (F := F) c cc0_scratch0 (mkeys.map fun is : Fin 2 × Fin 4 => ((sl3 aM is.1 is.2).view.set : Finset (Idx ((c : Thread nD τ).loc cc0_scratch0))))
def restM (c : Dev nD) : sProp 𝕄 := restOf (F := F) c cc0_scratch1 (mkeys.map fun is : Fin 2 × Fin 4 => ((sl3 mM is.1 is.2).view.set : Finset (Idx ((c : Thread nD τ).loc cc0_scratch1))))
def restR (c : Dev nD) : sProp 𝕄 :=
  restOf (F := F) c cc0_scratch2 ((List.finRange 4).flatMap fun s => [(sl4 0 0 s).view.set, (sl4 0 1 s).view.set, (sl4 1 0 s).view.set, (sl4 1 1 s).view.set])
def xRest (c : Dev nD) (js : JS) : sProp 𝕄 :=
  (((geo js.1).src c js.2).view.loc (c : Thread nD τ) ↦[Finset.univ \ ((geo js.1).src c js.2).view.set]{shr js.1 js.2} srcC m c js.1 js.2)

def stayed6 (c : Dev nD) (s : Fin 4) : sProp 𝕄 :=
  ((pc5 oM (prv c) s).view.loc (c : Thread nD τ) ↦[(pc5 oM (prv c) s).view.set \ (pc1m oM c s).view.set]{fullShare} lnd6 m c s)
def stayed7 (c : Dev nD) (s : Fin 4) : sProp 𝕄 :=
  ((pc5 oM (nxt c) s).view.loc (c : Thread nD τ) ↦[(pc5 oM (nxt c) s).view.set \ (pc2o oM c s).view.set]{fullShare} lnd7 m c s)
def landedEnd (c : Dev nD) (js : JS) : sProp 𝕄 :=
  if js.1 = 6 then stayed6 m c js.2 else if js.1 = 7 then stayed7 m c js.2 else recvPay m c js.1 js.2

def Init (c : Dev nD) (W : Waits sig Unit) : sProp 𝕄 :=
  iprop(atPos ER (barCell c) 0 ∅ 0 ∗ dutyTok ER (barCell (prv c)) 0 true ∗ dutyTok ER (barCell (nxt c)) 0 false
    ∗ cred (tallyAt (barCell c) () 2) ∗ owes (c : Thread nD τ) (O₀ c) W
    ∗ barPay (F := F) (prv c) true ∗ barPay (F := F) (nxt c) false
    ∗ bigSepL order (copyToks (F := F) c) ∗ bigSepL rorder (recvKit (F := F) c)
    ∗ bigSepL order (fun js => (atPos ER (sCell c js.1 js.2) 0 ∅ 0 : sProp 𝕄))
    ∗ bigSepL xkeys (fun js => iprop(sendPay m c js.1 js.2 ∗ xRest m c js)) ∗ xLoad m c
    ∗ bigSepL mkeys (fun is => iprop(∃ f, mPiece (F := F) c is.1 is.2 f)) ∗ bigSepL (List.finRange 4) (fun s => iprop(∃ f, oRows (F := F) c s f))
    ∗ restA (F := F) c ∗ restM (F := F) c ∗ restR (F := F) c)

def Fin' (c : Dev nD) : sProp 𝕄 :=
  iprop(atPos ER (barCell c) 1 ∅ 0 ∗ (∃ W, owes (c : Thread nD τ) 0 W)
    ∗ bigSepL order (fun js => iprop(sendPay m c js.1 js.2 ∗ atPos ER (sCell c js.1 js.2) 1 ∅ 0))
    ∗ bigSepL rorder (fun js => iprop(landedEnd m c js ∗ atPos ER (rCell c js.1 js.2) 1 ∅ 0))
    ∗ bigSepL xkeys (xRest m c) ∗ xLoad m c
    ∗ restA (F := F) c ∗ restM (F := F) c ∗ restR (F := F) c)

end Cert.KernelIdeal.AR

end
-- ==== Proof.LibBundles.lean ====
import Idealize.ShloMosaic.Lib.Pipeline.Kit

/-! Bundles over lists (append, permutation, re-indexing, families of four) and buffers cut into keyed pieces and rejoined. -/

noncomputable section

namespace Cert.LibBundles

open Idealize.SL Idealize.SL.RA Idealize.SL.BI
open scoped Idealize.SL.BI
open Idealize.SL.BI.BIBase Idealize.SL.BI.Laws

variable {M : Type _} [URA M]

theorem eq_of {P Q : sProp M} (h : P ⊣⊢ Q) : P = Q := equiv_iff.mp ⟨h.1, h.2⟩

theorem sepL_cons {I : Type} (i : I) (l : List I) (Φ : I → sProp M) : bigSepL (i :: l) Φ = iprop(Φ i ∗ bigSepL l Φ) :=
  (bigSepL_cons i l Φ).trans rfl

theorem sepL_append {I : Type} (l l' : List I) (Φ : I → sProp M) : bigSepL (l ++ l') Φ = iprop(bigSepL l Φ ∗ bigSepL l' Φ) := by
  induction l with
  | nil => exact (eq_of Laws.emp_sep).symm
  | cons i l ih => rw [List.cons_append, sepL_cons, ih, sepL_cons]; exact (eq_of Laws.sep_assoc).symm

theorem sepL_perm {I : Type} {l l' : List I} (h : l.Perm l') (Φ : I → sProp M) : bigSepL l Φ = bigSepL l' Φ := by
  induction h with
  | nil => rfl
  | cons i _ ih => rw [sepL_cons, sepL_cons, ih]
  | swap i j l => rw [sepL_cons, sepL_cons, sepL_cons, sepL_cons]; exact eq_of Laws.sep_left_comm
  | trans _ _ ih₁ ih₂ => exact ih₁.trans ih₂

theorem sepL_map {I J : Type} (g : J → I) (l : List J) (Φ : I → sProp M) : bigSepL (l.map g) Φ = bigSepL l (fun j => Φ (g j)) := by
  induction l with
  | nil => rfl
  | cons j l ih => rw [List.map_cons, sepL_cons, sepL_cons, ih]

theorem sepL_sep {I : Type} (l : List I) (Φ Ψ : I → sProp M) :
    bigSepL l (fun i => iprop(Φ i ∗ Ψ i)) = iprop(bigSepL l Φ ∗ bigSepL l Ψ) := by
  induction l with
  | nil => exact (eq_of Laws.emp_sep).symm
  | cons i l ih => rw [sepL_cons, sepL_cons, sepL_cons, ih]; exact eq_of Laws.sep_sep_sep_comm

theorem sepL_mono {I : Type} (l : List I) {Φ Ψ : I → sProp M} (h : ∀ i, Φ i ⊢ Ψ i) : bigSepL l Φ ⊢ bigSepL l Ψ := by
  induction l with
  | nil => exact .rfl
  | cons i l ih => rw [sepL_cons, sepL_cons]; exact (Laws.sep_mono_left (h i)).trans (Laws.sep_mono_right ih)

theorem sepL_mono2 {I : Type} (l : List I) {Φ Ψ Ξ : I → sProp M} (h : ∀ i, iprop(Φ i ∗ Ψ i) ⊢ Ξ i) :
    iprop(bigSepL l Φ ∗ bigSepL l Ψ) ⊢ bigSepL l Ξ := by
  rw [← sepL_sep]; exact sepL_mono l h

theorem sepL_cc {I : Type} (i j : I) (l : List I) (Φ : I → sProp M) : bigSepL (i :: j :: l) Φ = iprop(Φ i ∗ bigSepL (j :: l) Φ) := rfl

def fams {α : Type} (js : List α) : List (α × Fin 4) := js.flatMap fun j => (List.finRange 4).map (Prod.mk j)

theorem sepL_fams {α : Type} (js : List α) (Φ : α × Fin 4 → sProp M) :
    bigSepL (fams js) Φ = bigSepL js (fun j => bigSepL (List.finRange 4) (fun s => Φ (j, s))) := by
  induction js with
  | nil => rfl
  | cons j js ih =>
    show bigSepL ((List.finRange 4).map (Prod.mk j) ++ fams js) Φ = _
    rw [sepL_append, sepL_map, sepL_cons, ih]

section Buffers

open Idealize.ShloMosaic Idealize.SL.ProofMode

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

abbrev anyOn {ℓ : Loc nD τ sig} (S : Finset (Idx ℓ)) : sProp 𝕄 := iprop(∃ f : Buf Val ℓ, ℓ ↦[S]{fullShare} f)

theorem anyOn_split {ℓ : Loc nD τ sig} {I S : Finset (Idx ℓ)} (h : I ⊆ S) : (anyOn S : sProp 𝕄) = iprop(anyOn I ∗ anyOn (S \ I)) := by
  refine eq_of ⟨?_, ?_⟩
  · iintro ⟨%f, H⟩
    ihave H := (pointsTo_split_subset h).1 $$ H
    icases H with ⟨H1, H2⟩
    isplitl [H1] <;> iexists f <;> iassumption
  · iintro ⟨⟨%g, H1⟩, %f, H2⟩
    iexists I.piecewise g f
    iapply (pointsTo_join_subset h) $$ [H1 H2]
    isplitl [H1] <;> iassumption

theorem anyOn_cut {κ : Type} {ℓ : Loc nD τ sig} (Sf : κ → Finset (Idx ℓ)) :
    ∀ (l : List κ) (S : Finset (Idx ℓ)), (l.map Sf).Pairwise Disjoint → (∀ k ∈ l, Sf k ⊆ S) →
      (anyOn S : sProp 𝕄) = iprop(bigSepL l (fun k => anyOn (Sf k)) ∗ anyOn (S \ (l.map Sf).foldr (· ∪ ·) ∅))
  | [], S, _, _ => by rw [List.map_nil, List.foldr_nil, Finset.sdiff_empty]; exact (eq_of Laws.emp_sep).symm
  | k :: l, S, hd, hs => by
    rw [List.map_cons, List.pairwise_cons] at hd
    have hsub : ∀ k' ∈ l, Sf k' ⊆ S \ Sf k := fun k' hk' i hi => Finset.mem_sdiff.mpr
      ⟨hs k' (List.mem_cons_of_mem _ hk') hi, fun hik => Finset.disjoint_left.mp (hd.1 _ (List.mem_map_of_mem hk')) hik hi⟩
    rw [sepL_cons, show S \ ((k :: l).map Sf).foldr (· ∪ ·) ∅ = (S \ Sf k) \ (l.map Sf).foldr (· ∪ ·) ∅ from sdiff_sdiff_left.symm,
      eq_of Laws.sep_assoc, ← anyOn_cut Sf l _ hd.2 hsub]
    exact anyOn_split (hs k List.mem_cons_self)

theorem mem_foldr_union {α : Type} [DecidableEq α] {i : α} {l : List (Finset α)} : i ∈ l.foldr (· ∪ ·) ∅ ↔ ∃ S ∈ l, i ∈ S := by
  induction l with
  | nil => simp
  | cons S l ih => simp [ih]

theorem pts_join_list {ℓ : Loc nD τ sig} (g : Buf Val ℓ) :
    ∀ (l : List (Finset (Idx ℓ) × Buf Val ℓ)), (l.map Prod.fst).Pairwise Disjoint →
      bigSepL l (fun p => ℓ ↦[p.1]{fullShare} p.2) ⊢ (ℓ ↦[(l.map Prod.fst).foldr (· ∪ ·) ∅]{fullShare} l.foldr (fun Sf acc => Sf.1.piecewise Sf.2 acc) g : sProp 𝕄)
  | [], _ => by rw [List.map_nil, List.foldr_nil, pointsTo_empty]; exact .rfl
  | p :: l, hd => by
    rw [List.map_cons, List.pairwise_cons] at hd
    rw [sepL_cons, List.map_cons, List.foldr_cons, Finset.union_comm]
    refine (Laws.sep_mono_right (pts_join_list g l hd.2)).trans (Laws.sep_comm.1.trans (pointsTo_join (Finset.disjoint_left.mpr fun i hU hp => ?_)))
    obtain ⟨B, hB, hi⟩ := mem_foldr_union.mp hU
    exact Finset.disjoint_left.mp (hd.1 B hB) hp hi

theorem pts_join_cover {ℓ : Loc nD τ sig} (g : Buf Val ℓ) (l : List (Finset (Idx ℓ) × Buf Val ℓ))
    (hd : (l.map Prod.fst).Pairwise Disjoint) (hc : ∀ i, ∃ S ∈ l.map Prod.fst, i ∈ S) :
    bigSepL l (fun p => ℓ ↦[p.1]{fullShare} p.2) ⊢ (ℓ ↦{fullShare} l.foldr (fun Sf acc => Sf.1.piecewise Sf.2 acc) g : sProp 𝕄) :=
  (Finset.eq_univ_of_forall fun i => mem_foldr_union.mpr (hc i)) ▸ pts_join_list g l hd

theorem pts_quarters {ℓ : Loc nD τ sig} {S : Finset (Idx ℓ)} (q : PosShare TreeShare) (f : Buf Val ℓ) :
    (ℓ ↦[S]{q} f : sProp 𝕄) = iprop((ℓ ↦[S]{q.left.left} f) ∗ (ℓ ↦[S]{q.left.right} f) ∗ (ℓ ↦[S]{q.right.left} f) ∗ (ℓ ↦[S]{q.right.right} f)) := by
  rw [eq_of (pointsTo_share (PosShare.mem_left_op_right q)), eq_of (pointsTo_share (PosShare.mem_left_op_right q.left)),
    eq_of (pointsTo_share (PosShare.mem_left_op_right q.right))]
  exact eq_of Laws.sep_assoc

end Buffers

end Cert.LibBundles

end
-- ==== Proof.ArKernelIdeal.Plumb.lean ====
import proofs.«900109_g7700000000000110_dist_ar_v7x_i4_i_m1024_n512_f32_1_alg».proof.Proof.ArKernelIdeal.Bundles
import proofs.«900109_g7700000000000110_dist_ar_v7x_i4_i_m1024_n512_f32_1_alg».proof.Proof.LibBundles

noncomputable section

namespace Cert.KernelIdeal.AR

open Cert.KernelIdeal.Gen Cert.LibBundles
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ)

namespace Plumb

theorem fam_eq (p c : Dev nD) (j : Fin 10) (h : nb (geo j).side p = c) :
    (fun s => dstAny (F := F) p (j, s)) = fun s => anyOn (ℓ := ((geo j).dst p s).view.loc (c : Thread nD τ)) ((geo j).dst p s).view.set := by
  subst h; rfl

theorem mkeys_fams : mkeys.Perm (fams [0, 1]) := by decide

theorem sl3_pairwise (b : Memref sig .tc .vmem S2x256x256 .f32) (hb : b.IsWhole) :
    (@List.map (Fin 2 × Fin 4) (Finset b.view.ty.Idx) (fun is => (sl3 b is.1 is.2).view.set) mkeys).Pairwise Disjoint :=
  List.pairwise_map.mpr ((by decide : mkeys.Nodup).imp fun {a a'} hne => sl3_disj b hb a.1 a'.1 a.2 a'.2 hne)

theorem cutA (c : Dev nD) : scrAny (F := F) c cc0_scratch0
    = iprop((bigSepL (List.finRange 4) (fun s => dstAny (F := F) (prv c) (0, s)) ∗ bigSepL (List.finRange 4) (fun s => dstAny (F := F) (nxt c) (1, s))) ∗ restA (F := F) c) := by
  have key : (_ : sProp 𝕄) = _ := anyOn_cut (ℓ := (c : Thread nD τ).loc cc0_scratch0) (fun is : Fin 2 × Fin 4 => ((sl3 aM is.1 is.2).view.set : Finset (Idx ((c : Thread nD τ).loc cc0_scratch0))))
    mkeys Finset.univ (sl3_pairwise aM (Memref.isWhole_whole _)) (fun _ _ => Finset.subset_univ _)
  rw [sepL_perm mkeys_fams, sepL_fams] at key
  rw [fam_eq (prv c) c 0 (nxt_prv c), fam_eq (nxt c) c 1 (prv_nxt c)]
  exact key

theorem cutM (c : Dev nD) : scrAny (F := F) c cc0_scratch1 = iprop(bigSepL mkeys (fun is => iprop(∃ f, mPiece (F := F) c is.1 is.2 f)) ∗ restM (F := F) c) :=
  anyOn_cut (ℓ := (c : Thread nD τ).loc cc0_scratch1) (fun is : Fin 2 × Fin 4 => ((sl3 mM is.1 is.2).view.set : Finset (Idx ((c : Thread nD τ).loc cc0_scratch1))))
    mkeys Finset.univ (sl3_pairwise mM (Memref.isWhole_whole _)) (fun _ _ => Finset.subset_univ _)

def rkeys : List (Fin 2 × Fin 2 × Fin 4) := (List.finRange 4).flatMap fun s => [(0, 0, s), (0, 1, s), (1, 0, s), (1, 1, s)]
theorem sl4_pairwise :
    (@List.map (Fin 2 × Fin 2 × Fin 4) (Finset rM.view.ty.Idx) (fun ips => (sl4 ips.1 ips.2.1 ips.2.2).view.set) rkeys).Pairwise Disjoint :=
  List.pairwise_map.mpr ((by decide : rkeys.Nodup).imp fun {a a'} hne => sl4_disj a.1 a.2.1 a'.1 a'.2.1 a.2.2 a'.2.2 hne)

theorem cutR (c : Dev nD) : scrAny (F := F) c cc0_scratch2
    = iprop((bigSepL (List.finRange 4) (fun s => dstAny (F := F) (prv c) (2, s)) ∗ bigSepL (List.finRange 4) (fun s => dstAny (F := F) (nxt c) (3, s))
      ∗ bigSepL (List.finRange 4) (fun s => dstAny (F := F) (prv c) (4, s)) ∗ bigSepL (List.finRange 4) (fun s => dstAny (F := F) (nxt c) (5, s))) ∗ restR (F := F) c) := by
  have key : (_ : sProp 𝕄) = _ := anyOn_cut (ℓ := (c : Thread nD τ).loc cc0_scratch2) (fun ips : Fin 2 × Fin 2 × Fin 4 => ((sl4 ips.1 ips.2.1 ips.2.2).view.set : Finset (Idx ((c : Thread nD τ).loc cc0_scratch2))))
    rkeys Finset.univ sl4_pairwise (fun _ _ => Finset.subset_univ _)
  rw [sepL_perm (show rkeys.Perm ((fams [((0 : Fin 2), (1 : Fin 2)), (1, 0), (0, 0), (1, 1)]).map fun x => (x.1.1, x.1.2, x.2)) by decide), sepL_map, sepL_fams] at key
  rw [fam_eq (prv c) c 2 (nxt_prv c), fam_eq (nxt c) c 3 (prv_nxt c), fam_eq (prv c) c 4 (nxt_prv c), fam_eq (nxt c) c 5 (prv_nxt c)]
  exact key

def okeys : List (Fin 5 × Fin 4) := (List.finRange 4).flatMap fun s => [(0, s), (1, s), (2, s), (3, s), (4, s)]
def oPair (c : Dev nD) (ts : Fin 5 × Fin 4) : Finset oM.view.ty.Idx × (oM.view.ty.Idx → Elt F .f32) :=
  match ts.1 with
  | 0 => ((pc5 oM c ts.2).view.set, oC m c ts.2)
  | 1 => ((pc5 oM (prv c) ts.2).view.set, lnd6 m c ts.2)
  | 2 => ((pc5 oM (nxt c) ts.2).view.set, lnd7 m c ts.2)
  | 3 => ((pc1m oM (prv c) ts.2).view.set, lnd8 m c ts.2)
  | 4 => ((pc2o oM (nxt c) ts.2).view.set, lnd9 m c ts.2)
theorem okeys_fams : okeys.Perm (fams [0, 1, 2, 3, 4]) := by decide

include m in
theorem cutO (c : Dev nD) : (anyOn (ℓ := (c : Thread nD τ).loc cc0_stg1_0) Finset.univ : sProp 𝕄)
    = iprop((bigSepL (List.finRange 4) (fun s => iprop(∃ f, oRows (F := F) c s f))
      ∗ bigSepL (List.finRange 4) (fun s => dstAny (F := F) (prv c) (6, s)) ∗ bigSepL (List.finRange 4) (fun s => dstAny (F := F) (nxt c) (7, s))
      ∗ bigSepL (List.finRange 4) (fun s => dstAny (F := F) (prv c) (8, s)) ∗ bigSepL (List.finRange 4) (fun s => dstAny (F := F) (nxt c) (9, s)))
      ∗ anyOn (ℓ := (c : Thread nD τ).loc cc0_stg1_0) (Finset.univ \ (opieces c).foldr (· ∪ ·) ∅)) := by
  have key : (_ : sProp 𝕄) = _ := anyOn_cut (ℓ := (c : Thread nD τ).loc cc0_stg1_0) (fun ts : Fin 5 × Fin 4 => ((oPair m c ts).1 : Finset (Idx ((c : Thread nD τ).loc cc0_stg1_0))))
    okeys Finset.univ (opieces_disj c) (fun _ _ => Finset.subset_univ _)
  rw [sepL_perm okeys_fams, sepL_fams] at key
  rw [fam_eq (prv c) c 6 (nxt_prv c), fam_eq (nxt c) c 7 (prv_nxt c), fam_eq (prv c) c 8 (nxt_prv c), fam_eq (nxt c) c 9 (prv_nxt c)]
  exact key

theorem fin4_list : List.finRange 4 = [(0 : Fin 4), 1, 2, 3] := by decide

def xq2 (j : Fin 10) : PosShare TreeShare :=
  if j.val % 2 = 0 then (if j.val / 2 = 0 then fullShare.right.left else fullShare.right.right).left
  else (if j.val / 2 = 0 then fullShare.right.left else fullShare.right.right).right

theorem x_piece (c : Dev nD) (j : Fin 10) (s : Fin 4) (hj : j.val < 4) :
    (xM.view.loc (c : Thread nD τ) ↦[Finset.univ]{xsh j s} X m c : sProp 𝕄) = iprop(sendPay m c j s ∗ xRest m c (j, s)) := by
  have hj' : j = 0 ∨ j = 1 ∨ j = 2 ∨ j = 3 := by revert j; decide
  rcases hj' with rfl | rfl | rfl | rfl <;>
  · unfold sendPay xRest shr
    rw [if_pos (by decide)]
    exact eq_of (pointsTo_split_subset (Finset.subset_univ _))

theorem x_fam (c : Dev nD) (j : Fin 10) (hj : j.val < 4) :
    (xM.view.loc (c : Thread nD τ) ↦[Finset.univ]{xq2 j} X m c : sProp 𝕄)
      = bigSepL (List.finRange 4) (fun s => iprop(sendPay m c j s ∗ xRest m c (j, s))) := by
  rw [← funext fun s => x_piece m c j s hj, fin4_list, pts_quarters (xq2 j)]; rfl

theorem xkeys_fams : xkeys.Perm (fams [0, 1, 2, 3]) := by decide

theorem cutX (c : Dev nD) : ((c : Thread nD τ).loc cc0_stg0_0 ↦{fullShare} X m c : sProp 𝕄)
    = iprop(bigSepL xkeys (fun js => iprop(sendPay m c js.1 js.2 ∗ xRest m c js)) ∗ xLoad m c) := by
  rw [sepL_perm xkeys_fams, sepL_fams, eq_of (pointsTo_share (PosShare.mem_left_op_right fullShare)), pts_quarters fullShare.right]
  simp only [sepL_cc, bigSepL_singleton]
  rw [← x_fam m c 0 (by decide), ← x_fam m c 1 (by decide), ← x_fam m c 2 (by decide), ← x_fam m c 3 (by decide)]
  exact eq_of Laws.sep_comm

theorem join_x (c : Dev nD) :
    iprop((bigSepL xkeys (fun js => sendPay m c js.1 js.2) ∗ bigSepL xkeys (xRest m c)) ∗ xLoad m c) ⊢ stg (F := F) c cc0_stg0_0 (X m c) := by
  rw [← sepL_sep, ← cutX]
  iintro H; iexists X m c
  isplitr; · ipureintro; rfl
  iexact H

theorem order_nodup : order.Nodup := by decide
theorem order_univ : (Finset.univ : Finset JS) = order.toFinset := by decide
theorem rorder_nodup : rorder.Nodup := by decide
theorem rorder_univ : (Finset.univ : Finset JS) = rorder.toFinset := by decide

def cidL : List Cid :=
  .inl () :: ((order.map fun js => (.inr (true, js.1, js.2) : Cid)) ++ (rorder.map fun js => (.inr (false, js.1, js.2) : Cid)))

theorem positions_eq (c : Dev nD) :
    (bigSep Finset.univ fun id : Cid => (atPos ER (kcell (c, id)) 0 ∅ 0 : sProp 𝕄))
      = iprop(atPos ER (barCell c) 0 ∅ 0 ∗ bigSepL order (fun js => (atPos ER (sCell c js.1 js.2) 0 ∅ 0 : sProp 𝕄))
          ∗ bigSepL rorder (fun js => (atPos ER (rCell c js.1 js.2) 0 ∅ 0 : sProp 𝕄))) := by
  rw [bigSep_univ_eq_bigSepL cidL (by decide) (by decide)]
  unfold cidL
  rw [bigSepL_cons', sepL_append, sepL_map, sepL_map]
  rfl

theorem barPay_true_eq (p : Dev nD) : barPay (F := F) p true
    = bigSepL [0, 2, 4, 6, 8] (fun j => bigSepL (List.finRange 4) (fun s => dstAny (F := F) p (j, s))) := by
  show bigSepL (sideKeys 0) _ = _
  rw [show sideKeys 0 = fams [0, 2, 4, 6, 8] by decide, sepL_fams]
theorem barPay_false_eq (p : Dev nD) : barPay (F := F) p false
    = bigSepL [1, 3, 5, 7, 9] (fun j => bigSepL (List.finRange 4) (fun s => dstAny (F := F) p (j, s))) := by
  show bigSepL (sideKeys 1) _ = _
  rw [show sideKeys 1 = fams [1, 3, 5, 7, 9] by decide, sepL_fams]

theorem sepL_fupd {I : Type} (R : sProp 𝕄) [BI.Persistent R] (l : List I) (Φ Ψ : I → sProp 𝕄)
    (h : ∀ i, iprop(R ∗ Φ i) ⊢ iprop(|={Set.univ}=> Ψ i)) : iprop(R ∗ bigSepL l Φ) ⊢ iprop(|={Set.univ}=> bigSepL l Ψ) := by
  induction l with
  | nil => iintro ⟨-, H⟩; imodintro; iexact H
  | cons i l ih =>
    rw [bigSepL_cons', bigSepL_cons']
    iintro ⟨#HR, Hi, Hl⟩
    imod (h i) $$ [Hi] with Hi
    · iframe HR Hi
    imod ih $$ [Hl] with Hl
    · iframe HR Hl
    imodintro; iframe

theorem close_cell (K : Dev nD × Cid → ℕ) (c : Dev nD) (b : Bool) (js : JS) :
    iprop(records m K ∗ atPos ER (kcell (c, .inr (b, js.1, js.2))) 1 ∅ 0) ⊢ iprop(|={Set.univ}=> semVal (kcell (c, .inr (b, js.1, js.2))) 0) := by
  iintro ⟨#HR, Hat⟩
  iapply (Rounds.cell_close ER (ringRd m) (Set.mem_univ (K (c, .inr (b, js.1, js.2)))) (fun h => h) (R := 1) (duties_later m _))
  isplitr; · iapply (inv_at m K (c, .inr (b, js.1, js.2))); iexact HR
  iexact Hat

theorem close_all (K : Dev nD × Cid → ℕ) (c : Dev nD) :
    iprop(records m K ∗ bigSepL order (fun js => (atPos ER (sCell c js.1 js.2) 1 ∅ 0 : sProp 𝕄))
        ∗ bigSepL rorder (fun js => (atPos ER (rCell c js.1 js.2) 1 ∅ 0 : sProp 𝕄)))
      ⊢ iprop(|={Set.univ}=> ownZero (F := F) c) := by
  unfold ownZero
  rw [bigSep_univ_eq_bigSepL order order_univ order_nodup, sepL_sep,
    ← sepL_perm (show rorder.Perm order by decide) (fun js => (semVal (rCell c js.1 js.2) 0 : sProp 𝕄))]
  iintro ⟨#HR, HS, HRc⟩
  imod (sepL_fupd (records m K) order _ _ (close_cell m K c true)) $$ [HS] with HS
  · isplitr; · iexact HR
    iexact HS
  imod (sepL_fupd (records m K) rorder _ _ (close_cell m K c false)) $$ [HRc] with HRc
  · isplitr; · iexact HR
    iexact HRc
  imodintro
  isplitl [HS]; · iexact HS
  iexact HRc

theorem recv_fam (c p : Dev nD) (j : Fin 10) (hp : bn (geo j).side c = p) (h : j ≠ 6 ∧ j ≠ 7) :
    bigSepL (List.finRange 4) (fun s => landedEnd m c (j, s)) ⊢ bigSepL (List.finRange 4) (fun s => dstAny (F := F) p (j, s)) := by
  subst hp
  refine sepL_mono _ fun s => ?_
  unfold landedEnd
  rw [if_neg h.1, if_neg h.2, congrFun (fam_eq _ c j (nb_bn _ c)) s]
  unfold recvPay; iintro H; iexists _; iexact H

theorem send_fam (c : Dev nD) (j : Fin 10) (i : Fin 2) (h : (j, i) = (4, 0) ∨ (j, i) = (5, 1)) :
    bigSepL (List.finRange 4) (fun s => sendPay m c j s) ⊢ bigSepL (List.finRange 4) (fun s => iprop(∃ f, mPiece (F := F) c i s f)) := by
  refine sepL_mono _ fun s => ?_
  rcases h with h | h <;>
  · cases h; unfold sendPay mPiece; iintro H; iexists _; iexact H

theorem own_rows_join (c : Dev nD) (s : Fin 4) :
    iprop(sendPay m c 6 s ∗ sendPay m c 7 s) ⊢ ((c : Thread nD τ).loc cc0_stg1_0 ↦[(pc5 oM c s).view.set]{fullShare} oC m c s : sProp 𝕄) :=
  (pointsTo_share (ℓ := (c : Thread nD τ).loc cc0_stg1_0) (I := (pc5 oM c s).view.set) (f := oC m c s) (PosShare.mem_left_op_right fullShare)).2
theorem left_rows_join (c : Dev nD) (s : Fin 4) :
    iprop(sendPay m c 8 s ∗ stayed6 m c s) ⊢ ((c : Thread nD τ).loc cc0_stg1_0 ↦[(pc5 oM (prv c) s).view.set]{fullShare} lnd6 m c s : sProp 𝕄) :=
  (pointsTo_split_subset (ℓ := (c : Thread nD τ).loc cc0_stg1_0) (q := fullShare) (f := lnd6 m c s) (fwd_low_subset c s)).2
theorem right_rows_join (c : Dev nD) (s : Fin 4) :
    iprop(sendPay m c 9 s ∗ stayed7 m c s) ⊢ ((c : Thread nD τ).loc cc0_stg1_0 ↦[(pc5 oM (nxt c) s).view.set]{fullShare} lnd7 m c s : sProp 𝕄) :=
  (pointsTo_split_subset (ℓ := (c : Thread nD τ).loc cc0_stg1_0) (q := fullShare) (f := lnd7 m c s) (fwd_high_subset c s)).2

theorem far_low_eq (c : Dev nD) (s : Fin 4) :
    landedEnd m c (8, s) = ((c : Thread nD τ).loc cc0_stg1_0 ↦[(pc1m oM (prv c) s).view.set]{fullShare} lnd8 m c s : sProp 𝕄) := rfl
theorem far_high_eq (c : Dev nD) (s : Fin 4) :
    landedEnd m c (9, s) = ((c : Thread nD τ).loc cc0_stg1_0 ↦[(pc2o oM (nxt c) s).view.set]{fullShare} lnd9 m c s : sProp 𝕄) := rfl

theorem join_out (c : Dev nD) :
    iprop(bigSepL (List.finRange 4) (fun s => sendPay m c 6 s) ∗ bigSepL (List.finRange 4) (fun s => sendPay m c 7 s)
        ∗ bigSepL (List.finRange 4) (fun s => sendPay m c 8 s) ∗ bigSepL (List.finRange 4) (fun s => sendPay m c 9 s)
        ∗ bigSepL (List.finRange 4) (fun s => landedEnd m c (6, s)) ∗ bigSepL (List.finRange 4) (fun s => landedEnd m c (7, s))
        ∗ bigSepL (List.finRange 4) (fun s => landedEnd m c (8, s)) ∗ bigSepL (List.finRange 4) (fun s => landedEnd m c (9, s)))
      ⊢ stg (F := F) c cc0_stg1_0 (outFinal m c) := by
  have key : _ ⊢ (_ : sProp 𝕄) := pts_join_cover (ℓ := (c : Thread nD τ).loc cc0_stg1_0) junkO (okeys.map (oPair m c))
    (show (opieces c).Pairwise Disjoint from opieces_disj c) (opieces_cover c)
  rw [sepL_map, sepL_perm okeys_fams, sepL_fams] at key
  simp only [sepL_cc, bigSepL_singleton] at key
  iintro ⟨S6, S7, S8, S9, E6, E7, E8, E9⟩
  iexists layOver (okeys.map (oPair m c)) junkO
  isplitr; · ipureintro; rfl
  iapply key
  isplitl [S6 S7]; · iapply (sepL_mono2 _ fun s => own_rows_join m c s); iframe
  isplitl [S8 E6]
  · iapply (sepL_mono2 _ fun s => left_rows_join m c s)
    isplitl [S8]; · iexact S8
    iexact E6
  isplitl [S9 E7]
  · iapply (sepL_mono2 _ fun s => right_rows_join m c s)
    isplitl [S9]; · iexact S9
    iexact E7
  isplitl [E8]; · iapply (sepL_mono _ fun s => Entails.of_eq (far_low_eq m c s)); iexact E8
  iapply (sepL_mono _ fun s => Entails.of_eq (far_high_eq m c s)); iexact E9

theorem order_fams : order.Perm (xkeys ++ fams [4, 5, 6, 7, 8, 9]) := by decide
theorem rorder_fams : rorder.Perm (fams [0, 1, 2, 3, 4, 5, 6, 7, 8, 9]) := by decide

end Plumb

open Plumb

theorem prep' (K : Dev nD × Cid → ℕ) (c : Dev nD) :
    bodyPre m K c ⊢ iprop(records m K ∗ levAts L lv ∗ ∃ W, Init m c W) := by
  unfold bodyPre ghost positions payToks creds Init recvKit Dat.owesAt Pipeline.owesWithin
  rw [positions_eq c, bigSep_univ_eq_bigSepL order order_univ order_nodup, bigSep_univ_eq_bigSepL rorder rorder_univ rorder_nodup,
    barPay_true_eq, barPay_false_eq, cutA, cutM, cutR, sepL_sep rorder, show (dats m 0 c).owed t₀.castSucc = O₀ c from rfl]
  simp only [sepL_cc, bigSepL_singleton]
  iintro ⟨⟨⟨#HR, ⟨HpB, HpS, HpR⟩, HtP, HtN, Htoks⟩, ⟨HcB, Hcr⟩, #Hlev, ⟨⟨HA0, HA1⟩, HrA⟩, ⟨HM, HrM⟩, ⟨HR2, HR3, HR4, HR5⟩, HrR⟩, ⟨%W, %hW, HO⟩, ⟨%d0, %g0, %hg0, Hx⟩, ⟨%d1, %g1, %hg1, Hout⟩⟩
  obtain rfl : g0 = X m c := hg0
  ihave Hout := (Entails.of_eq (cutO m c)) $$ [Hout]
  · iexists g1; iexact Hout
  icases Hout with ⟨⟨Hown, HO6, HO7, HO8, HO9⟩, -⟩
  ihave Hx := (Entails.of_eq (cutX m c)) $$ Hx
  icases Hx with ⟨Hxs, HxL⟩
  iframe HR Hlev
  iexists W
  iframe

theorem join' (K : Dev nD × Cid → ℕ) (c : Dev nD) :
    iprop(records m K ∗ Fin' m c) ⊢ |={Set.univ}=> bodyPost m c := by
  unfold Fin' bodyPost Φ₁ Dat.owesAt Pipeline.owesWithin
  rw [sepL_sep, sepL_sep, sepL_perm order_fams (fun js => sendPay m c js.1 js.2), sepL_append, sepL_fams,
    sepL_perm rorder_fams (fun js => landedEnd m c js), sepL_fams, cutA, cutM, cutR, sepL_perm mkeys_fams, sepL_fams,
    show (dats m 0 c).owed t₀.succ = 0 from rfl]
  simp only [sepL_cc, bigSepL_singleton]
  iintro ⟨#HR, HatB, ⟨%W, HO⟩, ⟨⟨SX, S4, S5, S6, S7, S8, S9⟩, HpS⟩, ⟨⟨E0, E1, E2, E3, E4, E5, E6, E7, E8, E9⟩, HpR⟩, XR, XL, rA, rM, rR⟩
  imod (close_all m K c) $$ [HpS HpR] with Hz
  · iframe HR HpS HpR
  imodintro
  ihave E0 := (recv_fam m c (prv c) 0 rfl (by decide)) $$ E0
  ihave E1 := (recv_fam m c (nxt c) 1 rfl (by decide)) $$ E1
  ihave E2 := (recv_fam m c (prv c) 2 rfl (by decide)) $$ E2
  ihave E3 := (recv_fam m c (nxt c) 3 rfl (by decide)) $$ E3
  ihave E4 := (recv_fam m c (prv c) 4 rfl (by decide)) $$ E4
  ihave E5 := (recv_fam m c (nxt c) 5 rfl (by decide)) $$ E5
  ihave S4 := (send_fam m c 4 0 (.inl rfl)) $$ S4
  ihave S5 := (send_fam m c 5 1 (.inr rfl)) $$ S5
  isplitl [E0 E1 rA S4 S5 rM E2 E3 E4 E5 rR Hz]; · iframe
  isplitl [HO]
  · iexists W
    isplitr; · ipureintro; exact fun _ _ => Or.inl trivial
    iexact HO
  isplitl [SX XR XL]; · iapply (join_x m c); iframe
  iapply (join_out m c); iframe

theorem kits_of_barrier' (c : Dev nD) :
    iprop(barPay (F := F) c false ∗ barPay (F := F) c true ∗ bigSepL order (copyToks (F := F) c)) ⊢ bigSepL order (sendKit (F := F) c) := by
  unfold barPay sendKit
  rw [if_neg Bool.false_ne_true, if_pos rfl, sepL_sep, sepL_perm (show order.Perm (sideKeys 1 ++ sideKeys 0) by decide) (dstAny (F := F) c), sepL_append]
  iintro ⟨H1, H0, HT⟩; iframe

end Cert.KernelIdeal.AR

end
-- ==== Proof.ArKernelIdeal.Body1.lean ====
import proofs.«900109_g7700000000000110_dist_ar_v7x_i4_i_m1024_n512_f32_1_alg».proof.Proof.ArKernelIdeal.Flow
import proofs.«900109_g7700000000000110_dist_ar_v7x_i4_i_m1024_n512_f32_1_alg».proof.Proof.ArKernelIdeal.Geom

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cid → ℕ) (c : Dev nD)

theorem part1 (W : Waits sig Unit) (Kt : _ → sProp 𝕄) :
    iprop(records m K ∗ levAts L lv ∗ atPos ER (barCell c) 0 ∅ 0 ∗ dutyTok ER (barCell (prv c)) 0 true ∗ dutyTok ER (barCell (nxt c)) 0 false
        ∗ cred (tallyAt (barCell c) () 2) ∗ owes (c : Thread nD τ) (O₀ c) W ∗ barPay (F := F) (prv c) true ∗ barPay (F := F) (nxt c) false
        ∗ (∀ r, (⌜r.1 = c⌝ ∗ atPos ER (barCell c) 1 ∅ 0 ∗ (∃ W', owes (c : Thread nD τ) (owedL c order) W') ∗ barPay (F := F) c false ∗ barPay (F := F) c true) -∗ Kt r))
      ⊢ WP c (atB k0_part1_skel) Kt := by
  unfold atB k0_part1_skel WP
  simp only [semSignalWord, semWaitWord, Prog.lift, Prog.bind_op, Prog.bind_ret, Prog.pure_eq_ret, wp_deviceId]
  simp only [dev1_eq c, dev2_eq c]
  iintro ⟨#HR, #Hlev, Hat, HtP, HtN, Hcr, HO, HpP, HpN, Hk⟩
  iapply (Rounds.wp_signal 𝒱₀ ER (ringRd m) (c : Thread nD τ) none (dst := (prv c : Thread nD τ)) (κ := K (prv c, .inl ()))
      (d := true) (by rw [duties_bar]; exact Finset.mem_univ _) ((amount_bar m (prv c) true).trans (by decide)) () (O₁ c) rfl)
    $$ [HO HtP HpP]
  · isplitr; · iapply (inv_at m K (prv c, .inl ())); iexact HR
    isplitl [HO]; · iexact HO
    isplitl [HtP]; · iexact HtP
    isplitl [HpP]; · rw [payload_bar]; iexact HpP
    iapply (reached_at m K (prv c, .inl ())); iexact HR
  iintro HO
  iapply (Rounds.wp_signal 𝒱₀ ER (ringRd m) (c : Thread nD τ) none (dst := (nxt c : Thread nD τ)) (κ := K (nxt c, .inl ()))
      (d := false) (by rw [duties_bar]; exact Finset.mem_univ _) ((amount_bar m (nxt c) false).trans (by decide)) () (owedL c order) rfl)
    $$ [HO HtN HpN]
  · isplitr; · iapply (inv_at m K (nxt c, .inl ())); iexact HR
    isplitl [HO]; · iexact HO
    isplitl [HtN]; · iexact HtN
    isplitl [HpN]; · rw [payload_bar]; iexact HpN
    iapply (reached_at m K (nxt c, .inl ())); iexact HR
  iintro HO
  iapply (Rounds.wp_wait_rest_token 𝒱₀ ER (ringRd m) (c : Thread nD τ) none (κ := K (c, .inl ()))
      (wpE_semWait_eq 𝒱₀ (c : Thread nD τ) none Set.univ) (Set.mem_univ _) () (O := owedL c order) (W := W) (R := 0) (m := 0) (T := ∅)
      (by rw [expect_bar]; decide)) $$ [Hcr HO Hat]
  · isplitr; · iapply (inv_at m K (c, .inl ())); iexact HR
    isplitl [Hcr]; · iexact Hcr
    isplitl [HO]; · iexact HO
    isplitr; · iapply (mayWait_bar c); iexact Hlev
    iexact Hat
  iintro ⟨HO, Hat, -, Hrest⟩
  ihave Hp := (Entails.of_eq (rest_bar m c)) $$ Hrest
  icases Hp with ⟨HpF, HpT⟩
  rw [wp_ret]; imodintro
  iapply Hk
  isplitr; · ipureintro; rfl
  isplitl [Hat]; · iexact Hat
  isplitl [HO]; · iexists _; iexact HO
  isplitl [HpF]; · iexact HpF
  iexact HpT

theorem part2 (v2 v25 : BitVec 32) (ls lr sent : List JS)
    (Kt : (Σ' (v57 : BitVec 32) (v58 : BitVec 32) (v59 : BitVec 1) (v60 : BitVec 1), BitVec 1) → sProp 𝕄) :
    iprop(records m K ∗ levAts L lv ∗ St c ((0, 0) :: ls) lr sent ∗ sendPay m c 0 0
        ∗ (∀ r, St c ls lr ((0, 0) :: sent) -∗ Kt r))
      ⊢ WP c (atB k0_part2_skel c v2 v25) Kt := by
  unfold atB k0_part2_skel
  simp only [Prog.lift, Prog.bind_op, Prog.bind_ret, Prog.pure_eq_ret]
  exact send_only m K c _ 0 0 ls lr sent (dev3_eq c) _ Kt

theorem part3 (v2 v14 v57 v58 : BitVec 32) (v59 v60 v61 : BitVec 1) (ls lr sent : List JS)
    (Kt : PUnit → sProp 𝕄) :
    iprop(records m K ∗ levAts L lv ∗ St c ((1, 0) :: ls) lr sent ∗ sendPay m c 1 0
        ∗ (∀ r, St c ls lr ((1, 0) :: sent) -∗ Kt r))
      ⊢ WP c (atB k0_part3_skel c v2 v14 v57 v58 v59 v60 v61) Kt := by
  unfold atB k0_part3_skel
  simp only [Prog.lift, Prog.bind_op, Prog.bind_ret, Prog.pure_eq_ret]
  exact send_only m K c _ 1 0 ls lr sent (dev4_eq c) _ Kt

theorem part4 (v2 v14 v25 : BitVec 32) (ls lr sent : List JS)
    (Kt : PUnit → sProp 𝕄) :
    iprop(records m K ∗ levAts L lv ∗ St c ((2, 0) :: ls) lr sent ∗ sendPay m c 2 0
        ∗ (∀ r, St c ls lr ((2, 0) :: sent) -∗ Kt r))
      ⊢ WP c (atB k0_part4_skel c v2 v14 v25) Kt := by
  unfold atB k0_part4_skel
  simp only [Prog.lift, Prog.bind_op, Prog.bind_ret, Prog.pure_eq_ret]
  exact send_only m K c _ 2 0 ls lr sent (dev5_eq c) _ Kt

theorem part5 (v2 v25 : BitVec 32) (ls lr sent : List JS)
    (Kt : (Σ' (v149 : BitVec 32) (v150 : BitVec 32) (v151 : BitVec 1), BitVec 1) → sProp 𝕄) :
    iprop(records m K ∗ levAts L lv ∗ St c ((3, 0) :: (0, 1) :: ls) lr sent ∗ sendPay m c 3 0 ∗ sendPay m c 0 1
        ∗ (∀ r, St c ls lr ((0, 1) :: (3, 0) :: sent) -∗ Kt r))
      ⊢ WP c (atB k0_part5_skel c v2 v25) Kt := by
  unfold atB k0_part5_skel
  simp only [Prog.lift, Prog.bind_op, Prog.bind_ret, Prog.pure_eq_ret]
  iintro ⟨#HR, #Hlev, HSt, Hpay, Hpay', Hk⟩
  iapply (st_send m K c _ 3 0 ((0, 1) :: ls) lr sent (dev6_eq c)) $$ HR HSt Hpay
  iintro HSt
  iapply (st_send m K c _ 0 1 ls lr ((3, 0) :: sent) (dev7_eq c)) $$ HR HSt Hpay'
  iintro HSt
  unfold WP; rw [wp_ret]; imodintro
  iapply Hk; iexact HSt

theorem part6 (v2 v14 v149 v150 : BitVec 32) (v151 v152 : BitVec 1) (ls lr sent : List JS)
    (Kt : PUnit → sProp 𝕄) :
    iprop(records m K ∗ levAts L lv ∗ St c ((1, 1) :: ls) lr sent ∗ sendPay m c 1 1
        ∗ (∀ r, St c ls lr ((1, 1) :: sent) -∗ Kt r))
      ⊢ WP c (atB k0_part6_skel c v2 v14 v149 v150 v151 v152) Kt := by
  unfold atB k0_part6_skel
  simp only [Prog.lift, Prog.bind_op, Prog.bind_ret, Prog.pure_eq_ret]
  exact send_only m K c _ 1 1 ls lr sent (dev8_eq c) _ Kt

theorem part7 (v2 v14 v25 : BitVec 32) (ls lr sent : List JS)
    (Kt : PUnit → sProp 𝕄) :
    iprop(records m K ∗ levAts L lv ∗ St c ((2, 1) :: ls) lr sent ∗ sendPay m c 2 1
        ∗ (∀ r, St c ls lr ((2, 1) :: sent) -∗ Kt r))
      ⊢ WP c (atB k0_part7_skel c v2 v14 v25) Kt := by
  unfold atB k0_part7_skel
  simp only [Prog.lift, Prog.bind_op, Prog.bind_ret, Prog.pure_eq_ret]
  exact send_only m K c _ 2 1 ls lr sent (dev9_eq c) _ Kt

theorem part8 (v2 v25 : BitVec 32) (ls lr sent : List JS)
    (Kt : (Σ' (v241 : BitVec 32) (v242 : BitVec 32), BitVec 1) → sProp 𝕄) :
    iprop(records m K ∗ levAts L lv ∗ St c ((3, 1) :: (0, 2) :: ls) lr sent ∗ sendPay m c 3 1 ∗ sendPay m c 0 2
        ∗ (∀ r, St c ls lr ((0, 2) :: (3, 1) :: sent) -∗ Kt r))
      ⊢ WP c (atB k0_part8_skel c v2 v25) Kt := by
  unfold atB k0_part8_skel
  simp only [Prog.lift, Prog.bind_op, Prog.bind_ret, Prog.pure_eq_ret]
  iintro ⟨#HR, #Hlev, HSt, Hpay, Hpay', Hk⟩
  iapply (st_send m K c _ 3 1 ((0, 2) :: ls) lr sent (dev10_eq c)) $$ HR HSt Hpay
  iintro HSt
  iapply (st_send m K c _ 0 2 ls lr ((3, 1) :: sent) (dev11_eq c)) $$ HR HSt Hpay'
  iintro HSt
  unfold WP; rw [wp_ret]; imodintro
  iapply Hk; iexact HSt

theorem part9 (v2 v14 v241 v242 : BitVec 32) (v243 : BitVec 1) (ls lr sent : List JS)
    (Kt : PUnit → sProp 𝕄) :
    iprop(records m K ∗ levAts L lv ∗ St c ((1, 2) :: ls) lr sent ∗ sendPay m c 1 2
        ∗ (∀ r, St c ls lr ((1, 2) :: sent) -∗ Kt r))
      ⊢ WP c (atB k0_part9_skel c v2 v14 v241 v242 v243) Kt := by
  unfold atB k0_part9_skel
  simp only [Prog.lift, Prog.bind_op, Prog.bind_ret, Prog.pure_eq_ret]
  exact send_only m K c _ 1 2 ls lr sent (dev12_eq c) _ Kt

theorem part10 (v2 v14 v25 : BitVec 32) (ls lr sent : List JS)
    (Kt : PUnit → sProp 𝕄) :
    iprop(records m K ∗ levAts L lv ∗ St c ((2, 2) :: ls) lr sent ∗ sendPay m c 2 2
        ∗ (∀ r, St c ls lr ((2, 2) :: sent) -∗ Kt r))
      ⊢ WP c (atB k0_part10_skel c v2 v14 v25) Kt := by
  unfold atB k0_part10_skel
  simp only [Prog.lift, Prog.bind_op, Prog.bind_ret, Prog.pure_eq_ret]
  exact send_only m K c _ 2 2 ls lr sent (dev13_eq c) _ Kt

theorem part11 (v2 v25 : BitVec 32) (ls lr sent : List JS)
    (Kt : (Σ' (v333 : BitVec 32), BitVec 32) → sProp 𝕄) :
    iprop(records m K ∗ levAts L lv ∗ St c ((3, 2) :: (0, 3) :: ls) lr sent ∗ sendPay m c 3 2 ∗ sendPay m c 0 3
        ∗ (∀ r, St c ls lr ((0, 3) :: (3, 2) :: sent) -∗ Kt r))
      ⊢ WP c (atB k0_part11_skel c v2 v25) Kt := by
  unfold atB k0_part11_skel
  simp only [Prog.lift, Prog.bind_op, Prog.bind_ret, Prog.pure_eq_ret]
  iintro ⟨#HR, #Hlev, HSt, Hpay, Hpay', Hk⟩
  iapply (st_send m K c _ 3 2 ((0, 3) :: ls) lr sent (dev14_eq c)) $$ HR HSt Hpay
  iintro HSt
  iapply (st_send m K c _ 0 3 ls lr ((3, 2) :: sent) (dev15_eq c)) $$ HR HSt Hpay'
  iintro HSt
  unfold WP; rw [wp_ret]; imodintro
  iapply Hk; iexact HSt

theorem part12 (v2 v14 v333 v334 : BitVec 32) (ls lr sent : List JS)
    (Kt : PUnit → sProp 𝕄) :
    iprop(records m K ∗ levAts L lv ∗ St c ((1, 3) :: ls) lr sent ∗ sendPay m c 1 3
        ∗ (∀ r, St c ls lr ((1, 3) :: sent) -∗ Kt r))
      ⊢ WP c (atB k0_part12_skel c v2 v14 v333 v334) Kt := by
  unfold atB k0_part12_skel
  simp only [Prog.lift, Prog.bind_op, Prog.bind_ret, Prog.pure_eq_ret]
  exact send_only m K c _ 1 3 ls lr sent (dev16_eq c) _ Kt

theorem part13 (v2 v14 v25 : BitVec 32) (ls lr sent : List JS)
    (Kt : PUnit → sProp 𝕄) :
    iprop(records m K ∗ levAts L lv ∗ St c ((2, 3) :: ls) lr sent ∗ sendPay m c 2 3
        ∗ (∀ r, St c ls lr ((2, 3) :: sent) -∗ Kt r))
      ⊢ WP c (atB k0_part13_skel c v2 v14 v25) Kt := by
  unfold atB k0_part13_skel
  simp only [Prog.lift, Prog.bind_op, Prog.bind_ret, Prog.pure_eq_ret]
  exact send_only m K c _ 2 3 ls lr sent (dev17_eq c) _ Kt

end Cert.KernelIdeal.AR

end
-- ==== Proof.ArKernelIdeal.Body2.lean ====
import proofs.«900109_g7700000000000110_dist_ar_v7x_i4_i_m1024_n512_f32_1_alg».proof.Proof.ArKernelIdeal.Flow
import proofs.«900109_g7700000000000110_dist_ar_v7x_i4_i_m1024_n512_f32_1_alg».proof.Proof.ArKernelIdeal.Geom

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cid → ℕ) (c : Dev nD)

theorem load_x (c : Dev nD) {r : LoadRect S1024x512} {hl : xM.view.LoadsAt r}
    {α : Type} {Q : α → sProp 𝕄} {k : (r.shape.Idx → Elt F .f32) → Prog (TpuEff nD τ sig (Elt F) Λ₀ .tc) α} :
    xLoad m c ⊢ iprop((xLoad m c -∗ WP c (k (xM.view.readAt (Elt F) r (X m c))) Q) -∗ WP c (.op (.load xM r hl) k) Q) :=
  wp_load 𝒱₀ (c : Thread nD τ) none Set.univ (m := xM) (Finset.subset_univ _)

theorem load_a0 (c : Dev nD) (s : Fin 4) {hl : aM.view.LoadsAt (r3 0 s).toLoadRect}
    {α : Type} {Q : α → sProp 𝕄} {k : ((r3 0 s).toLoadRect.shape.Idx → Elt F .f32) → Prog (TpuEff nD τ sig (Elt F) Λ₀ .tc) α} :
    recvPay m c 0 s ⊢ iprop((recvPay m c 0 s -∗ WP c (k (aRd0 m c s)) Q)
      -∗ WP c (.op (.load aM (r3 0 s).toLoadRect hl) k) Q) :=
  wp_load 𝒱₀ (c : Thread nD τ) none Set.univ (m := aM) (S := (sl3 aM 0 s).view.set) (f := lnd0 m c s)
    (sl3_set_eq_load aM (Memref.isWhole_whole _) 0 s).ge

theorem load_a1 (c : Dev nD) (s : Fin 4) {hl : aM.view.LoadsAt (r3 1 s).toLoadRect}
    {α : Type} {Q : α → sProp 𝕄} {k : ((r3 1 s).toLoadRect.shape.Idx → Elt F .f32) → Prog (TpuEff nD τ sig (Elt F) Λ₀ .tc) α} :
    recvPay m c 1 s ⊢ iprop((recvPay m c 1 s -∗ WP c (k (aRd1 m c s)) Q)
      -∗ WP c (.op (.load aM (r3 1 s).toLoadRect hl) k) Q) :=
  wp_load 𝒱₀ (c : Thread nD τ) none Set.univ (m := aM) (S := (sl3 aM 1 s).view.set) (f := lnd1 m c s)
    (sl3_set_eq_load aM (Memref.isWhole_whole _) 1 s).ge

theorem load_m (c : Dev nD) (i : Fin 2) (s : Fin 4) (f : Buf (Elt F) ((sl3 mM i s).view.loc (c : Thread nD τ)))
    {hl : mM.view.LoadsAt (r3 i s).toLoadRect}
    {α : Type} {Q : α → sProp 𝕄} {k : ((r3 i s).toLoadRect.shape.Idx → Elt F .f32) → Prog (TpuEff nD τ sig (Elt F) Λ₀ .tc) α} :
    mPiece c i s f ⊢ iprop((mPiece c i s f -∗ WP c (k (mM.view.readAt (Elt F) (r3 i s).toLoadRect f)) Q)
      -∗ WP c (.op (.load mM (r3 i s).toLoadRect hl) k) Q) :=
  wp_load 𝒱₀ (c : Thread nD τ) none Set.univ (m := mM) (S := (sl3 mM i s).view.set) (f := f)
    (sl3_set_eq_load mM (Memref.isWhole_whole _) i s).ge

theorem store_m (c : Dev nD) (i : Fin 2) (s : Fin 4) (f : Buf (Elt F) ((sl3 mM i s).view.loc (c : Thread nD τ)))
    (w : (r3 i s).shape.Idx → Elt F .f32)
    {hx : (mM.access (r3 i s)).Stores Finset.univ} {hm : (Finset.univ : Finset (r3 i s).shape.Idx) = Finset.univ ∨ ∀ a, (r3 i s).stride a = 1}
    {α : Type} {Q : α → sProp 𝕄} {k : PUnit → Prog (TpuEff nD τ sig (Elt F) Λ₀ .tc) α} :
    mPiece c i s f ⊢ iprop((((mM.access (r3 i s)).loc (c : Thread nD τ) ↦[(sl3 mM i s).view.set]{fullShare}
          ((mM.access (r3 i s)).write (Elt F) junkM w Finset.univ : Buf (Elt F) ((mM.access (r3 i s)).loc (c : Thread nD τ)))) -∗ WP c (k ⟨⟩) Q)
      -∗ WP c (.op (.store mM (r3 i s) w Finset.univ hx hm) k) Q) := by
  rw [← pts_write_congr_on (c : Thread nD τ) (mM.access (r3 i s)) _ (sl3_set_eq_access mM (Memref.isWhole_whole _) i s).le f junkM w fullShare]
  exact wp_store 𝒱₀ (c : Thread nD τ) none Set.univ (m := mM) (r := r3 i s) (sl3_set_eq_access mM (Memref.isWhole_whole _) i s).ge

theorem store_m0 (c : Dev nD) (s : Fin 4) (f : Buf (Elt F) ((sl3 mM 0 s).view.loc (c : Thread nD τ)))
    {hx : (mM.access (r3 0 s)).Stores Finset.univ} {hm : (Finset.univ : Finset (r3 0 s).shape.Idx) = Finset.univ ∨ ∀ a, (r3 0 s).stride a = 1}
    {α : Type} {Q : α → sProp 𝕄} {k : PUnit → Prog (TpuEff nD τ sig (Elt F) Λ₀ .tc) α} :
    mPiece c 0 s f ⊢ iprop((sendPay m c 4 s -∗ WP c (k ⟨⟩) Q)
      -∗ WP c (.op (.store mM (r3 0 s)
          (add2 (aRd0 m c s) (xRd3 m c 1 s))
          Finset.univ hx hm) k) Q) :=
  store_m c 0 s f _

theorem store_m1 (c : Dev nD) (s : Fin 4) (f : Buf (Elt F) ((sl3 mM 1 s).view.loc (c : Thread nD τ)))
    {hx : (mM.access (r3 1 s)).Stores Finset.univ} {hm : (Finset.univ : Finset (r3 1 s).shape.Idx) = Finset.univ ∨ ∀ a, (r3 1 s).stride a = 1}
    {α : Type} {Q : α → sProp 𝕄} {k : PUnit → Prog (TpuEff nD τ sig (Elt F) Λ₀ .tc) α} :
    mPiece c 1 s f ⊢ iprop((sendPay m c 5 s -∗ WP c (k ⟨⟩) Q)
      -∗ WP c (.op (.store mM (r3 1 s)
          (add2 (aRd1 m c s) (xRd4 m c 1 s))
          Finset.univ hx hm) k) Q) :=
  store_m c 1 s f _

theorem part14 (v2 v25 : BitVec 32) (ls lr sent : List JS)
    (hA : Above (0, 0) ls) (Kt : FVec F S64x256 .f32 → sProp 𝕄) :
    iprop(records m K ∗ levAts L lv ∗ St c ((3, 3) :: ls) ((0, 0) :: lr) sent ∗ sendPay m c 3 3
        ∗ (∀ r, (⌜r = k0_pay1 (aRd0 m c 0)⌝ ∗ St c ls lr ((3, 3) :: sent)
              ∗ recvPay m c 0 0 ∗ atPos ER (rCell c 0 0) 1 ∅ 0) -∗ Kt r))
      ⊢ WP c (atB k0_part14_skel c v2 v25) Kt := by
  unfold atB k0_part14_skel
  simp only [Prog.lift, Prog.bind_op, Prog.bind_ret, Prog.pure_eq_ret]
  iintro ⟨#HR, #Hlev, HSt, Hsrc, Hk⟩
  iapply (st_send m K c _ 3 3 ls ((0, 0) :: lr) sent (dev18_eq c)) $$ HR HSt Hsrc
  iintro HSt
  iapply (st_waitR m K c 0 0 ls lr ((3, 3) :: sent) hA) $$ HR Hlev HSt
  iintro ⟨HSt, Hrecv, Hat⟩
  iapply (load_a0 m c 0) $$ Hrecv; iintro Hrecv
  unfold WP; rw [wp_ret]; imodintro
  iapply Hk
  isplitr; · ipureintro; rfl
  iframe

theorem part15 (v25 : BitVec 32) (v408 : FVec F S64x256 .f32) (ls lr sent : List JS)
    (hA : Above (1, 0) ls) (hv : v408 = k0_pay1 (aRd0 m c 0))
    (Kt : PUnit → sProp 𝕄) :
    iprop(records m K ∗ levAts L lv ∗ St c ((4, 0) :: ls) ((1, 0) :: lr) sent ∗ xLoad m c ∗ (∃ f, mPiece c 0 0 f)
        ∗ (∀ r, (St c ls lr ((4, 0) :: sent) ∗ xLoad m c ∗ recvPay m c 1 0 ∗ atPos ER (rCell c 1 0) 1 ∅ 0) -∗ Kt r))
      ⊢ WP c (atB k0_part15_skel c v25 v408) Kt := by
  subst hv
  unfold atB k0_part15_skel
  simp only [Prog.lift, Prog.bind_op, Prog.bind_ret, Prog.pure_eq_ret]
  iintro ⟨#HR, #Hlev, HSt, Hx, ⟨%f, Hm⟩, Hk⟩
  iapply (load_x m c) $$ Hx; iintro Hx
  iapply (load_m c 0 0 f) $$ Hm; iintro Hm
  iapply (store_m0 m c 0 f) $$ Hm; iintro Hpay
  iapply (st_send m K c _ 4 0 ls ((1, 0) :: lr) sent (dev19_eq c)) $$ HR HSt Hpay
  iintro HSt
  iapply (st_waitR m K c 1 0 ls lr ((4, 0) :: sent) hA) $$ HR Hlev HSt
  iintro ⟨HSt, Hrecv, Hat⟩
  unfold WP; rw [wp_ret]; imodintro
  iapply Hk
  iframe

theorem part16 (v2 v14 : BitVec 32) (ls lr sent : List JS) (Kt : PUnit → sProp 𝕄) :
    iprop(records m K ∗ levAts L lv ∗ St c ls lr sent ∗ xLoad m c ∗ (∃ f, mPiece c 1 0 f) ∗ recvPay m c 1 0
        ∗ (∀ r, (St c ls lr sent ∗ xLoad m c ∗ sendPay m c 5 0 ∗ recvPay m c 1 0) -∗ Kt r))
      ⊢ WP c (atB k0_part16_skel c v2 v14) Kt := by
  unfold atB k0_part16_skel
  simp only [Prog.lift, Prog.bind_op, Prog.bind_ret, Prog.pure_eq_ret]
  iintro ⟨#HR, #Hlev, HSt, Hx, ⟨%f, Hm⟩, Hrecv, Hk⟩
  iapply (load_a1 m c 0) $$ Hrecv; iintro Hrecv
  iapply (load_x m c) $$ Hx; iintro Hx
  iapply (load_m c 1 0 f) $$ Hm; iintro Hm
  iapply (store_m1 m c 0 f) $$ Hm; iintro Hpay
  unfold WP; rw [wp_ret]; imodintro
  iapply Hk
  iframe

theorem part17 (v2 v25 : BitVec 32) (ls lr sent : List JS)
    (hA : Above (0, 1) ls) (Kt : FVec F S64x256 .f32 → sProp 𝕄) :
    iprop(records m K ∗ levAts L lv ∗ St c ((5, 0) :: ls) ((0, 1) :: lr) sent ∗ xLoad m c ∗ sendPay m c 5 0
        ∗ (∀ r, (⌜r = k0_pay4 (aRd0 m c 1) (xRd3 m c 1 1)⌝
              ∗ St c ls lr ((5, 0) :: sent) ∗ xLoad m c ∗ recvPay m c 0 1 ∗ atPos ER (rCell c 0 1) 1 ∅ 0) -∗ Kt r))
      ⊢ WP c (atB k0_part17_skel c v2 v25) Kt := by
  unfold atB k0_part17_skel
  simp only [Prog.lift, Prog.bind_op, Prog.bind_ret, Prog.pure_eq_ret]
  iintro ⟨#HR, #Hlev, HSt, Hx, Hpay, Hk⟩
  iapply (st_send m K c _ 5 0 ls ((0, 1) :: lr) sent (dev20_eq c)) $$ HR HSt Hpay
  iintro HSt
  iapply (st_waitR m K c 0 1 ls lr ((5, 0) :: sent) hA) $$ HR Hlev HSt
  iintro ⟨HSt, Hrecv, Hat⟩
  iapply (load_a0 m c 1) $$ Hrecv; iintro Hrecv
  iapply (load_x m c) $$ Hx; iintro Hx
  unfold WP; rw [wp_ret]; imodintro
  iapply Hk
  isplitr; · ipureintro; rfl
  iframe

theorem part18 (v2 v25 : BitVec 32) (v508 : FVec F S64x256 .f32) (ls lr sent : List JS)
    (hA : Above (1, 1) ls) (hv : v508 = k0_pay4 (aRd0 m c 1) (xRd3 m c 1 1))
    (Kt : (Σ' (v531 : FVec F S64x256 .f32), BitVec 32) → sProp 𝕄) :
    iprop(records m K ∗ levAts L lv ∗ St c ((4, 1) :: ls) ((1, 1) :: lr) sent ∗ (∃ f, mPiece c 0 1 f)
        ∗ (∀ r, (⌜r.1 = k0_pay6 (aRd1 m c 1)⌝
              ∗ St c ls lr ((4, 1) :: sent) ∗ recvPay m c 1 1 ∗ atPos ER (rCell c 1 1) 1 ∅ 0) -∗ Kt r))
      ⊢ WP c (atB k0_part18_skel c v2 v25 v508) Kt := by
  subst hv
  unfold atB k0_part18_skel
  simp only [Prog.lift, Prog.bind_op, Prog.bind_ret, Prog.pure_eq_ret]
  iintro ⟨#HR, #Hlev, HSt, ⟨%f, Hm⟩, Hk⟩
  iapply (load_m c 0 1 f) $$ Hm; iintro Hm
  iapply (store_m0 m c 1 f) $$ Hm; iintro Hpay
  iapply (st_send m K c _ 4 1 ls ((1, 1) :: lr) sent (dev21_eq c)) $$ HR HSt Hpay
  iintro HSt
  iapply (st_waitR m K c 1 1 ls lr ((4, 1) :: sent) hA) $$ HR Hlev HSt
  iintro ⟨HSt, Hrecv, Hat⟩
  iapply (load_a1 m c 1) $$ Hrecv; iintro Hrecv
  unfold WP; rw [wp_ret]; imodintro
  iapply Hk
  isplitr; · ipureintro; rfl
  iframe

theorem part19 (v14 : BitVec 32) (v531 : FVec F S64x256 .f32) (v532 : BitVec 32) (ls lr sent : List JS)
    (hv : v531 = k0_pay6 (aRd1 m c 1)) (Kt : PUnit → sProp 𝕄) :
    iprop(records m K ∗ levAts L lv ∗ St c ((5, 1) :: ls) lr sent ∗ xLoad m c ∗ (∃ f, mPiece c 1 1 f)
        ∗ (∀ r, (St c ls lr ((5, 1) :: sent) ∗ xLoad m c) -∗ Kt r))
      ⊢ WP c (atB k0_part19_skel c v14 v531 v532) Kt := by
  subst hv
  unfold atB k0_part19_skel
  simp only [Prog.lift, Prog.bind_op, Prog.bind_ret, Prog.pure_eq_ret]
  iintro ⟨#HR, #Hlev, HSt, Hx, ⟨%f, Hm⟩, Hk⟩
  iapply (load_x m c) $$ Hx; iintro Hx
  iapply (load_m c 1 1 f) $$ Hm; iintro Hm
  iapply (store_m1 m c 1 f) $$ Hm; iintro Hpay
  iapply (st_send m K c _ 5 1 ls lr sent (dev22_eq c)) $$ HR HSt Hpay
  iintro HSt
  unfold WP; rw [wp_ret]; imodintro
  iapply Hk
  iframe

theorem part20 (v2 v25 : BitVec 32) (ls lr sent : List JS)
    (hA : Above (0, 2) ls) (Kt : FVec F S64x256 .f32 → sProp 𝕄) :
    iprop(records m K ∗ levAts L lv ∗ St c ls ((0, 2) :: lr) sent ∗ xLoad m c ∗ (∃ f, mPiece c 0 2 f)
        ∗ (∀ r, (⌜r = k0_pay8 (aRd0 m c 2) (xRd3 m c 1 2)⌝
              ∗ St c ls lr sent ∗ xLoad m c ∗ (∃ f, mPiece c 0 2 f) ∗ recvPay m c 0 2 ∗ atPos ER (rCell c 0 2) 1 ∅ 0) -∗ Kt r))
      ⊢ WP c (atB k0_part20_skel c v2 v25) Kt := by
  unfold atB k0_part20_skel
  simp only [Prog.lift, Prog.bind_op, Prog.bind_ret, Prog.pure_eq_ret]
  iintro ⟨#HR, #Hlev, HSt, Hx, ⟨%f, Hm⟩, Hk⟩
  iapply (st_waitR m K c 0 2 ls lr sent hA) $$ HR Hlev HSt
  iintro ⟨HSt, Hrecv, Hat⟩
  iapply (load_a0 m c 2) $$ Hrecv; iintro Hrecv
  iapply (load_x m c) $$ Hx; iintro Hx
  iapply (load_m c 0 2 f) $$ Hm; iintro Hm
  unfold WP; rw [wp_ret]; imodintro
  iapply Hk
  isplitr; · ipureintro; rfl
  isplitl [HSt]; · iexact HSt
  isplitl [Hx]; · iexact Hx
  isplitl [Hm]; · iexists f; iexact Hm
  isplitl [Hrecv]; · iexact Hrecv
  iexact Hat

theorem part21 (v2 v25 : BitVec 32) (v590 : FVec F S64x256 .f32) (ls lr sent : List JS)
    (hA : Above (1, 2) ls) (hv : v590 = k0_pay8 (aRd0 m c 2) (xRd3 m c 1 2))
    (Kt : (Σ' (v613 : FVec F S64x256 .f32) (v615 : BitVec 32) (c4_i32_590 : BitVec 32), BitVec 32) → sProp 𝕄) :
    iprop(records m K ∗ levAts L lv ∗ St c ((4, 2) :: ls) ((1, 2) :: lr) sent ∗ (∃ f, mPiece c 0 2 f)
        ∗ (∀ r, (⌜r.1 = k0_pay10 (aRd1 m c 2)⌝
              ∗ St c ls lr ((4, 2) :: sent) ∗ recvPay m c 1 2 ∗ atPos ER (rCell c 1 2) 1 ∅ 0) -∗ Kt r))
      ⊢ WP c (atB k0_part21_skel c v2 v25 v590) Kt := by
  subst hv
  unfold atB k0_part21_skel
  simp only [Prog.lift, Prog.bind_op, Prog.bind_ret, Prog.pure_eq_ret]
  iintro ⟨#HR, #Hlev, HSt, ⟨%f, Hm⟩, Hk⟩
  iapply (store_m0 m c 2 f) $$ Hm; iintro Hpay
  iapply (st_send m K c _ 4 2 ls ((1, 2) :: lr) sent (dev23_eq c)) $$ HR HSt Hpay
  iintro HSt
  iapply (st_waitR m K c 1 2 ls lr ((4, 2) :: sent) hA) $$ HR Hlev HSt
  iintro ⟨HSt, Hrecv, Hat⟩
  iapply (load_a1 m c 2) $$ Hrecv; iintro Hrecv
  unfold WP; rw [wp_ret]; imodintro
  iapply Hk
  isplitr; · ipureintro; rfl
  iframe

theorem part22 (v14 : BitVec 32) (v613 : FVec F S64x256 .f32) (v615 c4_i32_590 c0_i32_591 : BitVec 32) (ls lr sent : List JS)
    (hv : v613 = k0_pay10 (aRd1 m c 2)) (Kt : PUnit → sProp 𝕄) :
    iprop(records m K ∗ levAts L lv ∗ St c ((5, 2) :: ls) lr sent ∗ xLoad m c ∗ (∃ f, mPiece c 1 2 f)
        ∗ (∀ r, (St c ls lr ((5, 2) :: sent) ∗ xLoad m c) -∗ Kt r))
      ⊢ WP c (atB k0_part22_skel c v14 v613 v615 c4_i32_590 c0_i32_591) Kt := by
  subst hv
  unfold atB k0_part22_skel
  simp only [Prog.lift, Prog.bind_op, Prog.bind_ret, Prog.pure_eq_ret]
  iintro ⟨#HR, #Hlev, HSt, Hx, ⟨%f, Hm⟩, Hk⟩
  iapply (load_x m c) $$ Hx; iintro Hx
  iapply (load_m c 1 2 f) $$ Hm; iintro Hm
  iapply (store_m1 m c 2 f) $$ Hm; iintro Hpay
  iapply (st_send m K c _ 5 2 ls lr sent (dev24_eq c)) $$ HR HSt Hpay
  iintro HSt
  unfold WP; rw [wp_ret]; imodintro
  iapply Hk
  iframe

theorem part23 (v2 v25 : BitVec 32) (ls lr sent : List JS)
    (hA : Above (0, 3) ls) (Kt : PUnit → sProp 𝕄) :
    iprop(records m K ∗ levAts L lv ∗ St c ls ((0, 3) :: lr) sent ∗ xLoad m c ∗ (∃ f, mPiece c 0 3 f)
        ∗ (∀ r, (St c ls lr sent ∗ xLoad m c ∗ sendPay m c 4 3 ∗ recvPay m c 0 3 ∗ atPos ER (rCell c 0 3) 1 ∅ 0) -∗ Kt r))
      ⊢ WP c (atB k0_part23_skel c v2 v25) Kt := by
  unfold atB k0_part23_skel
  simp only [Prog.lift, Prog.bind_op, Prog.bind_ret, Prog.pure_eq_ret]
  iintro ⟨#HR, #Hlev, HSt, Hx, ⟨%f, Hm⟩, Hk⟩
  iapply (st_waitR m K c 0 3 ls lr sent hA) $$ HR Hlev HSt
  iintro ⟨HSt, Hrecv, Hat⟩
  iapply (load_a0 m c 3) $$ Hrecv; iintro Hrecv
  iapply (load_x m c) $$ Hx; iintro Hx
  iapply (load_m c 0 3 f) $$ Hm; iintro Hm
  iapply (store_m0 m c 3 f) $$ Hm; iintro Hpay
  unfold WP; rw [wp_ret]; imodintro
  iapply Hk
  iframe

theorem part24 (v2 v25 : BitVec 32) (ls lr sent : List JS)
    (hA : Above (1, 3) ls) (Kt : (Σ' (v695 : FVec F S64x256 .f32) (v699 : BitVec 32), BitVec 32) → sProp 𝕄) :
    iprop(records m K ∗ levAts L lv ∗ St c ((4, 3) :: ls) ((1, 3) :: lr) sent ∗ sendPay m c 4 3
        ∗ (∀ r, (⌜r.1 = k0_pay13 (aRd1 m c 3)⌝
              ∗ St c ls lr ((4, 3) :: sent) ∗ recvPay m c 1 3 ∗ atPos ER (rCell c 1 3) 1 ∅ 0) -∗ Kt r))
      ⊢ WP c (atB k0_part24_skel c v2 v25) Kt := by
  unfold atB k0_part24_skel
  simp only [Prog.lift, Prog.bind_op, Prog.bind_ret, Prog.pure_eq_ret]
  iintro ⟨#HR, #Hlev, HSt, Hpay, Hk⟩
  iapply (st_send m K c _ 4 3 ls ((1, 3) :: lr) sent (dev25_eq c)) $$ HR HSt Hpay
  iintro HSt
  iapply (st_waitR m K c 1 3 ls lr ((4, 3) :: sent) hA) $$ HR Hlev HSt
  iintro ⟨HSt, Hrecv, Hat⟩
  iapply (load_a1 m c 3) $$ Hrecv; iintro Hrecv
  unfold WP; rw [wp_ret]; imodintro
  iapply Hk
  isplitr; · ipureintro; rfl
  iframe

theorem part25 (v14 : BitVec 32) (v695 : FVec F S64x256 .f32) (v699 v700 : BitVec 32) (ls lr sent : List JS)
    (hv : v695 = k0_pay13 (aRd1 m c 3)) (Kt : PUnit → sProp 𝕄) :
    iprop(records m K ∗ levAts L lv ∗ St c ((5, 3) :: ls) lr sent ∗ xLoad m c ∗ (∃ f, mPiece c 1 3 f)
        ∗ (∀ r, (St c ls lr ((5, 3) :: sent) ∗ xLoad m c) -∗ Kt r))
      ⊢ WP c (atB k0_part25_skel c v14 v695 v699 v700) Kt := by
  subst hv
  unfold atB k0_part25_skel
  simp only [Prog.lift, Prog.bind_op, Prog.bind_ret, Prog.pure_eq_ret]
  iintro ⟨#HR, #Hlev, HSt, Hx, ⟨%f, Hm⟩, Hk⟩
  iapply (load_x m c) $$ Hx; iintro Hx
  iapply (load_m c 1 3 f) $$ Hm; iintro Hm
  iapply (store_m1 m c 3 f) $$ Hm; iintro Hpay
  iapply (st_send m K c _ 5 3 ls lr sent (dev26_eq c)) $$ HR HSt Hpay
  iintro HSt
  unfold WP; rw [wp_ret]; imodintro
  iapply Hk
  iframe

end Cert.KernelIdeal.AR

end
-- ==== Proof.ArKernelIdeal.Body3.lean ====
import proofs.«900109_g7700000000000110_dist_ar_v7x_i4_i_m1024_n512_f32_1_alg».proof.Proof.ArKernelIdeal.Flow
import proofs.«900109_g7700000000000110_dist_ar_v7x_i4_i_m1024_n512_f32_1_alg».proof.Proof.ArKernelIdeal.Geom

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cid → ℕ) (c : Dev nD)

theorem part26 (v25 : BitVec 32) (ls lr sent : List JS)
    (h1 : Above (4, 0) ls) (h2 : Above (2, 0) ls) (Kt : PUnit → sProp 𝕄) :
    iprop(records m K ∗ levAts L lv ∗ St c ls ((4, 0) :: (2, 0) :: lr) sent
        ∗ (∀ r, (St c ls lr sent ∗ recvPay m c 4 0 ∗ atPos ER (rCell c 4 0) 1 ∅ 0 ∗ recvPay m c 2 0 ∗ atPos ER (rCell c 2 0) 1 ∅ 0) -∗ Kt r))
      ⊢ WP c (atB k0_part26_skel v25) Kt := by
  unfold atB k0_part26_skel
  simp only [Prog.lift, Prog.bind_op, Prog.bind_ret, Prog.pure_eq_ret]
  iintro ⟨#HR, #Hlev, HSt, Hk⟩
  iapply (st_waitR m K c 4 0 ls ((2, 0) :: lr) sent h1) $$ HR Hlev HSt
  iintro ⟨HSt, Hp4, Ha4⟩
  iapply (st_waitR m K c 2 0 ls lr sent h2) $$ HR Hlev HSt
  iintro ⟨HSt, Hp2, Ha2⟩
  unfold WP; rw [wp_ret]; imodintro
  iapply Hk
  iframe

theorem part27 (v2 v25 : BitVec 32) (ls lr sent : List JS)
    (h1 : Above (3, 0) ls) (h2 : Above (5, 0) ls) (Kt : FVec F S64x256 .f32 → sProp 𝕄) :
    iprop(records m K ∗ levAts L lv ∗ St c ls ((3, 0) :: (5, 0) :: lr) sent ∗ xLoad m c
        ∗ (∀ r, (⌜r = k0_pay15 (xRd3 m c 0 0)⌝ ∗ St c ls lr sent
            ∗ recvPay m c 3 0 ∗ atPos ER (rCell c 3 0) 1 ∅ 0 ∗ recvPay m c 5 0 ∗ atPos ER (rCell c 5 0) 1 ∅ 0 ∗ xLoad m c) -∗ Kt r))
      ⊢ WP c (atB k0_part27_skel c v2 v25) Kt := by
  unfold atB k0_part27_skel
  simp only [Prog.lift, Prog.bind_op, Prog.bind_ret, Prog.pure_eq_ret]
  iintro ⟨#HR, #Hlev, HSt, Hx, Hk⟩
  iapply (st_waitR m K c 3 0 ls ((5, 0) :: lr) sent h1) $$ HR Hlev HSt
  iintro ⟨HSt, Hp3, Ha3⟩
  iapply (st_waitR m K c 5 0 ls lr sent h2) $$ HR Hlev HSt
  iintro ⟨HSt, Hp5, Ha5⟩
  unfold xLoad
  iapply (wp_load 𝒱₀ (c : Thread nD τ) none Set.univ (S := Finset.univ) (Finset.subset_univ _)) $$ Hx
  iintro Hx
  rw [wp_ret]; imodintro
  iapply Hk
  isplitr; · ipureintro; rfl
  iframe

theorem recvPay4_eq (c : Dev nD) (s : Fin 4) :
    recvPay m c 4 s = (rM.view.loc (c : Thread nD τ) ↦[(sl4 0 0 s).view.set]{fullShare} lnd4 m c s) := rfl
theorem recvPay3_eq (c : Dev nD) (s : Fin 4) :
    recvPay m c 3 s = (rM.view.loc (c : Thread nD τ) ↦[(sl4 1 0 s).view.set]{fullShare} lnd3 m c s) := rfl
theorem recvPay2_eq (c : Dev nD) (s : Fin 4) :
    recvPay m c 2 s = (rM.view.loc (c : Thread nD τ) ↦[(sl4 0 1 s).view.set]{fullShare} lnd2 m c s) := rfl
theorem recvPay5_eq (c : Dev nD) (s : Fin 4) :
    recvPay m c 5 s = (rM.view.loc (c : Thread nD τ) ↦[(sl4 1 1 s).view.set]{fullShare} lnd5 m c s) := rfl

theorem own_low_sub (c : Dev nD) (s : Fin 4) : (oM.access (rx3 c 0 s)).setOn Finset.univ ⊆ (pc5 oM c s).view.set :=
  own_rows_halves c s ▸ Finset.subset_union_left
theorem own_high_sub (c : Dev nD) (s : Fin 4) : (oM.access (rx4 c 0 s)).setOn Finset.univ ⊆ (pc5 oM c s).view.set :=
  own_rows_halves c s ▸ Finset.subset_union_right

def lowW (c : Dev nD) (s : Fin 4) (f : (cc0_stg1_0 : Ref sig .tc).ty.Contents (Elt F)) : (cc0_stg1_0 : Ref sig .tc).ty.Contents (Elt F) :=
  (oM.access (rx3 c 0 s)).write (Elt F) f
    (sumLo m c s) Finset.univ

theorem part28 (v2 : BitVec 32) (v775 : FVec F S64x256 .f32) (ls lr sent : List JS)
    (hv : v775 = k0_pay15 (xRd3 m c 0 0))
    (Kt : (Σ' (v801 : BitVec 32) (v802 : BitVec 32), BitVec 1) → sProp 𝕄) :
    iprop(records m K ∗ levAts L lv ∗ St c ls lr sent ∗ recvPay m c 4 0 ∗ recvPay m c 3 0 ∗ (∃ f, oRows c 0 f)
        ∗ (∀ r, (St c ls lr sent ∗ recvPay m c 4 0 ∗ recvPay m c 3 0 ∗ (∃ f, oRows c 0 (lowW m c 0 f))) -∗ Kt r))
      ⊢ WP c (atB k0_part28_skel c v2 v775) Kt := by
  unfold atB k0_part28_skel
  simp only [Prog.lift, Prog.bind_op, Prog.bind_ret, Prog.pure_eq_ret]
  subst hv
  rw [recvPay4_eq, recvPay3_eq]
  unfold oRows
  iintro ⟨#HR, #Hlev, HSt, Hp4, Hp3, ⟨%f, Ho⟩, Hk⟩
  iapply (wp_load 𝒱₀ (c : Thread nD τ) none Set.univ (sl4_set_eq_load 0 0 0).ge) $$ Hp4
  iintro Hp4
  iapply (wp_load 𝒱₀ (c : Thread nD τ) none Set.univ (sl4_set_eq_load 1 0 0).ge) $$ Hp3
  iintro Hp3
  iapply (wp_load 𝒱₀ (c : Thread nD τ) none Set.univ (own_load_low c 0)) $$ [Ho]
  · iexact Ho
  iintro Ho
  iapply (wp_store 𝒱₀ (c : Thread nD τ) none Set.univ (own_low_sub c 0)) $$ [Ho]
  · iexact Ho
  iintro Ho
  rw [wp_ret]; imodintro
  iapply Hk
  isplitl [HSt]; · iexact HSt
  isplitl [Hp4]; · iexact Hp4
  isplitl [Hp3]; · iexact Hp3
  iexists f
  iexact Ho

theorem sendPay6_eq (c : Dev nD) (s : Fin 4) :
    sendPay m c 6 s = ((pc5 oM c s).view.loc (c : Thread nD τ) ↦[(pc5 oM c s).view.set]{fullShare.left} oC m c s) := rfl
theorem sendPay7_eq (c : Dev nD) (s : Fin 4) :
    sendPay m c 7 s = ((pc5 oM c s).view.loc (c : Thread nD τ) ↦[(pc5 oM c s).view.set]{fullShare.right} oC m c s) := rfl

theorem own_rows_done (c : Dev nD) (s : Fin 4) (f : (cc0_stg1_0 : Ref sig .tc).ty.Contents (Elt F)) :
    oRows c s ((oM.access (rx4 c 0 s)).write (Elt F) (lowW m c s f)
        (sumHi m c s) Finset.univ)
      ⊢ iprop(sendPay m c 6 s ∗ sendPay m c 7 s) := by
  rw [sendPay6_eq, sendPay7_eq]
  unfold oRows
  refine BI.Entails.trans (Entails.of_eq (Region.is_congr fun i hi => ?_)) (Region.is_share (PosShare.mem_left_op_right fullShare)).1
  refine View.write_congr (fun _ _ _ => rfl) fun h4 => View.write_congr (fun _ _ _ => rfl) fun h3 => ?_
  have hu : i ∈ (oM.access (rx3 c 0 s)).setOn Finset.univ ∪ (oM.access (rx4 c 0 s)).setOn Finset.univ := by
    rw [own_rows_halves]; exact hi
  rcases Finset.mem_union.mp hu with h | h
  · exact absurd h h3
  · exact absurd h h4

theorem part29 (v2 v801 v802 : BitVec 32) (v807 : BitVec 1) (ls lr sent : List JS)
    (Kt : (Σ' (v838 : BitVec 32) (c4_i32_830 : BitVec 32) (v839 : BitVec 1), BitVec 32) → sProp 𝕄) :
    iprop(records m K ∗ levAts L lv ∗ St c ls lr sent ∗ xLoad m c ∗ recvPay m c 2 0 ∗ recvPay m c 5 0 ∗ (∃ f, oRows c 0 (lowW m c 0 f))
        ∗ (∀ r, (St c ls lr sent ∗ xLoad m c ∗ recvPay m c 2 0 ∗ recvPay m c 5 0 ∗ sendPay m c 6 0 ∗ sendPay m c 7 0) -∗ Kt r))
      ⊢ WP c (atB k0_part29_skel c v2 v801 v802 v807) Kt := by
  unfold atB k0_part29_skel
  simp only [Prog.lift, Prog.bind_op, Prog.bind_ret, Prog.pure_eq_ret]
  rw [recvPay2_eq, recvPay5_eq]
  unfold xLoad
  iintro ⟨#HR, #Hlev, HSt, Hx, Hp2, Hp5, ⟨%f, Ho⟩, Hk⟩
  iapply (wp_load 𝒱₀ (c : Thread nD τ) none Set.univ (S := Finset.univ) (Finset.subset_univ _)) $$ Hx
  iintro Hx
  iapply (wp_load 𝒱₀ (c : Thread nD τ) none Set.univ (sl4_set_eq_load 0 1 0).ge) $$ Hp2
  iintro Hp2
  iapply (wp_load 𝒱₀ (c : Thread nD τ) none Set.univ (sl4_set_eq_load 1 1 0).ge) $$ Hp5
  iintro Hp5
  unfold oRows
  iapply (wp_load 𝒱₀ (c : Thread nD τ) none Set.univ (own_load_high c 0)) $$ [Ho]
  · iexact Ho
  iintro Ho
  iapply (wp_store 𝒱₀ (c : Thread nD τ) none Set.univ (own_high_sub c 0)) $$ [Ho]
  · iexact Ho
  iintro Ho
  rw [wp_ret]; imodintro
  iapply Hk
  isplitl [HSt]; · iexact HSt
  isplitl [Hx]; · iexact Hx
  isplitl [Hp2]; · iexact Hp2
  isplitl [Hp5]; · iexact Hp5
  iapply (own_rows_done m c 0 f)
  unfold oRows
  iexact Ho

theorem part30 (v2 v25 v838 c4_i32_830 : BitVec 32) (v839 : BitVec 1) (c1_i32_832 : BitVec 32)
    (ls lr sent : List JS) (Kt : (Σ' (v873 : BitVec 32), BitVec 32) → sProp 𝕄) :
    iprop(records m K ∗ levAts L lv ∗ St c ((6, 0) :: ls) lr sent ∗ sendPay m c 6 0
        ∗ (∀ r, St c ls lr ((6, 0) :: sent) -∗ Kt r))
      ⊢ WP c (atB k0_part30_skel c v2 v25 v838 c4_i32_830 v839 c1_i32_832) Kt := by
  unfold atB k0_part30_skel
  simp only [Prog.lift, Prog.bind_op, Prog.bind_ret, Prog.pure_eq_ret]
  exact send_only m K c _ 6 0 ls lr sent (dev27_eq c) _ Kt

theorem part31 (v2 v14 v873 c4_i32_857 : BitVec 32) (ls lr sent : List JS) (Kt : PUnit → sProp 𝕄) :
    iprop(records m K ∗ levAts L lv ∗ St c ls lr sent ∗ (∀ r, St c ls lr sent -∗ Kt r))
      ⊢ WP c (atB k0_part31_skel c v2 v14 v873 c4_i32_857) Kt := by
  unfold atB k0_part31_skel
  simp only [Prog.pure_eq_ret]
  iintro ⟨#HR, #Hlev, HSt, Hk⟩
  unfold WP; rw [wp_ret]; imodintro
  iapply Hk
  iexact HSt

theorem part32 (v25 : BitVec 32) (ls lr sent : List JS)
    (h1 : Above (4, 1) ls) (h2 : Above (2, 1) ls) (Kt : PUnit → sProp 𝕄) :
    iprop(records m K ∗ levAts L lv ∗ St c ((7, 0) :: ls) ((4, 1) :: (2, 1) :: lr) sent ∗ sendPay m c 7 0
        ∗ (∀ r, (St c ls lr ((7, 0) :: sent) ∗ recvPay m c 4 1 ∗ atPos ER (rCell c 4 1) 1 ∅ 0 ∗ recvPay m c 2 1 ∗ atPos ER (rCell c 2 1) 1 ∅ 0) -∗ Kt r))
      ⊢ WP c (atB k0_part32_skel c v25) Kt := by
  unfold atB k0_part32_skel
  simp only [Prog.lift, Prog.bind_op, Prog.bind_ret, Prog.pure_eq_ret]
  iintro ⟨#HR, #Hlev, HSt, Hp, Hk⟩
  iapply (st_send m K c _ 7 0 ls ((4, 1) :: (2, 1) :: lr) sent (dev28_eq c)) $$ HR HSt Hp
  iintro HSt
  iapply (st_waitR m K c 4 1 ls ((2, 1) :: lr) ((7, 0) :: sent) h1) $$ HR Hlev HSt
  iintro ⟨HSt, Hp4, Ha4⟩
  iapply (st_waitR m K c 2 1 ls lr ((7, 0) :: sent) h2) $$ HR Hlev HSt
  iintro ⟨HSt, Hp2, Ha2⟩
  unfold WP; rw [wp_ret]; imodintro
  iapply Hk
  iframe

theorem part33 (v2 v25 : BitVec 32) (ls lr sent : List JS)
    (h1 : Above (3, 1) ls) (h2 : Above (5, 1) ls) (Kt : (Σ' (v944 : BitVec 32) (v945 : BitVec 32), BitVec 1) → sProp 𝕄) :
    iprop(records m K ∗ levAts L lv ∗ St c ls ((3, 1) :: (5, 1) :: lr) sent
        ∗ (∀ r, (St c ls lr sent ∗ recvPay m c 3 1 ∗ atPos ER (rCell c 3 1) 1 ∅ 0 ∗ recvPay m c 5 1 ∗ atPos ER (rCell c 5 1) 1 ∅ 0) -∗ Kt r))
      ⊢ WP c (atB k0_part33_skel v2 v25) Kt := by
  unfold atB k0_part33_skel
  simp only [Prog.lift, Prog.bind_op, Prog.bind_ret, Prog.pure_eq_ret]
  iintro ⟨#HR, #Hlev, HSt, Hk⟩
  iapply (st_waitR m K c 3 1 ls ((5, 1) :: lr) sent h1) $$ HR Hlev HSt
  iintro ⟨HSt, Hp3, Ha3⟩
  iapply (st_waitR m K c 5 1 ls lr sent h2) $$ HR Hlev HSt
  iintro ⟨HSt, Hp5, Ha5⟩
  unfold WP; rw [wp_ret]; imodintro
  iapply Hk
  iframe

theorem part34 (v2 v944 v945 : BitVec 32) (v950 : BitVec 1) (ls lr sent : List JS)
    (Kt : (Σ' (v981 : BitVec 32) (c4_i32_980 : BitVec 32) (v982 : BitVec 1), BitVec 32) → sProp 𝕄) :
    iprop(records m K ∗ levAts L lv ∗ St c ls lr sent ∗ xLoad m c ∗ recvPay m c 4 1 ∗ recvPay m c 3 1 ∗ (∃ f, oRows c 1 f)
        ∗ (∀ r, (St c ls lr sent ∗ xLoad m c ∗ recvPay m c 4 1 ∗ recvPay m c 3 1 ∗ (∃ f, oRows c 1 (lowW m c 1 f))) -∗ Kt r))
      ⊢ WP c (atB k0_part34_skel c v2 v944 v945 v950) Kt := by
  unfold atB k0_part34_skel
  simp only [Prog.lift, Prog.bind_op, Prog.bind_ret, Prog.pure_eq_ret]
  rw [recvPay4_eq, recvPay3_eq]
  unfold xLoad oRows
  iintro ⟨#HR, #Hlev, HSt, Hx, Hp4, Hp3, ⟨%f, Ho⟩, Hk⟩
  iapply (wp_load 𝒱₀ (c : Thread nD τ) none Set.univ (S := Finset.univ) (Finset.subset_univ _)) $$ Hx
  iintro Hx
  iapply (wp_load 𝒱₀ (c : Thread nD τ) none Set.univ (sl4_set_eq_load 0 0 1).ge) $$ Hp4
  iintro Hp4
  iapply (wp_load 𝒱₀ (c : Thread nD τ) none Set.univ (sl4_set_eq_load 1 0 1).ge) $$ Hp3
  iintro Hp3
  iapply (wp_load 𝒱₀ (c : Thread nD τ) none Set.univ (own_load_low c 1)) $$ [Ho]
  · iexact Ho
  iintro Ho
  iapply (wp_store 𝒱₀ (c : Thread nD τ) none Set.univ (own_low_sub c 1)) $$ [Ho]
  · iexact Ho
  iintro Ho
  rw [wp_ret]; imodintro
  iapply Hk
  isplitl [HSt]; · iexact HSt
  isplitl [Hx]; · iexact Hx
  isplitl [Hp4]; · iexact Hp4
  isplitl [Hp3]; · iexact Hp3
  iexists f
  iexact Ho

theorem part35 (v2 v981 c4_i32_980 : BitVec 32) (v982 : BitVec 1) (c1_i32_982 : BitVec 32)
    (ls lr sent : List JS) (Kt : FVec F S64x256 .f32 → sProp 𝕄) :
    iprop(records m K ∗ levAts L lv ∗ St c ls lr sent ∗ xLoad m c ∗ recvPay m c 2 1 ∗ recvPay m c 5 1
        ∗ (∀ r, (⌜r = sumHi m c 1⌝
            ∗ St c ls lr sent ∗ xLoad m c ∗ recvPay m c 2 1 ∗ recvPay m c 5 1) -∗ Kt r))
      ⊢ WP c (atB k0_part35_skel c v2 v981 c4_i32_980 v982 c1_i32_982) Kt := by
  unfold atB k0_part35_skel
  simp only [Prog.lift, Prog.bind_op, Prog.bind_ret, Prog.pure_eq_ret]
  rw [recvPay2_eq, recvPay5_eq]
  unfold xLoad
  iintro ⟨#HR, #Hlev, HSt, Hx, Hp2, Hp5, Hk⟩
  iapply (wp_load 𝒱₀ (c : Thread nD τ) none Set.univ (S := Finset.univ) (Finset.subset_univ _)) $$ Hx
  iintro Hx
  iapply (wp_load 𝒱₀ (c : Thread nD τ) none Set.univ (sl4_set_eq_load 0 1 1).ge) $$ Hp2
  iintro Hp2
  iapply (wp_load 𝒱₀ (c : Thread nD τ) none Set.univ (sl4_set_eq_load 1 1 1).ge) $$ Hp5
  iintro Hp5
  rw [wp_ret]; imodintro
  iapply Hk
  isplitr; · ipureintro; rfl
  iframe

theorem part36 (v2 v25 : BitVec 32) (v1002 : FVec F S64x256 .f32) (ls lr sent : List JS)
    (hv : v1002 = sumHi m c 1)
    (Kt : PUnit → sProp 𝕄) :
    iprop(records m K ∗ levAts L lv ∗ St c ls lr sent ∗ (∃ f, oRows c 1 (lowW m c 1 f))
        ∗ (∀ r, (St c ls lr sent ∗ sendPay m c 6 1 ∗ sendPay m c 7 1) -∗ Kt r))
      ⊢ WP c (atB k0_part36_skel c v2 v25 v1002) Kt := by
  unfold atB k0_part36_skel
  simp only [Prog.lift, Prog.bind_op, Prog.bind_ret, Prog.pure_eq_ret]
  subst hv
  unfold oRows
  iintro ⟨#HR, #Hlev, HSt, ⟨%f, Ho⟩, Hk⟩
  iapply (wp_load 𝒱₀ (c : Thread nD τ) none Set.univ (own_load_high c 1)) $$ [Ho]
  · iexact Ho
  iintro Ho
  iapply (wp_store 𝒱₀ (c : Thread nD τ) none Set.univ (own_high_sub c 1)) $$ [Ho]
  · iexact Ho
  iintro Ho
  rw [wp_ret]; imodintro
  iapply Hk
  isplitl [HSt]; · iexact HSt
  iapply (own_rows_done m c 1 f)
  unfold oRows
  iexact Ho

theorem part37 (v2 : BitVec 32) (ls lr sent : List JS) (Kt : BitVec 32 → sProp 𝕄) :
    iprop(records m K ∗ levAts L lv ∗ St c ((6, 1) :: ls) lr sent ∗ sendPay m c 6 1
        ∗ (∀ r, St c ls lr ((6, 1) :: sent) -∗ Kt r))
      ⊢ WP c (atB k0_part37_skel c v2) Kt := by
  unfold atB k0_part37_skel
  simp only [Prog.lift, Prog.bind_op, Prog.bind_ret, Prog.pure_eq_ret]
  exact send_only m K c _ 6 1 ls lr sent (dev29_eq c) _ Kt

theorem part38 (v14 v25 c1_i32_1060 : BitVec 32) (ls lr sent : List JS)
    (h1 : Above (4, 2) ls) (Kt : PUnit → sProp 𝕄) :
    iprop(records m K ∗ levAts L lv ∗ St c ((7, 1) :: ls) ((4, 2) :: lr) sent ∗ sendPay m c 7 1
        ∗ (∀ r, (St c ls lr ((7, 1) :: sent) ∗ recvPay m c 4 2 ∗ atPos ER (rCell c 4 2) 1 ∅ 0) -∗ Kt r))
      ⊢ WP c (atB k0_part38_skel c v14 v25 c1_i32_1060) Kt := by
  unfold atB k0_part38_skel
  simp only [Prog.lift, Prog.bind_op, Prog.bind_ret, Prog.pure_eq_ret]
  iintro ⟨#HR, #Hlev, HSt, Hp, Hk⟩
  iapply (st_send m K c _ 7 1 ls ((4, 2) :: lr) sent (dev30_eq c)) $$ HR HSt Hp
  iintro HSt
  iapply (st_waitR m K c 4 2 ls lr ((7, 1) :: sent) h1) $$ HR Hlev HSt
  iintro ⟨HSt, Hp4, Ha4⟩
  unfold WP; rw [wp_ret]; imodintro
  iapply Hk
  iframe

end Cert.KernelIdeal.AR

end
-- ==== Proof.ArKernelIdeal.Body4.lean ====
import proofs.«900109_g7700000000000110_dist_ar_v7x_i4_i_m1024_n512_f32_1_alg».proof.Proof.ArKernelIdeal.Flow
import proofs.«900109_g7700000000000110_dist_ar_v7x_i4_i_m1024_n512_f32_1_alg».proof.Proof.ArKernelIdeal.Geom
import proofs.«900109_g7700000000000110_dist_ar_v7x_i4_i_m1024_n512_f32_1_alg».proof.Proof.ArKernelIdeal.Body3

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cid → ℕ) (c : Dev nD)

private theorem xLoad_eq (c : Dev nD) :
    xLoad m c = (xM.view.loc (c : Thread nD τ) ↦[Finset.univ]{fullShare.left} X m c : sProp 𝕄) := rfl

private theorem oRows_eq (c : Dev nD) (s : Fin 4) (g : Buf (Elt F) ((pc5 oM c s).view.loc (c : Thread nD τ))) :
    oRows c s g = (oM.view.loc (c : Thread nD τ) ↦[(pc5 oM c s).view.set]{fullShare} g : sProp 𝕄) := rfl
private theorem oRows_acc (c : Dev nD) (s : Fin 4) (r : Rect S1024x512) (g : Buf (Elt F) ((pc5 oM c s).view.loc (c : Thread nD τ))) :
    oRows c s g = ((oM.access r).loc (c : Thread nD τ) ↦[(pc5 oM c s).view.set]{fullShare} g : sProp 𝕄) := rfl

private theorem ld_out (c : Dev nD) (s : Fin 4) (r : LoadRect S1024x512) (hS : oM.view.setOn r.set ⊆ (pc5 oM c s).view.set)
    (g : Buf (Elt F) ((pc5 oM c s).view.loc (c : Thread nD τ))) {hl : oM.view.LoadsAt r}
    {α : Type} {Q : α → sProp 𝕄} {k : (r.shape.Idx → Elt F .f32) → Prog (TpuEff nD τ sig (Elt F) Λ₀ .tc) α} :
    oRows c s g ⊢ iprop((oRows c s g -∗ WP c (k (oM.view.readAt (Elt F) r g)) Q) -∗ WP c (.op (.load oM r hl) k) Q) := by
  rw [oRows_eq c s g]
  exact wp_load 𝒱₀ (c : Thread nD τ) none Set.univ (m := oM) (r := r) (S := (pc5 oM c s).view.set) (q := fullShare) (f := g) hS

private theorem st_out (c : Dev nD) (s : Fin 4) (r : Rect S1024x512) (hS : (oM.access r).setOn Finset.univ ⊆ (pc5 oM c s).view.set)
    (g : Buf (Elt F) ((pc5 oM c s).view.loc (c : Thread nD τ))) {w : r.shape.Idx → Elt F .f32} {hx : (oM.access r).Stores Finset.univ}
    {hm : (Finset.univ : Finset r.shape.Idx) = Finset.univ ∨ ∀ a, r.stride a = 1}
    {α : Type} {Q : α → sProp 𝕄} {k : PUnit → Prog (TpuEff nD τ sig (Elt F) Λ₀ .tc) α} :
    oRows c s g ⊢ iprop((oRows c s ((oM.access r).write (Elt F) g w Finset.univ) -∗ WP c (k ⟨⟩) Q)
        -∗ WP c (.op (.store oM r w Finset.univ hx hm) k) Q) := by
  rw [oRows_acc c s r g, oRows_acc c s r ((oM.access r).write (Elt F) g w Finset.univ)]
  exact wp_store 𝒱₀ (c : Thread nD τ) none Set.univ (m := oM) (r := r) (w := w) (S := (pc5 oM c s).view.set) (f := g) hS

theorem part39 (v2 v25 : BitVec 32) (ls lr sent : List JS)
    (h1 : Above (2, 2) ls) (h2 : Above (3, 2) ls) (h3 : Above (5, 2) ls)
    (Kt : (Σ' (v1124 : BitVec 32) (c4_i32_1130 : BitVec 32) (v1125 : BitVec 1), BitVec 32) → sProp 𝕄) :
    iprop(records m K ∗ levAts L lv ∗ St c ls ((2, 2) :: (3, 2) :: (5, 2) :: lr) sent
        ∗ (∀ r, (St c ls lr sent ∗ (recvPay m c 2 2 ∗ atPos ER (rCell c 2 2) 1 ∅ 0) ∗ (recvPay m c 3 2 ∗ atPos ER (rCell c 3 2) 1 ∅ 0)
            ∗ (recvPay m c 5 2 ∗ atPos ER (rCell c 5 2) 1 ∅ 0)) -∗ Kt r))
      ⊢ WP c (atB k0_part39_skel v2 v25) Kt := by
  unfold atB k0_part39_skel
  simp only [Prog.lift, Prog.bind_op, Prog.bind_ret, Prog.pure_eq_ret]
  iintro ⟨#HR, #Hlev, HSt, Hk⟩
  iapply (st_waitR m K c 2 2 ls ((3, 2) :: (5, 2) :: lr) sent h1) $$ HR Hlev HSt
  iintro ⟨HSt, Hp1, Ha1⟩
  iapply (st_waitR m K c 3 2 ls ((5, 2) :: lr) sent h2) $$ HR Hlev HSt
  iintro ⟨HSt, Hp2, Ha2⟩
  iapply (st_waitR m K c 5 2 ls lr sent h3) $$ HR Hlev HSt
  iintro ⟨HSt, Hp3, Ha3⟩
  unfold WP; rw [wp_ret]; imodintro
  iapply Hk
  iframe

theorem part40 (v2 v1124 c4_i32_1130 : BitVec 32) (v1125 : BitVec 1) (c1_i32_1132 : BitVec 32)
    (ls lr sent : List JS) (Kt : FVec F S64x256 .f32 → sProp 𝕄) :
    iprop(records m K ∗ levAts L lv ∗ St c ls lr sent ∗ xLoad m c ∗ recvPay m c 4 2 ∗ recvPay m c 3 2
        ∗ (∀ r, (⌜r = sumLo m c 2⌝
            ∗ St c ls lr sent ∗ xLoad m c ∗ recvPay m c 4 2 ∗ recvPay m c 3 2) -∗ Kt r))
      ⊢ WP c (atB k0_part40_skel c v2 v1124 c4_i32_1130 v1125 c1_i32_1132) Kt := by
  unfold atB k0_part40_skel
  simp only [Prog.lift, Prog.bind_op, Prog.bind_ret, Prog.pure_eq_ret]
  rw [xLoad_eq, recvPay4_eq, recvPay3_eq]
  iintro ⟨#HR, #Hlev, HSt, Hx, Hr4, Hr3, Hk⟩
  iapply (wp_load 𝒱₀ (c : Thread nD τ) none Set.univ (m := xM) (r := (rx3 c 0 2).toLoadRect) (S := Finset.univ) (q := fullShare.left)
    (f := X m c) (Finset.subset_univ _)) $$ Hx
  iintro Hx
  iapply (wp_load 𝒱₀ (c : Thread nD τ) none Set.univ (m := rM) (r := (r4 0 0 2).toLoadRect) (S := (sl4 0 0 2).view.set) (q := fullShare)
    (f := lnd4 m c 2) (sl4_set_eq_load 0 0 2).superset) $$ Hr4
  iintro Hr4
  iapply (wp_load 𝒱₀ (c : Thread nD τ) none Set.univ (m := rM) (r := (r4 1 0 2).toLoadRect) (S := (sl4 1 0 2).view.set) (q := fullShare)
    (f := lnd3 m c 2) (sl4_set_eq_load 1 0 2).superset) $$ Hr3
  iintro Hr3
  rw [wp_ret]; imodintro
  iapply Hk
  isplitr; · ipureintro; rfl
  iframe

theorem part41 (v2 : BitVec 32) (v1145 : FVec F S64x256 .f32) (ls lr sent : List JS)
    (hv : v1145 = sumLo m c 2)
    (Kt : (Σ' (v1184 : FVec F S64x256 .f32) (v1188 : BitVec 32) (v1189 : BitVec 32) (v1190 : BitVec 1) (v1191 : BitVec 1), BitVec 1) → sProp 𝕄) :
    iprop(records m K ∗ levAts L lv ∗ St c ls lr sent ∗ (∃ f, oRows c 2 f) ∗ xLoad m c ∗ recvPay m c 2 2 ∗ recvPay m c 5 2
        ∗ (∀ r, (⌜r.1 = sumHi m c 2⌝
            ∗ St c ls lr sent
            ∗ (∃ f, oRows c 2 ((oM.access (rx3 c 0 2)).write (Elt F) f
                (sumLo m c 2) Finset.univ))
            ∗ xLoad m c ∗ recvPay m c 2 2 ∗ recvPay m c 5 2) -∗ Kt r))
      ⊢ WP c (atB k0_part41_skel c v2 v1145) Kt := by
  subst hv
  unfold atB k0_part41_skel
  simp only [Prog.lift, Prog.bind_op, Prog.bind_ret, Prog.pure_eq_ret]
  rw [xLoad_eq, recvPay2_eq, recvPay5_eq]
  iintro ⟨#HR, #Hlev, HSt, ⟨%f, Ho⟩, Hx, Hr2, Hr5, Hk⟩
  iapply (ld_out c 2 (rx3 c 0 2).toLoadRect (own_load_low c 2) f) $$ [Ho]
  · iexact Ho
  iintro Ho
  iapply (st_out c 2 (rx3 c 0 2) (own_low_sub c 2) f) $$ [Ho]
  · iexact Ho
  iintro Ho
  iapply (wp_load 𝒱₀ (c : Thread nD τ) none Set.univ (m := xM) (r := (rx4 c 0 2).toLoadRect) (S := Finset.univ) (q := fullShare.left)
    (f := X m c) (Finset.subset_univ _)) $$ Hx
  iintro Hx
  iapply (wp_load 𝒱₀ (c : Thread nD τ) none Set.univ (m := rM) (r := (r4 0 1 2).toLoadRect) (S := (sl4 0 1 2).view.set) (q := fullShare)
    (f := lnd2 m c 2) (sl4_set_eq_load 0 1 2).superset) $$ Hr2
  iintro Hr2
  iapply (wp_load 𝒱₀ (c : Thread nD τ) none Set.univ (m := rM) (r := (r4 1 1 2).toLoadRect) (S := (sl4 1 1 2).view.set) (q := fullShare)
    (f := lnd5 m c 2) (sl4_set_eq_load 1 1 2).superset) $$ Hr5
  iintro Hr5
  rw [wp_ret]; imodintro
  iapply Hk
  isplitr; · ipureintro; rfl
  isplitl [HSt]; · iexact HSt
  isplitl [Ho]; · iexists f; iexact Ho
  isplitl [Hx]; · iexact Hx
  isplitl [Hr2]; · iexact Hr2
  iexact Hr5

theorem part42 (v2 : BitVec 32) (v1184 : FVec F S64x256 .f32) (v1188 v1189 : BitVec 32)
    (v1190 v1191 v1192 : BitVec 1) (ls lr sent : List JS)
    (hv : v1184 = sumHi m c 2)
    (Kt : PUnit → sProp 𝕄) :
    iprop(records m K ∗ levAts L lv ∗ St c ls lr sent
        ∗ (∃ f, oRows c 2 ((oM.access (rx3 c 0 2)).write (Elt F) f
            (sumLo m c 2) Finset.univ))
        ∗ (∀ r, (St c ls lr sent ∗ sendPay m c 6 2 ∗ sendPay m c 7 2) -∗ Kt r))
      ⊢ WP c (atB k0_part42_skel c v2 v1184 v1188 v1189 v1190 v1191 v1192) Kt := by
  subst hv
  unfold atB k0_part42_skel
  simp only [Prog.lift, Prog.bind_op, Prog.bind_ret, Prog.pure_eq_ret]
  iintro ⟨#HR, #Hlev, HSt, ⟨%f, Ho⟩, Hk⟩
  iapply (ld_out c 2 (rx4 c 0 2).toLoadRect (own_load_high c 2) _) $$ [Ho]
  · iexact Ho
  iintro Ho
  iapply (st_out c 2 (rx4 c 0 2) (own_high_sub c 2) _) $$ [Ho]
  · iexact Ho
  iintro Ho
  unfold WP; rw [wp_ret]; imodintro
  iapply Hk
  isplitl [HSt]; · iexact HSt
  iapply (own_rows_done m c 2 f); unfold lowW; iexact Ho

theorem part43 (v2 v25 : BitVec 32) (ls lr sent : List JS)
    (Kt : (Σ' (v1255 : BitVec 32) (v1260 : BitVec 1), BitVec 32) → sProp 𝕄) :
    iprop(records m K ∗ levAts L lv ∗ St c ((6, 2) :: ls) lr sent ∗ sendPay m c 6 2
        ∗ (∀ r, St c ls lr ((6, 2) :: sent) -∗ Kt r))
      ⊢ WP c (atB k0_part43_skel c v2 v25) Kt := by
  unfold atB k0_part43_skel
  simp only [Prog.lift, Prog.bind_op, Prog.bind_ret, Prog.pure_eq_ret]
  exact send_only m K c _ 6 2 ls lr sent (dev31_eq c) _ Kt

theorem part44 (v14 v25 v1255 : BitVec 32) (v1260 : BitVec 1) (v1261 : BitVec 32) (ls lr sent : List JS)
    (h1 : Above (4, 3) ls)
    (Kt : (Σ' (v1281 : BitVec 32), BitVec 32) → sProp 𝕄) :
    iprop(records m K ∗ levAts L lv ∗ St c ((7, 2) :: ls) ((4, 3) :: lr) sent ∗ sendPay m c 7 2
        ∗ (∀ r, (St c ls lr ((7, 2) :: sent) ∗ (recvPay m c 4 3 ∗ atPos ER (rCell c 4 3) 1 ∅ 0)) -∗ Kt r))
      ⊢ WP c (atB k0_part44_skel c v14 v25 v1255 v1260 v1261) Kt := by
  unfold atB k0_part44_skel
  simp only [Prog.lift, Prog.bind_op, Prog.bind_ret, Prog.pure_eq_ret]
  iintro ⟨#HR, #Hlev, HSt, Hp, Hk⟩
  iapply (st_send m K c _ 7 2 ls ((4, 3) :: lr) sent (dev32_eq c)) $$ HR HSt Hp
  iintro HSt
  iapply (st_waitR m K c 4 3 ls lr ((7, 2) :: sent) h1) $$ HR Hlev HSt
  iintro ⟨HSt, Hp1, Ha1⟩
  unfold WP; rw [wp_ret]; imodintro
  iapply Hk
  iframe

theorem part45 (v25 v1281 c0_i32_1271 : BitVec 32) (ls lr sent : List JS)
    (h1 : Above (2, 3) ls) (h2 : Above (3, 3) ls)
    (Kt : PUnit → sProp 𝕄) :
    iprop(records m K ∗ levAts L lv ∗ St c ls ((2, 3) :: (3, 3) :: lr) sent
        ∗ (∀ r, (St c ls lr sent ∗ (recvPay m c 2 3 ∗ atPos ER (rCell c 2 3) 1 ∅ 0) ∗ (recvPay m c 3 3 ∗ atPos ER (rCell c 3 3) 1 ∅ 0)) -∗ Kt r))
      ⊢ WP c (atB k0_part45_skel v25 v1281 c0_i32_1271) Kt := by
  unfold atB k0_part45_skel
  simp only [Prog.lift, Prog.bind_op, Prog.bind_ret, Prog.pure_eq_ret]
  iintro ⟨#HR, #Hlev, HSt, Hk⟩
  iapply (st_waitR m K c 2 3 ls ((3, 3) :: lr) sent h1) $$ HR Hlev HSt
  iintro ⟨HSt, Hp1, Ha1⟩
  iapply (st_waitR m K c 3 3 ls lr sent h2) $$ HR Hlev HSt
  iintro ⟨HSt, Hp2, Ha2⟩
  unfold WP; rw [wp_ret]; imodintro
  iapply Hk
  iframe

theorem part46 (v2 : BitVec 32) (ls lr sent : List JS)
    (h1 : Above (5, 3) ls)
    (Kt : (Σ' (v1327 : FVec F S64x256 .f32) (v1331 : BitVec 32) (v1332 : BitVec 32) (v1333 : BitVec 1) (v1334 : BitVec 1), BitVec 1) → sProp 𝕄) :
    iprop(records m K ∗ levAts L lv ∗ St c ls ((5, 3) :: lr) sent ∗ xLoad m c ∗ recvPay m c 4 3 ∗ recvPay m c 3 3
        ∗ (∀ r, (⌜r.1 = sumLo m c 3⌝
            ∗ St c ls lr sent ∗ (recvPay m c 5 3 ∗ atPos ER (rCell c 5 3) 1 ∅ 0) ∗ xLoad m c ∗ recvPay m c 4 3 ∗ recvPay m c 3 3) -∗ Kt r))
      ⊢ WP c (atB k0_part46_skel c v2) Kt := by
  unfold atB k0_part46_skel
  simp only [Prog.lift, Prog.bind_op, Prog.bind_ret, Prog.pure_eq_ret]
  rw [xLoad_eq, recvPay4_eq, recvPay3_eq]
  iintro ⟨#HR, #Hlev, HSt, Hx, Hr4, Hr3, Hk⟩
  iapply (st_waitR m K c 5 3 ls lr sent h1) $$ HR Hlev HSt
  iintro ⟨HSt, Hp1, Ha1⟩
  iapply (wp_load 𝒱₀ (c : Thread nD τ) none Set.univ (m := xM) (r := (rx3 c 0 3).toLoadRect) (S := Finset.univ) (q := fullShare.left)
    (f := X m c) (Finset.subset_univ _)) $$ Hx
  iintro Hx
  iapply (wp_load 𝒱₀ (c : Thread nD τ) none Set.univ (m := rM) (r := (r4 0 0 3).toLoadRect) (S := (sl4 0 0 3).view.set) (q := fullShare)
    (f := lnd4 m c 3) (sl4_set_eq_load 0 0 3).superset) $$ Hr4
  iintro Hr4
  iapply (wp_load 𝒱₀ (c : Thread nD τ) none Set.univ (m := rM) (r := (r4 1 0 3).toLoadRect) (S := (sl4 1 0 3).view.set) (q := fullShare)
    (f := lnd3 m c 3) (sl4_set_eq_load 1 0 3).superset) $$ Hr3
  iintro Hr3
  rw [wp_ret]; imodintro
  iapply Hk
  isplitr; · ipureintro; rfl
  iframe

theorem part47 (v2 : BitVec 32) (v1327 : FVec F S64x256 .f32) (v1331 v1332 : BitVec 32)
    (v1333 v1334 v1335 : BitVec 1) (ls lr sent : List JS)
    (hv : v1327 = sumLo m c 3)
    (Kt : (Σ' (v1366 : FVec F S64x256 .f32) (v1368 : BitVec 32) (c4_i32_1359 : BitVec 32), BitVec 32) → sProp 𝕄) :
    iprop(records m K ∗ levAts L lv ∗ St c ls lr sent ∗ (∃ f, oRows c 3 f) ∗ xLoad m c ∗ recvPay m c 2 3 ∗ recvPay m c 5 3
        ∗ (∀ r, (⌜r.1 = sumHi m c 3⌝
            ∗ St c ls lr sent
            ∗ (∃ f, oRows c 3 ((oM.access (rx3 c 0 3)).write (Elt F) f
                (sumLo m c 3) Finset.univ))
            ∗ xLoad m c ∗ recvPay m c 2 3 ∗ recvPay m c 5 3) -∗ Kt r))
      ⊢ WP c (atB k0_part47_skel c v2 v1327 v1331 v1332 v1333 v1334 v1335) Kt := by
  subst hv
  unfold atB k0_part47_skel
  simp only [Prog.lift, Prog.bind_op, Prog.bind_ret, Prog.pure_eq_ret]
  rw [xLoad_eq, recvPay2_eq, recvPay5_eq]
  iintro ⟨#HR, #Hlev, HSt, ⟨%f, Ho⟩, Hx, Hr2, Hr5, Hk⟩
  iapply (ld_out c 3 (rx3 c 0 3).toLoadRect (own_load_low c 3) f) $$ [Ho]
  · iexact Ho
  iintro Ho
  iapply (st_out c 3 (rx3 c 0 3) (own_low_sub c 3) f) $$ [Ho]
  · iexact Ho
  iintro Ho
  iapply (wp_load 𝒱₀ (c : Thread nD τ) none Set.univ (m := xM) (r := (rx4 c 0 3).toLoadRect) (S := Finset.univ) (q := fullShare.left)
    (f := X m c) (Finset.subset_univ _)) $$ Hx
  iintro Hx
  iapply (wp_load 𝒱₀ (c : Thread nD τ) none Set.univ (m := rM) (r := (r4 0 1 3).toLoadRect) (S := (sl4 0 1 3).view.set) (q := fullShare)
    (f := lnd2 m c 3) (sl4_set_eq_load 0 1 3).superset) $$ Hr2
  iintro Hr2
  iapply (wp_load 𝒱₀ (c : Thread nD τ) none Set.univ (m := rM) (r := (r4 1 1 3).toLoadRect) (S := (sl4 1 1 3).view.set) (q := fullShare)
    (f := lnd5 m c 3) (sl4_set_eq_load 1 1 3).superset) $$ Hr5
  iintro Hr5
  rw [wp_ret]; imodintro
  iapply Hk
  isplitr; · ipureintro; rfl
  isplitl [HSt]; · iexact HSt
  isplitl [Ho]; · iexists f; iexact Ho
  isplitl [Hx]; · iexact Hx
  isplitl [Hr2]; · iexact Hr2
  iexact Hr5

theorem part48 (v2 : BitVec 32) (v1366 : FVec F S64x256 .f32) (v1368 c4_i32_1359 c0_i32_1360 : BitVec 32)
    (ls lr sent : List JS)
    (hv : v1366 = sumHi m c 3)
    (Kt : (Σ' (v1400 : BitVec 32) (v1401 : BitVec 32) (v1402 : BitVec 1), BitVec 1) → sProp 𝕄) :
    iprop(records m K ∗ levAts L lv ∗ St c ls lr sent
        ∗ (∃ f, oRows c 3 ((oM.access (rx3 c 0 3)).write (Elt F) f
            (sumLo m c 3) Finset.univ))
        ∗ (∀ r, (St c ls lr sent ∗ sendPay m c 6 3 ∗ sendPay m c 7 3) -∗ Kt r))
      ⊢ WP c (atB k0_part48_skel c v2 v1366 v1368 c4_i32_1359 c0_i32_1360) Kt := by
  subst hv
  unfold atB k0_part48_skel
  simp only [Prog.lift, Prog.bind_op, Prog.bind_ret, Prog.pure_eq_ret]
  iintro ⟨#HR, #Hlev, HSt, ⟨%f, Ho⟩, Hk⟩
  iapply (ld_out c 3 (rx4 c 0 3).toLoadRect (own_load_high c 3) _) $$ [Ho]
  · iexact Ho
  iintro Ho
  iapply (st_out c 3 (rx4 c 0 3) (own_high_sub c 3) _) $$ [Ho]
  · iexact Ho
  iintro Ho
  unfold WP; rw [wp_ret]; imodintro
  iapply Hk
  isplitl [HSt]; · iexact HSt
  iapply (own_rows_done m c 3 f); unfold lowW; iexact Ho

theorem part49 (v2 v25 v1400 v1401 : BitVec 32) (v1402 v1403 : BitVec 1) (ls lr sent : List JS)
    (Kt : (Σ' (v1434 : BitVec 32), BitVec 32) → sProp 𝕄) :
    iprop(records m K ∗ levAts L lv ∗ St c ((6, 3) :: ls) lr sent ∗ sendPay m c 6 3
        ∗ (∀ r, St c ls lr ((6, 3) :: sent) -∗ Kt r))
      ⊢ WP c (atB k0_part49_skel c v2 v25 v1400 v1401 v1402 v1403) Kt := by
  unfold atB k0_part49_skel
  simp only [Prog.lift, Prog.bind_op, Prog.bind_ret, Prog.pure_eq_ret]
  exact send_only m K c _ 6 3 ls lr sent (dev33_eq c) _ Kt

theorem part50 (v2 v14 v25 v1434 v1436 : BitVec 32) (ls lr sent : List JS)
    (h1 : Above (6, 0) ls)
    (Kt : (Σ' (v1464 : BitVec 32) (v1465 : BitVec 32), BitVec 32) → sProp 𝕄) :
    iprop(records m K ∗ levAts L lv ∗ St c ((7, 3) :: ls) ((6, 0) :: lr) sent ∗ sendPay m c 7 3
        ∗ (∀ r, (St c ls lr ((7, 3) :: sent) ∗ (recvPay m c 6 0 ∗ atPos ER (rCell c 6 0) 1 ∅ 0)) -∗ Kt r))
      ⊢ WP c (atB k0_part50_skel c v2 v14 v25 v1434 v1436) Kt := by
  unfold atB k0_part50_skel
  simp only [Prog.lift, Prog.bind_op, Prog.bind_ret, Prog.pure_eq_ret]
  iintro ⟨#HR, #Hlev, HSt, Hp, Hk⟩
  iapply (st_send m K c _ 7 3 ls ((6, 0) :: lr) sent (dev34_eq c)) $$ HR HSt Hp
  iintro HSt
  iapply (st_waitR m K c 6 0 ls lr ((7, 3) :: sent) h1) $$ HR Hlev HSt
  iintro ⟨HSt, Hp1, Ha1⟩
  unfold WP; rw [wp_ret]; imodintro
  iapply Hk
  iframe

end Cert.KernelIdeal.AR

end
-- ==== Proof.ArKernelIdeal.Body5.lean ====
import proofs.«900109_g7700000000000110_dist_ar_v7x_i4_i_m1024_n512_f32_1_alg».proof.Proof.ArKernelIdeal.Flow
import proofs.«900109_g7700000000000110_dist_ar_v7x_i4_i_m1024_n512_f32_1_alg».proof.Proof.ArKernelIdeal.Geom

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cid → ℕ) (c : Dev nD)

def keepL (c : Dev nD) (s : Fin 4) : sProp 𝕄 :=
  ((pc5 oM (prv c) s).view.loc (c : Thread nD τ) ↦[(pc5 oM (prv c) s).view.set \ (pc1m oM c s).view.set]{fullShare} lnd6 m c s)
def keepR (c : Dev nD) (s : Fin 4) : sProp 𝕄 :=
  ((pc5 oM (nxt c) s).view.loc (c : Thread nD τ) ↦[(pc5 oM (nxt c) s).view.set \ (pc2o oM c s).view.set]{fullShare} lnd7 m c s)

omit [FloatOps F] in
private theorem split_slices (c : Dev nD) (b : Memref sig .tc .vmem S1024x512 .f32) (r1 r2 : Rect S1024x512)
    (h : (b.view.slice r1).set ⊆ (b.view.slice r2).set) (f : Buf (Elt F) (b.view.loc (c : Thread nD τ))) :
    ((b.view.slice r2).loc (c : Thread nD τ) ↦[(b.view.slice r2).set]{fullShare} f : sProp 𝕄)
      ⊢ iprop(((b.view.slice r1).loc (c : Thread nD τ) ↦[(b.view.slice r1).set]{fullShare} f)
          ∗ ((b.view.slice r2).loc (c : Thread nD τ) ↦[(b.view.slice r2).set \ (b.view.slice r1).set]{fullShare} f)) :=
  BIBase.BiEntails.mp (BI.Region.is_split_subset h)

private theorem recvPay6 (c : Dev nD) (s : Fin 4) :
    recvPay m c 6 s = ((pc5 oM (prv c) s).view.loc (c : Thread nD τ) ↦[(pc5 oM (prv c) s).view.set]{fullShare} lnd6 m c s) := rfl
private theorem recvPay7 (c : Dev nD) (s : Fin 4) :
    recvPay m c 7 s = ((pc5 oM (nxt c) s).view.loc (c : Thread nD τ) ↦[(pc5 oM (nxt c) s).view.set]{fullShare} lnd7 m c s) := rfl
private theorem sendPay8 (c : Dev nD) (s : Fin 4) :
    sendPay m c 8 s = ((pc1m oM c s).view.loc (c : Thread nD τ) ↦[(pc1m oM c s).view.set]{fullShare} lnd6 m c s) := rfl
private theorem sendPay9 (c : Dev nD) (s : Fin 4) :
    sendPay m c 9 s = ((pc2o oM c s).view.loc (c : Thread nD τ) ↦[(pc2o oM c s).view.set]{fullShare} lnd7 m c s) := rfl

theorem fwd_low_split (c : Dev nD) (s : Fin 4) : recvPay m c 6 s ⊢ iprop(sendPay m c 8 s ∗ keepL m c s) := by
  rw [recvPay6, sendPay8]; unfold keepL
  exact split_slices c oM (Rect.unit (s := S1024x512) (k0_off1 c 4294967295#32 (w64 s)) S64x256.size (Gen.k0_off1_inb c 1 s))
    (Rect.unit (s := S1024x512) (k0_off5 (prv c) (w64 s)) S64x512.size (Gen.k0_off5_inb (prv c) s)) (fwd_low_subset c s) (lnd6 m c s)
theorem fwd_high_split (c : Dev nD) (s : Fin 4) : recvPay m c 7 s ⊢ iprop(sendPay m c 9 s ∗ keepR m c s) := by
  rw [recvPay7, sendPay9]; unfold keepR
  exact split_slices c oM (Rect.unit (s := S1024x512) (k0_off2 c 1#32 (w64 s)) S64x256.size (Gen.k0_off2_inb c 0 s))
    (Rect.unit (s := S1024x512) (k0_off5 (nxt c) (w64 s)) S64x512.size (Gen.k0_off5_inb (nxt c) s)) (fwd_high_subset c s) (lnd7 m c s)

theorem part51 (v2 v25 v1464 v1465 c0_i32_1439 : BitVec 32) (ls lr sent : List JS)
    (Kt : BitVec 32 → sProp 𝕄) :
    iprop(records m K ∗ levAts L lv ∗ St c ((8, 0) :: ls) lr sent ∗ recvPay m c 6 0
        ∗ (∀ r, (St c ls lr ((8, 0) :: sent) ∗ keepL m c 0) -∗ Kt r))
      ⊢ WP c (atB k0_part51_skel c v2 v25 v1464 v1465 c0_i32_1439) Kt := by
  unfold atB k0_part51_skel
  simp only [Prog.lift, Prog.bind_op, Prog.bind_ret, Prog.pure_eq_ret]
  iintro ⟨#HR, #Hlev, HSt, Hrecv, Hk⟩
  icases (fwd_low_split m c 0) $$ Hrecv with ⟨Hpay, Hkeep⟩
  iapply (st_send m K c _ 8 0 ls lr sent (dev35_eq c)) $$ HR HSt Hpay
  iintro HSt
  unfold WP; rw [wp_ret]; imodintro
  iapply Hk
  iframe

theorem part52 (v2 v1497 : BitVec 32) (ls lr sent : List JS)
    (h : Above (7, 0) ls) (Kt : PUnit → sProp 𝕄) :
    iprop(records m K ∗ levAts L lv ∗ St c ls ((7, 0) :: lr) sent
        ∗ (∀ r, (St c ls lr sent ∗ recvPay m c 7 0 ∗ rAt c 7 0 1) -∗ Kt r))
      ⊢ WP c (atB k0_part52_skel v2 v1497) Kt := by
  unfold atB k0_part52_skel
  simp only [Prog.lift, Prog.bind_op, Prog.bind_ret, Prog.pure_eq_ret]
  iintro ⟨#HR, #Hlev, HSt, Hk⟩
  iapply (st_waitR m K c 7 0 ls lr sent h) $$ HR Hlev HSt
  iintro ⟨HSt, Hrcv, Hat⟩
  unfold WP; rw [wp_ret]; imodintro
  iapply Hk
  iframe

theorem part53 (v2 v14 v25 : BitVec 32) (ls lr sent : List JS)
    (h : Above (6, 1) ls) (Kt : (Σ' (v1559 : BitVec 32), BitVec 32) → sProp 𝕄) :
    iprop(records m K ∗ levAts L lv ∗ St c ((9, 0) :: ls) ((6, 1) :: lr) sent ∗ recvPay m c 7 0
        ∗ (∀ r, (St c ls lr ((9, 0) :: sent) ∗ keepR m c 0 ∗ recvPay m c 6 1 ∗ rAt c 6 1 1) -∗ Kt r))
      ⊢ WP c (atB k0_part53_skel c v2 v14 v25) Kt := by
  unfold atB k0_part53_skel
  simp only [Prog.lift, Prog.bind_op, Prog.bind_ret, Prog.pure_eq_ret]
  iintro ⟨#HR, #Hlev, HSt, Hrecv, Hk⟩
  icases (fwd_high_split m c 0) $$ Hrecv with ⟨Hpay, Hkeep⟩
  iapply (st_send m K c _ 9 0 ls ((6, 1) :: lr) sent (dev36_eq c)) $$ HR HSt Hpay
  iintro HSt
  iapply (st_waitR m K c 6 1 ls lr ((9, 0) :: sent) h) $$ HR Hlev HSt
  iintro ⟨HSt, Hrcv, Hat⟩
  unfold WP; rw [wp_ret]; imodintro
  iapply Hk
  iframe

theorem part54 (v2 v25 v1559 c4_i32_1521 : BitVec 32) (ls lr sent : List JS)
    (h : Above (7, 1) ls) (Kt : (Σ' (v1588 : BitVec 32), BitVec 32) → sProp 𝕄) :
    iprop(records m K ∗ levAts L lv ∗ St c ((8, 1) :: ls) ((7, 1) :: lr) sent ∗ recvPay m c 6 1
        ∗ (∀ r, (St c ls lr ((8, 1) :: sent) ∗ keepL m c 1 ∗ recvPay m c 7 1 ∗ rAt c 7 1 1) -∗ Kt r))
      ⊢ WP c (atB k0_part54_skel c v2 v25 v1559 c4_i32_1521) Kt := by
  unfold atB k0_part54_skel
  simp only [Prog.lift, Prog.bind_op, Prog.bind_ret, Prog.pure_eq_ret]
  iintro ⟨#HR, #Hlev, HSt, Hrecv, Hk⟩
  icases (fwd_low_split m c 1) $$ Hrecv with ⟨Hpay, Hkeep⟩
  iapply (st_send m K c _ 8 1 ls ((7, 1) :: lr) sent (dev37_eq c)) $$ HR HSt Hpay
  iintro HSt
  iapply (st_waitR m K c 7 1 ls lr ((8, 1) :: sent) h) $$ HR Hlev HSt
  iintro ⟨HSt, Hrcv, Hat⟩
  unfold WP; rw [wp_ret]; imodintro
  iapply Hk
  iframe

theorem part55 (v2 v14 v1588 c4_i32_1550 : BitVec 32) (ls lr sent : List JS)
    (Kt : PUnit → sProp 𝕄) :
    iprop(records m K ∗ levAts L lv ∗ St c ((9, 1) :: ls) lr sent ∗ recvPay m c 7 1
        ∗ (∀ r, (St c ls lr ((9, 1) :: sent) ∗ keepR m c 1) -∗ Kt r))
      ⊢ WP c (atB k0_part55_skel c v2 v14 v1588 c4_i32_1550) Kt := by
  unfold atB k0_part55_skel
  simp only [Prog.lift, Prog.bind_op, Prog.bind_ret, Prog.pure_eq_ret]
  iintro ⟨#HR, #Hlev, HSt, Hrecv, Hk⟩
  icases (fwd_high_split m c 1) $$ Hrecv with ⟨Hpay, Hkeep⟩
  iapply (st_send m K c _ 9 1 ls lr sent (dev38_eq c)) $$ HR HSt Hpay
  iintro HSt
  unfold WP; rw [wp_ret]; imodintro
  iapply Hk
  iframe

theorem part56 (v2 v25 : BitVec 32) (ls lr sent : List JS)
    (h : Above (6, 2) ls) (Kt : (Σ' (v1647 : BitVec 32) (v1652 : BitVec 1), BitVec 32) → sProp 𝕄) :
    iprop(records m K ∗ levAts L lv ∗ St c ls ((6, 2) :: lr) sent
        ∗ (∀ r, (St c ls lr sent ∗ recvPay m c 6 2 ∗ rAt c 6 2 1) -∗ Kt r))
      ⊢ WP c (atB k0_part56_skel v2 v25) Kt := by
  unfold atB k0_part56_skel
  simp only [Prog.lift, Prog.bind_op, Prog.bind_ret, Prog.pure_eq_ret]
  iintro ⟨#HR, #Hlev, HSt, Hk⟩
  iapply (st_waitR m K c 6 2 ls lr sent h) $$ HR Hlev HSt
  iintro ⟨HSt, Hrcv, Hat⟩
  unfold WP; rw [wp_ret]; imodintro
  iapply Hk
  iframe

theorem part57 (v2 v25 v1647 : BitVec 32) (v1652 : BitVec 1) (v1653 : BitVec 32)
    (ls lr sent : List JS) (h : Above (7, 2) ls) (Kt : (Σ' (v1682 : BitVec 32), BitVec 32) → sProp 𝕄) :
    iprop(records m K ∗ levAts L lv ∗ St c ((8, 2) :: ls) ((7, 2) :: lr) sent ∗ recvPay m c 6 2
        ∗ (∀ r, (St c ls lr ((8, 2) :: sent) ∗ keepL m c 2 ∗ recvPay m c 7 2 ∗ rAt c 7 2 1) -∗ Kt r))
      ⊢ WP c (atB k0_part57_skel c v2 v25 v1647 v1652 v1653) Kt := by
  unfold atB k0_part57_skel
  simp only [Prog.lift, Prog.bind_op, Prog.bind_ret, Prog.pure_eq_ret]
  iintro ⟨#HR, #Hlev, HSt, Hrecv, Hk⟩
  icases (fwd_low_split m c 2) $$ Hrecv with ⟨Hpay, Hkeep⟩
  iapply (st_send m K c _ 8 2 ls ((7, 2) :: lr) sent (dev39_eq c)) $$ HR HSt Hpay
  iintro HSt
  iapply (st_waitR m K c 7 2 ls lr ((8, 2) :: sent) h) $$ HR Hlev HSt
  iintro ⟨HSt, Hrcv, Hat⟩
  unfold WP; rw [wp_ret]; imodintro
  iapply Hk
  iframe

theorem part58 (v2 v14 v25 v1682 c256_i32_1632 : BitVec 32) (ls lr sent : List JS)
    (Kt : PUnit → sProp 𝕄) :
    iprop(records m K ∗ levAts L lv ∗ St c ((9, 2) :: ls) lr sent ∗ recvPay m c 7 2
        ∗ (∀ r, (St c ls lr ((9, 2) :: sent) ∗ keepR m c 2) -∗ Kt r))
      ⊢ WP c (atB k0_part58_skel c v2 v14 v25 v1682 c256_i32_1632) Kt := by
  unfold atB k0_part58_skel
  simp only [Prog.lift, Prog.bind_op, Prog.bind_ret, Prog.pure_eq_ret]
  iintro ⟨#HR, #Hlev, HSt, Hrecv, Hk⟩
  icases (fwd_high_split m c 2) $$ Hrecv with ⟨Hpay, Hkeep⟩
  iapply (st_send m K c _ 9 2 ls lr sent (dev40_eq c)) $$ HR HSt Hpay
  iintro HSt
  unfold WP; rw [wp_ret]; imodintro
  iapply Hk
  iframe

theorem part59 (v2 v25 : BitVec 32) (ls lr sent : List JS)
    (h : Above (6, 3) ls) (Kt : PUnit → sProp 𝕄) :
    iprop(records m K ∗ levAts L lv ∗ St c ls ((6, 3) :: lr) sent
        ∗ (∀ r, (St c ls lr sent ∗ recvPay m c 6 3 ∗ rAt c 6 3 1) -∗ Kt r))
      ⊢ WP c (atB k0_part59_skel v2 v25) Kt := by
  unfold atB k0_part59_skel
  simp only [Prog.lift, Prog.bind_op, Prog.bind_ret, Prog.pure_eq_ret]
  iintro ⟨#HR, #Hlev, HSt, Hk⟩
  iapply (st_waitR m K c 6 3 ls lr sent h) $$ HR Hlev HSt
  iintro ⟨HSt, Hrcv, Hat⟩
  unfold WP; rw [wp_ret]; imodintro
  iapply Hk
  iframe

theorem part60 (v2 v25 : BitVec 32) (ls lr sent : List JS)
    (h : Above (7, 3) ls) (Kt : (Σ' (v1772 : BitVec 32) (v1773 : BitVec 32) (v1774 : BitVec 1), BitVec 32) → sProp 𝕄) :
    iprop(records m K ∗ levAts L lv ∗ St c ((8, 3) :: ls) ((7, 3) :: lr) sent ∗ recvPay m c 6 3
        ∗ (∀ r, (St c ls lr ((8, 3) :: sent) ∗ keepL m c 3 ∗ recvPay m c 7 3 ∗ rAt c 7 3 1) -∗ Kt r))
      ⊢ WP c (atB k0_part60_skel c v2 v25) Kt := by
  unfold atB k0_part60_skel
  simp only [Prog.lift, Prog.bind_op, Prog.bind_ret, Prog.pure_eq_ret]
  iintro ⟨#HR, #Hlev, HSt, Hrecv, Hk⟩
  icases (fwd_low_split m c 3) $$ Hrecv with ⟨Hpay, Hkeep⟩
  iapply (st_send m K c _ 8 3 ls ((7, 3) :: lr) sent (dev41_eq c)) $$ HR HSt Hpay
  iintro HSt
  iapply (st_waitR m K c 7 3 ls lr ((8, 3) :: sent) h) $$ HR Hlev HSt
  iintro ⟨HSt, Hrcv, Hat⟩
  unfold WP; rw [wp_ret]; imodintro
  iapply Hk
  iframe

theorem part61 (v14 v25 v1772 v1773 : BitVec 32) (v1774 : BitVec 1) (c0_i32_1716 : BitVec 32)
    (ls lr sent : List JS) (h : Above (8, 0) ls) (Kt : PUnit → sProp 𝕄) :
    iprop(records m K ∗ levAts L lv ∗ St c ((9, 3) :: ls) ((8, 0) :: lr) sent ∗ recvPay m c 7 3
        ∗ (∀ r, (St c ls lr ((9, 3) :: sent) ∗ keepR m c 3 ∗ recvPay m c 8 0 ∗ rAt c 8 0 1) -∗ Kt r))
      ⊢ WP c (atB k0_part61_skel c v14 v25 v1772 v1773 v1774 c0_i32_1716) Kt := by
  unfold atB k0_part61_skel
  simp only [Prog.lift, Prog.bind_op, Prog.bind_ret, Prog.pure_eq_ret]
  iintro ⟨#HR, #Hlev, HSt, Hrecv, Hk⟩
  icases (fwd_high_split m c 3) $$ Hrecv with ⟨Hpay, Hkeep⟩
  iapply (st_send m K c _ 9 3 ls ((8, 0) :: lr) sent (dev42_eq c)) $$ HR HSt Hpay
  iintro HSt
  iapply (st_waitR m K c 8 0 ls lr ((9, 3) :: sent) h) $$ HR Hlev HSt
  iintro ⟨HSt, Hrcv, Hat⟩
  unfold WP; rw [wp_ret]; imodintro
  iapply Hk
  iframe

theorem part62 (v25 : BitVec 32) (ls lr sent : List JS)
    (h1 : Above (9, 0) ls) (h2 : Above (8, 1) ls) (h3 : Above (9, 1) ls) (h4 : Above (8, 2) ls)
    (Kt : (Σ' (v1821 : BitVec 32), BitVec 32) → sProp 𝕄) :
    iprop(records m K ∗ levAts L lv ∗ St c ls ((9, 0) :: (8, 1) :: (9, 1) :: (8, 2) :: lr) sent
        ∗ (∀ r, (St c ls lr sent ∗ recvPay m c 9 0 ∗ rAt c 9 0 1 ∗ recvPay m c 8 1 ∗ rAt c 8 1 1
            ∗ recvPay m c 9 1 ∗ rAt c 9 1 1 ∗ recvPay m c 8 2 ∗ rAt c 8 2 1) -∗ Kt r))
      ⊢ WP c (atB k0_part62_skel v25) Kt := by
  unfold atB k0_part62_skel
  simp only [Prog.lift, Prog.bind_op, Prog.bind_ret, Prog.pure_eq_ret]
  iintro ⟨#HR, #Hlev, HSt, Hk⟩
  iapply (st_waitR m K c 9 0 ls ((8, 1) :: (9, 1) :: (8, 2) :: lr) sent h1) $$ HR Hlev HSt
  iintro ⟨HSt, Hrcv1, Hat1⟩
  iapply (st_waitR m K c 8 1 ls ((9, 1) :: (8, 2) :: lr) sent h2) $$ HR Hlev HSt
  iintro ⟨HSt, Hrcv2, Hat2⟩
  iapply (st_waitR m K c 9 1 ls ((8, 2) :: lr) sent h3) $$ HR Hlev HSt
  iintro ⟨HSt, Hrcv3, Hat3⟩
  iapply (st_waitR m K c 8 2 ls lr sent h4) $$ HR Hlev HSt
  iintro ⟨HSt, Hrcv4, Hat4⟩
  unfold WP; rw [wp_ret]; imodintro
  iapply Hk
  iframe

end Cert.KernelIdeal.AR

end
-- ==== Proof.ArKernelIdeal.Body6.lean ====
import proofs.«900109_g7700000000000110_dist_ar_v7x_i4_i_m1024_n512_f32_1_alg».proof.Proof.ArKernelIdeal.Flow
import proofs.«900109_g7700000000000110_dist_ar_v7x_i4_i_m1024_n512_f32_1_alg».proof.Proof.ArKernelIdeal.Geom

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cid → ℕ) (c : Dev nD)

theorem part63 (v25 v1821 c0_i32_1783 : BitVec 32) (sentL : List JS)
    (Kt : PUnit → sProp 𝕄) :
    iprop(records m K ∗ levAts L lv ∗ St c [] ((9, 2) :: (8, 3) :: (9, 3) :: []) ((0, 0) :: sentL)
        ∗ sAt c 0 0 0
        ∗ (∀ r, (St c [] [] sentL
              ∗ recvPay m c 9 2 ∗ rAt c 9 2 1
              ∗ recvPay m c 8 3 ∗ rAt c 8 3 1
              ∗ recvPay m c 9 3 ∗ rAt c 9 3 1
              ∗ sendPay m c 0 0 ∗ sAt c 0 0 1) -∗ Kt r))
      ⊢ WP c (atB k0_part63_skel c v25 v1821 c0_i32_1783) Kt := by
  unfold atB k0_part63_skel
  simp only [Prog.lift, Prog.bind_op, Prog.bind_ret, Prog.pure_eq_ret]
  iintro ⟨#HR, #Hlev, HSt, Hs0, Hk⟩
  iapply (st_waitR m K c 9 2 [] ((8, 3) :: (9, 3) :: []) ((0, 0) :: sentL) (fun _ h => nomatch h)) $$ HR Hlev HSt
  iintro ⟨HSt, Hp1, Ha1⟩
  iapply (st_waitR m K c 8 3 [] ((9, 3) :: []) ((0, 0) :: sentL) (fun _ h => nomatch h)) $$ HR Hlev HSt
  iintro ⟨HSt, Hp2, Ha2⟩
  iapply (st_waitR m K c 9 3 [] [] ((0, 0) :: sentL) (fun _ h => nomatch h)) $$ HR Hlev HSt
  iintro ⟨HSt, Hp3, Ha3⟩
  iapply (st_waitS m K c 0 0 sentL) $$ HR HSt Hs0
  iintro ⟨HSt, Hq0, Hb0⟩
  unfold WP; rw [wp_ret]; imodintro
  iapply Hk
  iframe

theorem part64 (sentL : List JS) (Kt : PUnit → sProp 𝕄) :
    iprop(records m K ∗ levAts L lv ∗ St c [] [] ((1, 0) :: (2, 0) :: (3, 0) :: sentL)
        ∗ sAt c 1 0 0 ∗ sAt c 2 0 0 ∗ sAt c 3 0 0
        ∗ (∀ r, (St c [] [] sentL
              ∗ sendPay m c 1 0 ∗ sAt c 1 0 1
              ∗ sendPay m c 2 0 ∗ sAt c 2 0 1
              ∗ sendPay m c 3 0 ∗ sAt c 3 0 1) -∗ Kt r))
      ⊢ WP c (atB k0_part64_skel c) Kt := by
  unfold atB k0_part64_skel
  simp only [Prog.lift, Prog.bind_op, Prog.bind_ret, Prog.pure_eq_ret]
  iintro ⟨#HR, #Hlev, HSt, Hs1, Hs2, Hs3, Hk⟩
  iapply (st_waitS m K c 1 0 ((2, 0) :: (3, 0) :: sentL)) $$ HR HSt Hs1
  iintro ⟨HSt, Hq1, Hb1⟩
  iapply (st_waitS m K c 2 0 ((3, 0) :: sentL)) $$ HR HSt Hs2
  iintro ⟨HSt, Hq2, Hb2⟩
  iapply (st_waitS m K c 3 0 sentL) $$ HR HSt Hs3
  iintro ⟨HSt, Hq3, Hb3⟩
  unfold WP; rw [wp_ret]; imodintro
  iapply Hk
  iframe

theorem part65 (sentL : List JS) (Kt : PUnit → sProp 𝕄) :
    iprop(records m K ∗ levAts L lv ∗ St c [] [] ((0, 1) :: (1, 1) :: (2, 1) :: (3, 1) :: sentL)
        ∗ sAt c 0 1 0 ∗ sAt c 1 1 0 ∗ sAt c 2 1 0 ∗ sAt c 3 1 0
        ∗ (∀ r, (St c [] [] sentL
              ∗ sendPay m c 0 1 ∗ sAt c 0 1 1
              ∗ sendPay m c 1 1 ∗ sAt c 1 1 1
              ∗ sendPay m c 2 1 ∗ sAt c 2 1 1
              ∗ sendPay m c 3 1 ∗ sAt c 3 1 1) -∗ Kt r))
      ⊢ WP c (atB k0_part65_skel c) Kt := by
  unfold atB k0_part65_skel
  simp only [Prog.lift, Prog.bind_op, Prog.bind_ret, Prog.pure_eq_ret]
  iintro ⟨#HR, #Hlev, HSt, Hs1, Hs2, Hs3, Hs4, Hk⟩
  iapply (st_waitS m K c 0 1 ((1, 1) :: (2, 1) :: (3, 1) :: sentL)) $$ HR HSt Hs1
  iintro ⟨HSt, Hq1, Hb1⟩
  iapply (st_waitS m K c 1 1 ((2, 1) :: (3, 1) :: sentL)) $$ HR HSt Hs2
  iintro ⟨HSt, Hq2, Hb2⟩
  iapply (st_waitS m K c 2 1 ((3, 1) :: sentL)) $$ HR HSt Hs3
  iintro ⟨HSt, Hq3, Hb3⟩
  iapply (st_waitS m K c 3 1 sentL) $$ HR HSt Hs4
  iintro ⟨HSt, Hq4, Hb4⟩
  unfold WP; rw [wp_ret]; imodintro
  iapply Hk
  iframe

theorem part66 (sentL : List JS) (Kt : PUnit → sProp 𝕄) :
    iprop(records m K ∗ levAts L lv ∗ St c [] [] ((0, 2) :: (1, 2) :: (2, 2) :: sentL)
        ∗ sAt c 0 2 0 ∗ sAt c 1 2 0 ∗ sAt c 2 2 0
        ∗ (∀ r, (St c [] [] sentL
              ∗ sendPay m c 0 2 ∗ sAt c 0 2 1
              ∗ sendPay m c 1 2 ∗ sAt c 1 2 1
              ∗ sendPay m c 2 2 ∗ sAt c 2 2 1) -∗ Kt r))
      ⊢ WP c (atB k0_part66_skel c) Kt := by
  unfold atB k0_part66_skel
  simp only [Prog.lift, Prog.bind_op, Prog.bind_ret, Prog.pure_eq_ret]
  iintro ⟨#HR, #Hlev, HSt, Hs1, Hs2, Hs3, Hk⟩
  iapply (st_waitS m K c 0 2 ((1, 2) :: (2, 2) :: sentL)) $$ HR HSt Hs1
  iintro ⟨HSt, Hq1, Hb1⟩
  iapply (st_waitS m K c 1 2 ((2, 2) :: sentL)) $$ HR HSt Hs2
  iintro ⟨HSt, Hq2, Hb2⟩
  iapply (st_waitS m K c 2 2 sentL) $$ HR HSt Hs3
  iintro ⟨HSt, Hq3, Hb3⟩
  unfold WP; rw [wp_ret]; imodintro
  iapply Hk
  iframe

theorem part67 (sentL : List JS) (Kt : PUnit → sProp 𝕄) :
    iprop(records m K ∗ levAts L lv ∗ St c [] [] ((3, 2) :: (0, 3) :: (1, 3) :: (2, 3) :: sentL)
        ∗ sAt c 3 2 0 ∗ sAt c 0 3 0 ∗ sAt c 1 3 0 ∗ sAt c 2 3 0
        ∗ (∀ r, (St c [] [] sentL
              ∗ sendPay m c 3 2 ∗ sAt c 3 2 1
              ∗ sendPay m c 0 3 ∗ sAt c 0 3 1
              ∗ sendPay m c 1 3 ∗ sAt c 1 3 1
              ∗ sendPay m c 2 3 ∗ sAt c 2 3 1) -∗ Kt r))
      ⊢ WP c (atB k0_part67_skel c) Kt := by
  unfold atB k0_part67_skel
  simp only [Prog.lift, Prog.bind_op, Prog.bind_ret, Prog.pure_eq_ret]
  iintro ⟨#HR, #Hlev, HSt, Hs1, Hs2, Hs3, Hs4, Hk⟩
  iapply (st_waitS m K c 3 2 ((0, 3) :: (1, 3) :: (2, 3) :: sentL)) $$ HR HSt Hs1
  iintro ⟨HSt, Hq1, Hb1⟩
  iapply (st_waitS m K c 0 3 ((1, 3) :: (2, 3) :: sentL)) $$ HR HSt Hs2
  iintro ⟨HSt, Hq2, Hb2⟩
  iapply (st_waitS m K c 1 3 ((2, 3) :: sentL)) $$ HR HSt Hs3
  iintro ⟨HSt, Hq3, Hb3⟩
  iapply (st_waitS m K c 2 3 sentL) $$ HR HSt Hs4
  iintro ⟨HSt, Hq4, Hb4⟩
  unfold WP; rw [wp_ret]; imodintro
  iapply Hk
  iframe

theorem part68 (sentL : List JS) (Kt : PUnit → sProp 𝕄) :
    iprop(records m K ∗ levAts L lv ∗ St c [] [] ((3, 3) :: (4, 0) :: (5, 0) :: sentL)
        ∗ sAt c 3 3 0 ∗ sAt c 4 0 0 ∗ sAt c 5 0 0
        ∗ (∀ r, (St c [] [] sentL
              ∗ sendPay m c 3 3 ∗ sAt c 3 3 1
              ∗ sendPay m c 4 0 ∗ sAt c 4 0 1
              ∗ sendPay m c 5 0 ∗ sAt c 5 0 1) -∗ Kt r))
      ⊢ WP c (atB k0_part68_skel c) Kt := by
  unfold atB k0_part68_skel
  simp only [Prog.lift, Prog.bind_op, Prog.bind_ret, Prog.pure_eq_ret]
  iintro ⟨#HR, #Hlev, HSt, Hs1, Hs2, Hs3, Hk⟩
  iapply (st_waitS m K c 3 3 ((4, 0) :: (5, 0) :: sentL)) $$ HR HSt Hs1
  iintro ⟨HSt, Hq1, Hb1⟩
  iapply (st_waitS m K c 4 0 ((5, 0) :: sentL)) $$ HR HSt Hs2
  iintro ⟨HSt, Hq2, Hb2⟩
  iapply (st_waitS m K c 5 0 sentL) $$ HR HSt Hs3
  iintro ⟨HSt, Hq3, Hb3⟩
  unfold WP; rw [wp_ret]; imodintro
  iapply Hk
  iframe

theorem part69 (sentL : List JS) (Kt : PUnit → sProp 𝕄) :
    iprop(records m K ∗ levAts L lv ∗ St c [] [] ((4, 1) :: (5, 1) :: (4, 2) :: sentL)
        ∗ sAt c 4 1 0 ∗ sAt c 5 1 0 ∗ sAt c 4 2 0
        ∗ (∀ r, (St c [] [] sentL
              ∗ sendPay m c 4 1 ∗ sAt c 4 1 1
              ∗ sendPay m c 5 1 ∗ sAt c 5 1 1
              ∗ sendPay m c 4 2 ∗ sAt c 4 2 1) -∗ Kt r))
      ⊢ WP c (atB k0_part69_skel) Kt := by
  unfold atB k0_part69_skel
  simp only [Prog.lift, Prog.bind_op, Prog.bind_ret, Prog.pure_eq_ret]
  iintro ⟨#HR, #Hlev, HSt, Hs1, Hs2, Hs3, Hk⟩
  iapply (st_waitS m K c 4 1 ((5, 1) :: (4, 2) :: sentL)) $$ HR HSt Hs1
  iintro ⟨HSt, Hq1, Hb1⟩
  iapply (st_waitS m K c 5 1 ((4, 2) :: sentL)) $$ HR HSt Hs2
  iintro ⟨HSt, Hq2, Hb2⟩
  iapply (st_waitS m K c 4 2 sentL) $$ HR HSt Hs3
  iintro ⟨HSt, Hq3, Hb3⟩
  unfold WP; rw [wp_ret]; imodintro
  iapply Hk
  iframe

theorem part70 (sentL : List JS) (Kt : PUnit → sProp 𝕄) :
    iprop(records m K ∗ levAts L lv ∗ St c [] [] ((5, 2) :: (4, 3) :: (5, 3) :: sentL)
        ∗ sAt c 5 2 0 ∗ sAt c 4 3 0 ∗ sAt c 5 3 0
        ∗ (∀ r, (St c [] [] sentL
              ∗ sendPay m c 5 2 ∗ sAt c 5 2 1
              ∗ sendPay m c 4 3 ∗ sAt c 4 3 1
              ∗ sendPay m c 5 3 ∗ sAt c 5 3 1) -∗ Kt r))
      ⊢ WP c (atB k0_part70_skel) Kt := by
  unfold atB k0_part70_skel
  simp only [Prog.lift, Prog.bind_op, Prog.bind_ret, Prog.pure_eq_ret]
  iintro ⟨#HR, #Hlev, HSt, Hs1, Hs2, Hs3, Hk⟩
  iapply (st_waitS m K c 5 2 ((4, 3) :: (5, 3) :: sentL)) $$ HR HSt Hs1
  iintro ⟨HSt, Hq1, Hb1⟩
  iapply (st_waitS m K c 4 3 ((5, 3) :: sentL)) $$ HR HSt Hs2
  iintro ⟨HSt, Hq2, Hb2⟩
  iapply (st_waitS m K c 5 3 sentL) $$ HR HSt Hs3
  iintro ⟨HSt, Hq3, Hb3⟩
  unfold WP; rw [wp_ret]; imodintro
  iapply Hk
  iframe

theorem part71 (sentL : List JS) (Kt : PUnit → sProp 𝕄) :
    iprop(records m K ∗ levAts L lv ∗ St c [] [] ((6, 0) :: (7, 0) :: (6, 1) :: (7, 1) :: (6, 2) :: sentL)
        ∗ sAt c 6 0 0 ∗ sAt c 7 0 0 ∗ sAt c 6 1 0 ∗ sAt c 7 1 0
        ∗ sAt c 6 2 0
        ∗ (∀ r, (St c [] [] sentL
              ∗ sendPay m c 6 0 ∗ sAt c 6 0 1
              ∗ sendPay m c 7 0 ∗ sAt c 7 0 1
              ∗ sendPay m c 6 1 ∗ sAt c 6 1 1
              ∗ sendPay m c 7 1 ∗ sAt c 7 1 1
              ∗ sendPay m c 6 2 ∗ sAt c 6 2 1) -∗ Kt r))
      ⊢ WP c (atB k0_part71_skel c) Kt := by
  unfold atB k0_part71_skel
  simp only [Prog.lift, Prog.bind_op, Prog.bind_ret, Prog.pure_eq_ret]
  iintro ⟨#HR, #Hlev, HSt, Hs1, Hs2, Hs3, Hs4, Hs5, Hk⟩
  iapply (st_waitS m K c 6 0 ((7, 0) :: (6, 1) :: (7, 1) :: (6, 2) :: sentL)) $$ HR HSt Hs1
  iintro ⟨HSt, Hq1, Hb1⟩
  iapply (st_waitS m K c 7 0 ((6, 1) :: (7, 1) :: (6, 2) :: sentL)) $$ HR HSt Hs2
  iintro ⟨HSt, Hq2, Hb2⟩
  iapply (st_waitS m K c 6 1 ((7, 1) :: (6, 2) :: sentL)) $$ HR HSt Hs3
  iintro ⟨HSt, Hq3, Hb3⟩
  iapply (st_waitS m K c 7 1 ((6, 2) :: sentL)) $$ HR HSt Hs4
  iintro ⟨HSt, Hq4, Hb4⟩
  iapply (st_waitS m K c 6 2 sentL) $$ HR HSt Hs5
  iintro ⟨HSt, Hq5, Hb5⟩
  unfold WP; rw [wp_ret]; imodintro
  iapply Hk
  iframe

theorem part72 (sentL : List JS) (Kt : PUnit → sProp 𝕄) :
    iprop(records m K ∗ levAts L lv ∗ St c [] [] ((7, 2) :: (6, 3) :: (7, 3) :: (8, 0) :: (9, 0) :: sentL)
        ∗ sAt c 7 2 0 ∗ sAt c 6 3 0 ∗ sAt c 7 3 0 ∗ sAt c 8 0 0
        ∗ sAt c 9 0 0
        ∗ (∀ r, (St c [] [] sentL
              ∗ sendPay m c 7 2 ∗ sAt c 7 2 1
              ∗ sendPay m c 6 3 ∗ sAt c 6 3 1
              ∗ sendPay m c 7 3 ∗ sAt c 7 3 1
              ∗ sendPay m c 8 0 ∗ sAt c 8 0 1
              ∗ sendPay m c 9 0 ∗ sAt c 9 0 1) -∗ Kt r))
      ⊢ WP c (atB k0_part72_skel c) Kt := by
  unfold atB k0_part72_skel
  simp only [Prog.lift, Prog.bind_op, Prog.bind_ret, Prog.pure_eq_ret]
  iintro ⟨#HR, #Hlev, HSt, Hs1, Hs2, Hs3, Hs4, Hs5, Hk⟩
  iapply (st_waitS m K c 7 2 ((6, 3) :: (7, 3) :: (8, 0) :: (9, 0) :: sentL)) $$ HR HSt Hs1
  iintro ⟨HSt, Hq1, Hb1⟩
  iapply (st_waitS m K c 6 3 ((7, 3) :: (8, 0) :: (9, 0) :: sentL)) $$ HR HSt Hs2
  iintro ⟨HSt, Hq2, Hb2⟩
  iapply (st_waitS m K c 7 3 ((8, 0) :: (9, 0) :: sentL)) $$ HR HSt Hs3
  iintro ⟨HSt, Hq3, Hb3⟩
  iapply (st_waitS m K c 8 0 ((9, 0) :: sentL)) $$ HR HSt Hs4
  iintro ⟨HSt, Hq4, Hb4⟩
  iapply (st_waitS m K c 9 0 sentL) $$ HR HSt Hs5
  iintro ⟨HSt, Hq5, Hb5⟩
  unfold WP; rw [wp_ret]; imodintro
  iapply Hk
  iframe

theorem part73 (sentL : List JS) (Kt : PUnit → sProp 𝕄) :
    iprop(records m K ∗ levAts L lv ∗ St c [] [] ((8, 1) :: (9, 1) :: (8, 2) :: (9, 2) :: (8, 3) :: sentL)
        ∗ sAt c 8 1 0 ∗ sAt c 9 1 0 ∗ sAt c 8 2 0 ∗ sAt c 9 2 0
        ∗ sAt c 8 3 0
        ∗ (∀ r, (St c [] [] sentL
              ∗ sendPay m c 8 1 ∗ sAt c 8 1 1
              ∗ sendPay m c 9 1 ∗ sAt c 9 1 1
              ∗ sendPay m c 8 2 ∗ sAt c 8 2 1
              ∗ sendPay m c 9 2 ∗ sAt c 9 2 1
              ∗ sendPay m c 8 3 ∗ sAt c 8 3 1) -∗ Kt r))
      ⊢ WP c (atB k0_part73_skel c) Kt := by
  unfold atB k0_part73_skel
  simp only [Prog.lift, Prog.bind_op, Prog.bind_ret, Prog.pure_eq_ret]
  iintro ⟨#HR, #Hlev, HSt, Hs1, Hs2, Hs3, Hs4, Hs5, Hk⟩
  iapply (st_waitS m K c 8 1 ((9, 1) :: (8, 2) :: (9, 2) :: (8, 3) :: sentL)) $$ HR HSt Hs1
  iintro ⟨HSt, Hq1, Hb1⟩
  iapply (st_waitS m K c 9 1 ((8, 2) :: (9, 2) :: (8, 3) :: sentL)) $$ HR HSt Hs2
  iintro ⟨HSt, Hq2, Hb2⟩
  iapply (st_waitS m K c 8 2 ((9, 2) :: (8, 3) :: sentL)) $$ HR HSt Hs3
  iintro ⟨HSt, Hq3, Hb3⟩
  iapply (st_waitS m K c 9 2 ((8, 3) :: sentL)) $$ HR HSt Hs4
  iintro ⟨HSt, Hq4, Hb4⟩
  iapply (st_waitS m K c 8 3 sentL) $$ HR HSt Hs5
  iintro ⟨HSt, Hq5, Hb5⟩
  unfold WP; rw [wp_ret]; imodintro
  iapply Hk
  iframe

theorem tail_wait (K : Dev nD × Cid → ℕ) (c : Dev nD) (sentL : List JS) (Kt : PUnit → sProp 𝕄) :
    iprop(records m K ∗ levAts L lv ∗ St c [] [] ((9, 3) :: sentL) ∗ sAt c 9 3 0
        ∗ (∀ r, (St c [] [] sentL ∗ sendPay m c 9 3 ∗ sAt c 9 3 1) -∗ Kt r))
      ⊢ WP c (Prog.op (TpuEff.waitDma2
            ((cc0_scratch7.slice (Rect.unit (s := S4x4) ![3, 3] S1x1.size inb_S4x4_S1x1_3_3)).squeeze S_ squeezes_S1x1_S_).sem
            ((Memref.whole cc0_stg1_0).slice (Rect.unit (s := S1024x512) (k0_off2 c 1#32 192#32) S64x256.size (k0_off2_inb c 0 3)) (fun _ => rfl)
              : Memref sig .tc .vmem S64x256 .f32)
            ((Memref.whole cc0_stg1_0).slice (Rect.unit (s := S1024x512) (k0_off2 c 1#32 192#32) S64x256.size (k0_off2_inb c 0 3)) (fun _ => rfl)
              : Memref sig .tc .vmem S64x256 .f32)
            (View.wordExact_bits rfl) (View.wordExact_bits rfl)) fun _ => Prog.ret PUnit.unit) Kt := by
  iintro ⟨#HR, #Hlev, HSt, Hs1, Hk⟩
  iapply (st_waitS m K c 9 3 sentL) $$ HR HSt Hs1
  iintro ⟨HSt, Hq1, Hb1⟩
  unfold WP; rw [wp_ret]; imodintro
  iapply Hk
  iframe

end Cert.KernelIdeal.AR

end
-- ==== Proof.ArKernelIdeal.Assembly.lean ====
import proofs.«900109_g7700000000000110_dist_ar_v7x_i4_i_m1024_n512_f32_1_alg».proof.Proof.ArKernelIdeal.Plumb
import proofs.«900109_g7700000000000110_dist_ar_v7x_i4_i_m1024_n512_f32_1_alg».proof.Proof.ArKernelIdeal.Body1
import proofs.«900109_g7700000000000110_dist_ar_v7x_i4_i_m1024_n512_f32_1_alg».proof.Proof.ArKernelIdeal.Body2
import proofs.«900109_g7700000000000110_dist_ar_v7x_i4_i_m1024_n512_f32_1_alg».proof.Proof.ArKernelIdeal.Body3
import proofs.«900109_g7700000000000110_dist_ar_v7x_i4_i_m1024_n512_f32_1_alg».proof.Proof.ArKernelIdeal.Body4
import proofs.«900109_g7700000000000110_dist_ar_v7x_i4_i_m1024_n512_f32_1_alg».proof.Proof.ArKernelIdeal.Body5
import proofs.«900109_g7700000000000110_dist_ar_v7x_i4_i_m1024_n512_f32_1_alg».proof.Proof.ArKernelIdeal.Body6

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]
local notation "𝕄" => MT nD τ sig Unit (Elt F) ℕ UU ℕ
variable (m : (ℓ : Loc nD τ sig) → Buf (Elt F) ℓ)

macro "igive " h:ident : tactic => `(tactic| (isplitl [$h]; · iexact $h))

set_option hygiene false in
macro "istep " e:term " with " t:pmTerm " giving " "[" hs:ident,* "]" : tactic =>
  `(tactic| (rw [wp_bind, $e:term]; iapply $t; (isplitr; · iexact HR); (isplitr; · iexact Hlev); $[igive $hs]*))

abbrev oL : List JS := [(0,0),(1,0),(2,0),(3,0),(0,1),(1,1),(2,1),(3,1),(0,2),(1,2),(2,2),(3,2),(0,3),(1,3),(2,3),(3,3),
    (4,0),(5,0),(4,1),(5,1),(4,2),(5,2),(4,3),(5,3),(6,0),(7,0),(6,1),(7,1),(6,2),(7,2),(6,3),(7,3),(8,0),(9,0),(8,1),(9,1),(8,2),(9,2),(8,3),(9,3)]
theorem order_lit : order = oL := by decide
theorem rorder_lit : rorder = [(0,0),(1,0),(0,1),(1,1),(0,2),(1,2),(0,3),(1,3),
    (4,0),(2,0),(3,0),(5,0),(4,1),(2,1),(3,1),(5,1),(4,2),(2,2),(3,2),(5,2),(4,3),(2,3),(3,3),(5,3),
    (6,0),(7,0),(6,1),(7,1),(6,2),(7,2),(6,3),(7,3),(8,0),(9,0),(8,1),(9,1),(8,2),(9,2),(8,3),(9,3)] := by decide
theorem xkeys_lit : xkeys = [(0,0),(1,0),(2,0),(3,0),(0,1),(1,1),(2,1),(3,1),(0,2),(1,2),(2,2),(3,2),(0,3),(1,3),(2,3),(3,3)] := by decide
theorem mkeys_lit : mkeys = [(0,0),(1,0),(0,1),(1,1),(0,2),(1,2),(0,3),(1,3)] := by decide

theorem St_intro (c : Dev nD) (ls lr : List JS) :
    iprop((∃ W, owes (c : Thread nD τ) (owedL c ls) W) ∗ bigSepL ls (sendKit (F := F) c) ∗ bigSepL lr (recvKit (F := F) c)) ⊢ St (F := F) c ls lr [] := by
  unfold St
  iintro ⟨HO, Hl, Hr⟩
  isplitl [HO]; · iexact HO
  isplitl [Hl]; · iexact Hl
  isplitl [Hr]; · iexact Hr
  iempintro

theorem bigSepL16 {I : Type} (a0 a1 a2 a3 a4 a5 a6 a7 a8 a9 a10 a11 a12 a13 a14 a15 : I) (Φ : I → sProp 𝕄) :
    bigSepL [a0, a1, a2, a3, a4, a5, a6, a7, a8, a9, a10, a11, a12, a13, a14, a15] Φ
      = iprop(Φ a0 ∗ Φ a1 ∗ Φ a2 ∗ Φ a3 ∗ Φ a4 ∗ Φ a5 ∗ Φ a6 ∗ Φ a7 ∗ Φ a8 ∗ Φ a9 ∗ Φ a10 ∗ Φ a11 ∗ Φ a12 ∗ Φ a13 ∗ Φ a14 ∗ Φ a15) := rfl
theorem bigSepL8 {I : Type} (a0 a1 a2 a3 a4 a5 a6 a7 : I) (Φ : I → sProp 𝕄) :
    bigSepL [a0, a1, a2, a3, a4, a5, a6, a7] Φ = iprop(Φ a0 ∗ Φ a1 ∗ Φ a2 ∗ Φ a3 ∗ Φ a4 ∗ Φ a5 ∗ Φ a6 ∗ Φ a7) := rfl
theorem bigSepL4 {I : Type} (a0 a1 a2 a3 : I) (Φ : I → sProp 𝕄) :
    bigSepL [a0, a1, a2, a3] Φ = iprop(Φ a0 ∗ Φ a1 ∗ Φ a2 ∗ Φ a3) := rfl

theorem bigSepL40 {I : Type} (a0 a1 a2 a3 a4 a5 a6 a7 a8 a9 a10 a11 a12 a13 a14 a15 a16 a17 a18 a19 a20 a21 a22 a23 a24 a25 a26 a27 a28 a29
    a30 a31 a32 a33 a34 a35 a36 a37 a38 a39 : I) (Φ : I → sProp 𝕄) :
    bigSepL [a0, a1, a2, a3, a4, a5, a6, a7, a8, a9, a10, a11, a12, a13, a14, a15, a16, a17, a18, a19, a20, a21, a22, a23, a24, a25, a26, a27, a28, a29,
        a30, a31, a32, a33, a34, a35, a36, a37, a38, a39] Φ
      = iprop(Φ a0 ∗ Φ a1 ∗ Φ a2 ∗ Φ a3 ∗ Φ a4 ∗ Φ a5 ∗ Φ a6 ∗ Φ a7 ∗ Φ a8 ∗ Φ a9 ∗ Φ a10 ∗ Φ a11 ∗ Φ a12 ∗ Φ a13 ∗ Φ a14 ∗ Φ a15 ∗ Φ a16 ∗ Φ a17 ∗ Φ a18 ∗ Φ a19
        ∗ Φ a20 ∗ Φ a21 ∗ Φ a22 ∗ Φ a23 ∗ Φ a24 ∗ Φ a25 ∗ Φ a26 ∗ Φ a27 ∗ Φ a28 ∗ Φ a29 ∗ Φ a30 ∗ Φ a31 ∗ Φ a32 ∗ Φ a33 ∗ Φ a34 ∗ Φ a35 ∗ Φ a36 ∗ Φ a37 ∗ Φ a38 ∗ Φ a39) := rfl

theorem St_reorder (c : Dev nD) (ls lr : List JS) :
    St (F := F) c ls lr [(9, 3), (8, 3), (9, 2), (8, 2), (9, 1), (8, 1), (9, 0), (8, 0), (7, 3), (6, 3), (7, 2), (6, 2), (7, 1), (6, 1),
      (7, 0), (6, 0), (5, 3), (4, 3), (5, 2), (4, 2), (5, 1), (4, 1), (5, 0), (4, 0), (3, 3), (2, 3), (1, 3), (0, 3),
      (3, 2), (2, 2), (1, 2), (0, 2), (3, 1), (2, 1), (1, 1), (0, 1), (3, 0), (2, 0), (1, 0), (0, 0)] ⊢ St (F := F) c ls lr oL := by
  rw [show ([(9, 3), (8, 3), (9, 2), (8, 2), (9, 1), (8, 1), (9, 0), (8, 0), (7, 3), (6, 3), (7, 2), (6, 2), (7, 1), (6, 1),
      (7, 0), (6, 0), (5, 3), (4, 3), (5, 2), (4, 2), (5, 1), (4, 1), (5, 0), (4, 0), (3, 3), (2, 3), (1, 3), (0, 3),
      (3, 2), (2, 2), (1, 2), (0, 2), (3, 1), (2, 1), (1, 1), (0, 1), (3, 0), (2, 0), (1, 0), (0, 0)] : List JS) = oL.reverse from by decide]
  unfold St
  rw [← bigSep_eq_bigSepL oL.reverse (by decide) (sentCred (F := F) c), ← bigSep_eq_bigSepL oL (by decide) (sentCred (F := F) c), List.toFinset_reverse]

theorem fin_close (K : Dev nD × Cid → ℕ) (c : Dev nD) (Kt : PUnit → sProp 𝕄) :
    iprop(records m K ∗ Fin' m c ∗ (bodyPost m c -∗ Kt ⟨⟩)) ⊢ WP c (Prog.ret ⟨⟩) Kt := by
  iintro ⟨#HR, HF, Hk⟩
  unfold WP
  rw [wp_ret]
  imod (join' m K c) $$ [HF] with Hp
  · isplitr; · iexact HR
    iexact HF
  imodintro
  iapply Hk
  iexact Hp

set_option maxHeartbeats 4000000 in
set_option maxRecDepth 20000 in
theorem sound_body (K : Dev nD × Cid → ℕ) (c : Dev nD) (Kt : PUnit → sProp 𝕄) :
    iprop(bodyPre m K c ∗ (bodyPost m c -∗ Kt ⟨⟩)) ⊢ WP c (theBody (F := F)) Kt := by
  have hkits := kits_of_barrier' (F := F) c
  have h1 := fun W Kt => part1 (F := F) m K c W Kt
  rw [order_lit] at hkits h1
  iintro ⟨Hpre, Hk⟩
  ihave H := (prep' m K c) $$ Hpre
  icases H with ⟨#HR, #Hlev, %W, Hinit⟩
  unfold Init
  rw [order_lit, rorder_lit, xkeys_lit, mkeys_lit, bigSepL16, bigSepL8, show List.finRange 4 = [0, 1, 2, 3] from rfl, bigSepL4]
  icases Hinit with ⟨HatB, HtP, HtN, HcB, HO, HbP, HbN, Htoks, Hrk, HposS,
    ⟨⟨Hs00, Hxr00⟩, ⟨Hs10, Hxr10⟩, ⟨Hs20, Hxr20⟩, ⟨Hs30, Hxr30⟩, ⟨Hs01, Hxr01⟩, ⟨Hs11, Hxr11⟩, ⟨Hs21, Hxr21⟩, ⟨Hs31, Hxr31⟩,
      ⟨Hs02, Hxr02⟩, ⟨Hs12, Hxr12⟩, ⟨Hs22, Hxr22⟩, ⟨Hs32, Hxr32⟩, ⟨Hs03, Hxr03⟩, ⟨Hs13, Hxr13⟩, ⟨Hs23, Hxr23⟩, ⟨Hs33, Hxr33⟩⟩,
    HxL, ⟨Hm00, Hm10, Hm01, Hm11, Hm02, Hm12, Hm03, Hm13⟩, ⟨Ho0, Ho1, Ho2, Ho3⟩, HrA, HrM, HrR⟩
  unfold theBody WP
  rw [cc0_body_eq_skeleton]
  unfold cc0_body_skel
  rw [wp_bind, k0_part74_eq_skeleton]
  unfold k0_part74_skel
  rw [wp_bind, k0_part1_eq_skeleton]
  iapply (h1 W _)
  isplitr; · iexact HR
  isplitr; · iexact Hlev
  igive HatB; igive HtP; igive HtN; igive HcB; igive HO; igive HbP; igive HbN
  iintro %r ⟨%hr, HatB, HO, HbF, HbT⟩
  obtain ⟨d0, v2, v14, v25⟩ := r
  dsimp only at hr ⊢
  subst hr
  ihave Hkits := hkits $$ [HbF HbT Htoks]
  · isplitl [HbF]; · iexact HbF
    isplitl [HbT]; · iexact HbT
    iexact Htoks
  ihave HSt := (St_intro (F := F) d0 _ _) $$ [HO Hkits Hrk]
  · isplitl [HO]; · iexact HO
    isplitl [Hkits]; · iexact Hkits
    iexact Hrk
  istep k0_part2_eq_skeleton with (part2 m K d0 v2 v25 _ _ _ _) giving [HSt, Hs00]
  iintro %r HSt
  obtain ⟨v57, v58, v59, v60, v61⟩ := r
  dsimp only
  istep k0_part3_eq_skeleton with (part3 m K d0 v2 v14 v57 v58 v59 v60 v61 _ _ _ _) giving [HSt, Hs10]
  iintro %r HSt
  istep k0_part4_eq_skeleton with (part4 m K d0 v2 v14 v25 _ _ _ _) giving [HSt, Hs20]
  iintro %r HSt
  istep k0_part5_eq_skeleton with (part5 m K d0 v2 v25 _ _ _ _) giving [HSt, Hs30, Hs01]
  iintro %r HSt
  obtain ⟨v149, v150, v151, v152⟩ := r
  dsimp only
  istep k0_part6_eq_skeleton with (part6 m K d0 v2 v14 v149 v150 v151 v152 _ _ _ _) giving [HSt, Hs11]
  iintro %r HSt
  istep k0_part7_eq_skeleton with (part7 m K d0 v2 v14 v25 _ _ _ _) giving [HSt, Hs21]
  iintro %r HSt
  istep k0_part8_eq_skeleton with (part8 m K d0 v2 v25 _ _ _ _) giving [HSt, Hs31, Hs02]
  iintro %r HSt
  obtain ⟨v241, v242, v243⟩ := r
  dsimp only
  istep k0_part9_eq_skeleton with (part9 m K d0 v2 v14 v241 v242 v243 _ _ _ _) giving [HSt, Hs12]
  iintro %r HSt
  istep k0_part10_eq_skeleton with (part10 m K d0 v2 v14 v25 _ _ _ _) giving [HSt, Hs22]
  iintro %r HSt
  istep k0_part11_eq_skeleton with (part11 m K d0 v2 v25 _ _ _ _) giving [HSt, Hs32, Hs03]
  iintro %r HSt
  obtain ⟨v333, v334⟩ := r
  dsimp only
  istep k0_part12_eq_skeleton with (part12 m K d0 v2 v14 v333 v334 _ _ _ _) giving [HSt, Hs13]
  iintro %r HSt
  istep k0_part13_eq_skeleton with (part13 m K d0 v2 v14 v25 _ _ _ _) giving [HSt, Hs23]
  iintro %r HSt
  istep k0_part14_eq_skeleton with (part14 m K d0 v2 v25 (oL.drop 16) _ _ (by decide) _) giving [HSt, Hs33]
  iintro %v408 ⟨%hv408, HSt, Hr00, Ha00⟩
  istep k0_part15_eq_skeleton with (part15 m K d0 v25 v408 (oL.drop 17) _ _ (by decide) hv408 _) giving [HSt, HxL, Hm00]
  iintro %r ⟨HSt, HxL, Hr10, Ha10⟩
  istep k0_part16_eq_skeleton with (part16 m K d0 v2 v14 _ _ _ _) giving [HSt, HxL, Hm10, Hr10]
  iintro %r ⟨HSt, HxL, Hs50, Hr10⟩
  istep k0_part17_eq_skeleton with (part17 m K d0 v2 v25 (oL.drop 18) _ _ (by decide) _) giving [HSt, HxL, Hs50]
  iintro %v508 ⟨%hv508, HSt, HxL, Hr01, Ha01⟩
  istep k0_part18_eq_skeleton with (part18 m K d0 v2 v25 v508 (oL.drop 19) _ _ (by decide) hv508 _) giving [HSt, Hm01]
  iintro %r ⟨%hv531, HSt, Hr11, Ha11⟩
  obtain ⟨v531, v532⟩ := r
  dsimp only at hv531 ⊢
  istep k0_part19_eq_skeleton with (part19 m K d0 v14 v531 v532 _ _ _ hv531 _) giving [HSt, HxL, Hm11]
  iintro %r ⟨HSt, HxL⟩
  istep k0_part20_eq_skeleton with (part20 m K d0 v2 v25 (oL.drop 20) _ _ (by decide) _) giving [HSt, HxL, Hm02]
  iintro %v590 ⟨%hv590, HSt, HxL, Hm02, Hr02, Ha02⟩
  istep k0_part21_eq_skeleton with (part21 m K d0 v2 v25 v590 (oL.drop 21) _ _ (by decide) hv590 _) giving [HSt, Hm02]
  iintro %r ⟨%hv613, HSt, Hr12, Ha12⟩
  obtain ⟨v613, v615, c4_i32_590, c0_i32_591⟩ := r
  dsimp only at hv613 ⊢
  istep k0_part22_eq_skeleton with (part22 m K d0 v14 v613 v615 c4_i32_590 c0_i32_591 _ _ _ hv613 _) giving [HSt, HxL, Hm12]
  iintro %r ⟨HSt, HxL⟩
  istep k0_part23_eq_skeleton with (part23 m K d0 v2 v25 (oL.drop 22) _ _ (by decide) _) giving [HSt, HxL, Hm03]
  iintro %r ⟨HSt, HxL, Hs43, Hr03, Ha03⟩
  istep k0_part24_eq_skeleton with (part24 m K d0 v2 v25 (oL.drop 23) _ _ (by decide) _) giving [HSt, Hs43]
  iintro %r ⟨%hv695, HSt, Hr13, Ha13⟩
  obtain ⟨v695, v699, v700⟩ := r
  dsimp only at hv695 ⊢
  istep k0_part25_eq_skeleton with (part25 m K d0 v14 v695 v699 v700 _ _ _ hv695 _) giving [HSt, HxL, Hm13]
  iintro %r ⟨HSt, HxL⟩
  istep k0_part26_eq_skeleton with (part26 m K d0 v25 (oL.drop 24) _ _ (by decide) (by decide) _) giving [HSt]
  iintro %r ⟨HSt, Hr40, Ha40, Hr20, Ha20⟩
  istep k0_part27_eq_skeleton with (part27 m K d0 v2 v25 (oL.drop 24) _ _ (by decide) (by decide) _) giving [HSt, HxL]
  iintro %v775 ⟨%hv775, HSt, Hr30, Ha30, Hr50, Ha50, HxL⟩
  istep k0_part28_eq_skeleton with (part28 m K d0 v2 v775 _ _ _ hv775 _) giving [HSt, Hr40, Hr30, Ho0]
  iintro %r ⟨HSt, Hr40, Hr30, Ho0⟩
  obtain ⟨v801, v802, v807⟩ := r
  dsimp only
  istep k0_part29_eq_skeleton with (part29 m K d0 v2 v801 v802 v807 _ _ _ _) giving [HSt, HxL, Hr20, Hr50, Ho0]
  iintro %r ⟨HSt, HxL, Hr20, Hr50, Hs60, Hs70⟩
  obtain ⟨v838, c4_i32_830, v839, c1_i32_832⟩ := r
  dsimp only
  istep k0_part30_eq_skeleton with (part30 m K d0 v2 v25 v838 c4_i32_830 v839 c1_i32_832 _ _ _ _) giving [HSt, Hs60]
  iintro %r HSt
  obtain ⟨v873, c4_i32_857⟩ := r
  dsimp only
  istep k0_part31_eq_skeleton with (part31 m K d0 v2 v14 v873 c4_i32_857 _ _ _ _) giving [HSt]
  iintro %r HSt
  istep k0_part32_eq_skeleton with (part32 m K d0 v25 (oL.drop 26) _ _ (by decide) (by decide) _) giving [HSt, Hs70]
  iintro %r ⟨HSt, Hr41, Ha41, Hr21, Ha21⟩
  istep k0_part33_eq_skeleton with (part33 m K d0 v2 v25 (oL.drop 26) _ _ (by decide) (by decide) _) giving [HSt]
  iintro %r ⟨HSt, Hr31, Ha31, Hr51, Ha51⟩
  obtain ⟨v944, v945, v950⟩ := r
  dsimp only
  istep k0_part34_eq_skeleton with (part34 m K d0 v2 v944 v945 v950 _ _ _ _) giving [HSt, HxL, Hr41, Hr31, Ho1]
  iintro %r ⟨HSt, HxL, Hr41, Hr31, Ho1⟩
  obtain ⟨v981, c4_i32_980, v982, c1_i32_982⟩ := r
  dsimp only
  istep k0_part35_eq_skeleton with (part35 m K d0 v2 v981 c4_i32_980 v982 c1_i32_982 _ _ _ _) giving [HSt, HxL, Hr21, Hr51]
  iintro %v1002 ⟨%hv1002, HSt, HxL, Hr21, Hr51⟩
  istep k0_part36_eq_skeleton with (part36 m K d0 v2 v25 v1002 _ _ _ hv1002 _) giving [HSt, Ho1]
  iintro %r ⟨HSt, Hs61, Hs71⟩
  istep k0_part37_eq_skeleton with (part37 m K d0 v2 _ _ _ _) giving [HSt, Hs61]
  iintro %c1_i32_1060 HSt
  istep k0_part38_eq_skeleton with (part38 m K d0 v14 v25 c1_i32_1060 (oL.drop 28) _ _ (by decide) _) giving [HSt, Hs71]
  iintro %r ⟨HSt, Hr42, Ha42⟩
  istep k0_part39_eq_skeleton with (part39 m K d0 v2 v25 (oL.drop 28) _ _ (by decide) (by decide) (by decide) _) giving [HSt]
  iintro %r ⟨HSt, ⟨Hr22, Ha22⟩, ⟨Hr32, Ha32⟩, ⟨Hr52, Ha52⟩⟩
  obtain ⟨v1124, c4_i32_1130, v1125, c1_i32_1132⟩ := r
  dsimp only
  istep k0_part40_eq_skeleton with (part40 m K d0 v2 v1124 c4_i32_1130 v1125 c1_i32_1132 _ _ _ _) giving [HSt, HxL, Hr42, Hr32]
  iintro %v1145 ⟨%hv1145, HSt, HxL, Hr42, Hr32⟩
  istep k0_part41_eq_skeleton with (part41 m K d0 v2 v1145 _ _ _ hv1145 _) giving [HSt, Ho2, HxL, Hr22, Hr52]
  iintro %r ⟨%hv1184, HSt, Ho2, HxL, Hr22, Hr52⟩
  obtain ⟨v1184, v1188, v1189, v1190, v1191, v1192⟩ := r
  dsimp only at hv1184 ⊢
  istep k0_part42_eq_skeleton with (part42 m K d0 v2 v1184 v1188 v1189 v1190 v1191 v1192 _ _ _ hv1184 _) giving [HSt, Ho2]
  iintro %r ⟨HSt, Hs62, Hs72⟩
  istep k0_part43_eq_skeleton with (part43 m K d0 v2 v25 _ _ _ _) giving [HSt, Hs62]
  iintro %r HSt
  obtain ⟨v1255, v1260, v1261⟩ := r
  dsimp only
  istep k0_part44_eq_skeleton with (part44 m K d0 v14 v25 v1255 v1260 v1261 (oL.drop 30) _ _ (by decide) _) giving [HSt, Hs72]
  iintro %r ⟨HSt, ⟨Hr43, Ha43⟩⟩
  obtain ⟨v1281, c0_i32_1271⟩ := r
  dsimp only
  istep k0_part45_eq_skeleton with (part45 m K d0 v25 v1281 c0_i32_1271 (oL.drop 30) _ _ (by decide) (by decide) _) giving [HSt]
  iintro %r ⟨HSt, ⟨Hr23, Ha23⟩, ⟨Hr33, Ha33⟩⟩
  istep k0_part46_eq_skeleton with (part46 m K d0 v2 (oL.drop 30) _ _ (by decide) _) giving [HSt, HxL, Hr43, Hr33]
  iintro %r ⟨%hv1327, HSt, ⟨Hr53, Ha53⟩, HxL, Hr43, Hr33⟩
  obtain ⟨v1327, v1331, v1332, v1333, v1334, v1335⟩ := r
  dsimp only at hv1327 ⊢
  istep k0_part47_eq_skeleton with (part47 m K d0 v2 v1327 v1331 v1332 v1333 v1334 v1335 _ _ _ hv1327 _) giving [HSt, Ho3, HxL, Hr23, Hr53]
  iintro %r ⟨%hv1366, HSt, Ho3, HxL, Hr23, Hr53⟩
  obtain ⟨v1366, v1368, c4_i32_1359, c0_i32_1360⟩ := r
  dsimp only at hv1366 ⊢
  istep k0_part48_eq_skeleton with (part48 m K d0 v2 v1366 v1368 c4_i32_1359 c0_i32_1360 _ _ _ hv1366 _) giving [HSt, Ho3]
  iintro %r ⟨HSt, Hs63, Hs73⟩
  obtain ⟨v1400, v1401, v1402, v1403⟩ := r
  dsimp only
  istep k0_part49_eq_skeleton with (part49 m K d0 v2 v25 v1400 v1401 v1402 v1403 _ _ _ _) giving [HSt, Hs63]
  iintro %r HSt
  obtain ⟨v1434, v1436⟩ := r
  dsimp only
  istep k0_part50_eq_skeleton with (part50 m K d0 v2 v14 v25 v1434 v1436 (oL.drop 32) _ _ (by decide) _) giving [HSt, Hs73]
  iintro %r ⟨HSt, ⟨Hr60, Ha60⟩⟩
  obtain ⟨v1464, v1465, c0_i32_1439⟩ := r
  dsimp only
  istep k0_part51_eq_skeleton with (part51 m K d0 v2 v25 v1464 v1465 c0_i32_1439 _ _ _ _) giving [HSt, Hr60]
  iintro %v1497 ⟨HSt, Hk60⟩
  istep k0_part52_eq_skeleton with (part52 m K d0 v2 v1497 (oL.drop 33) _ _ (by decide) _) giving [HSt]
  iintro %r ⟨HSt, Hr70, Ha70⟩
  istep k0_part53_eq_skeleton with (part53 m K d0 v2 v14 v25 (oL.drop 34) _ _ (by decide) _) giving [HSt, Hr70]
  iintro %r ⟨HSt, Hk70, Hr61, Ha61⟩
  obtain ⟨v1559, c4_i32_1521⟩ := r
  dsimp only
  istep k0_part54_eq_skeleton with (part54 m K d0 v2 v25 v1559 c4_i32_1521 (oL.drop 35) _ _ (by decide) _) giving [HSt, Hr61]
  iintro %r ⟨HSt, Hk61, Hr71, Ha71⟩
  obtain ⟨v1588, c4_i32_1550⟩ := r
  dsimp only
  istep k0_part55_eq_skeleton with (part55 m K d0 v2 v14 v1588 c4_i32_1550 _ _ _ _) giving [HSt, Hr71]
  iintro %r ⟨HSt, Hk71⟩
  istep k0_part56_eq_skeleton with (part56 m K d0 v2 v25 (oL.drop 36) _ _ (by decide) _) giving [HSt]
  iintro %r ⟨HSt, Hr62, Ha62⟩
  obtain ⟨v1647, v1652, v1653⟩ := r
  dsimp only
  istep k0_part57_eq_skeleton with (part57 m K d0 v2 v25 v1647 v1652 v1653 (oL.drop 37) _ _ (by decide) _) giving [HSt, Hr62]
  iintro %r ⟨HSt, Hk62, Hr72, Ha72⟩
  obtain ⟨v1682, c256_i32_1632⟩ := r
  dsimp only
  istep k0_part58_eq_skeleton with (part58 m K d0 v2 v14 v25 v1682 c256_i32_1632 _ _ _ _) giving [HSt, Hr72]
  iintro %r ⟨HSt, Hk72⟩
  istep k0_part59_eq_skeleton with (part59 m K d0 v2 v25 (oL.drop 38) _ _ (by decide) _) giving [HSt]
  iintro %r ⟨HSt, Hr63, Ha63⟩
  rw [wp_bind, k0_part60_eq_skeleton]
  iapply (part60 m K d0 v2 v25 (oL.drop 39) _ _ (by decide) _)
  isplitr; · iexact HR
  isplitr; · iexact Hlev
  igive HSt; igive Hr63
  iintro %r ⟨HSt, Hk63, Hr73, Ha73⟩
  obtain ⟨v1772, v1773, v1774, c0_i32_1716⟩ := r
  dsimp only
  rw [Prog.pure_eq_ret, wp_ret]
  imodintro
  dsimp only
  istep k0_part61_eq_skeleton with (part61 m K d0 v14 v25 v1772 v1773 v1774 c0_i32_1716 (oL.drop 40) _ _ (by decide) _) giving [HSt, Hr73]
  iintro %r ⟨HSt, Hk73, Hr80, Ha80⟩
  istep k0_part62_eq_skeleton with (part62 m K d0 v25 (oL.drop 40) _ _ (by decide) (by decide) (by decide) (by decide) _) giving [HSt]
  iintro %r ⟨HSt, Hr90, Ha90, Hr81, Ha81, Hr91, Ha91, Hr82, Ha82⟩
  obtain ⟨v1821, c0_i32_1783⟩ := r
  dsimp only
  ihave HSt := (St_reorder (F := F) d0 (oL.drop 40) [(9, 2), (8, 3), (9, 3)]) $$ HSt
  ihave Hq := (BIBase.Entails.of_eq (bigSepL40 _ _ _ _ _ _ _ _ _ _ _ _ _ _ _ _ _ _ _ _ _ _ _ _ _ _ _ _ _ _ _ _ _ _ _ _ _ _ _ _ (fun js : JS => (atPos ER (sCell d0 js.1 js.2) 0 ∅ 0 : sProp 𝕄)))) $$ HposS
  icases Hq with ⟨Hq00, Hq10, Hq20, Hq30, Hq01, Hq11, Hq21, Hq31, Hq02, Hq12, Hq22, Hq32, Hq03, Hq13, Hq23, Hq33,
    Hq40, Hq50, Hq41, Hq51, Hq42, Hq52, Hq43, Hq53, Hq60, Hq70, Hq61, Hq71, Hq62, Hq72, Hq63, Hq73, Hq80, Hq90, Hq81, Hq91, Hq82, Hq92, Hq83, Hq93⟩
  istep k0_part63_eq_skeleton with (part63 m K d0 v25 v1821 c0_i32_1783 (oL.drop 1) _) giving [HSt, Hq00]
  iintro %r ⟨HSt, Hr92, Ha92, Hr83, Ha83, Hr93, Ha93, Hs00, Hq00⟩
  istep k0_part64_eq_skeleton with (part64 m K d0 (oL.drop 4) _) giving [HSt, Hq10, Hq20, Hq30]
  iintro %r ⟨HSt, Hs10, Hq10, Hs20, Hq20, Hs30, Hq30⟩
  istep k0_part65_eq_skeleton with (part65 m K d0 (oL.drop 8) _) giving [HSt, Hq01, Hq11, Hq21, Hq31]
  iintro %r ⟨HSt, Hs01, Hq01, Hs11, Hq11, Hs21, Hq21, Hs31, Hq31⟩
  istep k0_part66_eq_skeleton with (part66 m K d0 (oL.drop 11) _) giving [HSt, Hq02, Hq12, Hq22]
  iintro %r ⟨HSt, Hs02, Hq02, Hs12, Hq12, Hs22, Hq22⟩
  istep k0_part67_eq_skeleton with (part67 m K d0 (oL.drop 15) _) giving [HSt, Hq32, Hq03, Hq13, Hq23]
  iintro %r ⟨HSt, Hs32, Hq32, Hs03, Hq03, Hs13, Hq13, Hs23, Hq23⟩
  istep k0_part68_eq_skeleton with (part68 m K d0 (oL.drop 18) _) giving [HSt, Hq33, Hq40, Hq50]
  iintro %r ⟨HSt, Hs33, Hq33, Hs40, Hq40, Hs50, Hq50⟩
  istep k0_part69_eq_skeleton with (part69 m K d0 (oL.drop 21) _) giving [HSt, Hq41, Hq51, Hq42]
  iintro %r ⟨HSt, Hs41, Hq41, Hs51, Hq51, Hs42, Hq42⟩
  istep k0_part70_eq_skeleton with (part70 m K d0 (oL.drop 24) _) giving [HSt, Hq52, Hq43, Hq53]
  iintro %r ⟨HSt, Hs52, Hq52, Hs43, Hq43, Hs53, Hq53⟩
  istep k0_part71_eq_skeleton with (part71 m K d0 (oL.drop 29) _) giving [HSt, Hq60, Hq70, Hq61, Hq71, Hq62]
  iintro %r ⟨HSt, Hs60, Hq60, Hs70, Hq70, Hs61, Hq61, Hs71, Hq71, Hs62, Hq62⟩
  istep k0_part72_eq_skeleton with (part72 m K d0 (oL.drop 34) _) giving [HSt, Hq72, Hq63, Hq73, Hq80, Hq90]
  iintro %r ⟨HSt, Hs72, Hq72, Hs63, Hq63, Hs73, Hq73, Hs80, Hq80, Hs90, Hq90⟩
  istep k0_part73_eq_skeleton with (part73 m K d0 (oL.drop 39) _) giving [HSt, Hq81, Hq91, Hq82, Hq92, Hq83]
  iintro %r ⟨HSt, Hs81, Hq81, Hs91, Hq91, Hs82, Hq82, Hs92, Hq92, Hs83, Hq83⟩
  iapply (st_waitS m K d0 9 3 []) $$ HR [HSt] Hq93
  · iexact HSt
  iintro ⟨HSt, Hs93, Hq93⟩
  unfold St
  rw [owedL_nil]
  icases HSt with ⟨⟨%W9, HO⟩, -, -, -⟩
  iapply (fin_close m K d0 Kt)
  isplitr; · iexact HR
  isplitr [Hk]
  · unfold Fin'
    rw [order_lit, rorder_lit, xkeys_lit, bigSepL40, bigSepL40, bigSepL16]
    simp only [landedEnd, Fin.reduceEq, ↓reduceIte]
    unfold stayed6 stayed7 keepL keepR
    sl_close
  iexact Hk

end Cert.KernelIdeal.AR

end
-- ==== Proof.ArKernelIdeal.Launch.lean ====
import proofs.«900109_g7700000000000110_dist_ar_v7x_i4_i_m1024_n512_f32_1_alg».proof.Proof.ArKernelIdeal.Assembly
import proofs.«900109_g7700000000000110_dist_ar_v7x_i4_i_m1024_n512_f32_1_alg».proof.Proof.Gen.KernelIdeal.Frame

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem owns_whole_eq (c : Dev nD) (b : Ref sig .tc) (X : b.ty.Contents (Elt F)) :
    (owns (c : Thread nD τ) (Memref.whole b) fullShare X : sProp 𝕄) = stg c b X := by
  unfold owns; simp only [Memref.view_whole, View.read_whole, View.set_whole]

theorem body_obligation (c : Dev nD) : BodyObligation (dats (F := F) m 0 c) (defs₀ (F := F)) 𝒱₀ () Set.univ := fun t => by
  rw [fin_N t, bigSep_W0, bigSep_W0]
  simp only [owns_whole_eq]
  show iprop(Φ₀ m c ∗ _) ⊢ _
  unfold Φ₀ start
  iintro ⟨⟨⟨⟨%K, Hg⟩, Hcr, Hlev⟩, Hs0, Hs1, Hs2⟩, Ho, Hx, Hout⟩
  iapply (sound_body m K c fun _ => bodyPost m c)
  unfold bodyPre
  iframe
  iintro H; iexact H

abbrev Own : Type := Bool × Fin 10 × Fin 4
abbrev osem : Own → SemLoc sig := fun k => csem (.inr k)

theorem csem_injective : Function.Injective csem := by
  rintro (_ | ⟨b, j, s⟩) (_ | ⟨b', j', s'⟩) h
  · rfl
  · cases b' <;> cases h
  · cases b <;> cases h
  · cases b <;> cases b'
    · cases (decR_rsem j s).symm.trans ((congrArg decR (SemLoc.dma.inj h)).trans (decR_rsem j' s')); rfl
    · cases (decS_rsem j s).symm.trans ((congrArg decS (SemLoc.dma.inj h)).trans (decS_ssem j' s'))
    · cases (decS_ssem j s).symm.trans ((congrArg decS (SemLoc.dma.inj h)).trans (decS_rsem j' s'))
    · cases (decS_ssem j s).symm.trans ((congrArg decS (SemLoc.dma.inj h)).trans (decS_ssem j' s')); rfl

theorem kcell_injective : Function.Injective (kcell : Dev nD × Cid → GSem nD τ sig) := fun _ _ h =>
  Prod.ext (congrArg (fun g : GSem nD τ sig => g.1.1) h) (csem_injective (congrArg Prod.snd h))

theorem ownSemFacts : Pipeline.OwnSemFacts cfg0.spec osem := by decide +kernel

theorem share_eq (c : Dev nD) (w : Fin cfg0.W) : (dats m 0 c).share w = fullShare := by unfold Dat.share; split <;> rfl

abbrev Tid : Type := Bool ⊕ Own
abbrev tokOf (ct : Dev nD × Tid) : GSem nD τ sig × ℕ × Bool := match ct.2 with
  | .inl d => (barCell ct.1, 0, d)
  | .inr k => (kcell (ct.1, .inr k), 0, false)
theorem tokOf_injective : Function.Injective (tokOf : Dev nD × Tid → GSem nD τ sig × ℕ × Bool) := by
  rintro ⟨c, d | k⟩ ⟨c', d' | k'⟩ h
  · cases kcell_injective (congrArg (·.1) h : kcell (c, .inl ()) = kcell (c', .inl ()))
    cases (congrArg (·.2.2) h : d = d'); rfl
  · cases kcell_injective (congrArg (·.1) h : kcell (c, .inl ()) = kcell (c', .inr k'))
  · cases kcell_injective (congrArg (·.1) h : kcell (c, .inr k) = kcell (c', .inl ()))
  · cases kcell_injective (congrArg (·.1) h : kcell (c, .inr k) = kcell (c', .inr k')); rfl

def ringCells : Finset (GSem nD τ sig) := Finset.univ.map ⟨kcell, kcell_injective⟩
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

def toks (c : Dev nD) : sProp 𝕄 :=
  iprop((bigSep Finset.univ fun d : Bool => dutyTok ER (barCell c) 0 d) ∗ bigSep Finset.univ fun k : Own => dutyTok ER (kcell (c, .inr k)) 0 false)

def posToks (c : Dev nD) : sProp 𝕄 :=
  iprop((bigSep Finset.univ fun k : Cid => iprop(atPos ER (kcell (c, k)) 0 ∅ 0 ∗ reached ER (kcell (c, k)) 0)) ∗ toks c)

def G (c : Dev nD) : sProp 𝕄 := iprop((bigSep Finset.univ fun k : Cid => roundState ER (ringRd m) (kcell (c, k)) 0) ∗ posToks c)

def G' (c : Dev nD) : sProp 𝕄 := iprop(∃ K, ghost m K c)

theorem bigSep_bool (Φ : Bool → sProp 𝕄) : bigSep Finset.univ Φ = iprop(Φ false ∗ Φ true) :=
  bigSep_univ_eq_bigSepL [false, true] (by decide) (by decide) Φ

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Cid => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum]; rfl
  have h := Rounds.fund ER (ringRd m) ringCells ringToks
  rw [hX, hX, hX, hT] at h
  iintro HX
  imod (h) $$ HX with ⟨Hst, Hr, Hat, Htok⟩
  imodintro
  unfold G posToks; simp only [bigSep_sep']
  iframe

instance bigSepL_storable {I : Type} (l : List I) (Φ : I → sProp 𝕄) [∀ i, BI.Storable (upEmb : UEmb _ 𝕄) (Φ i)] :
    BI.Storable (upEmb : UEmb _ 𝕄) (bigSepL l Φ) := by
  induction l with
  | nil => exact inferInstanceAs (BI.Storable _ iprop(emp))
  | cons i l ih => rw [bigSepL_cons]; exact inferInstanceAs (BI.Storable _ iprop(Φ i ∗ bigSepL l Φ))

instance ringRd_payload_storable (g : GSem nD τ sig) (r : ℕ) (d : Bool) :
    BI.Storable (upEmb : UEmb _ 𝕄) ((ringRd (F := F) m).payload g r d) := by
  rcases g with ⟨t, sm⟩
  cases sm with
  | reg _ =>
    show BI.Storable upEmb (barPay t.1 d)
    unfold barPay dstAny; infer_instance
  | dma q =>
    show BI.Storable upEmb (match decS q with
      | some js => sendPay m t.1 js.1 js.2
      | none => match decR q with
        | some js => recvPay m t.1 js.1 js.2
        | none => iprop(emp))
    cases decS q with
    | some js => dsimp only; unfold sendPay; infer_instance
    | none => cases decR q with
      | some js => dsimp only; unfold recvPay; infer_instance
      | none => dsimp only; infer_instance

theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 osem c ∗ unscopedSems0 c)
      ⊢ (bigSep Finset.univ fun k : Cid => semVal (kcell (c, k)) 0 : sProp 𝕄) := by
  rw [unscopedSems0_eq, bigSep_univ_sum, bigSep_univ_of_subsingleton ()]
  exact BI.sep_comm

theorem core_alloc (c : Dev nD) :
    iprop(Pipeline.ownSems0 osem c ∗ unscopedSems0 c ∗ G m c)
      ⊢ |={Set.univ}=> iprop((bigSep Finset.univ fun k => iprop(∃ κ : ℕ, cellInv ER (ringRd m) κ (kcell (c, k)))) ∗ posToks c) := by
  unfold G
  iintro ⟨Hos, Hus, Hst, HR⟩
  ihave Hv := (sems0_eq (F := F) c) $$ [Hos Hus]
  · iframe
  imod (show iprop((bigSep Finset.univ fun k : Cid => semVal (kcell (c, k)) 0) ∗ bigSep Finset.univ fun k : Cid => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · iframe
  imodintro
  iframe

theorem ghost_intro (K : Dev nD × Cid → ℕ) (c : Dev nD) : iprop(records m K ∗ positions c ∗ payToks c) ⊢ G' m c := by
  unfold G' ghost
  iintro H
  iexists K
  iexact H

def toRecv : Dev nD × JS ≃ Dev nD × JS where
  toFun x := (nb (geo x.2.1).side x.1, x.2)
  invFun x := (bn (geo x.2.1).side x.1, x.2)
  left_inv _ := Prod.ext (bn_nb _ _) rfl
  right_inv _ := Prod.ext (nb_bn _ _) rfl

theorem toks_around : (bigSep Finset.univ fun c : Dev nD => (toks c : sProp 𝕄)) ⊢ bigSep Finset.univ fun c : Dev nD => payToks c := by
  have hOwn (c : Dev nD) : (bigSep Finset.univ fun k : Own => (dutyTok ER (kcell (c, .inr k)) 0 false : sProp 𝕄))
      = iprop((bigSep Finset.univ fun js : JS => dutyTok ER (rCell c js.1 js.2) 0 false) ∗ bigSep Finset.univ fun js : JS => dutyTok ER (sCell c js.1 js.2) 0 false) := by
    rw [bigSep_univ_prod, bigSep_bool]; rfl
  have hR : (bigSep Finset.univ fun c : Dev nD => bigSep Finset.univ fun js : JS => (dutyTok ER (rCell c js.1 js.2) 0 false : sProp 𝕄))
      = bigSep Finset.univ fun c : Dev nD => bigSep Finset.univ fun js : JS => dutyTok ER (rCell (nb (geo js.1).side c) js.1 js.2) 0 false := by
    rw [← bigSep_univ_prod (fun x : Dev nD × JS => (dutyTok ER (rCell x.1 x.2.1 x.2.2) 0 false : sProp 𝕄)),
      bigSep_univ_equiv toRecv, bigSep_univ_prod]; rfl
  unfold toks payToks copyToks
  simp only [hOwn, bigSep_bool, bigSep_sep']
  rw [hR, bigSep_univ_equiv ring (fun c : Dev nD => (dutyTok ER (barCell c) 0 false : sProp 𝕄)),
    bigSep_univ_equiv ring.symm (fun c : Dev nD => (dutyTok ER (barCell c) 0 true : sProp 𝕄))]
  iintro ⟨⟨HF, HT⟩, HR, HS⟩
  iframe
  isplitl [HT]; · iexact HT
  iexact HF

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd m) κ (kcell (c, k)))) ∗ posToks c) : sProp 𝕄)
      ⊢ bigSep Finset.univ (G' m) := by
  unfold posToks
  rw [bigSep_sep', bigSep_sep', ← bigSep_univ_prod (fun ck : Dev nD × Cid => iprop(∃ κ : ℕ, cellInv ER (ringRd m) κ (kcell ck))),
    bigSep_congr (s := Finset.univ) (fun (c : Dev nD) _ => bigSep_sep' Finset.univ (fun k : Cid => (atPos ER (kcell (c, k)) 0 ∅ 0 : sProp 𝕄)) (fun k => reached ER (kcell (c, k)) 0)),
    bigSep_sep', ← bigSep_univ_prod (fun ck : Dev nD × Cid => (reached ER (kcell ck) 0 : sProp 𝕄))]
  iintro ⟨HI, ⟨Hat, #HR⟩, Htok⟩
  ihave HK := (BI.bigSep_exists_pi Finset.univ (fun (ck : Dev nD × Cid) (κ : ℕ) => (cellInv ER (ringRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; iframe HI HR
  · iapply (Entails.of_eq (bigSep_sep' Finset.univ (fun c : Dev nD => (positions c : sProp 𝕄)) payToks).symm)
    iframe
    iexact Hat

theorem glob : (bigSep Finset.univ fun c => iprop(Pipeline.ownSems0 osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem order_univ : (Finset.univ : Finset JS) = order.toFinset := by decide
theorem order_nodup : order.Nodup := by decide

theorem owedL_order (c : Dev nD) : owedL c order = ∑ js : JS, owedTo c js := by
  unfold owedL; rw [order_univ, List.sum_toFinset _ order_nodup]

theorem O₀_eq : (O₀ : Dev nD → CellTallies nD τ sig Unit)
    = fun d => ((∑ js : JS, owedTo d js) + tallyAt (barCell (nxt d)) () 1) + tallyAt (barCell (prv d)) () 1 :=
  funext fun d => by unfold O₀ O₁; rw [owedL_order]

theorem creds_of (c : Dev nD) : (Pipeline.launchCred O₀ c : sProp 𝕄) ⊢ creds c := by
  rw [O₀_eq, Pipeline.launchCred_add, Pipeline.launchCred_add, Pipeline.launchCred_sum]
  unfold creds
  iintro ⟨⟨HR, HN⟩, HP⟩
  ihave HN' := (Pipeline.launchCred_tallyAt (.reg barS) nxt prv nxt_prv prv_nxt () 1 c) $$ HN
  ihave HP' := (Pipeline.launchCred_tallyAt (.reg barS) prv nxt prv_nxt nxt_prv () 1 c) $$ HP
  isplitl [HN' HP']
  · rw [← tallyAt_add (barCell c) () 1 1]
    iapply (cred_add _ _).2
    iframe
  · iapply (show (bigSep Finset.univ fun js : JS => (Pipeline.launchCred (fun d => owedTo d js) c : sProp 𝕄))
        ⊢ bigSep Finset.univ fun js : JS => cred (tallyAt (rCell c js.1 js.2) () (Ncr js.1)) from
      bigSep_mono fun js _ => Pipeline.launchCred_tallyAt (.dma ((geo js.1).rsem js.2)) (nb (geo js.1).side) (bn (geo js.1).side)
        (nb_bn _) (bn_nb _) () (Ncr js.1) c)
    iexact HR

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_of (F := F) c) $$ Hcr
  imodintro
  unfold start G'
  iframe

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  iframe

theorem ownSems0_eq (c : Dev nD) : (Pipeline.ownSems0 osem c : sProp 𝕄) = ownZero c := by
  have h : (bigSep Finset.univ fun k : Own => (semVal ((c : Thread nD τ), osem k) 0 : sProp 𝕄))
      = iprop((bigSep Finset.univ fun js : JS => semVal (rCell c js.1 js.2) 0) ∗ bigSep Finset.univ fun js : JS => semVal (sCell c js.1 js.2) 0) := by
    rw [bigSep_univ_prod, bigSep_bool]; rfl
  unfold Pipeline.ownSems0 ownZero
  rw [h, bigSep_sep']
  exact BI.Entails.antisymm BI.sep_comm BI.sep_comm

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁
  iintro ⟨Hr, Hz⟩
  iframe

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide +kernel) _ (by
      rcases t with ⟨_ | _, ht⟩
      · exact Or.inl rfl
      · exact Or.inr rfl)

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

theorem run_main : θ_run defs (onTc (τ := τ) (main (F := F))) (s₀ m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      iframe)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      iframe)
    (hQ := fun _ h c w => (h c).1 w)

theorem finalA_x (c : Dev nD) : finalA m c (0 : Fin 2) = m (win0_0.arr.view.loc (c : Thread nD τ)) :=
  (dats (F := F) m 0 c).arrAt_in (0 : Fin 2) rfl _

theorem finalA_out (c : Dev nD) : finalA m c (1 : Fin 2) = outFinal m c := by
  have h := (dats (F := F) m 0 c).arrAt_succ (1 : Fin 2) t₀
  rw [flush0_1 t₀, if_pos rfl] at h
  show (dats m 0 c).arrAt (1 : Fin 2) (t₀.val + 1) = _
  rw [h]
  exact Memref.write_access_unit_zero_univ (Elt F) main_v1 (funext fun a => Nat.zero_mul _) _ _ _

theorem X_eq (d : Dev nD) : X m d = m ((d : Thread nD τ).loc main_arg0) :=
  Memref.read_access_unit_zero (Elt F) main_arg0 (funext fun a => Nat.zero_mul _) _ _

end Cert.KernelIdeal.AR

end
-- ==== Proof.ArKernelIdeal.Val.lean ====
import proofs.«900109_g7700000000000110_dist_ar_v7x_i4_i_m1024_n512_f32_1_alg».proof.Proof.ArKernelIdeal.Dats
import Idealize.ShloMosaic.Lib.Pipeline.Value
import Idealize.ShloMosaic.PureOps.Ideal.Laws

noncomputable section

namespace Cert.KernelIdeal.AR

open Cert.KernelIdeal Cert.KernelIdeal.Gen
open Idealize.ShloMosaic

section Blocks

variable {F : FTy → Type} [FloatOps F]
variable (m : (ℓ : Loc nD τ sig) → Buf (Elt F) ℓ)

-- Reading a rectangle just written gives the written block; the squeezed slice only re-indexes it.
private theorem read_squeeze_slice_store {κ : Kind} {cs : Space} {s s' : Shape} {e : EltTy} {Val : EltTy → Type} (M : Memref sig κ cs s e)
    (r : Rect s) (hr : ∀ a, r.stride a = 1) (hq : r.shape.Squeezes s') (hc : r.shape.ShapeCasts s') (f : M.view.ty.Contents Val)
    (w : r.shape.Idx → Val e) :
    ((M.slice r hr).squeeze s' hq).view.read Val ((M.access r).write Val f w Finset.univ) = shapeCast s' w hc := by
  rw [Memref.read_squeeze_slice M r hr hq hc, View.readAt_rect, View.read_write_univ]

private theorem cast_add2 (a : Vec F S1x64x256 .f32) (b : Vec F S64x256 .f32) :
    shapeCast S64x256 (add2 a b) Gen.shapeCasts_S1x64x256_S64x256
      = addf (shapeCast S64x256 a Gen.shapeCasts_S1x64x256_S64x256) b := by
  unfold add2
  rw [shapeCast_shapeCast, shapeCast_self]

-- A partial sum stored through its rectangle reads back, as a block, as the landed block plus the added one.
private theorem blk_mC (i : Fin 2) (s : Fin 4) (A : aM.view.ty.Contents (Elt F)) (v : Vec F S64x256 .f32) :
    (sl3 mM i s).view.read (Elt F)
        ((mM.access (r3 i s)).write (Elt F) junkM (add2 (aM.view.readAt (Elt F) (r3 i s).toLoadRect A) v) Finset.univ)
      = addf ((sl3 aM i s).view.read (Elt F) A) v :=
  (read_squeeze_slice_store mM (r3 i s) (fun _ => rfl) Gen.squeezes_S1x64x256_S64x256 Gen.shapeCasts_S1x64x256_S64x256 junkM _).trans ((cast_add2 _ _).trans
    (congrArg (fun a => addf a v) (Memref.read_squeeze_slice aM (r3 i s) (fun _ => rfl) Gen.squeezes_S1x64x256_S64x256 Gen.shapeCasts_S1x64x256_S64x256 A).symm))

-- The three-operand sum, with its two loaded rectangles read as blocks.
private theorem blk_add3 (p : Fin 2) (s : Fin 4) (x : Vec F S64x256 .f32) (R0 R1 : rM.view.ty.Contents (Elt F)) :
    add3 x (rM.view.readAt (Elt F) (r4 0 p s).toLoadRect R0) (rM.view.readAt (Elt F) (r4 1 p s).toLoadRect R1)
      = addf (addf x ((sl4 0 p s).view.read (Elt F) R0)) ((sl4 1 p s).view.read (Elt F) R1) := by
  have rd (i : Fin 2) (R : rM.view.ty.Contents (Elt F)) :=
    (Memref.read_squeeze_slice rM (r4 i p s) (fun _ => rfl) Gen.squeezes_S1x1x64x256_S64x256 Gen.shapeCasts_S1x1x64x256_S64x256 R).symm
  unfold add3
  rw [shapeCast_self]
  exact congrArg₂ (fun a b => addf (addf x a) b) (rd 0 R0) (rd 1 R1)

private theorem read_unit_congr {off off' : Fin S1024x512.rank → Nat} (h : off = off')
    (inb : ∀ a, off a + S64x256.size a ≤ S1024x512.size a) (inb' : ∀ a, off' a + S64x256.size a ≤ S1024x512.size a)
    (f : xM.view.ty.Contents (Elt F)) :
    (xM.access (Rect.unit (s := S1024x512) off S64x256.size inb)).read (Elt F) f
      = (xM.access (Rect.unit (s := S1024x512) off' S64x256.size inb')).read (Elt F) f := by
  subst h; rfl

-- The rows of device c as its neighbours' offset functions name them.
private theorem off_low_far (c : Dev nD) (s : Fin 4) : k0_off1 (prv (prv c)) 2#32 (w64 s) = k0_off3 c 0#32 (w64 s) := by
  funext a; rw [off1_two, off3_zero]; revert c s a; decide
private theorem off_low_left (c : Dev nD) (s : Fin 4) : k0_off3 (prv c) 1#32 (w64 s) = k0_off3 c 0#32 (w64 s) := by
  funext a; rw [off3_one, off3_zero]; revert c s a; decide
private theorem off_low_right (c : Dev nD) (s : Fin 4) : k0_off1 (nxt c) 4294967295#32 (w64 s) = k0_off3 c 0#32 (w64 s) := by
  funext a; rw [off1_m1, off3_zero]; revert c s a; decide
private theorem off_high_left (c : Dev nD) (s : Fin 4) : k0_off2 (prv c) 1#32 (w64 s) = k0_off4 c 0#32 (w64 s) := by
  funext a; rw [off2_one, off4_zero]; revert c s a; decide
private theorem off_high_far (c : Dev nD) (s : Fin 4) : k0_off2 (nxt (nxt c)) 2#32 (w64 s) = k0_off4 c 0#32 (w64 s) := by
  funext a; rw [off2_two, off4_zero]; revert c s a; decide
private theorem off_high_right (c : Dev nD) (s : Fin 4) : k0_off4 (nxt c) 4294967295#32 (w64 s) = k0_off4 c 0#32 (w64 s) := by
  funext a; rw [off4_m1, off4_zero]; revert c s a; decide

-- The low half of a device's finished rows, as a block: the four devices' blocks at that rectangle, in the order they are added.
private theorem blk_oC_low (c : Dev nD) (s : Fin 4) :
    (oM.access (rx3 c 0 s)).read (Elt F) (oC m c s)
      = (fun R : Dev nD → FVec F S64x256 .f32 => addf (addf (R c) (addf (R (prv (prv c))) (R (prv c)))) (R (nxt c)))
          fun d => (xM.access (rx3 c 0 s)).read (Elt F) (X m d) := by
  refine (View.read_slice_write_slice_of_disjoint (v := oM.view) (rx3 c 0 s) (rx4 c 0 s) _ _ Finset.univ (own_halves_disj c s)).trans ?_
  refine (View.read_write_univ _ _).trans ((blk_add3 0 s _ _ _).trans (congrArg₂ (fun a b => addf (addf _ a) b) ?_ ?_))
  · exact (View.read_write_univ _ _).trans ((blk_mC 0 s _ _).trans (congrArg₂ addf
      ((View.read_write_univ _ _).trans (read_unit_congr (off_low_far c s) _ _ _)) (read_unit_congr (off_low_left c s) _ _ _)))
  · exact (View.read_write_univ _ _).trans (read_unit_congr (off_low_right c s) _ _ _)

private theorem blk_oC_high (c : Dev nD) (s : Fin 4) :
    (oM.access (rx4 c 0 s)).read (Elt F) (oC m c s)
      = (fun R : Dev nD → FVec F S64x256 .f32 => addf (addf (R c) (R (prv c))) (addf (R (nxt (nxt c))) (R (nxt c))))
          fun d => (xM.access (rx4 c 0 s)).read (Elt F) (X m d) := by
  refine (View.read_write_univ _ _).trans ((blk_add3 1 s _ _ _).trans (congrArg₂ (fun a b => addf (addf _ a) b) ?_ ?_))
  · exact (View.read_write_univ _ _).trans (read_unit_congr (off_high_left c s) _ _ _)
  · exact (View.read_write_univ _ _).trans ((blk_mC 1 s _ _).trans (congrArg₂ addf
      ((View.read_write_univ _ _).trans (read_unit_congr (off_high_far c s) _ _ _)) (read_unit_congr (off_high_right c s) _ _ _)))

-- A copy of a piece onto the same piece of another buffer keeps every element of the piece.
private theorem write_read_self_of_mem {κ : Kind} {sp : Space} {s : Shape} {e : EltTy} {Val : EltTy → Type} (v : View sig κ sp s e)
    (f g : v.ty.Contents Val) (i : v.ty.Idx) (hi : i ∈ v.set) : v.write Val f (v.read Val g) Finset.univ i = g i := by
  rw [View.write_read_eq_piecewise, View.setOn_univ, Finset.piecewise_eq_of_mem _ _ _ hi]

-- Pieces laid over a filler have, at an index some piece holds, a property that every piece holding it has there.
private theorem layOver_of_forall {I V : Type} [DecidableEq I] (P : V → Prop) (i : I) (g : I → V) :
    ∀ l : List (Finset I × (I → V)), (∃ Sf ∈ l, i ∈ Sf.1) → (∀ Sf ∈ l, i ∈ Sf.1 → P (Sf.2 i)) → P (layOver l g i)
  | [], ⟨_, h, _⟩, _ => absurd h List.not_mem_nil
  | Sf :: l, ⟨Sf', hSf', hi'⟩, hP => by
    show P (Sf.1.piecewise Sf.2 (layOver l g) i)
    by_cases hi : i ∈ Sf.1
    · rw [Finset.piecewise_eq_of_mem _ _ _ hi]
      exact hP Sf List.mem_cons_self hi
    · rw [Finset.piecewise_eq_of_notMem _ _ _ hi]
      exact layOver_of_forall P i g l ⟨Sf', (List.mem_cons.mp hSf').resolve_left fun h => hi (h ▸ hi'), hi'⟩
        fun Sf'' h' => hP Sf'' (List.mem_cons_of_mem _ h')

end Blocks

private theorem dev_cases (c : Dev nD) : c = 0 ∨ c = 1 ∨ c = 2 ∨ c = 3 := by revert c; decide
private theorem prv_eq (c : Dev nD) : prv c = nxt (nxt (nxt c)) := by revert c; decide
private theorem nxt_0 : nxt 0 = 1 := by decide
private theorem nxt_1 : nxt 1 = 2 := by decide
private theorem nxt_2 : nxt 2 = 3 := by decide
private theorem nxt_3 : nxt 3 = 0 := by decide

-- Addition is commutative and associative, so both orders in which a device adds the four blocks give the sum in the natural order.
private theorem ring_sum (g : Dev nD → EReal) (c : Dev nD) :
    (g c + (g (prv (prv c)) + g (prv c))) + g (nxt c) = ((g 0 + g 1) + g 2) + g 3
      ∧ (g c + g (prv c)) + (g (nxt (nxt c)) + g (nxt c)) = ((g 0 + g 1) + g 2) + g 3 := by
  rcases dev_cases c with rfl | rfl | rfl | rfl <;>
    simp only [prv_eq, nxt_0, nxt_1, nxt_2, nxt_3] <;>
    simp only [add_comm, add_left_comm, add_assoc, and_self]

variable (m : (ℓ : Loc nD τ sig) → Buf (Elt Ideal) ℓ)

-- Contents that agree at an index of a device's own rows with its finished rows hold the sum of the four input blocks there: the index lies under the low or the high store.
private theorem oC_val (e : Dev nD) (s : Fin 4) (i : oM.view.ty.Idx) (hi : i ∈ (pc5 oM e s).view.set)
    (f : oM.view.ty.Contents (Elt Ideal)) (hf : f i = oC (F := Ideal) m e s i) :
    (show EReal from f i)
      = (((show EReal from X (F := Ideal) m 0 i) + (show EReal from X (F := Ideal) m 1 i)) + (show EReal from X (F := Ideal) m 2 i))
          + (show EReal from X (F := Ideal) m 3 i) := by
  refine (congrArg (fun v : Elt Ideal .f32 => (show EReal from v)) hf).trans ?_
  rcases Finset.mem_union.mp ((Finset.ext_iff.mp (own_rows_halves e s) i).mpr hi) with hi | hi <;>
    obtain ⟨x, -, rfl⟩ := Finset.mem_map.mp hi
  · have h := congrFun (blk_oC_low m e s) x
    generalize oC (F := Ideal) m e s = g at h ⊢
    exact h.trans (ring_sum (fun d => X (F := Ideal) m d ((rx3 e 0 s).emb x)) e).1
  · have h := congrFun (blk_oC_high m e s) x
    generalize oC (F := Ideal) m e s = g at h ⊢
    exact h.trans (ring_sum (fun d => X (F := Ideal) m d ((rx4 e 0 s).emb x)) e).2

theorem outFinal_apply (c : Dev nD) (i : S1024x512.Idx) :
    (show EReal from outFinal (F := Ideal) m c i)
      = (((show EReal from X (F := Ideal) m 0 i) + (show EReal from X (F := Ideal) m 1 i)) + (show EReal from X (F := Ideal) m 2 i)) + (show EReal from X (F := Ideal) m 3 i) := by
  unfold outFinal
  refine layOver_of_forall (fun v : Elt Ideal .f32 => (show EReal from v) = _) i junkO (opiecesC m c) ?_ fun Sf hSf hi => ?_
  · obtain ⟨S, hS, hi⟩ := opieces_cover c i
    have hS : S ∈ (opiecesC m c).map Prod.fst := by
      simpa only [opieces, opiecesC, List.map_flatMap, List.map_cons, List.map_nil] using hS
    obtain ⟨Sf, hSf, rfl⟩ := List.mem_map.mp hS
    exact ⟨Sf, hSf, hi⟩
  · obtain ⟨s, -, hSf⟩ := List.mem_flatMap.mp hSf
    simp only [List.mem_cons, List.mem_nil_iff, or_false] at hSf
    rcases hSf with rfl | rfl | rfl | rfl | rfl
    · exact oC_val m c s i hi _ rfl
    · exact oC_val m (prv c) s i hi _ (write_read_self_of_mem (pc5 oM (prv c) s).view junkO _ i hi)
    · exact oC_val m (nxt c) s i hi _ (write_read_self_of_mem (pc5 oM (nxt c) s).view junkO _ i hi)
    · exact oC_val m (prv (prv c)) s i (fwd_low_subset (prv c) s hi) _ ((write_read_self_of_mem (pc1m oM (prv c) s).view junkO _ i hi).trans
        (write_read_self_of_mem (pc5 oM (prv (prv c)) s).view junkO _ i (fwd_low_subset (prv c) s hi)))
    · exact oC_val m (nxt (nxt c)) s i (fwd_high_subset (nxt c) s hi) _ ((write_read_self_of_mem (pc2o oM (nxt c) s).view junkO _ i hi).trans
        (write_read_self_of_mem (pc5 oM (nxt (nxt c)) s).view junkO _ i (fwd_high_subset (nxt c) s hi)))

end Cert.KernelIdeal.AR

end
-- ==== Proof.RefValue.lean ====
import proofs.«900109_g7700000000000110_dist_ar_v7x_i4_i_m1024_n512_f32_1_alg».proof.Defs
import proofs.«900109_g7700000000000110_dist_ar_v7x_i4_i_m1024_n512_f32_1_alg».proof.Proof.Gen.ReferenceIdeal
import proofs.«900109_g7700000000000110_dist_ar_v7x_i4_i_m1024_n512_f32_1_alg».proof.Proof.Gen.Pre_finite_inputs_ReferenceIdeal
import proofs.«900109_g7700000000000110_dist_ar_v7x_i4_i_m1024_n512_f32_1_alg».proof.Proof.Gen.ReferenceIdeal.Run
import proofs.«900109_g7700000000000110_dist_ar_v7x_i4_i_m1024_n512_f32_1_alg».proof.Proof.Gen.ReferenceIdeal.Read
import Idealize.ShloMosaic.Lib.StableHlo.Run

noncomputable section

namespace Cert.ReferenceIdeal.RefValue

open Idealize.ShloMosaic Idealize.ShloMosaic.TcCoe Idealize.SL.Sem
open Cert.ReferenceIdeal Cert.ReferenceIdeal.Gen Cert.ReferenceIdeal.Value

theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.ArKernelIdeal.Claims.lean ====
import proofs.«900109_g7700000000000110_dist_ar_v7x_i4_i_m1024_n512_f32_1_alg».proof.Defs
import proofs.«900109_g7700000000000110_dist_ar_v7x_i4_i_m1024_n512_f32_1_alg».proof.Proof.ArKernelIdeal.Launch
import proofs.«900109_g7700000000000110_dist_ar_v7x_i4_i_m1024_n512_f32_1_alg».proof.Proof.ArKernelIdeal.Val
import proofs.«900109_g7700000000000110_dist_ar_v7x_i4_i_m1024_n512_f32_1_alg».proof.Proof.RefValue
import proofs.«900109_g7700000000000110_dist_ar_v7x_i4_i_m1024_n512_f32_1_alg».proof.Proof.Gen.Pre_finite_inputs_Kernel
import Idealize.ShloMosaic.Lib.Layout

noncomputable section

namespace Cert.KernelIdeal.AR

open Cert.KernelIdeal Cert.KernelIdeal.Gen
open Idealize.ShloMosaic Idealize.ShloMosaic.TcCoe Idealize.SL.Sem

theorem frame_ki : Cert.frame_KernelIdeal := fun m ρ _ =>
  (θ_run Cert.KernelIdeal.defs _ _).mono (fun r h c => ((h c (0 : Fin 2)).trans (finalA_x (F := Ideal) m c))) (run_main (F := Ideal) m ρ)

variable (m : (ℓ : Loc nD τ sig) → Buf (Elt Ideal) ℓ)

theorem blk_idx (d : Fin 4) (i : S1024x512.Idx) (h : Layout.Tiles ⟨2, ![1024, 512]⟩ ⟨2, ![4096, 512]⟩ 0 4) :
    h.idx d i = Cert.ReferenceIdeal.Read.idx_main_v0 (Cert.ReferenceIdeal.Read.idx_main_v1 i d) := by
  funext a
  refine Fin.ext ?_
  have h0 : (i 0).val < 1024 := (i 0).isLt
  have h1 : (i 1).val < 512 := (i 1).isLt
  match a with
  | ⟨0, _⟩ => show d.val * 1024 + (i 0).val = ((d.val * 1024 + (i 0).val) * 512 + (i 1).val) / 512; omega
  | ⟨1, _⟩ => show (i 1).val = ((d.val * 1024 + (i 0).val) * 512 + (i 1).val) % 512; omega

theorem ref_apply (x0 : (⟨Cert.ReferenceIdeal.S4096x512, .f32⟩ : BufTy).Contents (Elt Ideal)) (i : S1024x512.Idx) :
    (show EReal from Cert.ReferenceIdeal.Read.val_main_v1 (F := Ideal) x0 i)
      = (((show EReal from x0 (Cert.ReferenceIdeal.Read.idx_main_v0 (Cert.ReferenceIdeal.Read.idx_main_v1 i 0)))
          + (show EReal from x0 (Cert.ReferenceIdeal.Read.idx_main_v0 (Cert.ReferenceIdeal.Read.idx_main_v1 i 1))))
          + (show EReal from x0 (Cert.ReferenceIdeal.Read.idx_main_v0 (Cert.ReferenceIdeal.Read.idx_main_v1 i 2))))
          + (show EReal from x0 (Cert.ReferenceIdeal.Read.idx_main_v0 (Cert.ReferenceIdeal.Read.idx_main_v1 i 3))) := by
  rw [Cert.ReferenceIdeal.Read.val_main_v1_apply, Fin.sum_univ_four]
  simp only [Cert.ReferenceIdeal.Read.val_main_v0_apply, Cert.ReferenceIdeal.Read.val_main_cst_apply]
  show (show EReal from Ideal.ofBits .f32 0x00000000#32) + _ = _
  rw [Ideal.ofBits_zero_f32, zero_add]

theorem algebraic : Cert.algebraic_KernelIdeal_ReferenceIdeal := by
  intro m ρ m' ρ' _ hagree
  refine ⟨Cert.ReferenceIdeal.Read.val_main_v1 (F := Ideal) (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun r h c => ⟨?_, (h c (0 : Fin 2)).trans (finalA_x (F := Ideal) m c)⟩) (run_main (F := Ideal) m ρ)
    refine (h c (1 : Fin 2)).trans ((finalA_out (F := Ideal) m c).trans ?_)
    funext i
    refine (outFinal_apply m c i).trans ?_
    rw [X_eq, X_eq, X_eq, X_eq, hagree 0, hagree 1, hagree 2, hagree 3]
    simp only [Layout.block_apply, blk_idx]
    exact (ref_apply _ i).symm
  · exact (θ_run Cert.ReferenceIdeal.defs _ _).mono (fun _ h => ⟨(h 0).1.trans (Cert.ReferenceIdeal.Read.val_main_v1_eq _), (h 0).2⟩)
      (Cert.ReferenceIdeal.Value.run (F := Ideal) m' ρ')

end Cert.KernelIdeal.AR

end
-- ==== Proof.ArKernel.Ring.lean ====
import proofs.«900109_g7700000000000110_dist_ar_v7x_i4_i_m1024_n512_f32_1_alg».proof.Proof.Gen.Kernel

namespace Cert.Kernel.AR

open Cert.Kernel Cert.Kernel.Gen
open Idealize.ShloMosaic

def nxt (c : Dev nD) : Dev nD := ⟨(c.val + 1) % 4, Nat.mod_lt _ (by decide)⟩
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide
theorem nxt_ne_prv (c : Dev nD) : nxt c ≠ prv c := by revert c; decide
theorem nxt_ne_self (c : Dev nD) : nxt c ≠ c := by revert c; decide
theorem prv_ne_self (c : Dev nD) : prv c ≠ c := by revert c; decide
theorem nxt_nxt_eq_prv_prv (c : Dev nD) : nxt (nxt c) = prv (prv c) := by revert c; decide

def ring : Dev nD ≃ Dev nD := ⟨nxt, prv, prv_nxt, nxt_prv⟩

def nb (i : Fin 2) (c : Dev nD) : Dev nD := if i = 0 then nxt c else prv c
def bn (i : Fin 2) (c : Dev nD) : Dev nD := if i = 0 then prv c else nxt c

theorem nb_bn (i : Fin 2) (c : Dev nD) : nb i (bn i c) = c := by revert i c; decide
theorem bn_nb (i : Fin 2) (c : Dev nD) : bn i (nb i c) = c := by revert i c; decide
theorem nb_zero (c : Dev nD) : nb 0 c = nxt c := rfl
theorem nb_one (c : Dev nD) : nb 1 c = prv c := rfl

def rowOf (c : Dev nD) (rel : Nat) (s : Fin 4) : Nat := ((c.val + rel) % 4) * 256 + 64 * s.val

theorem off1_two (c : Dev nD) (s : Fin 4) (a : Fin 2) :
    k0_off1 c 2#32 (BitVec.ofNat 32 (64 * s.val)) a = (![rowOf c 2 s, 0] : Fin 2 → Nat) a := by revert c s a; decide +kernel
theorem off1_m1 (c : Dev nD) (s : Fin 4) (a : Fin 2) :
    k0_off1 c 4294967295#32 (BitVec.ofNat 32 (64 * s.val)) a = (![rowOf c 3 s, 0] : Fin 2 → Nat) a := by revert c s a; decide +kernel
theorem off2_two (c : Dev nD) (s : Fin 4) (a : Fin 2) :
    k0_off2 c 2#32 (BitVec.ofNat 32 (64 * s.val)) a = (![rowOf c 2 s, 256] : Fin 2 → Nat) a := by revert c s a; decide +kernel
theorem off2_one (c : Dev nD) (s : Fin 4) (a : Fin 2) :
    k0_off2 c 1#32 (BitVec.ofNat 32 (64 * s.val)) a = (![rowOf c 1 s, 256] : Fin 2 → Nat) a := by revert c s a; decide +kernel
theorem off3_one (c : Dev nD) (s : Fin 4) (a : Fin 2) :
    k0_off3 c 1#32 (BitVec.ofNat 32 (64 * s.val)) a = (![rowOf c 1 s, 0] : Fin 2 → Nat) a := by revert c s a; decide +kernel
theorem off3_zero (c : Dev nD) (s : Fin 4) (a : Fin 2) :
    k0_off3 c 0#32 (BitVec.ofNat 32 (64 * s.val)) a = (![rowOf c 0 s, 0] : Fin 2 → Nat) a := by revert c s a; decide +kernel
theorem off4_m1 (c : Dev nD) (s : Fin 4) (a : Fin 2) :
    k0_off4 c 4294967295#32 (BitVec.ofNat 32 (64 * s.val)) a = (![rowOf c 3 s, 256] : Fin 2 → Nat) a := by revert c s a; decide +kernel
theorem off4_zero (c : Dev nD) (s : Fin 4) (a : Fin 2) :
    k0_off4 c 0#32 (BitVec.ofNat 32 (64 * s.val)) a = (![rowOf c 0 s, 256] : Fin 2 → Nat) a := by revert c s a; decide +kernel
theorem off5_eq (c : Dev nD) (s : Fin 4) (a : Fin 2) :
    k0_off5 c (BitVec.ofNat 32 (64 * s.val)) a = (![rowOf c 0 s, 0] : Fin 2 → Nat) a := by revert c s a; decide +kernel

end Cert.Kernel.AR
-- ==== Proof.ArKernel.DevEq.lean ====
import proofs.«900109_g7700000000000110_dist_ar_v7x_i4_i_m1024_n512_f32_1_alg».proof.Proof.ArKernel.Ring

namespace Cert.Kernel.AR

open Cert.Kernel Cert.Kernel.Gen
open Idealize.ShloMosaic

theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel
theorem dev3_eq (c : Dev nD) : (⟨k0_dev3 c, k0_dev3_lt c⟩ : Dev nD) = nxt c := by revert c; decide +kernel
theorem dev4_eq (c : Dev nD) : (⟨k0_dev4 c, k0_dev4_lt c⟩ : Dev nD) = prv c := by revert c; decide +kernel
theorem dev5_eq (c : Dev nD) : (⟨k0_dev5 c, k0_dev5_lt c⟩ : Dev nD) = nxt c := by revert c; decide +kernel
theorem dev6_eq (c : Dev nD) : (⟨k0_dev6 c, k0_dev6_lt c⟩ : Dev nD) = prv c := by revert c; decide +kernel
theorem dev7_eq (c : Dev nD) : (⟨k0_dev7 c, k0_dev7_lt c⟩ : Dev nD) = nxt c := by revert c; decide +kernel
theorem dev8_eq (c : Dev nD) : (⟨k0_dev8 c, k0_dev8_lt c⟩ : Dev nD) = prv c := by revert c; decide +kernel
theorem dev9_eq (c : Dev nD) : (⟨k0_dev9 c, k0_dev9_lt c⟩ : Dev nD) = nxt c := by revert c; decide +kernel
theorem dev10_eq (c : Dev nD) : (⟨k0_dev10 c, k0_dev10_lt c⟩ : Dev nD) = prv c := by revert c; decide +kernel
theorem dev11_eq (c : Dev nD) : (⟨k0_dev11 c, k0_dev11_lt c⟩ : Dev nD) = nxt c := by revert c; decide +kernel
theorem dev12_eq (c : Dev nD) : (⟨k0_dev12 c, k0_dev12_lt c⟩ : Dev nD) = prv c := by revert c; decide +kernel
theorem dev13_eq (c : Dev nD) : (⟨k0_dev13 c, k0_dev13_lt c⟩ : Dev nD) = nxt c := by revert c; decide +kernel
theorem dev14_eq (c : Dev nD) : (⟨k0_dev14 c, k0_dev14_lt c⟩ : Dev nD) = prv c := by revert c; decide +kernel
theorem dev15_eq (c : Dev nD) : (⟨k0_dev15 c, k0_dev15_lt c⟩ : Dev nD) = nxt c := by revert c; decide +kernel
theorem dev16_eq (c : Dev nD) : (⟨k0_dev16 c, k0_dev16_lt c⟩ : Dev nD) = prv c := by revert c; decide +kernel
theorem dev17_eq (c : Dev nD) : (⟨k0_dev17 c, k0_dev17_lt c⟩ : Dev nD) = nxt c := by revert c; decide +kernel
theorem dev18_eq (c : Dev nD) : (⟨k0_dev18 c, k0_dev18_lt c⟩ : Dev nD) = prv c := by revert c; decide +kernel
theorem dev19_eq (c : Dev nD) : (⟨k0_dev19 c, k0_dev19_lt c⟩ : Dev nD) = nxt c := by revert c; decide +kernel
theorem dev20_eq (c : Dev nD) : (⟨k0_dev20 c, k0_dev20_lt c⟩ : Dev nD) = prv c := by revert c; decide +kernel
theorem dev21_eq (c : Dev nD) : (⟨k0_dev21 c, k0_dev21_lt c⟩ : Dev nD) = nxt c := by revert c; decide +kernel
theorem dev22_eq (c : Dev nD) : (⟨k0_dev22 c, k0_dev22_lt c⟩ : Dev nD) = prv c := by revert c; decide +kernel
theorem dev23_eq (c : Dev nD) : (⟨k0_dev23 c, k0_dev23_lt c⟩ : Dev nD) = nxt c := by revert c; decide +kernel
theorem dev24_eq (c : Dev nD) : (⟨k0_dev24 c, k0_dev24_lt c⟩ : Dev nD) = prv c := by revert c; decide +kernel
theorem dev25_eq (c : Dev nD) : (⟨k0_dev25 c, k0_dev25_lt c⟩ : Dev nD) = nxt c := by revert c; decide +kernel
theorem dev26_eq (c : Dev nD) : (⟨k0_dev26 c, k0_dev26_lt c⟩ : Dev nD) = prv c := by revert c; decide +kernel
theorem dev27_eq (c : Dev nD) : (⟨k0_dev27 c, k0_dev27_lt c⟩ : Dev nD) = nxt c := by revert c; decide +kernel
theorem dev28_eq (c : Dev nD) : (⟨k0_dev28 c, k0_dev28_lt c⟩ : Dev nD) = prv c := by revert c; decide +kernel
theorem dev29_eq (c : Dev nD) : (⟨k0_dev29 c, k0_dev29_lt c⟩ : Dev nD) = nxt c := by revert c; decide +kernel
theorem dev30_eq (c : Dev nD) : (⟨k0_dev30 c, k0_dev30_lt c⟩ : Dev nD) = prv c := by revert c; decide +kernel
theorem dev31_eq (c : Dev nD) : (⟨k0_dev31 c, k0_dev31_lt c⟩ : Dev nD) = nxt c := by revert c; decide +kernel
theorem dev32_eq (c : Dev nD) : (⟨k0_dev32 c, k0_dev32_lt c⟩ : Dev nD) = prv c := by revert c; decide +kernel
theorem dev33_eq (c : Dev nD) : (⟨k0_dev33 c, k0_dev33_lt c⟩ : Dev nD) = nxt c := by revert c; decide +kernel
theorem dev34_eq (c : Dev nD) : (⟨k0_dev34 c, k0_dev34_lt c⟩ : Dev nD) = prv c := by revert c; decide +kernel
theorem dev35_eq (c : Dev nD) : (⟨k0_dev35 c, k0_dev35_lt c⟩ : Dev nD) = nxt c := by revert c; decide +kernel
theorem dev36_eq (c : Dev nD) : (⟨k0_dev36 c, k0_dev36_lt c⟩ : Dev nD) = prv c := by revert c; decide +kernel
theorem dev37_eq (c : Dev nD) : (⟨k0_dev37 c, k0_dev37_lt c⟩ : Dev nD) = nxt c := by revert c; decide +kernel
theorem dev38_eq (c : Dev nD) : (⟨k0_dev38 c, k0_dev38_lt c⟩ : Dev nD) = prv c := by revert c; decide +kernel
theorem dev39_eq (c : Dev nD) : (⟨k0_dev39 c, k0_dev39_lt c⟩ : Dev nD) = nxt c := by revert c; decide +kernel
theorem dev40_eq (c : Dev nD) : (⟨k0_dev40 c, k0_dev40_lt c⟩ : Dev nD) = prv c := by revert c; decide +kernel
theorem dev41_eq (c : Dev nD) : (⟨k0_dev41 c, k0_dev41_lt c⟩ : Dev nD) = nxt c := by revert c; decide +kernel
theorem dev42_eq (c : Dev nD) : (⟨k0_dev42 c, k0_dev42_lt c⟩ : Dev nD) = prv c := by revert c; decide +kernel

end Cert.Kernel.AR
-- ==== Proof.ArKernel.Base.lean ====
import proofs.«900109_g7700000000000110_dist_ar_v7x_i4_i_m1024_n512_f32_1_alg».proof.Proof.ArKernel.DevEq
import proofs.«900109_g7700000000000110_dist_ar_v7x_i4_i_m1024_n512_f32_1_alg».proof.Proof.Gen.Kernel.Skeleton
import proofs.«900109_g7700000000000110_dist_ar_v7x_i4_i_m1024_n512_f32_1_alg».proof.Proof.Gen.Kernel.Launch
import Idealize.ShloMosaic.Lib.Pipeline.Launch
import Idealize.ShloMosaic.Lib.Pipeline.Kit
import Idealize.ShloMosaic.Lib.Tactic

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

abbrev xM : Memref sig .tc .vmem S1024x512 .f32 := Memref.whole cc0_stg0_0
abbrev oM : Memref sig .tc .vmem S1024x512 .f32 := Memref.whole cc0_stg1_0
abbrev aM : Memref sig .tc .vmem S2x256x256 .f32 := Memref.whole cc0_scratch0
abbrev mM : Memref sig .tc .vmem S2x256x256 .f32 := Memref.whole cc0_scratch1
abbrev rM : Memref sig .tc .vmem S2x2x256x256 .f32 := Memref.whole cc0_scratch2

theorem inb3 (i : Fin 2) (s : Fin 4) : ∀ a, (![i.val, 64 * s.val, 0] : Fin 3 → Nat) a + S1x64x256.size a ≤ S2x256x256.size a := by
  revert i s; decide
theorem inb4 (i p : Fin 2) (s : Fin 4) : ∀ a, (![i.val, p.val, 64 * s.val, 0] : Fin 4 → Nat) a + S1x1x64x256.size a ≤ S2x2x256x256.size a := by
  revert i p s; decide

def sl3 (b : Memref sig .tc .vmem S2x256x256 .f32) (i : Fin 2) (s : Fin 4) : Memref sig .tc .vmem S64x256 .f32 :=
  (b.slice (Rect.unit (s := S2x256x256) ![i.val, 64 * s.val, 0] S1x64x256.size (inb3 i s)) (fun _ => rfl)).squeeze S64x256 Gen.squeezes_S1x64x256_S64x256
def sl4 (i p : Fin 2) (s : Fin 4) : Memref sig .tc .vmem S64x256 .f32 :=
  (rM.slice (Rect.unit (s := S2x2x256x256) ![i.val, p.val, 64 * s.val, 0] S1x1x64x256.size (inb4 i p s)) (fun _ => rfl)).squeeze S64x256 Gen.squeezes_S1x1x64x256_S64x256

abbrev w64 (s : Fin 4) : BitVec 32 := BitVec.ofNat 32 (64 * s.val)

def pc1 (b : Memref sig .tc .vmem S1024x512 .f32) (c : Dev nD) (s : Fin 4) : Memref sig .tc .vmem S64x256 .f32 :=
  b.slice (Rect.unit (s := S1024x512) (k0_off1 c 2#32 (w64 s)) S64x256.size (Gen.k0_off1_inb c 0 s)) (fun _ => rfl)
def pc1m (b : Memref sig .tc .vmem S1024x512 .f32) (c : Dev nD) (s : Fin 4) : Memref sig .tc .vmem S64x256 .f32 :=
  b.slice (Rect.unit (s := S1024x512) (k0_off1 c 4294967295#32 (w64 s)) S64x256.size (Gen.k0_off1_inb c 1 s)) (fun _ => rfl)
def pc2 (b : Memref sig .tc .vmem S1024x512 .f32) (c : Dev nD) (s : Fin 4) : Memref sig .tc .vmem S64x256 .f32 :=
  b.slice (Rect.unit (s := S1024x512) (k0_off2 c 2#32 (w64 s)) S64x256.size (Gen.k0_off2_inb c 1 s)) (fun _ => rfl)
def pc2o (b : Memref sig .tc .vmem S1024x512 .f32) (c : Dev nD) (s : Fin 4) : Memref sig .tc .vmem S64x256 .f32 :=
  b.slice (Rect.unit (s := S1024x512) (k0_off2 c 1#32 (w64 s)) S64x256.size (Gen.k0_off2_inb c 0 s)) (fun _ => rfl)
def pc5 (b : Memref sig .tc .vmem S1024x512 .f32) (c : Dev nD) (s : Fin 4) : Memref sig .tc .vmem S64x512 .f32 :=
  b.slice (Rect.unit (s := S1024x512) (k0_off5 c (w64 s)) S64x512.size (Gen.k0_off5_inb c s)) (fun _ => rfl)

theorem inbS2 (i : Fin 2) (s : Fin 4) : ∀ a, (![i.val, s.val] : Fin 2 → Nat) a + S1x1.size a ≤ S2x4.size a := by revert i s; decide
theorem inbS3 (i p : Fin 2) (s : Fin 4) : ∀ a, (![i.val, p.val, s.val] : Fin 3 → Nat) a + S1x1x1.size a ≤ S2x2x4.size a := by revert i p s; decide
theorem inbS4 (j s : Fin 4) : ∀ a, (![j.val, s.val] : Fin 2 → Nat) a + S1x1.size a ≤ S4x4.size a := by revert j s; decide

def sm2 (A : DmaSems sig S2x4) (i : Fin 2) (s : Fin 4) : DmaSem sig :=
  ((A.slice (Rect.unit (s := S2x4) ![i.val, s.val] S1x1.size (inbS2 i s))).squeeze S_ Gen.squeezes_S1x1_S_).sem
def sm3 (A : DmaSems sig S2x2x4) (i p : Fin 2) (s : Fin 4) : DmaSem sig :=
  ((A.slice (Rect.unit (s := S2x2x4) ![i.val, p.val, s.val] S1x1x1.size (inbS3 i p s))).squeeze S_ Gen.squeezes_S1x1x1_S_).sem
def sm4 (A : DmaSems sig S4x4) (j s : Fin 4) : DmaSem sig :=
  ((A.slice (Rect.unit (s := S4x4) ![j.val, s.val] S1x1.size (inbS4 j s))).squeeze S_ Gen.squeezes_S1x1_S_).sem

structure Geo where
  shp : Shape
  side : Fin 2
  src : Dev nD → Fin 4 → Memref sig .tc .vmem shp .f32
  dst : Dev nD → Fin 4 → Memref sig .tc .vmem shp .f32
  ssem : Fin 4 → DmaSem sig
  rsem : Fin 4 → DmaSem sig

def geo : Fin 10 → Geo
  | 0 => ⟨S64x256, 0, pc1 xM, fun _ s => sl3 aM 0 s, sm2 cc0_scratch3 0, sm2 cc0_scratch4 0⟩
  | 1 => ⟨S64x256, 1, pc2 xM, fun _ s => sl3 aM 1 s, sm2 cc0_scratch3 1, sm2 cc0_scratch4 1⟩
  | 2 => ⟨S64x256, 0, pc2o xM, fun _ s => sl4 0 1 s, sm3 cc0_scratch5 0 1, sm3 cc0_scratch6 0 1⟩
  | 3 => ⟨S64x256, 1, pc1m xM, fun _ s => sl4 1 0 s, sm3 cc0_scratch5 1 0, sm3 cc0_scratch6 1 0⟩
  | 4 => ⟨S64x256, 0, fun _ s => sl3 mM 0 s, fun _ s => sl4 0 0 s, sm3 cc0_scratch5 0 0, sm3 cc0_scratch6 0 0⟩
  | 5 => ⟨S64x256, 1, fun _ s => sl3 mM 1 s, fun _ s => sl4 1 1 s, sm3 cc0_scratch5 1 1, sm3 cc0_scratch6 1 1⟩
  | 6 => ⟨S64x512, 0, pc5 oM, pc5 oM, sm4 cc0_scratch7 0, sm4 cc0_scratch8 0⟩
  | 7 => ⟨S64x512, 1, pc5 oM, pc5 oM, sm4 cc0_scratch7 1, sm4 cc0_scratch8 1⟩
  | 8 => ⟨S64x256, 0, pc1m oM, pc1m oM, sm4 cc0_scratch7 2, sm4 cc0_scratch8 2⟩
  | 9 => ⟨S64x256, 1, pc2o oM, pc2o oM, sm4 cc0_scratch7 3, sm4 cc0_scratch8 3⟩

theorem ssem_val (j : Fin 10) (s : Fin 4) :
    ((geo j).ssem s).val = (![2, 6, 22, 26, 18, 30, 50, 54, 58, 62] : Fin 10 → Nat) j + s.val := by revert j s; decide +kernel
theorem rsem_val (j : Fin 10) (s : Fin 4) :
    ((geo j).rsem s).val = (![10, 14, 38, 42, 34, 46, 66, 70, 74, 78] : Fin 10 → Nat) j + s.val := by revert j s; decide +kernel

end Cert.Kernel.AR

end
-- ==== Proof.ArKernel.Sched.lean ====
import proofs.«900109_g7700000000000110_dist_ar_v7x_i4_i_m1024_n512_f32_1_alg».proof.Proof.ArKernel.Base

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

def zf : F .f32 := FloatOps.ofBits .f32 0#32
def junkA : (cc0_scratch0 : Ref sig .tc).ty.Contents (Elt F) := fun _ => zf
def junkM : (cc0_scratch1 : Ref sig .tc).ty.Contents (Elt F) := fun _ => zf
def junkR : (cc0_scratch2 : Ref sig .tc).ty.Contents (Elt F) := fun _ => zf
def junkO : (cc0_stg1_0 : Ref sig .tc).ty.Contents (Elt F) := fun _ => zf

def X (c : Dev nD) : (cc0_stg0_0 : Ref sig .tc).ty.Contents (Elt F) :=
  (win0_0.blk (0 : Fin 1)).view.read (Elt F) (m ((c : Thread nD τ).loc main_arg0))

def add2 (a : Vec F S1x64x256 .f32) (b : Vec F S64x256 .f32) : FVec F S1x64x256 .f32 :=
  shapeCast S1x64x256 (addf (shapeCast S64x256 a Gen.shapeCasts_S1x64x256_S64x256) (shapeCast S64x256 b Gen.shapeCasts_S64x256_S64x256)) Gen.shapeCasts_S64x256_S1x64x256
def add3 (x : Vec F S64x256 .f32) (r0 r1 : Vec F S1x1x64x256 .f32) : FVec F S64x256 .f32 :=
  addf (addf (shapeCast S64x256 x Gen.shapeCasts_S64x256_S64x256) (shapeCast S64x256 r0 Gen.shapeCasts_S1x1x64x256_S64x256)) (shapeCast S64x256 r1 Gen.shapeCasts_S1x1x64x256_S64x256)

def r3 (i : Fin 2) (s : Fin 4) : Rect S2x256x256 := Rect.unit (s := S2x256x256) ![i.val, 64 * s.val, 0] S1x64x256.size (inb3 i s)
def r4 (i p : Fin 2) (s : Fin 4) : Rect S2x2x256x256 := Rect.unit (s := S2x2x256x256) ![i.val, p.val, 64 * s.val, 0] S1x1x64x256.size (inb4 i p s)
def rx3 (c : Dev nD) (w : Fin 2) (s : Fin 4) : Rect S1024x512 :=
  Rect.unit (s := S1024x512) (k0_off3 c (BitVec.ofNat 32 w.val) (w64 s)) S64x256.size (Gen.k0_off3_inb c w s)
def rx4 (c : Dev nD) (w : Fin 2) (s : Fin 4) : Rect S1024x512 :=
  Rect.unit (s := S1024x512) (k0_off4 c (BitVec.ofNat 32 (4294967295 * w.val)) (w64 s)) S64x256.size (Gen.k0_off4_inb c w s)

def lnd0 (e : Dev nD) (s : Fin 4) : (cc0_scratch0 : Ref sig .tc).ty.Contents (Elt F) :=
  (sl3 aM 0 s).view.write (Elt F) junkA ((pc1 xM (prv e) s).view.read (Elt F) (X m (prv e))) Finset.univ
def lnd1 (e : Dev nD) (s : Fin 4) : (cc0_scratch0 : Ref sig .tc).ty.Contents (Elt F) :=
  (sl3 aM 1 s).view.write (Elt F) junkA ((pc2 xM (nxt e) s).view.read (Elt F) (X m (nxt e))) Finset.univ
def lnd2 (e : Dev nD) (s : Fin 4) : (cc0_scratch2 : Ref sig .tc).ty.Contents (Elt F) :=
  (sl4 0 1 s).view.write (Elt F) junkR ((pc2o xM (prv e) s).view.read (Elt F) (X m (prv e))) Finset.univ
def lnd3 (e : Dev nD) (s : Fin 4) : (cc0_scratch2 : Ref sig .tc).ty.Contents (Elt F) :=
  (sl4 1 0 s).view.write (Elt F) junkR ((pc1m xM (nxt e) s).view.read (Elt F) (X m (nxt e))) Finset.univ

def mC0 (c : Dev nD) (s : Fin 4) : (cc0_scratch1 : Ref sig .tc).ty.Contents (Elt F) :=
  (mM.access (r3 0 s)).write (Elt F) junkM
    (add2 (aM.view.readAt (Elt F) (r3 0 s).toLoadRect (lnd0 m c s)) (xM.view.readAt (Elt F) (rx3 c 1 s).toLoadRect (X m c))) Finset.univ
def mC1 (c : Dev nD) (s : Fin 4) : (cc0_scratch1 : Ref sig .tc).ty.Contents (Elt F) :=
  (mM.access (r3 1 s)).write (Elt F) junkM
    (add2 (aM.view.readAt (Elt F) (r3 1 s).toLoadRect (lnd1 m c s)) (xM.view.readAt (Elt F) (rx4 c 1 s).toLoadRect (X m c))) Finset.univ

def lnd4 (e : Dev nD) (s : Fin 4) : (cc0_scratch2 : Ref sig .tc).ty.Contents (Elt F) :=
  (sl4 0 0 s).view.write (Elt F) junkR ((sl3 mM 0 s).view.read (Elt F) (mC0 m (prv e) s)) Finset.univ
def lnd5 (e : Dev nD) (s : Fin 4) : (cc0_scratch2 : Ref sig .tc).ty.Contents (Elt F) :=
  (sl4 1 1 s).view.write (Elt F) junkR ((sl3 mM 1 s).view.read (Elt F) (mC1 m (nxt e) s)) Finset.univ

def oC (c : Dev nD) (s : Fin 4) : (cc0_stg1_0 : Ref sig .tc).ty.Contents (Elt F) :=
  (oM.access (rx4 c 0 s)).write (Elt F)
    ((oM.access (rx3 c 0 s)).write (Elt F) junkO
      (add3 (xM.view.readAt (Elt F) (rx3 c 0 s).toLoadRect (X m c)) (rM.view.readAt (Elt F) (r4 0 0 s).toLoadRect (lnd4 m c s))
        (rM.view.readAt (Elt F) (r4 1 0 s).toLoadRect (lnd3 m c s))) Finset.univ)
    (add3 (xM.view.readAt (Elt F) (rx4 c 0 s).toLoadRect (X m c)) (rM.view.readAt (Elt F) (r4 0 1 s).toLoadRect (lnd2 m c s))
      (rM.view.readAt (Elt F) (r4 1 1 s).toLoadRect (lnd5 m c s))) Finset.univ

def lnd6 (e : Dev nD) (s : Fin 4) : (cc0_stg1_0 : Ref sig .tc).ty.Contents (Elt F) :=
  (pc5 oM (prv e) s).view.write (Elt F) junkO ((pc5 oM (prv e) s).view.read (Elt F) (oC m (prv e) s)) Finset.univ
def lnd7 (e : Dev nD) (s : Fin 4) : (cc0_stg1_0 : Ref sig .tc).ty.Contents (Elt F) :=
  (pc5 oM (nxt e) s).view.write (Elt F) junkO ((pc5 oM (nxt e) s).view.read (Elt F) (oC m (nxt e) s)) Finset.univ
def lnd8 (e : Dev nD) (s : Fin 4) : (cc0_stg1_0 : Ref sig .tc).ty.Contents (Elt F) :=
  (pc1m oM (prv e) s).view.write (Elt F) junkO ((pc1m oM (prv e) s).view.read (Elt F) (lnd6 m (prv e) s)) Finset.univ
def lnd9 (e : Dev nD) (s : Fin 4) : (cc0_stg1_0 : Ref sig .tc).ty.Contents (Elt F) :=
  (pc2o oM (nxt e) s).view.write (Elt F) junkO ((pc2o oM (nxt e) s).view.read (Elt F) (lnd7 m (nxt e) s)) Finset.univ

def srcC (c : Dev nD) : (j : Fin 10) → (s : Fin 4) → Buf (Elt F) (((geo j).src c s).view.loc (c : Thread nD τ))
  | 0, _ => X m c | 1, _ => X m c | 2, _ => X m c | 3, _ => X m c
  | 4, s => mC0 m c s | 5, s => mC1 m c s
  | 6, s => oC m c s | 7, s => oC m c s
  | 8, s => lnd6 m c s | 9, s => lnd7 m c s

def junkD (e p : Dev nD) : (j : Fin 10) → (s : Fin 4) → Buf (Elt F) (((geo j).dst p s).view.loc (e : Thread nD τ))
  | 0, _ => junkA | 1, _ => junkA | 2, _ => junkR | 3, _ => junkR | 4, _ => junkR | 5, _ => junkR
  | 6, _ => junkO | 7, _ => junkO | 8, _ => junkO | 9, _ => junkO

def lndC (e : Dev nD) (j : Fin 10) (s : Fin 4) : Buf (Elt F) (((geo j).dst (bn (geo j).side e) s).view.loc (e : Thread nD τ)) :=
  ((geo j).dst (bn (geo j).side e) s).view.write (Elt F) (junkD e (bn (geo j).side e) j s)
    (((geo j).src (bn (geo j).side e) s).view.read (Elt F) (srcC m (bn (geo j).side e) j s)) Finset.univ

abbrev barS : Sem sig := (SemArray.scalar (sig.barrier 0 rfl) : Sems sig S_).sem
abbrev barCell (c : Dev nD) : GSem nD τ sig := ((c : Thread nD τ), .reg barS)
abbrev sCell (c : Dev nD) (j : Fin 10) (s : Fin 4) : GSem nD τ sig := ((c : Thread nD τ), .dma ((geo j).ssem s))
abbrev rCell (c : Dev nD) (j : Fin 10) (s : Fin 4) : GSem nD τ sig := ((c : Thread nD τ), .dma ((geo j).rsem s))

abbrev Ncr (j : Fin 10) : ℕ := ((geo j).dst 0 0).view.dmaCredit
theorem Ncr_dst (j : Fin 10) (c : Dev nD) (s : Fin 4) : ((geo j).dst c s).view.dmaCredit = Ncr j := by fin_cases j <;> rfl
theorem Ncr_pos (j : Fin 10) : 0 < Ncr j := View.dmaCredit_pos _ (by fin_cases j <;> decide)

def keys : List (Fin 10 × Fin 4) := (List.finRange 10).flatMap fun j => (List.finRange 4).map fun s => (j, s)
def sideKeys (i : Fin 2) : List (Fin 10 × Fin 4) := keys.filter fun js => decide ((geo js.1).side = i)

def decS (q : DmaSem sig) : Option (Fin 10 × Fin 4) := keys.find? fun js => decide ((geo js.1).ssem js.2 = q)
def decR (q : DmaSem sig) : Option (Fin 10 × Fin 4) := keys.find? fun js => decide ((geo js.1).rsem js.2 = q)
theorem decS_ssem (j : Fin 10) (s : Fin 4) : decS ((geo j).ssem s) = some (j, s) := by revert j s; decide +kernel
theorem decR_rsem (j : Fin 10) (s : Fin 4) : decR ((geo j).rsem s) = some (j, s) := by revert j s; decide +kernel
theorem decS_rsem (j : Fin 10) (s : Fin 4) : decS ((geo j).rsem s) = none := by revert j s; decide +kernel

def xsh (j : Fin 10) (s : Fin 4) : PosShare TreeShare :=
  let q1 := if j.val / 2 = 0 then fullShare.right.left else fullShare.right.right
  let q2 := if j.val % 2 = 0 then q1.left else q1.right
  let q3 := if s.val / 2 = 0 then q2.left else q2.right
  if s.val % 2 = 0 then q3.left else q3.right
def shr (j : Fin 10) (s : Fin 4) : PosShare TreeShare :=
  if j.val < 4 then xsh j s else if j = 6 then fullShare.left else if j = 7 then fullShare.right else fullShare

def sendPay (c : Dev nD) (j : Fin 10) (s : Fin 4) : sProp 𝕄 :=
  ((geo j).src c s).view.loc (c : Thread nD τ) ↦[((geo j).src c s).view.set]{shr j s} srcC m c j s
def recvPay (e : Dev nD) (j : Fin 10) (s : Fin 4) : sProp 𝕄 :=
  ((geo j).dst (bn (geo j).side e) s).view.loc (e : Thread nD τ) ↦[((geo j).dst (bn (geo j).side e) s).view.set]{fullShare} lndC m e j s

def dstAny (c : Dev nD) (js : Fin 10 × Fin 4) : sProp 𝕄 :=
  iprop(∃ f, ((geo js.1).dst c js.2).view.loc (nb (geo js.1).side c : Thread nD τ) ↦[((geo js.1).dst c js.2).view.set]{fullShare} f)
def barPay (c : Dev nD) (d : Bool) : sProp 𝕄 := bigSepL (sideKeys (if d then 0 else 1)) (dstAny (F := F) c)

def ringRd : Rounds.Schedule (GSem nD τ sig) Bool 𝕄 where
  duties g r := if r = 0 ∧ g.1.2 = .tc then
      (match g.2 with
        | .reg sm => if sm = barS then Finset.univ else ∅
        | .dma q => if (decS q).isSome ∨ (decR q).isSome then {false} else ∅)
    else ∅
  unitless _ := False
  amount g _ _ := match g.2 with
    | .reg _ => 1
    | .dma q => match decS q with
      | some js => Ncr js.1
      | none => match decR q with
        | some js => Ncr js.1
        | none => 1
  payload g _ d := match g.2 with
    | .reg _ => barPay g.1.1 d
    | .dma q => match decS q with
      | some js => sendPay m g.1.1 js.1 js.2
      | none => match decR q with
        | some js => recvPay m g.1.1 js.1 js.2
        | none => iprop(emp)
  amount_pos g _ _ _ := by
    rcases g with ⟨t, sm⟩
    cases sm with
    | reg _ => exact Nat.one_pos
    | dma q =>
      dsimp only
      cases decS q with
      | some js => exact Ncr_pos _
      | none =>
        cases decR q with
        | some js => exact Ncr_pos _
        | none => exact Nat.one_pos

section Sched
variable (c : Dev nD) (j : Fin 10) (s : Fin 4)

theorem duties_bar : (ringRd (F := F) m).duties (barCell c) 0 = Finset.univ := by
  dsimp only [ringRd]; rw [if_pos ⟨rfl, rfl⟩]; exact if_pos rfl
theorem duties_s : (ringRd (F := F) m).duties (sCell c j s) 0 = {false} := by
  dsimp only [ringRd]; rw [if_pos ⟨rfl, rfl⟩]; exact if_pos (Or.inl (by rw [decS_ssem]; rfl))
theorem duties_r : (ringRd (F := F) m).duties (rCell c j s) 0 = {false} := by
  dsimp only [ringRd]; rw [if_pos ⟨rfl, rfl⟩]; exact if_pos (Or.inr (by rw [decR_rsem]; rfl))
theorem duties_later (g : GSem nD τ sig) : ∀ r, 1 ≤ r → (ringRd (F := F) m).duties g r = ∅ :=
  fun r hr => by dsimp only [ringRd]; rw [if_neg fun h => by omega]

theorem amount_bar (d : Bool) : (ringRd (F := F) m).amount (barCell c) 0 d = 1 := rfl
theorem amount_s (d : Bool) : (ringRd (F := F) m).amount (sCell c j s) 0 d = Ncr j := by
  dsimp only [ringRd]; rw [decS_ssem]
theorem amount_r (d : Bool) : (ringRd (F := F) m).amount (rCell c j s) 0 d = Ncr j := by
  dsimp only [ringRd]; rw [decS_rsem, decR_rsem]

theorem expect_bar : (ringRd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_s : (ringRd (F := F) m).expect (sCell c j s) 0 = Ncr j := by
  unfold Schedule.expect Schedule.amountOf; rw [duties_s, Finset.sum_singleton, amount_s]
theorem expect_r : (ringRd (F := F) m).expect (rCell c j s) 0 = Ncr j := by
  unfold Schedule.expect Schedule.amountOf; rw [duties_r, Finset.sum_singleton, amount_r]

theorem payload_bar (d : Bool) : (ringRd (F := F) m).payload (barCell c) 0 d = barPay c d := rfl
theorem payload_s (d : Bool) : (ringRd (F := F) m).payload (sCell c j s) 0 d = sendPay m c j s := by
  dsimp only [ringRd]; rw [decS_ssem]
theorem payload_r (d : Bool) : (ringRd (F := F) m).payload (rCell c j s) 0 d = recvPay m c j s := by
  dsimp only [ringRd]; rw [decS_rsem, decR_rsem]

theorem rest_bar : bigSep ((ringRd (F := F) m).duties (barCell c) 0 \ ∅) (fun d => (ringRd (F := F) m).payload (barCell c) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl
theorem rest_s : bigSep ((ringRd (F := F) m).duties (sCell c j s) 0 \ ∅) (fun d => (ringRd (F := F) m).payload (sCell c j s) 0 d) = sendPay m c j s := by
  rw [Finset.sdiff_empty, duties_s, bigSep_singleton, payload_s]
theorem rest_r : bigSep ((ringRd (F := F) m).duties (rCell c j s) 0 \ ∅) (fun d => (ringRd (F := F) m).payload (rCell c j s) 0 d) = recvPay m c j s := by
  rw [Finset.sdiff_empty, duties_r, bigSep_singleton, payload_r]

end Sched

end Cert.Kernel.AR

end
-- ==== Proof.ArKernel.Steps.lean ====
import proofs.«900109_g7700000000000110_dist_ar_v7x_i4_i_m1024_n512_f32_1_alg».proof.Proof.ArKernel.Sched

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

theorem wp_send_fam (κ₁ κ₂ : ℕ) (j : Fin 10) (s : Fin 4) (c n n' : Dev nD) (hc : c = bn (geo j).side n) (hn : n' = n)
    {hsc : ((geo j).dst c s : Memref sig (Dev.tc n' : Thread nD τ).2.kind .vmem (geo j).shp .f32).view.ref.isScScratch = false}
    {hsrc : ((geo j).src c s).view.WordExact} {hdst : ((geo j).dst c s).view.WordExact}
    {hsem : DmaTarget.Typed .vmem (.dma ((geo j).rsem s)) (.remote (Dev.tc n' : Thread nD τ) ((geo j).dst c s) (.dma ((geo j).ssem s)) hsc)}
    {α : Type} {Q : α → sProp 𝕄} {k : PUnit → Prog (TpuEff nD τ sig (Elt F) Λ₀ .tc) α}
    (fd : Buf (Elt F) (((geo j).dst c s).view.loc (n : Thread nD τ))) (O : CellTallies nD τ sig Unit) (W : Waits sig Unit) :
    iprop(cellInv ER (ringRd m) κ₁ (sCell c j s) ∗ cellInv ER (ringRd m) κ₂ (rCell n j s)
        ∗ sendPay m c j s
        ∗ (((geo j).dst c s).view.loc (n : Thread nD τ) ↦[((geo j).dst c s).view.set]{fullShare} fd)
        ∗ owes (c : Thread nD τ) (O + tallyAt (rCell n j s) () (Ncr j)) W
        ∗ dutyTok ER (sCell c j s) 0 false ∗ reached ER (sCell c j s) 0
        ∗ dutyTok ER (rCell n j s) 0 false ∗ reached ER (rCell n j s) 0)
      ⊢ iprop(((cred (tallyAt (sCell c j s) () (Ncr j)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((geo j).src c s) (.remote (Dev.tc n' : Thread nD τ) ((geo j).dst c s) (.dma ((geo j).ssem s)) hsc) (.dma ((geo j).rsem s)) hsrc hdst hsem) k) Q) := by
  subst hn; subst hc
  unfold sendPay
  exact Rounds.wp_send_pointsTo 𝒱₀ ER (ringRd m) ((bn (geo j).side n' : Dev nD) : Thread nD τ) none (κ₁ := κ₁) (κ₂ := κ₂)
    (r₁ := 0) (r₂ := 0) (d₁ := false) (d₂ := false) (fd := fd)
    (by rw [duties_s]; exact Finset.mem_singleton_self _) (by rw [duties_r]; exact Finset.mem_singleton_self _)
    () () (Ncr j) (by rw [View.amount_dma]) (amount_s m _ j s false) (amount_r m n' j s false) O rfl (W := W)
    (by rw [payload_s]; exact BI.Entails.refl _)
    (by rw [payload_r]; unfold recvPay lndC
        exact .of_eq (BI.Region.is_congr fun i hi => View.write_congr (fun _ _ _ => rfl) fun h => absurd hi h))

theorem wp_waitR_fam (κ : ℕ) (j : Fin 10) (s : Fin 4) (c : Dev nD)
    {sp' : Space} {s' : Shape} {e' : EltTy} {srcv : Memref sig (c : Thread nD τ).2.kind sp' s' e'} {dstv : Memref sig .tc .vmem (geo j).shp .f32}
    {hs : srcv.view.WordExact} {hd : dstv.view.WordExact}
    {α : Type} {Q : α → sProp 𝕄} {k : PUnit → Prog (TpuEff nD τ sig (Elt F) Λ₀ .tc) α}
    (O : CellTallies nD τ sig Unit) (W : Waits sig Unit) :
    iprop(cellInv ER (ringRd m) κ (rCell c j s) ∗ cred (tallyAt (rCell c j s) () (Ncr j)) ∗ owes (c : Thread nD τ) O W
        ∗ MayWait (c : Thread nD τ) (.dma ((geo j).rsem s)) () O ∗ atPos ER (rCell c j s) 0 ∅ 0)
      ⊢ iprop(((owes (c : Thread nD τ) O (insert (SemLoc.dma ((geo j).rsem s), ()) W) ∗ atPos ER (rCell c j s) 1 ∅ 0 ∗ reached ER (rCell c j s) 1
              ∗ recvPay m c j s) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 ((geo j).rsem s) srcv dstv hs hd) k) Q) := by
  rw [← rest_r m c j s, show Ncr j = dstv.view.dmaCredit from rfl]
  exact Rounds.wp_wait_rest_token 𝒱₀ ER (ringRd m) (c : Thread nD τ) none (κ := κ)
    (wpE_waitDma2_eq 𝒱₀ (c : Thread nD τ) none Set.univ) (Set.mem_univ _) () (O := O) (W := W) (R := 0) (m := 0) (T := ∅)
    (by rw [Nat.zero_add, expect_r])

theorem wp_waitS_fam (κ : ℕ) (j : Fin 10) (s : Fin 4) (c : Dev nD)
    {sp' : Space} {s' : Shape} {e' : EltTy} {srcv : Memref sig (c : Thread nD τ).2.kind sp' s' e'} {dstv : Memref sig .tc .vmem (geo j).shp .f32}
    {hs : srcv.view.WordExact} {hd : dstv.view.WordExact}
    {α : Type} {Q : α → sProp 𝕄} {k : PUnit → Prog (TpuEff nD τ sig (Elt F) Λ₀ .tc) α}
    (W : Waits sig Unit) :
    iprop(cellInv ER (ringRd m) κ (sCell c j s) ∗ cred (tallyAt (sCell c j s) () (Ncr j)) ∗ owes (c : Thread nD τ) 0 W
        ∗ atPos ER (sCell c j s) 0 ∅ 0)
      ⊢ iprop(((owes (c : Thread nD τ) 0 (insert (SemLoc.dma ((geo j).ssem s), ()) W) ∗ atPos ER (sCell c j s) 1 ∅ 0 ∗ reached ER (sCell c j s) 1
              ∗ sendPay m c j s) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 ((geo j).ssem s) srcv dstv hs hd) k) Q) := by
  rw [← rest_s m c j s, show Ncr j = dstv.view.dmaCredit from rfl]
  iintro ⟨#HI, Hc, HO, Hat⟩
  iapply (Rounds.wp_wait_rest_token 𝒱₀ ER (ringRd m) (c : Thread nD τ) none (κ := κ)
    (wpE_waitDma2_eq 𝒱₀ (c : Thread nD τ) none Set.univ) (Set.mem_univ _) () (O := 0) (W := W) (R := 0) (m := 0) (T := ∅)
    (by rw [Nat.zero_add, expect_s])) $$ [Hc HO Hat]
  rw [MayWait_zero]; iframe
  isplitr; · iexact HI
  iempintro

end Cert.Kernel.AR

end
-- ==== Proof.ArKernel.Ghost.lean ====
import proofs.«900109_g7700000000000110_dist_ar_v7x_i4_i_m1024_n512_f32_1_alg».proof.Proof.ArKernel.Steps

noncomputable section

namespace Cert.Kernel.AR

open Cert.Kernel Cert.Kernel.Gen
open Idealize.ShloMosaic
open Idealize.ShloMosaic.TcCoe
open Idealize.SL Idealize.SL.BI
open Idealize.SL.BI.BIBase Idealize.SL.ProofMode
open Idealize.ShloMosaic.Rounds

variable {F : FTy → Type} [FloatOps F]

local notation "𝕄" => MT nD τ sig Unit (Elt F) ℕ UU ℕ

variable (m : (ℓ : Loc nD τ sig) → Buf (Elt F) ℓ)

abbrev Cid : Type := Unit ⊕ (Bool × Fin 10 × Fin 4)
def csem : Cid → SemLoc sig
  | .inl _ => .reg barS
  | .inr (true, j, s) => .dma ((geo j).ssem s)
  | .inr (false, j, s) => .dma ((geo j).rsem s)
abbrev kcell (ck : Dev nD × Cid) : GSem nD τ sig := ((ck.1 : Thread nD τ), csem ck.2)

abbrev JS : Type := Fin 10 × Fin 4

def owedTo (c : Dev nD) (js : JS) : CellTallies nD τ sig Unit := tallyAt (rCell (nb (geo js.1).side c) js.1 js.2) () (Ncr js.1)
def owedL (c : Dev nD) (l : List JS) : CellTallies nD τ sig Unit := (l.map (owedTo c)).sum
theorem owedL_cons (c : Dev nD) (js : JS) (l : List JS) : owedL c (js :: l) = owedL c l + owedTo c js := by
  unfold owedL; rw [List.map_cons, List.sum_cons, add_comm]
theorem owedL_nil (c : Dev nD) : owedL c [] = 0 := rfl

def order : List JS :=
  ((List.finRange 4).flatMap fun s => [(0, s), (1, s), (2, s), (3, s)]) ++ ((List.finRange 4).flatMap fun s => [(4, s), (5, s)])
    ++ ((List.finRange 4).flatMap fun s => [(6, s), (7, s)]) ++ ((List.finRange 4).flatMap fun s => [(8, s), (9, s)])

def O₁ (c : Dev nD) : CellTallies nD τ sig Unit := owedL c order + tallyAt (barCell (nxt c)) () 1
def O₀ (c : Dev nD) : CellTallies nD τ sig Unit := O₁ c + tallyAt (barCell (prv c)) () 1

def L (g : GSem nD τ sig) : Finset Unit := if g.1.2 = .tc then {()} else ∅
def lvR (j : Fin 10) (s : Fin 4) : ℕ :=
  (![10, 12, 30, 30, 11, 13, 100, 102, 101, 103] : Fin 10 → ℕ) j + (if j = 2 ∨ j = 3 then 0 else 4 * s.val)
def lv (g : GSem nD τ sig) (_ : Unit) : ℕ :=
  match g.2 with
  | .reg sm => if sm = barS then 1 else 0
  | .dma q => match decR q with
    | some js => lvR js.1 js.2
    | none => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; dsimp only; exact if_pos rfl
theorem lv_r (c : Dev nD) (j : Fin 10) (s : Fin 4) : lv (rCell c j s) () = lvR j s := by
  unfold lv; dsimp only; rw [decR_rsem]

def records (K : Dev nD × Cid → ℕ) : sProp 𝕄 :=
  iprop((bigSep Finset.univ fun ck : Dev nD × Cid => cellInv ER (ringRd m) (K ck) (kcell ck))
    ∗ bigSep Finset.univ fun ck : Dev nD × Cid => reached ER (kcell ck) 0)

instance records_persistent (K : Dev nD × Cid → ℕ) : BI.Persistent (records m K) := by unfold records; infer_instance

def copyToks (c : Dev nD) (js : JS) : sProp 𝕄 :=
  iprop(dutyTok ER (sCell c js.1 js.2) 0 false ∗ dutyTok ER (rCell (nb (geo js.1).side c) js.1 js.2) 0 false)
def payToks (c : Dev nD) : sProp 𝕄 :=
  iprop(dutyTok ER (barCell (prv c)) 0 true ∗ dutyTok ER (barCell (nxt c)) 0 false ∗ bigSep Finset.univ (copyToks (F := F) c))
def positions (c : Dev nD) : sProp 𝕄 := bigSep Finset.univ fun id : Cid => atPos ER (kcell (c, id)) 0 ∅ 0
def ghost (K : Dev nD × Cid → ℕ) (c : Dev nD) : sProp 𝕄 := iprop(records m K ∗ positions c ∗ payToks c)
def creds (c : Dev nD) : sProp 𝕄 :=
  iprop(cred (tallyAt (barCell c) () 2) ∗ bigSep Finset.univ fun js : JS => cred (tallyAt (rCell c js.1 js.2) () (Ncr js.1)))
def start (c : Dev nD) : sProp 𝕄 := iprop((∃ K, ghost m K c) ∗ creds (F := F) c ∗ levAts L lv)

theorem inv_at (K : Dev nD × Cid → ℕ) (ck : Dev nD × Cid) : records m K ⊢ cellInv ER (ringRd m) (K ck) (kcell ck) :=
  (BI.sep_and.trans BI.and_elimL).trans (bigSep_elim (Finset.mem_univ ck))
theorem reached_at (K : Dev nD × Cid → ℕ) (ck : Dev nD × Cid) : records m K ⊢ reached ER (kcell ck) 0 :=
  (BI.sep_and.trans BI.and_elimR).trans (bigSep_elim (Finset.mem_univ ck))

end Cert.Kernel.AR

end
-- ==== Proof.ArKernel.Levels.lean ====
import proofs.«900109_g7700000000000110_dist_ar_v7x_i4_i_m1024_n512_f32_1_alg».proof.Proof.ArKernel.Ghost

noncomputable section

namespace Cert.Kernel.AR

open Cert.Kernel Cert.Kernel.Gen
open Idealize.ShloMosaic
open Idealize.ShloMosaic.TcCoe
open Idealize.SL Idealize.SL.BI
open Idealize.SL.BI.BIBase Idealize.SL.ProofMode
open Idealize.ShloMosaic.Rounds

variable {F : FTy → Type} [FloatOps F]

local notation "𝕄" => MT nD τ sig Unit (Elt F) ℕ UU ℕ

def Above (js : JS) (l : List JS) : Prop := ∀ x ∈ l, lvR js.1 js.2 < lvR x.1 x.2
instance (js : JS) (l : List JS) : Decidable (Above js l) := by unfold Above; infer_instance

-- A device owes only on receive cells of its neighbours, for copies in the list: such a cell lies at its copy's level.
theorem owedL_pos {c : Dev nD} {l : List JS} {g : GSem nD τ sig} {u : Unit} (h : 0 < owedL c l g u) :
    ∃ js ∈ l, g.1.2 = .tc ∧ lv g u = lvR js.1 js.2 := by
  induction l with
  | nil => exact absurd h (Nat.lt_irrefl 0)
  | cons js l ih =>
    rw [owedL_cons, Pi.add_apply, Finsupp.add_apply] at h
    by_cases h1 : 0 < owedL c l g u
    · obtain ⟨x, hx, e⟩ := ih h1
      exact ⟨x, List.mem_cons_of_mem _ hx, e⟩
    · by_cases hg : g = rCell (nb (geo js.1).side c) js.1 js.2 ∧ u = ()
      · obtain ⟨rfl, -⟩ := hg
        exact ⟨js, List.mem_cons_self, rfl, lv_r _ js.1 js.2⟩
      · unfold owedTo at h
        rw [tallyAt_apply, if_neg hg] at h
        omega

theorem ten_le_lvR : ∀ (j : Fin 10) (s : Fin 4), 10 ≤ lvR j s := by decide

-- A cut: the waited cell lies at or below b, every owed cell strictly above b.
theorem mayWait_cut {c : Dev nD} {sm : SemLoc sig} {O : CellTallies nD τ sig Unit} (b : ℕ) (hb : lv ((c : Thread nD τ), sm) () ≤ b)
    (hO : ∀ g u, 0 < O g u → g.1.2 = .tc ∧ b < lv g u) : (levAts L lv : sProp 𝕄) ⊢ MayWait (c : Thread nD τ) sm () O :=
  MayOwe.of_cut (L := L) (lev := lv) b
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hb)
    (fun g u hg => (hO g u hg).2)

theorem mayWait_recv (c : Dev nD) (js : JS) (l : List JS) (h : Above js l) :
    (levAts L lv : sProp 𝕄) ⊢ MayWait (c : Thread nD τ) (.dma ((geo js.1).rsem js.2)) () (owedL c l) :=
  mayWait_cut _ (lv_r c js.1 js.2).le fun g u hg => by
    obtain ⟨x, hx, ht, e⟩ := owedL_pos hg
    exact ⟨ht, lt_of_lt_of_eq (h x hx) e.symm⟩

theorem mayWait_bar (c : Dev nD) :
    (levAts L lv : sProp 𝕄) ⊢ MayWait (c : Thread nD τ) (.reg barS) () (owedL c order) :=
  mayWait_cut 1 (lv_bar c).le fun g u hg => by
    obtain ⟨x, hx, ht, e⟩ := owedL_pos hg
    exact ⟨ht, lt_of_lt_of_eq (lt_of_lt_of_le (by decide) (ten_le_lvR x.1 x.2)) e.symm⟩

-- At launch a device also owes one unit on each neighbour's barrier cell, at level 1.
theorem O₀_pos {c : Dev nD} {g : GSem nD τ sig} {u : Unit} (h : 0 < O₀ c g u) : g.1.2 = .tc ∧ 0 < lv g u := by
  unfold O₀ O₁ at h
  rw [Pi.add_apply, Finsupp.add_apply, Pi.add_apply, Finsupp.add_apply, tallyAt_apply, tallyAt_apply] at h
  by_cases h1 : 0 < owedL c order g u
  · obtain ⟨x, hx, ht, e⟩ := owedL_pos h1
    exact ⟨ht, lt_of_lt_of_eq (lt_of_lt_of_le (by decide) (ten_le_lvR x.1 x.2)) e.symm⟩
  · by_cases h2 : g = barCell (nxt c) ∧ u = ()
    · obtain ⟨rfl, -⟩ := h2
      exact ⟨rfl, lt_of_lt_of_eq Nat.one_pos (lv_bar (nxt c)).symm⟩
    · by_cases h3 : g = barCell (prv c) ∧ u = ()
      · obtain ⟨rfl, -⟩ := h3
        exact ⟨rfl, lt_of_lt_of_eq Nat.one_pos (lv_bar (prv c)).symm⟩
      · rw [if_neg h2, if_neg h3] at h; omega

theorem mayWait_stage (c : Dev nD) (q : DmaSem sig) (hq : decR q = none) (O : CellTallies nD τ sig Unit) (hO : O = O₀ c ∨ O = 0) :
    (levAts L lv : sProp 𝕄) ⊢ MayWait (c : Thread nD τ) (.dma q) () O := by
  rcases hO with rfl | rfl
  · exact mayWait_cut 0 (by unfold lv; dsimp only; rw [hq]) fun g u => O₀_pos
  · rw [MayWait_zero]; iintro -; iempintro

end Cert.Kernel.AR

end
-- ==== Proof.ArKernel.Flow.lean ====
import proofs.«900109_g7700000000000110_dist_ar_v7x_i4_i_m1024_n512_f32_1_alg».proof.Proof.ArKernel.Levels

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

universe u
abbrev atB {β : Sort u} (p : (a0 : Memref sig .tc .vmem S1024x512 .f32) → a0.IsWhole → (a1 : Memref sig .tc .vmem S1024x512 .f32) → a1.IsWhole
    → (a2 : Memref sig .tc .vmem S2x256x256 .f32) → a2.IsWhole → (a3 : Memref sig .tc .vmem S2x256x256 .f32) → a3.IsWhole
    → (a4 : Memref sig .tc .vmem S2x2x256x256 .f32) → a4.IsWhole → DmaSems sig S2x4 → DmaSems sig S2x4 → DmaSems sig S2x2x4
    → DmaSems sig S2x2x4 → DmaSems sig S4x4 → DmaSems sig S4x4 → β) : β :=
  p xM (Memref.isWhole_whole _) oM (Memref.isWhole_whole _) aM (Memref.isWhole_whole _) mM (Memref.isWhole_whole _) rM (Memref.isWhole_whole _)
    cc0_scratch3 cc0_scratch4 cc0_scratch5 cc0_scratch6 cc0_scratch7 cc0_scratch8

theorem bigSepL_cons' {I : Type} (i : I) (l : List I) (Φ : I → sProp 𝕄) : bigSepL (i :: l) Φ = iprop(Φ i ∗ bigSepL l Φ) :=
  (bigSepL_cons i l Φ).trans rfl

def sendKit (c : Dev nD) (js : JS) : sProp 𝕄 := iprop(dstAny c js ∗ copyToks c js)
def recvKit (c : Dev nD) (js : JS) : sProp 𝕄 :=
  iprop(cred (tallyAt (rCell c js.1 js.2) () (Ncr js.1)) ∗ atPos ER (rCell c js.1 js.2) 0 ∅ 0)
def sentCred (c : Dev nD) (js : JS) : sProp 𝕄 := cred (tallyAt (sCell c js.1 js.2) () (Ncr js.1))

def xLoad (c : Dev nD) : sProp 𝕄 := (xM.view.loc (c : Thread nD τ) ↦[Finset.univ]{fullShare.left} X m c)
def mPiece (c : Dev nD) (i : Fin 2) (s : Fin 4) (f : Buf (Elt F) ((sl3 mM i s).view.loc (c : Thread nD τ))) : sProp 𝕄 :=
  ((sl3 mM i s).view.loc (c : Thread nD τ) ↦[(sl3 mM i s).view.set]{fullShare} f)
def oRows (c : Dev nD) (s : Fin 4) (f : Buf (Elt F) ((pc5 oM c s).view.loc (c : Thread nD τ))) : sProp 𝕄 :=
  ((pc5 oM c s).view.loc (c : Thread nD τ) ↦[(pc5 oM c s).view.set]{fullShare} f)

abbrev sAt (c : Dev nD) (j : Fin 10) (s : Fin 4) (n : ℕ) : sProp 𝕄 := atPos ER (sCell c j s) n ∅ 0
abbrev rAt (c : Dev nD) (j : Fin 10) (s : Fin 4) (n : ℕ) : sProp 𝕄 := atPos ER (rCell c j s) n ∅ 0
abbrev xRd3 (c : Dev nD) (w : Fin 2) (s : Fin 4) := xM.view.readAt (Elt F) (rx3 c w s).toLoadRect (X m c)
abbrev xRd4 (c : Dev nD) (w : Fin 2) (s : Fin 4) := xM.view.readAt (Elt F) (rx4 c w s).toLoadRect (X m c)
abbrev aRd0 (c : Dev nD) (s : Fin 4) := aM.view.readAt (Elt F) (r3 0 s).toLoadRect (lnd0 m c s)
abbrev aRd1 (c : Dev nD) (s : Fin 4) := aM.view.readAt (Elt F) (r3 1 s).toLoadRect (lnd1 m c s)
abbrev sumLo (c : Dev nD) (s : Fin 4) : FVec F S64x256 .f32 :=
  add3 (xRd3 m c 0 s) (rM.view.readAt (Elt F) (r4 0 0 s).toLoadRect (lnd4 m c s)) (rM.view.readAt (Elt F) (r4 1 0 s).toLoadRect (lnd3 m c s))
abbrev sumHi (c : Dev nD) (s : Fin 4) : FVec F S64x256 .f32 :=
  add3 (xRd4 m c 0 s) (rM.view.readAt (Elt F) (r4 0 1 s).toLoadRect (lnd2 m c s)) (rM.view.readAt (Elt F) (r4 1 1 s).toLoadRect (lnd5 m c s))

omit [FloatOps F] in
theorem pts_write_congr_on {sp : Space} {shp : Shape} {e : EltTy} (t : Thread nD τ) (v : View sig t.2.kind sp shp e)
    (S : Finset (Idx (v.loc t))) (hS : S ⊆ v.setOn Finset.univ)
    (f g : Buf (Elt F) (v.loc t)) (w : shp.Idx → Elt F e) (q : PosShare TreeShare) :
    (v.loc t ↦[S]{q} (v.write (Elt F) f w Finset.univ : Buf (Elt F) (v.loc t)) : sProp 𝕄)
      = (v.loc t ↦[S]{q} (v.write (Elt F) g w Finset.univ : Buf (Elt F) (v.loc t))) :=
  BI.Region.is_congr fun i hi => View.write_congr (fun _ _ _ => rfl) (fun h => absurd (hS hi) h)

def St (c : Dev nD) (ls lr sent : List JS) : sProp 𝕄 :=
  iprop((∃ W, owes (c : Thread nD τ) (owedL c ls) W) ∗ bigSepL ls (sendKit (F := F) c) ∗ bigSepL lr (recvKit (F := F) c) ∗ bigSepL sent (sentCred (F := F) c))

theorem st_send (K : Dev nD × Cid → ℕ) (c n' : Dev nD) (j : Fin 10) (s : Fin 4) (ls lr sent : List JS) (hn : n' = nb (geo j).side c)
    {hsc : ((geo j).dst c s : Memref sig (Dev.tc n' : Thread nD τ).2.kind .vmem (geo j).shp .f32).view.ref.isScScratch = false}
    {hsrc : ((geo j).src c s).view.WordExact} {hdst : ((geo j).dst c s).view.WordExact}
    {hsem : DmaTarget.Typed .vmem (.dma ((geo j).rsem s)) (.remote (Dev.tc n' : Thread nD τ) ((geo j).dst c s) (.dma ((geo j).ssem s)) hsc)}
    {α : Type} {Q : α → sProp 𝕄} {k : PUnit → Prog (TpuEff nD τ sig (Elt F) Λ₀ .tc) α} :
    records m K ⊢ iprop(St c ((j, s) :: ls) lr sent -∗ sendPay m c j s -∗ (St c ls lr ((j, s) :: sent) -∗ WP c (k ⟨⟩) Q)
          -∗ WP c (.op (.enqueueDma ((geo j).src c s) (.remote (Dev.tc n' : Thread nD τ) ((geo j).dst c s) (.dma ((geo j).ssem s)) hsc) (.dma ((geo j).rsem s)) hsrc hdst hsem) k) Q) := by
  subst hn
  unfold St sendKit copyToks dstAny sentCred
  rw [bigSepL_cons', bigSepL_cons', owedL_cons]
  unfold owedTo
  dsimp only
  iintro #HR ⟨⟨%W, HO⟩, ⟨⟨⟨%fd, Hdst⟩, Ht1, Ht2⟩, Hls⟩, Hlr, Hsent⟩ Hsrc Hk
  iapply (wp_send_fam m (K (c, .inr (true, j, s))) (K (nb (geo j).side c, .inr (false, j, s))) j s c (nb (geo j).side c) (nb (geo j).side c)
    (bn_nb (geo j).side c).symm rfl fd (owedL c ls) W) $$ [Hsrc Hdst HO Ht1 Ht2]
  · isplitr; · iapply (inv_at m K (c, .inr (true, j, s))); iexact HR
    isplitr; · iapply (inv_at m K (nb (geo j).side c, .inr (false, j, s))); iexact HR
    isplitl [Hsrc]; · iexact Hsrc
    isplitl [Hdst]; · iexact Hdst
    isplitl [HO]; · iexact HO
    isplitl [Ht1]; · iexact Ht1
    isplitr; · iapply (reached_at m K (c, .inr (true, j, s))); iexact HR
    isplitl [Ht2]; · iexact Ht2
    iapply (reached_at m K (nb (geo j).side c, .inr (false, j, s))); iexact HR
  iintro ⟨Hc, HO⟩
  iapply Hk
  isplitl [HO]; · iexists W; iexact HO
  isplitl [Hls]; · iexact Hls
  isplitl [Hlr]; · iexact Hlr
  isplitl [Hc]; · iexact Hc
  iexact Hsent

theorem send_only (K : Dev nD × Cid → ℕ) (c n' : Dev nD) (j : Fin 10) (s : Fin 4) (ls lr sent : List JS) (hn : n' = nb (geo j).side c)
    {hsc : ((geo j).dst c s : Memref sig (Dev.tc n' : Thread nD τ).2.kind .vmem (geo j).shp .f32).view.ref.isScScratch = false}
    {hsrc : ((geo j).src c s).view.WordExact} {hdst : ((geo j).dst c s).view.WordExact}
    {hsem : DmaTarget.Typed .vmem (.dma ((geo j).rsem s)) (.remote (Dev.tc n' : Thread nD τ) ((geo j).dst c s) (.dma ((geo j).ssem s)) hsc)}
    {α : Type} (r : α) (Kt : α → sProp 𝕄) :
    iprop(records m K ∗ levAts L lv ∗ St c ((j, s) :: ls) lr sent ∗ sendPay m c j s ∗ (∀ r, St c ls lr ((j, s) :: sent) -∗ Kt r))
      ⊢ WP c (.op (.enqueueDma ((geo j).src c s) (.remote (Dev.tc n' : Thread nD τ) ((geo j).dst c s) (.dma ((geo j).ssem s)) hsc) (.dma ((geo j).rsem s)) hsrc hdst hsem) fun _ => .ret r) Kt := by
  iintro ⟨#HR, -, HSt, Hp, Hk⟩
  iapply (st_send m K c n' j s ls lr sent hn) $$ HR HSt Hp
  iintro HSt
  unfold WP; rw [wp_ret]; imodintro
  iapply Hk; iexact HSt

theorem st_waitR (K : Dev nD × Cid → ℕ) (c : Dev nD) (j : Fin 10) (s : Fin 4) (ls lr sent : List JS) (h : Above (j, s) ls)
    {sp' : Space} {s' : Shape} {e' : EltTy} {srcv : Memref sig (c : Thread nD τ).2.kind sp' s' e'} {dstv : Memref sig .tc .vmem (geo j).shp .f32}
    {hs : srcv.view.WordExact} {hd : dstv.view.WordExact}
    {α : Type} {Q : α → sProp 𝕄} {k : PUnit → Prog (TpuEff nD τ sig (Elt F) Λ₀ .tc) α} :
    records m K ⊢ iprop(levAts L lv -∗ St c ls ((j, s) :: lr) sent
          -∗ ((St c ls lr sent ∗ recvPay m c j s ∗ atPos ER (rCell c j s) 1 ∅ 0) -∗ WP c (k ⟨⟩) Q)
          -∗ WP c (.op (.waitDma2 ((geo j).rsem s) srcv dstv hs hd) k) Q) := by
  unfold St recvKit
  rw [bigSepL_cons']
  dsimp only
  iintro #HR #Hlev ⟨⟨%W, HO⟩, Hls, ⟨⟨Hcr, Hat⟩, Hlr⟩, Hsent⟩ Hk
  iapply (wp_waitR_fam m (K (c, .inr (false, j, s))) j s c (owedL c ls) W) $$ [Hcr HO Hat]
  · isplitr; · iapply (inv_at m K (c, .inr (false, j, s))); iexact HR
    isplitl [Hcr]; · iexact Hcr
    isplitl [HO]; · iexact HO
    isplitr; · iapply (mayWait_recv c (j, s) ls h); iexact Hlev
    iexact Hat
  iintro ⟨HO, Hat, -, Hpay⟩
  iapply Hk
  isplitl [HO Hls Hlr Hsent]
  · isplitl [HO]; · iexists _; iexact HO
    isplitl [Hls]; · iexact Hls
    isplitl [Hlr]; · iexact Hlr
    iexact Hsent
  isplitl [Hpay]; · iexact Hpay
  iexact Hat

theorem st_waitS (K : Dev nD × Cid → ℕ) (c : Dev nD) (j : Fin 10) (s : Fin 4) (sentL : List JS)
    {sp' : Space} {s' : Shape} {e' : EltTy} {srcv : Memref sig (c : Thread nD τ).2.kind sp' s' e'} {dstv : Memref sig .tc .vmem (geo j).shp .f32}
    {hs : srcv.view.WordExact} {hd : dstv.view.WordExact}
    {α : Type} {Q : α → sProp 𝕄} {k : PUnit → Prog (TpuEff nD τ sig (Elt F) Λ₀ .tc) α} :
    records m K ⊢ iprop(St c [] [] ((j, s) :: sentL) -∗ atPos ER (sCell c j s) 0 ∅ 0
          -∗ ((St c [] [] sentL ∗ sendPay m c j s ∗ atPos ER (sCell c j s) 1 ∅ 0) -∗ WP c (k ⟨⟩) Q)
          -∗ WP c (.op (.waitDma2 ((geo j).ssem s) srcv dstv hs hd) k) Q) := by
  unfold St sentCred
  rw [bigSepL_cons']
  dsimp only
  iintro #HR ⟨⟨%W, HO⟩, Hls, Hlr, ⟨Hcr, Hsent⟩⟩ Hat Hk
  iapply (wp_waitS_fam m (K (c, .inr (true, j, s))) j s c W) $$ [Hcr HO Hat]
  · isplitr; · iapply (inv_at m K (c, .inr (true, j, s))); iexact HR
    isplitl [Hcr]; · iexact Hcr
    isplitl [HO]; · iexact HO
    iexact Hat
  iintro ⟨HO, Hat, -, Hpay⟩
  iapply Hk
  isplitl [HO Hls Hlr Hsent]
  · isplitl [HO]; · iexists _; iexact HO
    isplitl [Hls]; · iexact Hls
    isplitl [Hlr]; · iexact Hlr
    iexact Hsent
  isplitl [Hpay]; · iexact Hpay
  iexact Hat

end Cert.Kernel.AR

end
-- ==== Proof.ArKernel.Geom.lean ====
import proofs.«900109_g7700000000000110_dist_ar_v7x_i4_i_m1024_n512_f32_1_alg».proof.Proof.ArKernel.Sched

noncomputable section

namespace Cert.Kernel.AR

open Cert.Kernel Cert.Kernel.Gen
open Idealize.ShloMosaic

theorem sl3_set_eq_access (b : Memref sig .tc .vmem S2x256x256 .f32) (hb : b.IsWhole) (i : Fin 2) (s : Fin 4) :
    (sl3 b i s).view.set = (b.access (r3 i s)).setOn Finset.univ :=
  View.set_reshape _ _
theorem sl3_set_eq_load (b : Memref sig .tc .vmem S2x256x256 .f32) (hb : b.IsWhole) (i : Fin 2) (s : Fin 4) :
    (sl3 b i s).view.set = b.view.setOn (r3 i s).toLoadRect.set :=
  (View.set_reshape _ _).trans (View.set_slice _ _)
theorem sl4_set_eq_load (i p : Fin 2) (s : Fin 4) :
    (sl4 i p s).view.set = rM.view.setOn (r4 i p s).toLoadRect.set :=
  (View.set_reshape _ _).trans (View.set_slice _ _)

theorem r3_disj (i i' : Fin 2) (s s' : Fin 4) (h : (i, s) ≠ (i', s')) : Disjoint (r3 i s).set (r3 i' s').set := by
  by_cases hi : i.val = i'.val
  · refine Rect.unit_disjoint 1 (?_ : 64 * s.val + 64 ≤ 64 * s'.val ∨ 64 * s'.val + 64 ≤ 64 * s.val)
    have : s.val ≠ s'.val := fun e => h (by rw [Fin.ext hi, Fin.ext e])
    omega
  · exact Rect.unit_disjoint 0 (by show i.val + 1 ≤ i'.val ∨ i'.val + 1 ≤ i.val; omega)

theorem r4_disj (i p i' p' : Fin 2) (s s' : Fin 4) (h : (i, p, s) ≠ (i', p', s')) :
    Disjoint (r4 i p s).set (r4 i' p' s').set := by
  by_cases hi : i.val = i'.val
  · by_cases hp : p.val = p'.val
    · refine Rect.unit_disjoint 2 (?_ : 64 * s.val + 64 ≤ 64 * s'.val ∨ 64 * s'.val + 64 ≤ 64 * s.val)
      have : s.val ≠ s'.val := fun e => h (by rw [Fin.ext hi, Fin.ext hp, Fin.ext e])
      omega
    · exact Rect.unit_disjoint 1 (by show p.val + 1 ≤ p'.val ∨ p'.val + 1 ≤ p.val; omega)
  · exact Rect.unit_disjoint 0 (by show i.val + 1 ≤ i'.val ∨ i'.val + 1 ≤ i.val; omega)

theorem sl3_disj (b : Memref sig .tc .vmem S2x256x256 .f32) (hb : b.IsWhole) (i i' : Fin 2) (s s' : Fin 4) (h : (i, s) ≠ (i', s')) :
    Disjoint (sl3 b i s).view.set (sl3 b i' s').view.set := by
  rw [sl3_set_eq_load b hb, sl3_set_eq_load b hb]
  exact (Finset.disjoint_map b.view.emb).mpr (r3_disj i i' s s' h)
theorem sl4_disj (i p i' p' : Fin 2) (s s' : Fin 4) (h : (i, p, s) ≠ (i', p', s')) :
    Disjoint (sl4 i p s).view.set (sl4 i' p' s').view.set := by
  rw [sl4_set_eq_load, sl4_set_eq_load]
  exact (Finset.disjoint_map rM.view.emb).mpr (r4_disj i p i' p' s s' h)

-- The index `i` of the result buffer lies in the 64 rows from `r` and the `b` columns from `a`.
def inBox (r a b : Nat) (i : oM.view.ty.Idx) : Prop :=
  (r ≤ (i (0 : Fin 2)).val ∧ (i (0 : Fin 2)).val < r + 64) ∧ a ≤ (i (1 : Fin 2)).val ∧ (i (1 : Fin 2)).val < a + b

-- A unit-stride rectangle of 64 rows holds the indices between its offsets and its ends.
theorem mem_unit {off size : Fin 2 → Nat} {inb : ∀ a, off a + size a ≤ S1024x512.size a} {r a : Nat}
    (ho : ∀ k, off k = (![r, a] : Fin 2 → Nat) k) (h0 : size 0 = 64) (i : oM.view.ty.Idx) :
    i ∈ (oM.view.slice (Rect.unit (s := S1024x512) off size inb)).set ↔ inBox r a (size 1) i := by
  have e0 : off 0 = r := ho 0
  have e1 : off 1 = a := ho 1
  rw [View.set_slice_whole cc0_stg1_0, ← e0, ← e1]
  exact (Rect.mem_set_unit.trans Fin.forall_fin_two).trans (h0 ▸ Iff.rfl)

theorem mem_pc5 (c : Dev nD) (s : Fin 4) (i : oM.view.ty.Idx) : i ∈ (pc5 oM c s).view.set ↔ inBox (rowOf c 0 s) 0 512 i :=
  mem_unit (off5_eq c s) rfl i
theorem mem_pc1m (c : Dev nD) (s : Fin 4) (i : oM.view.ty.Idx) : i ∈ (pc1m oM c s).view.set ↔ inBox (rowOf c 3 s) 0 256 i :=
  mem_unit (off1_m1 c s) rfl i
theorem mem_pc2o (c : Dev nD) (s : Fin 4) (i : oM.view.ty.Idx) : i ∈ (pc2o oM c s).view.set ↔ inBox (rowOf c 1 s) 256 256 i :=
  mem_unit (off2_one c s) rfl i
theorem mem_st3 (c : Dev nD) (s : Fin 4) (i : oM.view.ty.Idx) :
    i ∈ (oM.access (rx3 c 0 s)).setOn Finset.univ ↔ inBox (rowOf c 0 s) 0 256 i := mem_unit (off3_zero c s) rfl i
theorem mem_st4 (c : Dev nD) (s : Fin 4) (i : oM.view.ty.Idx) :
    i ∈ (oM.access (rx4 c 0 s)).setOn Finset.univ ↔ inBox (rowOf c 0 s) 256 256 i := mem_unit (off4_zero c s) rfl i
-- Loading and storing through the whole buffer reach the same elements.
theorem ld_set (R : Rect S1024x512) : oM.view.setOn R.toLoadRect.set = (oM.access R).setOn Finset.univ :=
  Finset.map_refl.trans (View.set_slice_whole cc0_stg1_0 R).symm

theorem own_rows_halves (c : Dev nD) (s : Fin 4) :
    (oM.access (rx3 c 0 s)).setOn Finset.univ ∪ (oM.access (rx4 c 0 s)).setOn Finset.univ = (pc5 oM c s).view.set := by
  refine Finset.ext fun i => Finset.mem_union.trans (((mem_st3 c s i).or (mem_st4 c s i)).trans (Iff.trans ?_ (mem_pc5 c s i).symm))
  have h1 : (i (1 : Fin 2)).val < 512 := (i (1 : Fin 2)).isLt
  unfold inBox
  omega
theorem own_halves_disj (c : Dev nD) (s : Fin 4) :
    Disjoint ((oM.access (rx3 c 0 s)).setOn Finset.univ) ((oM.access (rx4 c 0 s)).setOn Finset.univ) := by
  refine Finset.disjoint_left.mpr fun i h3 h4 => ?_
  have h3 := (mem_st3 c s i).mp h3
  have h4 := (mem_st4 c s i).mp h4
  unfold inBox at h3 h4
  omega
theorem own_load_low (c : Dev nD) (s : Fin 4) : oM.view.setOn (rx3 c 0 s).toLoadRect.set ⊆ (pc5 oM c s).view.set := by
  rw [ld_set, ← own_rows_halves]; exact Finset.subset_union_left
theorem own_load_high (c : Dev nD) (s : Fin 4) : oM.view.setOn (rx4 c 0 s).toLoadRect.set ⊆ (pc5 oM c s).view.set := by
  rw [ld_set, ← own_rows_halves]; exact Finset.subset_union_right
-- The block three on from `c` is the own block of `prv c`, the block one on that of `nxt c`.
theorem fwd_low_subset (c : Dev nD) (s : Fin 4) : (pc1m oM c s).view.set ⊆ (pc5 oM (prv c) s).view.set := by
  intro i h
  have h := (mem_pc1m c s i).mp h
  refine (mem_pc5 (prv c) s i).mpr ?_
  simp only [inBox, rowOf, prv] at h ⊢
  omega
theorem fwd_high_subset (c : Dev nD) (s : Fin 4) : (pc2o oM c s).view.set ⊆ (pc5 oM (nxt c) s).view.set := by
  intro i h
  have h := (mem_pc2o c s i).mp h
  refine (mem_pc5 (nxt c) s i).mpr ?_
  simp only [inBox, rowOf, nxt] at h ⊢
  omega

def opieces (c : Dev nD) : List (Finset oM.view.ty.Idx) :=
  (List.finRange 4).flatMap fun s =>
    [(pc5 oM c s).view.set, (pc5 oM (prv c) s).view.set, (pc5 oM (nxt c) s).view.set, (pc1m oM (prv c) s).view.set, (pc2o oM (nxt c) s).view.set]

-- Distinct labels, and `key` constant on each set with its label as value: two of the sets share no member.
theorem pairwise_disjoint_of_key {α κ : Type} (key : α → κ) (L : List (κ × Finset α)) (hn : (L.map Prod.fst).Nodup)
    (hk : ∀ p ∈ L, ∀ x ∈ p.2, key x = p.1) : (L.map Prod.snd).Pairwise Disjoint :=
  List.pairwise_map.mpr ((List.pairwise_map.mp hn).imp_of_mem fun hp hq hne =>
    Finset.disjoint_left.mpr fun x hx hx' => hne ((hk _ hp x hx).symm.trans (hk _ hq x hx')))

-- Quarter of an index's row block, and the kind of piece: by the block's distance from `c`, and two blocks on by the column half.
def okey (c : Dev nD) (i : oM.view.ty.Idx) : Nat × Nat :=
  ((i (0 : Fin 2)).val % 256 / 64,
    if ((i (0 : Fin 2)).val / 256 + 4 - c.val) % 4 = 0 then 0
    else if ((i (0 : Fin 2)).val / 256 + 4 - c.val) % 4 = 3 then 1
    else if ((i (0 : Fin 2)).val / 256 + 4 - c.val) % 4 = 1 then 2
    else if (i (1 : Fin 2)).val < 256 then 3 else 4)

def olist (c : Dev nD) : List ((Nat × Nat) × Finset oM.view.ty.Idx) :=
  (List.finRange 4).flatMap fun s =>
    [((s.val, 0), (pc5 oM c s).view.set), ((s.val, 1), (pc5 oM (prv c) s).view.set), ((s.val, 2), (pc5 oM (nxt c) s).view.set),
      ((s.val, 3), (pc1m oM (prv c) s).view.set), ((s.val, 4), (pc2o oM (nxt c) s).view.set)]

theorem olist_key (c : Dev nD) : ∀ p ∈ olist c, ∀ x ∈ p.2, okey c x = p.1 := by
  intro p hp
  obtain ⟨s, -, hp⟩ := List.mem_flatMap.mp hp
  simp only [List.mem_cons, List.mem_nil_iff, or_false] at hp
  have hc : c.val < 4 := c.isLt
  have hs : s.val < 4 := s.isLt
  rcases hp with rfl | rfl | rfl | rfl | rfl <;> intro x hx <;>
    have h0 : (x (0 : Fin 2)).val < 1024 := (x (0 : Fin 2)).isLt <;>
    have h1 : (x (1 : Fin 2)).val < 512 := (x (1 : Fin 2)).isLt
  on_goal 1 => have h := (mem_pc5 c s x).mp hx
  on_goal 2 => have h := (mem_pc5 (prv c) s x).mp hx
  on_goal 3 => have h := (mem_pc5 (nxt c) s x).mp hx
  on_goal 4 => have h := (mem_pc1m (prv c) s x).mp hx
  on_goal 5 => have h := (mem_pc2o (nxt c) s x).mp hx
  all_goals
    simp only [inBox, rowOf, prv, nxt] at h
    refine Prod.ext (show (x (0 : Fin 2)).val % 256 / 64 = s.val by omega) ?_
    simp only [okey]
    split_ifs <;> omega

theorem opieces_disj (c : Dev nD) : (opieces c).Pairwise Disjoint := by
  have h := pairwise_disjoint_of_key (okey c) (olist c)
    (by simp only [olist, List.map_flatMap, List.map_cons, List.map_nil]; decide) (olist_key c)
  simpa only [opieces, olist, List.map_flatMap, List.map_cons, List.map_nil] using h

theorem opieces_cover (c : Dev nD) (i : oM.view.ty.Idx) : ∃ S ∈ opieces c, i ∈ S := by
  have hc : c.val < 4 := c.isLt
  have h0 : (i (0 : Fin 2)).val < 1024 := (i (0 : Fin 2)).isLt
  have h1 : (i (1 : Fin 2)).val < 512 := (i (1 : Fin 2)).isLt
  obtain ⟨s, hs⟩ : ∃ s : Fin 4, s.val = (i (0 : Fin 2)).val % 256 / 64 := ⟨⟨(i (0 : Fin 2)).val % 256 / 64, by omega⟩, rfl⟩
  obtain ⟨D, hD⟩ : ∃ D, D = ((i (0 : Fin 2)).val / 256 + 4 - c.val) % 4 := ⟨_, rfl⟩
  rcases (by omega : D = 0 ∨ D = 3 ∨ D = 1 ∨ D = 2 ∧ (i (1 : Fin 2)).val < 256 ∨ D = 2 ∧ 256 ≤ (i (1 : Fin 2)).val) with h | h | h | h | h
  · exact ⟨_, List.mem_flatMap.mpr ⟨s, List.mem_finRange s, .head _⟩, (mem_pc5 c s i).mpr (by simp only [inBox, rowOf]; omega)⟩
  · exact ⟨_, List.mem_flatMap.mpr ⟨s, List.mem_finRange s, .tail _ (.head _)⟩, (mem_pc5 (prv c) s i).mpr (by simp only [inBox, rowOf, prv]; omega)⟩
  · exact ⟨_, List.mem_flatMap.mpr ⟨s, List.mem_finRange s, .tail _ (.tail _ (.head _))⟩, (mem_pc5 (nxt c) s i).mpr (by simp only [inBox, rowOf, nxt]; omega)⟩
  · exact ⟨_, List.mem_flatMap.mpr ⟨s, List.mem_finRange s, .tail _ (.tail _ (.tail _ (.head _)))⟩, (mem_pc1m (prv c) s i).mpr (by simp only [inBox, rowOf, prv]; omega)⟩
  · exact ⟨_, List.mem_flatMap.mpr ⟨s, List.mem_finRange s, .tail _ (.tail _ (.tail _ (.tail _ (.head _))))⟩, (mem_pc2o (nxt c) s i).mpr (by simp only [inBox, rowOf, nxt]; omega)⟩

end Cert.Kernel.AR

end
-- ==== Proof.ArKernel.Dats.lean ====
import proofs.«900109_g7700000000000110_dist_ar_v7x_i4_i_m1024_n512_f32_1_alg».proof.Proof.ArKernel.Flow
import proofs.«900109_g7700000000000110_dist_ar_v7x_i4_i_m1024_n512_f32_1_alg».proof.Proof.ArKernel.Geom
import proofs.«900109_g7700000000000110_dist_ar_v7x_i4_i_m1024_n512_f32_1_alg».proof.Proof.Gen.Kernel.Points

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def layOver {I V : Type} [DecidableEq I] (l : List (Finset I × (I → V))) (g : I → V) : I → V :=
  l.foldr (fun Sf acc => Sf.1.piecewise Sf.2 acc) g

def opiecesC (c : Dev nD) : List (Finset oM.view.ty.Idx × (oM.view.ty.Idx → Elt F .f32)) :=
  (List.finRange 4).flatMap fun s =>
    [((pc5 oM c s).view.set, oC m c s), ((pc5 oM (prv c) s).view.set, lnd6 m c s), ((pc5 oM (nxt c) s).view.set, lnd7 m c s),
      ((pc1m oM (prv c) s).view.set, lnd8 m c s), ((pc2o oM (nxt c) s).view.set, lnd9 m c s)]

def outFinal (c : Dev nD) : (cc0_stg1_0 : Ref sig .tc).ty.Contents (Elt F) := layOver (opiecesC m c) junkO

abbrev scrAny (c : Dev nD) (b : Ref sig .tc) : sProp 𝕄 := iprop(∃ f : Buf (Elt F) ((c : Thread nD τ).loc b), ((c : Thread nD τ).loc b) ↦{fullShare} f)

def Φ₀ (c : Dev nD) : sProp 𝕄 := iprop(start m c ∗ scrAny c cc0_scratch0 ∗ scrAny c cc0_scratch1 ∗ scrAny c cc0_scratch2)
def ownZero (c : Dev nD) : sProp 𝕄 := bigSep Finset.univ fun js : JS => iprop(semVal (sCell c js.1 js.2) 0 ∗ semVal (rCell c js.1 js.2) 0)
def Φ₁ (c : Dev nD) : sProp 𝕄 := iprop((scrAny c cc0_scratch0 ∗ scrAny c cc0_scratch1 ∗ scrAny c cc0_scratch2) ∗ ownZero (F := F) c)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := m ((cfg0.win w).arr.view.loc (c : Thread nD τ))
  after w _ := match w with
    | ⟨0, _⟩ => X m c
    | ⟨1, _⟩ => outFinal m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Cid → ℕ) (c : Dev nD) : sProp 𝕄 :=
  iprop((ghost m K c ∗ creds (F := F) c ∗ levAts L lv ∗ scrAny c cc0_scratch0 ∗ scrAny c cc0_scratch1 ∗ scrAny c cc0_scratch2)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ c ∗ (dats m 0 c).owesAt () t₀.succ ∗ stg c cc0_stg0_0 (X m c) ∗ stg c cc0_stg1_0 (outFinal m c))

abbrev theBody : Prog (TpuEff nD τ sig (Elt F) Λ₀ .tc) PUnit :=
  cc0_body (Memref.whole cc0_stg0_0) (Memref.isWhole_whole _) (Memref.whole cc0_stg1_0) (Memref.isWhole_whole _)
    (Memref.whole cc0_scratch0) (Memref.isWhole_whole _) (Memref.whole cc0_scratch1) (Memref.isWhole_whole _) (Memref.whole cc0_scratch2) (Memref.isWhole_whole _)
    cc0_scratch3 cc0_scratch4 cc0_scratch5 cc0_scratch6 cc0_scratch7 cc0_scratch8

end Cert.Kernel.AR

end
-- ==== Proof.ArKernel.Bundles.lean ====
import proofs.«900109_g7700000000000110_dist_ar_v7x_i4_i_m1024_n512_f32_1_alg».proof.Proof.ArKernel.Dats

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

def rorder : List JS :=
  ((List.finRange 4).flatMap fun s => [(0, s), (1, s)]) ++ ((List.finRange 4).flatMap fun s => [(4, s), (2, s), (3, s), (5, s)])
    ++ ((List.finRange 4).flatMap fun s => [(6, s), (7, s)]) ++ ((List.finRange 4).flatMap fun s => [(8, s), (9, s)])
def xkeys : List JS := (List.finRange 4).flatMap fun s => [(0, s), (1, s), (2, s), (3, s)]
def mkeys : List (Fin 2 × Fin 4) := (List.finRange 4).flatMap fun s => [(0, s), (1, s)]

def restOf (c : Dev nD) (b : Ref sig .tc) (l : List (Finset (Idx ((c : Thread nD τ).loc b)))) : sProp 𝕄 :=
  iprop(∃ f : Buf (Elt F) ((c : Thread nD τ).loc b), ((c : Thread nD τ).loc b) ↦[Finset.univ \ l.foldr (· ∪ ·) ∅]{fullShare} f)
def restA (c : Dev nD) : sProp 𝕄 := restOf (F := F) c cc0_scratch0 (mkeys.map fun is : Fin 2 × Fin 4 => ((sl3 aM is.1 is.2).view.set : Finset (Idx ((c : Thread nD τ).loc cc0_scratch0))))
def restM (c : Dev nD) : sProp 𝕄 := restOf (F := F) c cc0_scratch1 (mkeys.map fun is : Fin 2 × Fin 4 => ((sl3 mM is.1 is.2).view.set : Finset (Idx ((c : Thread nD τ).loc cc0_scratch1))))
def restR (c : Dev nD) : sProp 𝕄 :=
  restOf (F := F) c cc0_scratch2 ((List.finRange 4).flatMap fun s => [(sl4 0 0 s).view.set, (sl4 0 1 s).view.set, (sl4 1 0 s).view.set, (sl4 1 1 s).view.set])
def xRest (c : Dev nD) (js : JS) : sProp 𝕄 :=
  (((geo js.1).src c js.2).view.loc (c : Thread nD τ) ↦[Finset.univ \ ((geo js.1).src c js.2).view.set]{shr js.1 js.2} srcC m c js.1 js.2)

def stayed6 (c : Dev nD) (s : Fin 4) : sProp 𝕄 :=
  ((pc5 oM (prv c) s).view.loc (c : Thread nD τ) ↦[(pc5 oM (prv c) s).view.set \ (pc1m oM c s).view.set]{fullShare} lnd6 m c s)
def stayed7 (c : Dev nD) (s : Fin 4) : sProp 𝕄 :=
  ((pc5 oM (nxt c) s).view.loc (c : Thread nD τ) ↦[(pc5 oM (nxt c) s).view.set \ (pc2o oM c s).view.set]{fullShare} lnd7 m c s)
def landedEnd (c : Dev nD) (js : JS) : sProp 𝕄 :=
  if js.1 = 6 then stayed6 m c js.2 else if js.1 = 7 then stayed7 m c js.2 else recvPay m c js.1 js.2

def Init (c : Dev nD) (W : Waits sig Unit) : sProp 𝕄 :=
  iprop(atPos ER (barCell c) 0 ∅ 0 ∗ dutyTok ER (barCell (prv c)) 0 true ∗ dutyTok ER (barCell (nxt c)) 0 false
    ∗ cred (tallyAt (barCell c) () 2) ∗ owes (c : Thread nD τ) (O₀ c) W
    ∗ barPay (F := F) (prv c) true ∗ barPay (F := F) (nxt c) false
    ∗ bigSepL order (copyToks (F := F) c) ∗ bigSepL rorder (recvKit (F := F) c)
    ∗ bigSepL order (fun js => (atPos ER (sCell c js.1 js.2) 0 ∅ 0 : sProp 𝕄))
    ∗ bigSepL xkeys (fun js => iprop(sendPay m c js.1 js.2 ∗ xRest m c js)) ∗ xLoad m c
    ∗ bigSepL mkeys (fun is => iprop(∃ f, mPiece (F := F) c is.1 is.2 f)) ∗ bigSepL (List.finRange 4) (fun s => iprop(∃ f, oRows (F := F) c s f))
    ∗ restA (F := F) c ∗ restM (F := F) c ∗ restR (F := F) c)

def Fin' (c : Dev nD) : sProp 𝕄 :=
  iprop(atPos ER (barCell c) 1 ∅ 0 ∗ (∃ W, owes (c : Thread nD τ) 0 W)
    ∗ bigSepL order (fun js => iprop(sendPay m c js.1 js.2 ∗ atPos ER (sCell c js.1 js.2) 1 ∅ 0))
    ∗ bigSepL rorder (fun js => iprop(landedEnd m c js ∗ atPos ER (rCell c js.1 js.2) 1 ∅ 0))
    ∗ bigSepL xkeys (xRest m c) ∗ xLoad m c
    ∗ restA (F := F) c ∗ restM (F := F) c ∗ restR (F := F) c)

end Cert.Kernel.AR

end
-- ==== Proof.ArKernel.Plumb.lean ====
import proofs.«900109_g7700000000000110_dist_ar_v7x_i4_i_m1024_n512_f32_1_alg».proof.Proof.ArKernel.Bundles
import proofs.«900109_g7700000000000110_dist_ar_v7x_i4_i_m1024_n512_f32_1_alg».proof.Proof.LibBundles

noncomputable section

namespace Cert.Kernel.AR

open Cert.Kernel.Gen Cert.LibBundles
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ)

namespace Plumb

theorem fam_eq (p c : Dev nD) (j : Fin 10) (h : nb (geo j).side p = c) :
    (fun s => dstAny (F := F) p (j, s)) = fun s => anyOn (ℓ := ((geo j).dst p s).view.loc (c : Thread nD τ)) ((geo j).dst p s).view.set := by
  subst h; rfl

theorem mkeys_fams : mkeys.Perm (fams [0, 1]) := by decide

theorem sl3_pairwise (b : Memref sig .tc .vmem S2x256x256 .f32) (hb : b.IsWhole) :
    (@List.map (Fin 2 × Fin 4) (Finset b.view.ty.Idx) (fun is => (sl3 b is.1 is.2).view.set) mkeys).Pairwise Disjoint :=
  List.pairwise_map.mpr ((by decide : mkeys.Nodup).imp fun {a a'} hne => sl3_disj b hb a.1 a'.1 a.2 a'.2 hne)

theorem cutA (c : Dev nD) : scrAny (F := F) c cc0_scratch0
    = iprop((bigSepL (List.finRange 4) (fun s => dstAny (F := F) (prv c) (0, s)) ∗ bigSepL (List.finRange 4) (fun s => dstAny (F := F) (nxt c) (1, s))) ∗ restA (F := F) c) := by
  have key : (_ : sProp 𝕄) = _ := anyOn_cut (ℓ := (c : Thread nD τ).loc cc0_scratch0) (fun is : Fin 2 × Fin 4 => ((sl3 aM is.1 is.2).view.set : Finset (Idx ((c : Thread nD τ).loc cc0_scratch0))))
    mkeys Finset.univ (sl3_pairwise aM (Memref.isWhole_whole _)) (fun _ _ => Finset.subset_univ _)
  rw [sepL_perm mkeys_fams, sepL_fams] at key
  rw [fam_eq (prv c) c 0 (nxt_prv c), fam_eq (nxt c) c 1 (prv_nxt c)]
  exact key

theorem cutM (c : Dev nD) : scrAny (F := F) c cc0_scratch1 = iprop(bigSepL mkeys (fun is => iprop(∃ f, mPiece (F := F) c is.1 is.2 f)) ∗ restM (F := F) c) :=
  anyOn_cut (ℓ := (c : Thread nD τ).loc cc0_scratch1) (fun is : Fin 2 × Fin 4 => ((sl3 mM is.1 is.2).view.set : Finset (Idx ((c : Thread nD τ).loc cc0_scratch1))))
    mkeys Finset.univ (sl3_pairwise mM (Memref.isWhole_whole _)) (fun _ _ => Finset.subset_univ _)

def rkeys : List (Fin 2 × Fin 2 × Fin 4) := (List.finRange 4).flatMap fun s => [(0, 0, s), (0, 1, s), (1, 0, s), (1, 1, s)]
theorem sl4_pairwise :
    (@List.map (Fin 2 × Fin 2 × Fin 4) (Finset rM.view.ty.Idx) (fun ips => (sl4 ips.1 ips.2.1 ips.2.2).view.set) rkeys).Pairwise Disjoint :=
  List.pairwise_map.mpr ((by decide : rkeys.Nodup).imp fun {a a'} hne => sl4_disj a.1 a.2.1 a'.1 a'.2.1 a.2.2 a'.2.2 hne)

theorem cutR (c : Dev nD) : scrAny (F := F) c cc0_scratch2
    = iprop((bigSepL (List.finRange 4) (fun s => dstAny (F := F) (prv c) (2, s)) ∗ bigSepL (List.finRange 4) (fun s => dstAny (F := F) (nxt c) (3, s))
      ∗ bigSepL (List.finRange 4) (fun s => dstAny (F := F) (prv c) (4, s)) ∗ bigSepL (List.finRange 4) (fun s => dstAny (F := F) (nxt c) (5, s))) ∗ restR (F := F) c) := by
  have key : (_ : sProp 𝕄) = _ := anyOn_cut (ℓ := (c : Thread nD τ).loc cc0_scratch2) (fun ips : Fin 2 × Fin 2 × Fin 4 => ((sl4 ips.1 ips.2.1 ips.2.2).view.set : Finset (Idx ((c : Thread nD τ).loc cc0_scratch2))))
    rkeys Finset.univ sl4_pairwise (fun _ _ => Finset.subset_univ _)
  rw [sepL_perm (show rkeys.Perm ((fams [((0 : Fin 2), (1 : Fin 2)), (1, 0), (0, 0), (1, 1)]).map fun x => (x.1.1, x.1.2, x.2)) by decide), sepL_map, sepL_fams] at key
  rw [fam_eq (prv c) c 2 (nxt_prv c), fam_eq (nxt c) c 3 (prv_nxt c), fam_eq (prv c) c 4 (nxt_prv c), fam_eq (nxt c) c 5 (prv_nxt c)]
  exact key

def okeys : List (Fin 5 × Fin 4) := (List.finRange 4).flatMap fun s => [(0, s), (1, s), (2, s), (3, s), (4, s)]
def oPair (c : Dev nD) (ts : Fin 5 × Fin 4) : Finset oM.view.ty.Idx × (oM.view.ty.Idx → Elt F .f32) :=
  match ts.1 with
  | 0 => ((pc5 oM c ts.2).view.set, oC m c ts.2)
  | 1 => ((pc5 oM (prv c) ts.2).view.set, lnd6 m c ts.2)
  | 2 => ((pc5 oM (nxt c) ts.2).view.set, lnd7 m c ts.2)
  | 3 => ((pc1m oM (prv c) ts.2).view.set, lnd8 m c ts.2)
  | 4 => ((pc2o oM (nxt c) ts.2).view.set, lnd9 m c ts.2)
theorem okeys_fams : okeys.Perm (fams [0, 1, 2, 3, 4]) := by decide

include m in
theorem cutO (c : Dev nD) : (anyOn (ℓ := (c : Thread nD τ).loc cc0_stg1_0) Finset.univ : sProp 𝕄)
    = iprop((bigSepL (List.finRange 4) (fun s => iprop(∃ f, oRows (F := F) c s f))
      ∗ bigSepL (List.finRange 4) (fun s => dstAny (F := F) (prv c) (6, s)) ∗ bigSepL (List.finRange 4) (fun s => dstAny (F := F) (nxt c) (7, s))
      ∗ bigSepL (List.finRange 4) (fun s => dstAny (F := F) (prv c) (8, s)) ∗ bigSepL (List.finRange 4) (fun s => dstAny (F := F) (nxt c) (9, s)))
      ∗ anyOn (ℓ := (c : Thread nD τ).loc cc0_stg1_0) (Finset.univ \ (opieces c).foldr (· ∪ ·) ∅)) := by
  have key : (_ : sProp 𝕄) = _ := anyOn_cut (ℓ := (c : Thread nD τ).loc cc0_stg1_0) (fun ts : Fin 5 × Fin 4 => ((oPair m c ts).1 : Finset (Idx ((c : Thread nD τ).loc cc0_stg1_0))))
    okeys Finset.univ (opieces_disj c) (fun _ _ => Finset.subset_univ _)
  rw [sepL_perm okeys_fams, sepL_fams] at key
  rw [fam_eq (prv c) c 6 (nxt_prv c), fam_eq (nxt c) c 7 (prv_nxt c), fam_eq (prv c) c 8 (nxt_prv c), fam_eq (nxt c) c 9 (prv_nxt c)]
  exact key

theorem fin4_list : List.finRange 4 = [(0 : Fin 4), 1, 2, 3] := by decide

def xq2 (j : Fin 10) : PosShare TreeShare :=
  if j.val % 2 = 0 then (if j.val / 2 = 0 then fullShare.right.left else fullShare.right.right).left
  else (if j.val / 2 = 0 then fullShare.right.left else fullShare.right.right).right

theorem x_piece (c : Dev nD) (j : Fin 10) (s : Fin 4) (hj : j.val < 4) :
    (xM.view.loc (c : Thread nD τ) ↦[Finset.univ]{xsh j s} X m c : sProp 𝕄) = iprop(sendPay m c j s ∗ xRest m c (j, s)) := by
  have hj' : j = 0 ∨ j = 1 ∨ j = 2 ∨ j = 3 := by revert j; decide
  rcases hj' with rfl | rfl | rfl | rfl <;>
  · unfold sendPay xRest shr
    rw [if_pos (by decide)]
    exact eq_of (pointsTo_split_subset (Finset.subset_univ _))

theorem x_fam (c : Dev nD) (j : Fin 10) (hj : j.val < 4) :
    (xM.view.loc (c : Thread nD τ) ↦[Finset.univ]{xq2 j} X m c : sProp 𝕄)
      = bigSepL (List.finRange 4) (fun s => iprop(sendPay m c j s ∗ xRest m c (j, s))) := by
  rw [← funext fun s => x_piece m c j s hj, fin4_list, pts_quarters (xq2 j)]; rfl

theorem xkeys_fams : xkeys.Perm (fams [0, 1, 2, 3]) := by decide

theorem cutX (c : Dev nD) : ((c : Thread nD τ).loc cc0_stg0_0 ↦{fullShare} X m c : sProp 𝕄)
    = iprop(bigSepL xkeys (fun js => iprop(sendPay m c js.1 js.2 ∗ xRest m c js)) ∗ xLoad m c) := by
  rw [sepL_perm xkeys_fams, sepL_fams, eq_of (pointsTo_share (PosShare.mem_left_op_right fullShare)), pts_quarters fullShare.right]
  simp only [sepL_cc, bigSepL_singleton]
  rw [← x_fam m c 0 (by decide), ← x_fam m c 1 (by decide), ← x_fam m c 2 (by decide), ← x_fam m c 3 (by decide)]
  exact eq_of Laws.sep_comm

theorem join_x (c : Dev nD) :
    iprop((bigSepL xkeys (fun js => sendPay m c js.1 js.2) ∗ bigSepL xkeys (xRest m c)) ∗ xLoad m c) ⊢ stg (F := F) c cc0_stg0_0 (X m c) := by
  rw [← sepL_sep, ← cutX]
  iintro H; iexists X m c
  isplitr; · ipureintro; rfl
  iexact H

theorem order_nodup : order.Nodup := by decide
theorem order_univ : (Finset.univ : Finset JS) = order.toFinset := by decide
theorem rorder_nodup : rorder.Nodup := by decide
theorem rorder_univ : (Finset.univ : Finset JS) = rorder.toFinset := by decide

def cidL : List Cid :=
  .inl () :: ((order.map fun js => (.inr (true, js.1, js.2) : Cid)) ++ (rorder.map fun js => (.inr (false, js.1, js.2) : Cid)))

theorem positions_eq (c : Dev nD) :
    (bigSep Finset.univ fun id : Cid => (atPos ER (kcell (c, id)) 0 ∅ 0 : sProp 𝕄))
      = iprop(atPos ER (barCell c) 0 ∅ 0 ∗ bigSepL order (fun js => (atPos ER (sCell c js.1 js.2) 0 ∅ 0 : sProp 𝕄))
          ∗ bigSepL rorder (fun js => (atPos ER (rCell c js.1 js.2) 0 ∅ 0 : sProp 𝕄))) := by
  rw [bigSep_univ_eq_bigSepL cidL (by decide) (by decide)]
  unfold cidL
  rw [bigSepL_cons', sepL_append, sepL_map, sepL_map]
  rfl

theorem barPay_true_eq (p : Dev nD) : barPay (F := F) p true
    = bigSepL [0, 2, 4, 6, 8] (fun j => bigSepL (List.finRange 4) (fun s => dstAny (F := F) p (j, s))) := by
  show bigSepL (sideKeys 0) _ = _
  rw [show sideKeys 0 = fams [0, 2, 4, 6, 8] by decide, sepL_fams]
theorem barPay_false_eq (p : Dev nD) : barPay (F := F) p false
    = bigSepL [1, 3, 5, 7, 9] (fun j => bigSepL (List.finRange 4) (fun s => dstAny (F := F) p (j, s))) := by
  show bigSepL (sideKeys 1) _ = _
  rw [show sideKeys 1 = fams [1, 3, 5, 7, 9] by decide, sepL_fams]

theorem sepL_fupd {I : Type} (R : sProp 𝕄) [BI.Persistent R] (l : List I) (Φ Ψ : I → sProp 𝕄)
    (h : ∀ i, iprop(R ∗ Φ i) ⊢ iprop(|={Set.univ}=> Ψ i)) : iprop(R ∗ bigSepL l Φ) ⊢ iprop(|={Set.univ}=> bigSepL l Ψ) := by
  induction l with
  | nil => iintro ⟨-, H⟩; imodintro; iexact H
  | cons i l ih =>
    rw [bigSepL_cons', bigSepL_cons']
    iintro ⟨#HR, Hi, Hl⟩
    imod (h i) $$ [Hi] with Hi
    · iframe HR Hi
    imod ih $$ [Hl] with Hl
    · iframe HR Hl
    imodintro; iframe

theorem close_cell (K : Dev nD × Cid → ℕ) (c : Dev nD) (b : Bool) (js : JS) :
    iprop(records m K ∗ atPos ER (kcell (c, .inr (b, js.1, js.2))) 1 ∅ 0) ⊢ iprop(|={Set.univ}=> semVal (kcell (c, .inr (b, js.1, js.2))) 0) := by
  iintro ⟨#HR, Hat⟩
  iapply (Rounds.cell_close ER (ringRd m) (Set.mem_univ (K (c, .inr (b, js.1, js.2)))) (fun h => h) (R := 1) (duties_later m _))
  isplitr; · iapply (inv_at m K (c, .inr (b, js.1, js.2))); iexact HR
  iexact Hat

theorem close_all (K : Dev nD × Cid → ℕ) (c : Dev nD) :
    iprop(records m K ∗ bigSepL order (fun js => (atPos ER (sCell c js.1 js.2) 1 ∅ 0 : sProp 𝕄))
        ∗ bigSepL rorder (fun js => (atPos ER (rCell c js.1 js.2) 1 ∅ 0 : sProp 𝕄)))
      ⊢ iprop(|={Set.univ}=> ownZero (F := F) c) := by
  unfold ownZero
  rw [bigSep_univ_eq_bigSepL order order_univ order_nodup, sepL_sep,
    ← sepL_perm (show rorder.Perm order by decide) (fun js => (semVal (rCell c js.1 js.2) 0 : sProp 𝕄))]
  iintro ⟨#HR, HS, HRc⟩
  imod (sepL_fupd (records m K) order _ _ (close_cell m K c true)) $$ [HS] with HS
  · isplitr; · iexact HR
    iexact HS
  imod (sepL_fupd (records m K) rorder _ _ (close_cell m K c false)) $$ [HRc] with HRc
  · isplitr; · iexact HR
    iexact HRc
  imodintro
  isplitl [HS]; · iexact HS
  iexact HRc

theorem recv_fam (c p : Dev nD) (j : Fin 10) (hp : bn (geo j).side c = p) (h : j ≠ 6 ∧ j ≠ 7) :
    bigSepL (List.finRange 4) (fun s => landedEnd m c (j, s)) ⊢ bigSepL (List.finRange 4) (fun s => dstAny (F := F) p (j, s)) := by
  subst hp
  refine sepL_mono _ fun s => ?_
  unfold landedEnd
  rw [if_neg h.1, if_neg h.2, congrFun (fam_eq _ c j (nb_bn _ c)) s]
  unfold recvPay; iintro H; iexists _; iexact H

theorem send_fam (c : Dev nD) (j : Fin 10) (i : Fin 2) (h : (j, i) = (4, 0) ∨ (j, i) = (5, 1)) :
    bigSepL (List.finRange 4) (fun s => sendPay m c j s) ⊢ bigSepL (List.finRange 4) (fun s => iprop(∃ f, mPiece (F := F) c i s f)) := by
  refine sepL_mono _ fun s => ?_
  rcases h with h | h <;>
  · cases h; unfold sendPay mPiece; iintro H; iexists _; iexact H

theorem own_rows_join (c : Dev nD) (s : Fin 4) :
    iprop(sendPay m c 6 s ∗ sendPay m c 7 s) ⊢ ((c : Thread nD τ).loc cc0_stg1_0 ↦[(pc5 oM c s).view.set]{fullShare} oC m c s : sProp 𝕄) :=
  (pointsTo_share (ℓ := (c : Thread nD τ).loc cc0_stg1_0) (I := (pc5 oM c s).view.set) (f := oC m c s) (PosShare.mem_left_op_right fullShare)).2
theorem left_rows_join (c : Dev nD) (s : Fin 4) :
    iprop(sendPay m c 8 s ∗ stayed6 m c s) ⊢ ((c : Thread nD τ).loc cc0_stg1_0 ↦[(pc5 oM (prv c) s).view.set]{fullShare} lnd6 m c s : sProp 𝕄) :=
  (pointsTo_split_subset (ℓ := (c : Thread nD τ).loc cc0_stg1_0) (q := fullShare) (f := lnd6 m c s) (fwd_low_subset c s)).2
theorem right_rows_join (c : Dev nD) (s : Fin 4) :
    iprop(sendPay m c 9 s ∗ stayed7 m c s) ⊢ ((c : Thread nD τ).loc cc0_stg1_0 ↦[(pc5 oM (nxt c) s).view.set]{fullShare} lnd7 m c s : sProp 𝕄) :=
  (pointsTo_split_subset (ℓ := (c : Thread nD τ).loc cc0_stg1_0) (q := fullShare) (f := lnd7 m c s) (fwd_high_subset c s)).2

theorem far_low_eq (c : Dev nD) (s : Fin 4) :
    landedEnd m c (8, s) = ((c : Thread nD τ).loc cc0_stg1_0 ↦[(pc1m oM (prv c) s).view.set]{fullShare} lnd8 m c s : sProp 𝕄) := rfl
theorem far_high_eq (c : Dev nD) (s : Fin 4) :
    landedEnd m c (9, s) = ((c : Thread nD τ).loc cc0_stg1_0 ↦[(pc2o oM (nxt c) s).view.set]{fullShare} lnd9 m c s : sProp 𝕄) := rfl

theorem join_out (c : Dev nD) :
    iprop(bigSepL (List.finRange 4) (fun s => sendPay m c 6 s) ∗ bigSepL (List.finRange 4) (fun s => sendPay m c 7 s)
        ∗ bigSepL (List.finRange 4) (fun s => sendPay m c 8 s) ∗ bigSepL (List.finRange 4) (fun s => sendPay m c 9 s)
        ∗ bigSepL (List.finRange 4) (fun s => landedEnd m c (6, s)) ∗ bigSepL (List.finRange 4) (fun s => landedEnd m c (7, s))
        ∗ bigSepL (List.finRange 4) (fun s => landedEnd m c (8, s)) ∗ bigSepL (List.finRange 4) (fun s => landedEnd m c (9, s)))
      ⊢ stg (F := F) c cc0_stg1_0 (outFinal m c) := by
  have key : _ ⊢ (_ : sProp 𝕄) := pts_join_cover (ℓ := (c : Thread nD τ).loc cc0_stg1_0) junkO (okeys.map (oPair m c))
    (show (opieces c).Pairwise Disjoint from opieces_disj c) (opieces_cover c)
  rw [sepL_map, sepL_perm okeys_fams, sepL_fams] at key
  simp only [sepL_cc, bigSepL_singleton] at key
  iintro ⟨S6, S7, S8, S9, E6, E7, E8, E9⟩
  iexists layOver (okeys.map (oPair m c)) junkO
  isplitr; · ipureintro; rfl
  iapply key
  isplitl [S6 S7]; · iapply (sepL_mono2 _ fun s => own_rows_join m c s); iframe
  isplitl [S8 E6]
  · iapply (sepL_mono2 _ fun s => left_rows_join m c s)
    isplitl [S8]; · iexact S8
    iexact E6
  isplitl [S9 E7]
  · iapply (sepL_mono2 _ fun s => right_rows_join m c s)
    isplitl [S9]; · iexact S9
    iexact E7
  isplitl [E8]; · iapply (sepL_mono _ fun s => Entails.of_eq (far_low_eq m c s)); iexact E8
  iapply (sepL_mono _ fun s => Entails.of_eq (far_high_eq m c s)); iexact E9

theorem order_fams : order.Perm (xkeys ++ fams [4, 5, 6, 7, 8, 9]) := by decide
theorem rorder_fams : rorder.Perm (fams [0, 1, 2, 3, 4, 5, 6, 7, 8, 9]) := by decide

end Plumb

open Plumb

theorem prep' (K : Dev nD × Cid → ℕ) (c : Dev nD) :
    bodyPre m K c ⊢ iprop(records m K ∗ levAts L lv ∗ ∃ W, Init m c W) := by
  unfold bodyPre ghost positions payToks creds Init recvKit Dat.owesAt Pipeline.owesWithin
  rw [positions_eq c, bigSep_univ_eq_bigSepL order order_univ order_nodup, bigSep_univ_eq_bigSepL rorder rorder_univ rorder_nodup,
    barPay_true_eq, barPay_false_eq, cutA, cutM, cutR, sepL_sep rorder, show (dats m 0 c).owed t₀.castSucc = O₀ c from rfl]
  simp only [sepL_cc, bigSepL_singleton]
  iintro ⟨⟨⟨#HR, ⟨HpB, HpS, HpR⟩, HtP, HtN, Htoks⟩, ⟨HcB, Hcr⟩, #Hlev, ⟨⟨HA0, HA1⟩, HrA⟩, ⟨HM, HrM⟩, ⟨HR2, HR3, HR4, HR5⟩, HrR⟩, ⟨%W, %hW, HO⟩, ⟨%d0, %g0, %hg0, Hx⟩, ⟨%d1, %g1, %hg1, Hout⟩⟩
  obtain rfl : g0 = X m c := hg0
  ihave Hout := (Entails.of_eq (cutO m c)) $$ [Hout]
  · iexists g1; iexact Hout
  icases Hout with ⟨⟨Hown, HO6, HO7, HO8, HO9⟩, -⟩
  ihave Hx := (Entails.of_eq (cutX m c)) $$ Hx
  icases Hx with ⟨Hxs, HxL⟩
  iframe HR Hlev
  iexists W
  iframe

theorem join' (K : Dev nD × Cid → ℕ) (c : Dev nD) :
    iprop(records m K ∗ Fin' m c) ⊢ |={Set.univ}=> bodyPost m c := by
  unfold Fin' bodyPost Φ₁ Dat.owesAt Pipeline.owesWithin
  rw [sepL_sep, sepL_sep, sepL_perm order_fams (fun js => sendPay m c js.1 js.2), sepL_append, sepL_fams,
    sepL_perm rorder_fams (fun js => landedEnd m c js), sepL_fams, cutA, cutM, cutR, sepL_perm mkeys_fams, sepL_fams,
    show (dats m 0 c).owed t₀.succ = 0 from rfl]
  simp only [sepL_cc, bigSepL_singleton]
  iintro ⟨#HR, HatB, ⟨%W, HO⟩, ⟨⟨SX, S4, S5, S6, S7, S8, S9⟩, HpS⟩, ⟨⟨E0, E1, E2, E3, E4, E5, E6, E7, E8, E9⟩, HpR⟩, XR, XL, rA, rM, rR⟩
  imod (close_all m K c) $$ [HpS HpR] with Hz
  · iframe HR HpS HpR
  imodintro
  ihave E0 := (recv_fam m c (prv c) 0 rfl (by decide)) $$ E0
  ihave E1 := (recv_fam m c (nxt c) 1 rfl (by decide)) $$ E1
  ihave E2 := (recv_fam m c (prv c) 2 rfl (by decide)) $$ E2
  ihave E3 := (recv_fam m c (nxt c) 3 rfl (by decide)) $$ E3
  ihave E4 := (recv_fam m c (prv c) 4 rfl (by decide)) $$ E4
  ihave E5 := (recv_fam m c (nxt c) 5 rfl (by decide)) $$ E5
  ihave S4 := (send_fam m c 4 0 (.inl rfl)) $$ S4
  ihave S5 := (send_fam m c 5 1 (.inr rfl)) $$ S5
  isplitl [E0 E1 rA S4 S5 rM E2 E3 E4 E5 rR Hz]; · iframe
  isplitl [HO]
  · iexists W
    isplitr; · ipureintro; exact fun _ _ => Or.inl trivial
    iexact HO
  isplitl [SX XR XL]; · iapply (join_x m c); iframe
  iapply (join_out m c); iframe

theorem kits_of_barrier' (c : Dev nD) :
    iprop(barPay (F := F) c false ∗ barPay (F := F) c true ∗ bigSepL order (copyToks (F := F) c)) ⊢ bigSepL order (sendKit (F := F) c) := by
  unfold barPay sendKit
  rw [if_neg Bool.false_ne_true, if_pos rfl, sepL_sep, sepL_perm (show order.Perm (sideKeys 1 ++ sideKeys 0) by decide) (dstAny (F := F) c), sepL_append]
  iintro ⟨H1, H0, HT⟩; iframe

end Cert.Kernel.AR

end
-- ==== Proof.ArKernel.Body1.lean ====
import proofs.«900109_g7700000000000110_dist_ar_v7x_i4_i_m1024_n512_f32_1_alg».proof.Proof.ArKernel.Flow
import proofs.«900109_g7700000000000110_dist_ar_v7x_i4_i_m1024_n512_f32_1_alg».proof.Proof.ArKernel.Geom

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cid → ℕ) (c : Dev nD)

theorem part1 (W : Waits sig Unit) (Kt : _ → sProp 𝕄) :
    iprop(records m K ∗ levAts L lv ∗ atPos ER (barCell c) 0 ∅ 0 ∗ dutyTok ER (barCell (prv c)) 0 true ∗ dutyTok ER (barCell (nxt c)) 0 false
        ∗ cred (tallyAt (barCell c) () 2) ∗ owes (c : Thread nD τ) (O₀ c) W ∗ barPay (F := F) (prv c) true ∗ barPay (F := F) (nxt c) false
        ∗ (∀ r, (⌜r.1 = c⌝ ∗ atPos ER (barCell c) 1 ∅ 0 ∗ (∃ W', owes (c : Thread nD τ) (owedL c order) W') ∗ barPay (F := F) c false ∗ barPay (F := F) c true) -∗ Kt r))
      ⊢ WP c (atB k0_part1_skel) Kt := by
  unfold atB k0_part1_skel WP
  simp only [semSignalWord, semWaitWord, Prog.lift, Prog.bind_op, Prog.bind_ret, Prog.pure_eq_ret, wp_deviceId]
  simp only [dev1_eq c, dev2_eq c]
  iintro ⟨#HR, #Hlev, Hat, HtP, HtN, Hcr, HO, HpP, HpN, Hk⟩
  iapply (Rounds.wp_signal 𝒱₀ ER (ringRd m) (c : Thread nD τ) none (dst := (prv c : Thread nD τ)) (κ := K (prv c, .inl ()))
      (d := true) (by rw [duties_bar]; exact Finset.mem_univ _) ((amount_bar m (prv c) true).trans (by decide)) () (O₁ c) rfl)
    $$ [HO HtP HpP]
  · isplitr; · iapply (inv_at m K (prv c, .inl ())); iexact HR
    isplitl [HO]; · iexact HO
    isplitl [HtP]; · iexact HtP
    isplitl [HpP]; · rw [payload_bar]; iexact HpP
    iapply (reached_at m K (prv c, .inl ())); iexact HR
  iintro HO
  iapply (Rounds.wp_signal 𝒱₀ ER (ringRd m) (c : Thread nD τ) none (dst := (nxt c : Thread nD τ)) (κ := K (nxt c, .inl ()))
      (d := false) (by rw [duties_bar]; exact Finset.mem_univ _) ((amount_bar m (nxt c) false).trans (by decide)) () (owedL c order) rfl)
    $$ [HO HtN HpN]
  · isplitr; · iapply (inv_at m K (nxt c, .inl ())); iexact HR
    isplitl [HO]; · iexact HO
    isplitl [HtN]; · iexact HtN
    isplitl [HpN]; · rw [payload_bar]; iexact HpN
    iapply (reached_at m K (nxt c, .inl ())); iexact HR
  iintro HO
  iapply (Rounds.wp_wait_rest_token 𝒱₀ ER (ringRd m) (c : Thread nD τ) none (κ := K (c, .inl ()))
      (wpE_semWait_eq 𝒱₀ (c : Thread nD τ) none Set.univ) (Set.mem_univ _) () (O := owedL c order) (W := W) (R := 0) (m := 0) (T := ∅)
      (by rw [expect_bar]; decide)) $$ [Hcr HO Hat]
  · isplitr; · iapply (inv_at m K (c, .inl ())); iexact HR
    isplitl [Hcr]; · iexact Hcr
    isplitl [HO]; · iexact HO
    isplitr; · iapply (mayWait_bar c); iexact Hlev
    iexact Hat
  iintro ⟨HO, Hat, -, Hrest⟩
  ihave Hp := (Entails.of_eq (rest_bar m c)) $$ Hrest
  icases Hp with ⟨HpF, HpT⟩
  rw [wp_ret]; imodintro
  iapply Hk
  isplitr; · ipureintro; rfl
  isplitl [Hat]; · iexact Hat
  isplitl [HO]; · iexists _; iexact HO
  isplitl [HpF]; · iexact HpF
  iexact HpT

theorem part2 (v2 v25 : BitVec 32) (ls lr sent : List JS)
    (Kt : (Σ' (v57 : BitVec 32) (v58 : BitVec 32) (v59 : BitVec 1) (v60 : BitVec 1), BitVec 1) → sProp 𝕄) :
    iprop(records m K ∗ levAts L lv ∗ St c ((0, 0) :: ls) lr sent ∗ sendPay m c 0 0
        ∗ (∀ r, St c ls lr ((0, 0) :: sent) -∗ Kt r))
      ⊢ WP c (atB k0_part2_skel c v2 v25) Kt := by
  unfold atB k0_part2_skel
  simp only [Prog.lift, Prog.bind_op, Prog.bind_ret, Prog.pure_eq_ret]
  exact send_only m K c _ 0 0 ls lr sent (dev3_eq c) _ Kt

theorem part3 (v2 v14 v57 v58 : BitVec 32) (v59 v60 v61 : BitVec 1) (ls lr sent : List JS)
    (Kt : PUnit → sProp 𝕄) :
    iprop(records m K ∗ levAts L lv ∗ St c ((1, 0) :: ls) lr sent ∗ sendPay m c 1 0
        ∗ (∀ r, St c ls lr ((1, 0) :: sent) -∗ Kt r))
      ⊢ WP c (atB k0_part3_skel c v2 v14 v57 v58 v59 v60 v61) Kt := by
  unfold atB k0_part3_skel
  simp only [Prog.lift, Prog.bind_op, Prog.bind_ret, Prog.pure_eq_ret]
  exact send_only m K c _ 1 0 ls lr sent (dev4_eq c) _ Kt

theorem part4 (v2 v14 v25 : BitVec 32) (ls lr sent : List JS)
    (Kt : PUnit → sProp 𝕄) :
    iprop(records m K ∗ levAts L lv ∗ St c ((2, 0) :: ls) lr sent ∗ sendPay m c 2 0
        ∗ (∀ r, St c ls lr ((2, 0) :: sent) -∗ Kt r))
      ⊢ WP c (atB k0_part4_skel c v2 v14 v25) Kt := by
  unfold atB k0_part4_skel
  simp only [Prog.lift, Prog.bind_op, Prog.bind_ret, Prog.pure_eq_ret]
  exact send_only m K c _ 2 0 ls lr sent (dev5_eq c) _ Kt

theorem part5 (v2 v25 : BitVec 32) (ls lr sent : List JS)
    (Kt : (Σ' (v149 : BitVec 32) (v150 : BitVec 32) (v151 : BitVec 1), BitVec 1) → sProp 𝕄) :
    iprop(records m K ∗ levAts L lv ∗ St c ((3, 0) :: (0, 1) :: ls) lr sent ∗ sendPay m c 3 0 ∗ sendPay m c 0 1
        ∗ (∀ r, St c ls lr ((0, 1) :: (3, 0) :: sent) -∗ Kt r))
      ⊢ WP c (atB k0_part5_skel c v2 v25) Kt := by
  unfold atB k0_part5_skel
  simp only [Prog.lift, Prog.bind_op, Prog.bind_ret, Prog.pure_eq_ret]
  iintro ⟨#HR, #Hlev, HSt, Hpay, Hpay', Hk⟩
  iapply (st_send m K c _ 3 0 ((0, 1) :: ls) lr sent (dev6_eq c)) $$ HR HSt Hpay
  iintro HSt
  iapply (st_send m K c _ 0 1 ls lr ((3, 0) :: sent) (dev7_eq c)) $$ HR HSt Hpay'
  iintro HSt
  unfold WP; rw [wp_ret]; imodintro
  iapply Hk; iexact HSt

theorem part6 (v2 v14 v149 v150 : BitVec 32) (v151 v152 : BitVec 1) (ls lr sent : List JS)
    (Kt : PUnit → sProp 𝕄) :
    iprop(records m K ∗ levAts L lv ∗ St c ((1, 1) :: ls) lr sent ∗ sendPay m c 1 1
        ∗ (∀ r, St c ls lr ((1, 1) :: sent) -∗ Kt r))
      ⊢ WP c (atB k0_part6_skel c v2 v14 v149 v150 v151 v152) Kt := by
  unfold atB k0_part6_skel
  simp only [Prog.lift, Prog.bind_op, Prog.bind_ret, Prog.pure_eq_ret]
  exact send_only m K c _ 1 1 ls lr sent (dev8_eq c) _ Kt

theorem part7 (v2 v14 v25 : BitVec 32) (ls lr sent : List JS)
    (Kt : PUnit → sProp 𝕄) :
    iprop(records m K ∗ levAts L lv ∗ St c ((2, 1) :: ls) lr sent ∗ sendPay m c 2 1
        ∗ (∀ r, St c ls lr ((2, 1) :: sent) -∗ Kt r))
      ⊢ WP c (atB k0_part7_skel c v2 v14 v25) Kt := by
  unfold atB k0_part7_skel
  simp only [Prog.lift, Prog.bind_op, Prog.bind_ret, Prog.pure_eq_ret]
  exact send_only m K c _ 2 1 ls lr sent (dev9_eq c) _ Kt

theorem part8 (v2 v25 : BitVec 32) (ls lr sent : List JS)
    (Kt : (Σ' (v241 : BitVec 32) (v242 : BitVec 32), BitVec 1) → sProp 𝕄) :
    iprop(records m K ∗ levAts L lv ∗ St c ((3, 1) :: (0, 2) :: ls) lr sent ∗ sendPay m c 3 1 ∗ sendPay m c 0 2
        ∗ (∀ r, St c ls lr ((0, 2) :: (3, 1) :: sent) -∗ Kt r))
      ⊢ WP c (atB k0_part8_skel c v2 v25) Kt := by
  unfold atB k0_part8_skel
  simp only [Prog.lift, Prog.bind_op, Prog.bind_ret, Prog.pure_eq_ret]
  iintro ⟨#HR, #Hlev, HSt, Hpay, Hpay', Hk⟩
  iapply (st_send m K c _ 3 1 ((0, 2) :: ls) lr sent (dev10_eq c)) $$ HR HSt Hpay
  iintro HSt
  iapply (st_send m K c _ 0 2 ls lr ((3, 1) :: sent) (dev11_eq c)) $$ HR HSt Hpay'
  iintro HSt
  unfold WP; rw [wp_ret]; imodintro
  iapply Hk; iexact HSt

theorem part9 (v2 v14 v241 v242 : BitVec 32) (v243 : BitVec 1) (ls lr sent : List JS)
    (Kt : PUnit → sProp 𝕄) :
    iprop(records m K ∗ levAts L lv ∗ St c ((1, 2) :: ls) lr sent ∗ sendPay m c 1 2
        ∗ (∀ r, St c ls lr ((1, 2) :: sent) -∗ Kt r))
      ⊢ WP c (atB k0_part9_skel c v2 v14 v241 v242 v243) Kt := by
  unfold atB k0_part9_skel
  simp only [Prog.lift, Prog.bind_op, Prog.bind_ret, Prog.pure_eq_ret]
  exact send_only m K c _ 1 2 ls lr sent (dev12_eq c) _ Kt

theorem part10 (v2 v14 v25 : BitVec 32) (ls lr sent : List JS)
    (Kt : PUnit → sProp 𝕄) :
    iprop(records m K ∗ levAts L lv ∗ St c ((2, 2) :: ls) lr sent ∗ sendPay m c 2 2
        ∗ (∀ r, St c ls lr ((2, 2) :: sent) -∗ Kt r))
      ⊢ WP c (atB k0_part10_skel c v2 v14 v25) Kt := by
  unfold atB k0_part10_skel
  simp only [Prog.lift, Prog.bind_op, Prog.bind_ret, Prog.pure_eq_ret]
  exact send_only m K c _ 2 2 ls lr sent (dev13_eq c) _ Kt

theorem part11 (v2 v25 : BitVec 32) (ls lr sent : List JS)
    (Kt : (Σ' (v333 : BitVec 32), BitVec 32) → sProp 𝕄) :
    iprop(records m K ∗ levAts L lv ∗ St c ((3, 2) :: (0, 3) :: ls) lr sent ∗ sendPay m c 3 2 ∗ sendPay m c 0 3
        ∗ (∀ r, St c ls lr ((0, 3) :: (3, 2) :: sent) -∗ Kt r))
      ⊢ WP c (atB k0_part11_skel c v2 v25) Kt := by
  unfold atB k0_part11_skel
  simp only [Prog.lift, Prog.bind_op, Prog.bind_ret, Prog.pure_eq_ret]
  iintro ⟨#HR, #Hlev, HSt, Hpay, Hpay', Hk⟩
  iapply (st_send m K c _ 3 2 ((0, 3) :: ls) lr sent (dev14_eq c)) $$ HR HSt Hpay
  iintro HSt
  iapply (st_send m K c _ 0 3 ls lr ((3, 2) :: sent) (dev15_eq c)) $$ HR HSt Hpay'
  iintro HSt
  unfold WP; rw [wp_ret]; imodintro
  iapply Hk; iexact HSt

theorem part12 (v2 v14 v333 v334 : BitVec 32) (ls lr sent : List JS)
    (Kt : PUnit → sProp 𝕄) :
    iprop(records m K ∗ levAts L lv ∗ St c ((1, 3) :: ls) lr sent ∗ sendPay m c 1 3
        ∗ (∀ r, St c ls lr ((1, 3) :: sent) -∗ Kt r))
      ⊢ WP c (atB k0_part12_skel c v2 v14 v333 v334) Kt := by
  unfold atB k0_part12_skel
  simp only [Prog.lift, Prog.bind_op, Prog.bind_ret, Prog.pure_eq_ret]
  exact send_only m K c _ 1 3 ls lr sent (dev16_eq c) _ Kt

theorem part13 (v2 v14 v25 : BitVec 32) (ls lr sent : List JS)
    (Kt : PUnit → sProp 𝕄) :
    iprop(records m K ∗ levAts L lv ∗ St c ((2, 3) :: ls) lr sent ∗ sendPay m c 2 3
        ∗ (∀ r, St c ls lr ((2, 3) :: sent) -∗ Kt r))
      ⊢ WP c (atB k0_part13_skel c v2 v14 v25) Kt := by
  unfold atB k0_part13_skel
  simp only [Prog.lift, Prog.bind_op, Prog.bind_ret, Prog.pure_eq_ret]
  exact send_only m K c _ 2 3 ls lr sent (dev17_eq c) _ Kt

end Cert.Kernel.AR

end
-- ==== Proof.ArKernel.Body2.lean ====
import proofs.«900109_g7700000000000110_dist_ar_v7x_i4_i_m1024_n512_f32_1_alg».proof.Proof.ArKernel.Flow
import proofs.«900109_g7700000000000110_dist_ar_v7x_i4_i_m1024_n512_f32_1_alg».proof.Proof.ArKernel.Geom

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cid → ℕ) (c : Dev nD)

theorem load_x (c : Dev nD) {r : LoadRect S1024x512} {hl : xM.view.LoadsAt r}
    {α : Type} {Q : α → sProp 𝕄} {k : (r.shape.Idx → Elt F .f32) → Prog (TpuEff nD τ sig (Elt F) Λ₀ .tc) α} :
    xLoad m c ⊢ iprop((xLoad m c -∗ WP c (k (xM.view.readAt (Elt F) r (X m c))) Q) -∗ WP c (.op (.load xM r hl) k) Q) :=
  wp_load 𝒱₀ (c : Thread nD τ) none Set.univ (m := xM) (Finset.subset_univ _)

theorem load_a0 (c : Dev nD) (s : Fin 4) {hl : aM.view.LoadsAt (r3 0 s).toLoadRect}
    {α : Type} {Q : α → sProp 𝕄} {k : ((r3 0 s).toLoadRect.shape.Idx → Elt F .f32) → Prog (TpuEff nD τ sig (Elt F) Λ₀ .tc) α} :
    recvPay m c 0 s ⊢ iprop((recvPay m c 0 s -∗ WP c (k (aRd0 m c s)) Q)
      -∗ WP c (.op (.load aM (r3 0 s).toLoadRect hl) k) Q) :=
  wp_load 𝒱₀ (c : Thread nD τ) none Set.univ (m := aM) (S := (sl3 aM 0 s).view.set) (f := lnd0 m c s)
    (sl3_set_eq_load aM (Memref.isWhole_whole _) 0 s).ge

theorem load_a1 (c : Dev nD) (s : Fin 4) {hl : aM.view.LoadsAt (r3 1 s).toLoadRect}
    {α : Type} {Q : α → sProp 𝕄} {k : ((r3 1 s).toLoadRect.shape.Idx → Elt F .f32) → Prog (TpuEff nD τ sig (Elt F) Λ₀ .tc) α} :
    recvPay m c 1 s ⊢ iprop((recvPay m c 1 s -∗ WP c (k (aRd1 m c s)) Q)
      -∗ WP c (.op (.load aM (r3 1 s).toLoadRect hl) k) Q) :=
  wp_load 𝒱₀ (c : Thread nD τ) none Set.univ (m := aM) (S := (sl3 aM 1 s).view.set) (f := lnd1 m c s)
    (sl3_set_eq_load aM (Memref.isWhole_whole _) 1 s).ge

theorem load_m (c : Dev nD) (i : Fin 2) (s : Fin 4) (f : Buf (Elt F) ((sl3 mM i s).view.loc (c : Thread nD τ)))
    {hl : mM.view.LoadsAt (r3 i s).toLoadRect}
    {α : Type} {Q : α → sProp 𝕄} {k : ((r3 i s).toLoadRect.shape.Idx → Elt F .f32) → Prog (TpuEff nD τ sig (Elt F) Λ₀ .tc) α} :
    mPiece c i s f ⊢ iprop((mPiece c i s f -∗ WP c (k (mM.view.readAt (Elt F) (r3 i s).toLoadRect f)) Q)
      -∗ WP c (.op (.load mM (r3 i s).toLoadRect hl) k) Q) :=
  wp_load 𝒱₀ (c : Thread nD τ) none Set.univ (m := mM) (S := (sl3 mM i s).view.set) (f := f)
    (sl3_set_eq_load mM (Memref.isWhole_whole _) i s).ge

theorem store_m (c : Dev nD) (i : Fin 2) (s : Fin 4) (f : Buf (Elt F) ((sl3 mM i s).view.loc (c : Thread nD τ)))
    (w : (r3 i s).shape.Idx → Elt F .f32)
    {hx : (mM.access (r3 i s)).Stores Finset.univ} {hm : (Finset.univ : Finset (r3 i s).shape.Idx) = Finset.univ ∨ ∀ a, (r3 i s).stride a = 1}
    {α : Type} {Q : α → sProp 𝕄} {k : PUnit → Prog (TpuEff nD τ sig (Elt F) Λ₀ .tc) α} :
    mPiece c i s f ⊢ iprop((((mM.access (r3 i s)).loc (c : Thread nD τ) ↦[(sl3 mM i s).view.set]{fullShare}
          ((mM.access (r3 i s)).write (Elt F) junkM w Finset.univ : Buf (Elt F) ((mM.access (r3 i s)).loc (c : Thread nD τ)))) -∗ WP c (k ⟨⟩) Q)
      -∗ WP c (.op (.store mM (r3 i s) w Finset.univ hx hm) k) Q) := by
  rw [← pts_write_congr_on (c : Thread nD τ) (mM.access (r3 i s)) _ (sl3_set_eq_access mM (Memref.isWhole_whole _) i s).le f junkM w fullShare]
  exact wp_store 𝒱₀ (c : Thread nD τ) none Set.univ (m := mM) (r := r3 i s) (sl3_set_eq_access mM (Memref.isWhole_whole _) i s).ge

theorem store_m0 (c : Dev nD) (s : Fin 4) (f : Buf (Elt F) ((sl3 mM 0 s).view.loc (c : Thread nD τ)))
    {hx : (mM.access (r3 0 s)).Stores Finset.univ} {hm : (Finset.univ : Finset (r3 0 s).shape.Idx) = Finset.univ ∨ ∀ a, (r3 0 s).stride a = 1}
    {α : Type} {Q : α → sProp 𝕄} {k : PUnit → Prog (TpuEff nD τ sig (Elt F) Λ₀ .tc) α} :
    mPiece c 0 s f ⊢ iprop((sendPay m c 4 s -∗ WP c (k ⟨⟩) Q)
      -∗ WP c (.op (.store mM (r3 0 s)
          (add2 (aRd0 m c s) (xRd3 m c 1 s))
          Finset.univ hx hm) k) Q) :=
  store_m c 0 s f _

theorem store_m1 (c : Dev nD) (s : Fin 4) (f : Buf (Elt F) ((sl3 mM 1 s).view.loc (c : Thread nD τ)))
    {hx : (mM.access (r3 1 s)).Stores Finset.univ} {hm : (Finset.univ : Finset (r3 1 s).shape.Idx) = Finset.univ ∨ ∀ a, (r3 1 s).stride a = 1}
    {α : Type} {Q : α → sProp 𝕄} {k : PUnit → Prog (TpuEff nD τ sig (Elt F) Λ₀ .tc) α} :
    mPiece c 1 s f ⊢ iprop((sendPay m c 5 s -∗ WP c (k ⟨⟩) Q)
      -∗ WP c (.op (.store mM (r3 1 s)
          (add2 (aRd1 m c s) (xRd4 m c 1 s))
          Finset.univ hx hm) k) Q) :=
  store_m c 1 s f _

theorem part14 (v2 v25 : BitVec 32) (ls lr sent : List JS)
    (hA : Above (0, 0) ls) (Kt : FVec F S64x256 .f32 → sProp 𝕄) :
    iprop(records m K ∗ levAts L lv ∗ St c ((3, 3) :: ls) ((0, 0) :: lr) sent ∗ sendPay m c 3 3
        ∗ (∀ r, (⌜r = k0_pay1 (aRd0 m c 0)⌝ ∗ St c ls lr ((3, 3) :: sent)
              ∗ recvPay m c 0 0 ∗ atPos ER (rCell c 0 0) 1 ∅ 0) -∗ Kt r))
      ⊢ WP c (atB k0_part14_skel c v2 v25) Kt := by
  unfold atB k0_part14_skel
  simp only [Prog.lift, Prog.bind_op, Prog.bind_ret, Prog.pure_eq_ret]
  iintro ⟨#HR, #Hlev, HSt, Hsrc, Hk⟩
  iapply (st_send m K c _ 3 3 ls ((0, 0) :: lr) sent (dev18_eq c)) $$ HR HSt Hsrc
  iintro HSt
  iapply (st_waitR m K c 0 0 ls lr ((3, 3) :: sent) hA) $$ HR Hlev HSt
  iintro ⟨HSt, Hrecv, Hat⟩
  iapply (load_a0 m c 0) $$ Hrecv; iintro Hrecv
  unfold WP; rw [wp_ret]; imodintro
  iapply Hk
  isplitr; · ipureintro; rfl
  iframe

theorem part15 (v25 : BitVec 32) (v408 : FVec F S64x256 .f32) (ls lr sent : List JS)
    (hA : Above (1, 0) ls) (hv : v408 = k0_pay1 (aRd0 m c 0))
    (Kt : PUnit → sProp 𝕄) :
    iprop(records m K ∗ levAts L lv ∗ St c ((4, 0) :: ls) ((1, 0) :: lr) sent ∗ xLoad m c ∗ (∃ f, mPiece c 0 0 f)
        ∗ (∀ r, (St c ls lr ((4, 0) :: sent) ∗ xLoad m c ∗ recvPay m c 1 0 ∗ atPos ER (rCell c 1 0) 1 ∅ 0) -∗ Kt r))
      ⊢ WP c (atB k0_part15_skel c v25 v408) Kt := by
  subst hv
  unfold atB k0_part15_skel
  simp only [Prog.lift, Prog.bind_op, Prog.bind_ret, Prog.pure_eq_ret]
  iintro ⟨#HR, #Hlev, HSt, Hx, ⟨%f, Hm⟩, Hk⟩
  iapply (load_x m c) $$ Hx; iintro Hx
  iapply (load_m c 0 0 f) $$ Hm; iintro Hm
  iapply (store_m0 m c 0 f) $$ Hm; iintro Hpay
  iapply (st_send m K c _ 4 0 ls ((1, 0) :: lr) sent (dev19_eq c)) $$ HR HSt Hpay
  iintro HSt
  iapply (st_waitR m K c 1 0 ls lr ((4, 0) :: sent) hA) $$ HR Hlev HSt
  iintro ⟨HSt, Hrecv, Hat⟩
  unfold WP; rw [wp_ret]; imodintro
  iapply Hk
  iframe

theorem part16 (v2 v14 : BitVec 32) (ls lr sent : List JS) (Kt : PUnit → sProp 𝕄) :
    iprop(records m K ∗ levAts L lv ∗ St c ls lr sent ∗ xLoad m c ∗ (∃ f, mPiece c 1 0 f) ∗ recvPay m c 1 0
        ∗ (∀ r, (St c ls lr sent ∗ xLoad m c ∗ sendPay m c 5 0 ∗ recvPay m c 1 0) -∗ Kt r))
      ⊢ WP c (atB k0_part16_skel c v2 v14) Kt := by
  unfold atB k0_part16_skel
  simp only [Prog.lift, Prog.bind_op, Prog.bind_ret, Prog.pure_eq_ret]
  iintro ⟨#HR, #Hlev, HSt, Hx, ⟨%f, Hm⟩, Hrecv, Hk⟩
  iapply (load_a1 m c 0) $$ Hrecv; iintro Hrecv
  iapply (load_x m c) $$ Hx; iintro Hx
  iapply (load_m c 1 0 f) $$ Hm; iintro Hm
  iapply (store_m1 m c 0 f) $$ Hm; iintro Hpay
  unfold WP; rw [wp_ret]; imodintro
  iapply Hk
  iframe

theorem part17 (v2 v25 : BitVec 32) (ls lr sent : List JS)
    (hA : Above (0, 1) ls) (Kt : FVec F S64x256 .f32 → sProp 𝕄) :
    iprop(records m K ∗ levAts L lv ∗ St c ((5, 0) :: ls) ((0, 1) :: lr) sent ∗ xLoad m c ∗ sendPay m c 5 0
        ∗ (∀ r, (⌜r = k0_pay4 (aRd0 m c 1) (xRd3 m c 1 1)⌝
              ∗ St c ls lr ((5, 0) :: sent) ∗ xLoad m c ∗ recvPay m c 0 1 ∗ atPos ER (rCell c 0 1) 1 ∅ 0) -∗ Kt r))
      ⊢ WP c (atB k0_part17_skel c v2 v25) Kt := by
  unfold atB k0_part17_skel
  simp only [Prog.lift, Prog.bind_op, Prog.bind_ret, Prog.pure_eq_ret]
  iintro ⟨#HR, #Hlev, HSt, Hx, Hpay, Hk⟩
  iapply (st_send m K c _ 5 0 ls ((0, 1) :: lr) sent (dev20_eq c)) $$ HR HSt Hpay
  iintro HSt
  iapply (st_waitR m K c 0 1 ls lr ((5, 0) :: sent) hA) $$ HR Hlev HSt
  iintro ⟨HSt, Hrecv, Hat⟩
  iapply (load_a0 m c 1) $$ Hrecv; iintro Hrecv
  iapply (load_x m c) $$ Hx; iintro Hx
  unfold WP; rw [wp_ret]; imodintro
  iapply Hk
  isplitr; · ipureintro; rfl
  iframe

theorem part18 (v2 v25 : BitVec 32) (v508 : FVec F S64x256 .f32) (ls lr sent : List JS)
    (hA : Above (1, 1) ls) (hv : v508 = k0_pay4 (aRd0 m c 1) (xRd3 m c 1 1))
    (Kt : (Σ' (v531 : FVec F S64x256 .f32), BitVec 32) → sProp 𝕄) :
    iprop(records m K ∗ levAts L lv ∗ St c ((4, 1) :: ls) ((1, 1) :: lr) sent ∗ (∃ f, mPiece c 0 1 f)
        ∗ (∀ r, (⌜r.1 = k0_pay6 (aRd1 m c 1)⌝
              ∗ St c ls lr ((4, 1) :: sent) ∗ recvPay m c 1 1 ∗ atPos ER (rCell c 1 1) 1 ∅ 0) -∗ Kt r))
      ⊢ WP c (atB k0_part18_skel c v2 v25 v508) Kt := by
  subst hv
  unfold atB k0_part18_skel
  simp only [Prog.lift, Prog.bind_op, Prog.bind_ret, Prog.pure_eq_ret]
  iintro ⟨#HR, #Hlev, HSt, ⟨%f, Hm⟩, Hk⟩
  iapply (load_m c 0 1 f) $$ Hm; iintro Hm
  iapply (store_m0 m c 1 f) $$ Hm; iintro Hpay
  iapply (st_send m K c _ 4 1 ls ((1, 1) :: lr) sent (dev21_eq c)) $$ HR HSt Hpay
  iintro HSt
  iapply (st_waitR m K c 1 1 ls lr ((4, 1) :: sent) hA) $$ HR Hlev HSt
  iintro ⟨HSt, Hrecv, Hat⟩
  iapply (load_a1 m c 1) $$ Hrecv; iintro Hrecv
  unfold WP; rw [wp_ret]; imodintro
  iapply Hk
  isplitr; · ipureintro; rfl
  iframe

theorem part19 (v14 : BitVec 32) (v531 : FVec F S64x256 .f32) (v532 : BitVec 32) (ls lr sent : List JS)
    (hv : v531 = k0_pay6 (aRd1 m c 1)) (Kt : PUnit → sProp 𝕄) :
    iprop(records m K ∗ levAts L lv ∗ St c ((5, 1) :: ls) lr sent ∗ xLoad m c ∗ (∃ f, mPiece c 1 1 f)
        ∗ (∀ r, (St c ls lr ((5, 1) :: sent) ∗ xLoad m c) -∗ Kt r))
      ⊢ WP c (atB k0_part19_skel c v14 v531 v532) Kt := by
  subst hv
  unfold atB k0_part19_skel
  simp only [Prog.lift, Prog.bind_op, Prog.bind_ret, Prog.pure_eq_ret]
  iintro ⟨#HR, #Hlev, HSt, Hx, ⟨%f, Hm⟩, Hk⟩
  iapply (load_x m c) $$ Hx; iintro Hx
  iapply (load_m c 1 1 f) $$ Hm; iintro Hm
  iapply (store_m1 m c 1 f) $$ Hm; iintro Hpay
  iapply (st_send m K c _ 5 1 ls lr sent (dev22_eq c)) $$ HR HSt Hpay
  iintro HSt
  unfold WP; rw [wp_ret]; imodintro
  iapply Hk
  iframe

theorem part20 (v2 v25 : BitVec 32) (ls lr sent : List JS)
    (hA : Above (0, 2) ls) (Kt : FVec F S64x256 .f32 → sProp 𝕄) :
    iprop(records m K ∗ levAts L lv ∗ St c ls ((0, 2) :: lr) sent ∗ xLoad m c ∗ (∃ f, mPiece c 0 2 f)
        ∗ (∀ r, (⌜r = k0_pay8 (aRd0 m c 2) (xRd3 m c 1 2)⌝
              ∗ St c ls lr sent ∗ xLoad m c ∗ (∃ f, mPiece c 0 2 f) ∗ recvPay m c 0 2 ∗ atPos ER (rCell c 0 2) 1 ∅ 0) -∗ Kt r))
      ⊢ WP c (atB k0_part20_skel c v2 v25) Kt := by
  unfold atB k0_part20_skel
  simp only [Prog.lift, Prog.bind_op, Prog.bind_ret, Prog.pure_eq_ret]
  iintro ⟨#HR, #Hlev, HSt, Hx, ⟨%f, Hm⟩, Hk⟩
  iapply (st_waitR m K c 0 2 ls lr sent hA) $$ HR Hlev HSt
  iintro ⟨HSt, Hrecv, Hat⟩
  iapply (load_a0 m c 2) $$ Hrecv; iintro Hrecv
  iapply (load_x m c) $$ Hx; iintro Hx
  iapply (load_m c 0 2 f) $$ Hm; iintro Hm
  unfold WP; rw [wp_ret]; imodintro
  iapply Hk
  isplitr; · ipureintro; rfl
  isplitl [HSt]; · iexact HSt
  isplitl [Hx]; · iexact Hx
  isplitl [Hm]; · iexists f; iexact Hm
  isplitl [Hrecv]; · iexact Hrecv
  iexact Hat

theorem part21 (v2 v25 : BitVec 32) (v590 : FVec F S64x256 .f32) (ls lr sent : List JS)
    (hA : Above (1, 2) ls) (hv : v590 = k0_pay8 (aRd0 m c 2) (xRd3 m c 1 2))
    (Kt : (Σ' (v613 : FVec F S64x256 .f32) (v615 : BitVec 32) (c4_i32_590 : BitVec 32), BitVec 32) → sProp 𝕄) :
    iprop(records m K ∗ levAts L lv ∗ St c ((4, 2) :: ls) ((1, 2) :: lr) sent ∗ (∃ f, mPiece c 0 2 f)
        ∗ (∀ r, (⌜r.1 = k0_pay10 (aRd1 m c 2)⌝
              ∗ St c ls lr ((4, 2) :: sent) ∗ recvPay m c 1 2 ∗ atPos ER (rCell c 1 2) 1 ∅ 0) -∗ Kt r))
      ⊢ WP c (atB k0_part21_skel c v2 v25 v590) Kt := by
  subst hv
  unfold atB k0_part21_skel
  simp only [Prog.lift, Prog.bind_op, Prog.bind_ret, Prog.pure_eq_ret]
  iintro ⟨#HR, #Hlev, HSt, ⟨%f, Hm⟩, Hk⟩
  iapply (store_m0 m c 2 f) $$ Hm; iintro Hpay
  iapply (st_send m K c _ 4 2 ls ((1, 2) :: lr) sent (dev23_eq c)) $$ HR HSt Hpay
  iintro HSt
  iapply (st_waitR m K c 1 2 ls lr ((4, 2) :: sent) hA) $$ HR Hlev HSt
  iintro ⟨HSt, Hrecv, Hat⟩
  iapply (load_a1 m c 2) $$ Hrecv; iintro Hrecv
  unfold WP; rw [wp_ret]; imodintro
  iapply Hk
  isplitr; · ipureintro; rfl
  iframe

theorem part22 (v14 : BitVec 32) (v613 : FVec F S64x256 .f32) (v615 c4_i32_590 c0_i32_591 : BitVec 32) (ls lr sent : List JS)
    (hv : v613 = k0_pay10 (aRd1 m c 2)) (Kt : PUnit → sProp 𝕄) :
    iprop(records m K ∗ levAts L lv ∗ St c ((5, 2) :: ls) lr sent ∗ xLoad m c ∗ (∃ f, mPiece c 1 2 f)
        ∗ (∀ r, (St c ls lr ((5, 2) :: sent) ∗ xLoad m c) -∗ Kt r))
      ⊢ WP c (atB k0_part22_skel c v14 v613 v615 c4_i32_590 c0_i32_591) Kt := by
  subst hv
  unfold atB k0_part22_skel
  simp only [Prog.lift, Prog.bind_op, Prog.bind_ret, Prog.pure_eq_ret]
  iintro ⟨#HR, #Hlev, HSt, Hx, ⟨%f, Hm⟩, Hk⟩
  iapply (load_x m c) $$ Hx; iintro Hx
  iapply (load_m c 1 2 f) $$ Hm; iintro Hm
  iapply (store_m1 m c 2 f) $$ Hm; iintro Hpay
  iapply (st_send m K c _ 5 2 ls lr sent (dev24_eq c)) $$ HR HSt Hpay
  iintro HSt
  unfold WP; rw [wp_ret]; imodintro
  iapply Hk
  iframe

theorem part23 (v2 v25 : BitVec 32) (ls lr sent : List JS)
    (hA : Above (0, 3) ls) (Kt : PUnit → sProp 𝕄) :
    iprop(records m K ∗ levAts L lv ∗ St c ls ((0, 3) :: lr) sent ∗ xLoad m c ∗ (∃ f, mPiece c 0 3 f)
        ∗ (∀ r, (St c ls lr sent ∗ xLoad m c ∗ sendPay m c 4 3 ∗ recvPay m c 0 3 ∗ atPos ER (rCell c 0 3) 1 ∅ 0) -∗ Kt r))
      ⊢ WP c (atB k0_part23_skel c v2 v25) Kt := by
  unfold atB k0_part23_skel
  simp only [Prog.lift, Prog.bind_op, Prog.bind_ret, Prog.pure_eq_ret]
  iintro ⟨#HR, #Hlev, HSt, Hx, ⟨%f, Hm⟩, Hk⟩
  iapply (st_waitR m K c 0 3 ls lr sent hA) $$ HR Hlev HSt
  iintro ⟨HSt, Hrecv, Hat⟩
  iapply (load_a0 m c 3) $$ Hrecv; iintro Hrecv
  iapply (load_x m c) $$ Hx; iintro Hx
  iapply (load_m c 0 3 f) $$ Hm; iintro Hm
  iapply (store_m0 m c 3 f) $$ Hm; iintro Hpay
  unfold WP; rw [wp_ret]; imodintro
  iapply Hk
  iframe

theorem part24 (v2 v25 : BitVec 32) (ls lr sent : List JS)
    (hA : Above (1, 3) ls) (Kt : (Σ' (v695 : FVec F S64x256 .f32) (v699 : BitVec 32), BitVec 32) → sProp 𝕄) :
    iprop(records m K ∗ levAts L lv ∗ St c ((4, 3) :: ls) ((1, 3) :: lr) sent ∗ sendPay m c 4 3
        ∗ (∀ r, (⌜r.1 = k0_pay13 (aRd1 m c 3)⌝
              ∗ St c ls lr ((4, 3) :: sent) ∗ recvPay m c 1 3 ∗ atPos ER (rCell c 1 3) 1 ∅ 0) -∗ Kt r))
      ⊢ WP c (atB k0_part24_skel c v2 v25) Kt := by
  unfold atB k0_part24_skel
  simp only [Prog.lift, Prog.bind_op, Prog.bind_ret, Prog.pure_eq_ret]
  iintro ⟨#HR, #Hlev, HSt, Hpay, Hk⟩
  iapply (st_send m K c _ 4 3 ls ((1, 3) :: lr) sent (dev25_eq c)) $$ HR HSt Hpay
  iintro HSt
  iapply (st_waitR m K c 1 3 ls lr ((4, 3) :: sent) hA) $$ HR Hlev HSt
  iintro ⟨HSt, Hrecv, Hat⟩
  iapply (load_a1 m c 3) $$ Hrecv; iintro Hrecv
  unfold WP; rw [wp_ret]; imodintro
  iapply Hk
  isplitr; · ipureintro; rfl
  iframe

theorem part25 (v14 : BitVec 32) (v695 : FVec F S64x256 .f32) (v699 v700 : BitVec 32) (ls lr sent : List JS)
    (hv : v695 = k0_pay13 (aRd1 m c 3)) (Kt : PUnit → sProp 𝕄) :
    iprop(records m K ∗ levAts L lv ∗ St c ((5, 3) :: ls) lr sent ∗ xLoad m c ∗ (∃ f, mPiece c 1 3 f)
        ∗ (∀ r, (St c ls lr ((5, 3) :: sent) ∗ xLoad m c) -∗ Kt r))
      ⊢ WP c (atB k0_part25_skel c v14 v695 v699 v700) Kt := by
  subst hv
  unfold atB k0_part25_skel
  simp only [Prog.lift, Prog.bind_op, Prog.bind_ret, Prog.pure_eq_ret]
  iintro ⟨#HR, #Hlev, HSt, Hx, ⟨%f, Hm⟩, Hk⟩
  iapply (load_x m c) $$ Hx; iintro Hx
  iapply (load_m c 1 3 f) $$ Hm; iintro Hm
  iapply (store_m1 m c 3 f) $$ Hm; iintro Hpay
  iapply (st_send m K c _ 5 3 ls lr sent (dev26_eq c)) $$ HR HSt Hpay
  iintro HSt
  unfold WP; rw [wp_ret]; imodintro
  iapply Hk
  iframe

end Cert.Kernel.AR

end
-- ==== Proof.ArKernel.Body3.lean ====
import proofs.«900109_g7700000000000110_dist_ar_v7x_i4_i_m1024_n512_f32_1_alg».proof.Proof.ArKernel.Flow
import proofs.«900109_g7700000000000110_dist_ar_v7x_i4_i_m1024_n512_f32_1_alg».proof.Proof.ArKernel.Geom

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cid → ℕ) (c : Dev nD)

theorem part26 (v25 : BitVec 32) (ls lr sent : List JS)
    (h1 : Above (4, 0) ls) (h2 : Above (2, 0) ls) (Kt : PUnit → sProp 𝕄) :
    iprop(records m K ∗ levAts L lv ∗ St c ls ((4, 0) :: (2, 0) :: lr) sent
        ∗ (∀ r, (St c ls lr sent ∗ recvPay m c 4 0 ∗ atPos ER (rCell c 4 0) 1 ∅ 0 ∗ recvPay m c 2 0 ∗ atPos ER (rCell c 2 0) 1 ∅ 0) -∗ Kt r))
      ⊢ WP c (atB k0_part26_skel v25) Kt := by
  unfold atB k0_part26_skel
  simp only [Prog.lift, Prog.bind_op, Prog.bind_ret, Prog.pure_eq_ret]
  iintro ⟨#HR, #Hlev, HSt, Hk⟩
  iapply (st_waitR m K c 4 0 ls ((2, 0) :: lr) sent h1) $$ HR Hlev HSt
  iintro ⟨HSt, Hp4, Ha4⟩
  iapply (st_waitR m K c 2 0 ls lr sent h2) $$ HR Hlev HSt
  iintro ⟨HSt, Hp2, Ha2⟩
  unfold WP; rw [wp_ret]; imodintro
  iapply Hk
  iframe

theorem part27 (v2 v25 : BitVec 32) (ls lr sent : List JS)
    (h1 : Above (3, 0) ls) (h2 : Above (5, 0) ls) (Kt : FVec F S64x256 .f32 → sProp 𝕄) :
    iprop(records m K ∗ levAts L lv ∗ St c ls ((3, 0) :: (5, 0) :: lr) sent ∗ xLoad m c
        ∗ (∀ r, (⌜r = k0_pay15 (xRd3 m c 0 0)⌝ ∗ St c ls lr sent
            ∗ recvPay m c 3 0 ∗ atPos ER (rCell c 3 0) 1 ∅ 0 ∗ recvPay m c 5 0 ∗ atPos ER (rCell c 5 0) 1 ∅ 0 ∗ xLoad m c) -∗ Kt r))
      ⊢ WP c (atB k0_part27_skel c v2 v25) Kt := by
  unfold atB k0_part27_skel
  simp only [Prog.lift, Prog.bind_op, Prog.bind_ret, Prog.pure_eq_ret]
  iintro ⟨#HR, #Hlev, HSt, Hx, Hk⟩
  iapply (st_waitR m K c 3 0 ls ((5, 0) :: lr) sent h1) $$ HR Hlev HSt
  iintro ⟨HSt, Hp3, Ha3⟩
  iapply (st_waitR m K c 5 0 ls lr sent h2) $$ HR Hlev HSt
  iintro ⟨HSt, Hp5, Ha5⟩
  unfold xLoad
  iapply (wp_load 𝒱₀ (c : Thread nD τ) none Set.univ (S := Finset.univ) (Finset.subset_univ _)) $$ Hx
  iintro Hx
  rw [wp_ret]; imodintro
  iapply Hk
  isplitr; · ipureintro; rfl
  iframe

theorem recvPay4_eq (c : Dev nD) (s : Fin 4) :
    recvPay m c 4 s = (rM.view.loc (c : Thread nD τ) ↦[(sl4 0 0 s).view.set]{fullShare} lnd4 m c s) := rfl
theorem recvPay3_eq (c : Dev nD) (s : Fin 4) :
    recvPay m c 3 s = (rM.view.loc (c : Thread nD τ) ↦[(sl4 1 0 s).view.set]{fullShare} lnd3 m c s) := rfl
theorem recvPay2_eq (c : Dev nD) (s : Fin 4) :
    recvPay m c 2 s = (rM.view.loc (c : Thread nD τ) ↦[(sl4 0 1 s).view.set]{fullShare} lnd2 m c s) := rfl
theorem recvPay5_eq (c : Dev nD) (s : Fin 4) :
    recvPay m c 5 s = (rM.view.loc (c : Thread nD τ) ↦[(sl4 1 1 s).view.set]{fullShare} lnd5 m c s) := rfl

theorem own_low_sub (c : Dev nD) (s : Fin 4) : (oM.access (rx3 c 0 s)).setOn Finset.univ ⊆ (pc5 oM c s).view.set :=
  own_rows_halves c s ▸ Finset.subset_union_left
theorem own_high_sub (c : Dev nD) (s : Fin 4) : (oM.access (rx4 c 0 s)).setOn Finset.univ ⊆ (pc5 oM c s).view.set :=
  own_rows_halves c s ▸ Finset.subset_union_right

def lowW (c : Dev nD) (s : Fin 4) (f : (cc0_stg1_0 : Ref sig .tc).ty.Contents (Elt F)) : (cc0_stg1_0 : Ref sig .tc).ty.Contents (Elt F) :=
  (oM.access (rx3 c 0 s)).write (Elt F) f
    (sumLo m c s) Finset.univ

theorem part28 (v2 : BitVec 32) (v775 : FVec F S64x256 .f32) (ls lr sent : List JS)
    (hv : v775 = k0_pay15 (xRd3 m c 0 0))
    (Kt : (Σ' (v801 : BitVec 32) (v802 : BitVec 32), BitVec 1) → sProp 𝕄) :
    iprop(records m K ∗ levAts L lv ∗ St c ls lr sent ∗ recvPay m c 4 0 ∗ recvPay m c 3 0 ∗ (∃ f, oRows c 0 f)
        ∗ (∀ r, (St c ls lr sent ∗ recvPay m c 4 0 ∗ recvPay m c 3 0 ∗ (∃ f, oRows c 0 (lowW m c 0 f))) -∗ Kt r))
      ⊢ WP c (atB k0_part28_skel c v2 v775) Kt := by
  unfold atB k0_part28_skel
  simp only [Prog.lift, Prog.bind_op, Prog.bind_ret, Prog.pure_eq_ret]
  subst hv
  rw [recvPay4_eq, recvPay3_eq]
  unfold oRows
  iintro ⟨#HR, #Hlev, HSt, Hp4, Hp3, ⟨%f, Ho⟩, Hk⟩
  iapply (wp_load 𝒱₀ (c : Thread nD τ) none Set.univ (sl4_set_eq_load 0 0 0).ge) $$ Hp4
  iintro Hp4
  iapply (wp_load 𝒱₀ (c : Thread nD τ) none Set.univ (sl4_set_eq_load 1 0 0).ge) $$ Hp3
  iintro Hp3
  iapply (wp_load 𝒱₀ (c : Thread nD τ) none Set.univ (own_load_low c 0)) $$ [Ho]
  · iexact Ho
  iintro Ho
  iapply (wp_store 𝒱₀ (c : Thread nD τ) none Set.univ (own_low_sub c 0)) $$ [Ho]
  · iexact Ho
  iintro Ho
  rw [wp_ret]; imodintro
  iapply Hk
  isplitl [HSt]; · iexact HSt
  isplitl [Hp4]; · iexact Hp4
  isplitl [Hp3]; · iexact Hp3
  iexists f
  iexact Ho

theorem sendPay6_eq (c : Dev nD) (s : Fin 4) :
    sendPay m c 6 s = ((pc5 oM c s).view.loc (c : Thread nD τ) ↦[(pc5 oM c s).view.set]{fullShare.left} oC m c s) := rfl
theorem sendPay7_eq (c : Dev nD) (s : Fin 4) :
    sendPay m c 7 s = ((pc5 oM c s).view.loc (c : Thread nD τ) ↦[(pc5 oM c s).view.set]{fullShare.right} oC m c s) := rfl

theorem own_rows_done (c : Dev nD) (s : Fin 4) (f : (cc0_stg1_0 : Ref sig .tc).ty.Contents (Elt F)) :
    oRows c s ((oM.access (rx4 c 0 s)).write (Elt F) (lowW m c s f)
        (sumHi m c s) Finset.univ)
      ⊢ iprop(sendPay m c 6 s ∗ sendPay m c 7 s) := by
  rw [sendPay6_eq, sendPay7_eq]
  unfold oRows
  refine BI.Entails.trans (Entails.of_eq (Region.is_congr fun i hi => ?_)) (Region.is_share (PosShare.mem_left_op_right fullShare)).1
  refine View.write_congr (fun _ _ _ => rfl) fun h4 => View.write_congr (fun _ _ _ => rfl) fun h3 => ?_
  have hu : i ∈ (oM.access (rx3 c 0 s)).setOn Finset.univ ∪ (oM.access (rx4 c 0 s)).setOn Finset.univ := by
    rw [own_rows_halves]; exact hi
  rcases Finset.mem_union.mp hu with h | h
  · exact absurd h h3
  · exact absurd h h4

theorem part29 (v2 v801 v802 : BitVec 32) (v807 : BitVec 1) (ls lr sent : List JS)
    (Kt : (Σ' (v838 : BitVec 32) (c4_i32_830 : BitVec 32) (v839 : BitVec 1), BitVec 32) → sProp 𝕄) :
    iprop(records m K ∗ levAts L lv ∗ St c ls lr sent ∗ xLoad m c ∗ recvPay m c 2 0 ∗ recvPay m c 5 0 ∗ (∃ f, oRows c 0 (lowW m c 0 f))
        ∗ (∀ r, (St c ls lr sent ∗ xLoad m c ∗ recvPay m c 2 0 ∗ recvPay m c 5 0 ∗ sendPay m c 6 0 ∗ sendPay m c 7 0) -∗ Kt r))
      ⊢ WP c (atB k0_part29_skel c v2 v801 v802 v807) Kt := by
  unfold atB k0_part29_skel
  simp only [Prog.lift, Prog.bind_op, Prog.bind_ret, Prog.pure_eq_ret]
  rw [recvPay2_eq, recvPay5_eq]
  unfold xLoad
  iintro ⟨#HR, #Hlev, HSt, Hx, Hp2, Hp5, ⟨%f, Ho⟩, Hk⟩
  iapply (wp_load 𝒱₀ (c : Thread nD τ) none Set.univ (S := Finset.univ) (Finset.subset_univ _)) $$ Hx
  iintro Hx
  iapply (wp_load 𝒱₀ (c : Thread nD τ) none Set.univ (sl4_set_eq_load 0 1 0).ge) $$ Hp2
  iintro Hp2
  iapply (wp_load 𝒱₀ (c : Thread nD τ) none Set.univ (sl4_set_eq_load 1 1 0).ge) $$ Hp5
  iintro Hp5
  unfold oRows
  iapply (wp_load 𝒱₀ (c : Thread nD τ) none Set.univ (own_load_high c 0)) $$ [Ho]
  · iexact Ho
  iintro Ho
  iapply (wp_store 𝒱₀ (c : Thread nD τ) none Set.univ (own_high_sub c 0)) $$ [Ho]
  · iexact Ho
  iintro Ho
  rw [wp_ret]; imodintro
  iapply Hk
  isplitl [HSt]; · iexact HSt
  isplitl [Hx]; · iexact Hx
  isplitl [Hp2]; · iexact Hp2
  isplitl [Hp5]; · iexact Hp5
  iapply (own_rows_done m c 0 f)
  unfold oRows
  iexact Ho

theorem part30 (v2 v25 v838 c4_i32_830 : BitVec 32) (v839 : BitVec 1) (c1_i32_832 : BitVec 32)
    (ls lr sent : List JS) (Kt : (Σ' (v873 : BitVec 32), BitVec 32) → sProp 𝕄) :
    iprop(records m K ∗ levAts L lv ∗ St c ((6, 0) :: ls) lr sent ∗ sendPay m c 6 0
        ∗ (∀ r, St c ls lr ((6, 0) :: sent) -∗ Kt r))
      ⊢ WP c (atB k0_part30_skel c v2 v25 v838 c4_i32_830 v839 c1_i32_832) Kt := by
  unfold atB k0_part30_skel
  simp only [Prog.lift, Prog.bind_op, Prog.bind_ret, Prog.pure_eq_ret]
  exact send_only m K c _ 6 0 ls lr sent (dev27_eq c) _ Kt

theorem part31 (v2 v14 v873 c4_i32_857 : BitVec 32) (ls lr sent : List JS) (Kt : PUnit → sProp 𝕄) :
    iprop(records m K ∗ levAts L lv ∗ St c ls lr sent ∗ (∀ r, St c ls lr sent -∗ Kt r))
      ⊢ WP c (atB k0_part31_skel c v2 v14 v873 c4_i32_857) Kt := by
  unfold atB k0_part31_skel
  simp only [Prog.pure_eq_ret]
  iintro ⟨#HR, #Hlev, HSt, Hk⟩
  unfold WP; rw [wp_ret]; imodintro
  iapply Hk
  iexact HSt

theorem part32 (v25 : BitVec 32) (ls lr sent : List JS)
    (h1 : Above (4, 1) ls) (h2 : Above (2, 1) ls) (Kt : PUnit → sProp 𝕄) :
    iprop(records m K ∗ levAts L lv ∗ St c ((7, 0) :: ls) ((4, 1) :: (2, 1) :: lr) sent ∗ sendPay m c 7 0
        ∗ (∀ r, (St c ls lr ((7, 0) :: sent) ∗ recvPay m c 4 1 ∗ atPos ER (rCell c 4 1) 1 ∅ 0 ∗ recvPay m c 2 1 ∗ atPos ER (rCell c 2 1) 1 ∅ 0) -∗ Kt r))
      ⊢ WP c (atB k0_part32_skel c v25) Kt := by
  unfold atB k0_part32_skel
  simp only [Prog.lift, Prog.bind_op, Prog.bind_ret, Prog.pure_eq_ret]
  iintro ⟨#HR, #Hlev, HSt, Hp, Hk⟩
  iapply (st_send m K c _ 7 0 ls ((4, 1) :: (2, 1) :: lr) sent (dev28_eq c)) $$ HR HSt Hp
  iintro HSt
  iapply (st_waitR m K c 4 1 ls ((2, 1) :: lr) ((7, 0) :: sent) h1) $$ HR Hlev HSt
  iintro ⟨HSt, Hp4, Ha4⟩
  iapply (st_waitR m K c 2 1 ls lr ((7, 0) :: sent) h2) $$ HR Hlev HSt
  iintro ⟨HSt, Hp2, Ha2⟩
  unfold WP; rw [wp_ret]; imodintro
  iapply Hk
  iframe

theorem part33 (v2 v25 : BitVec 32) (ls lr sent : List JS)
    (h1 : Above (3, 1) ls) (h2 : Above (5, 1) ls) (Kt : (Σ' (v944 : BitVec 32) (v945 : BitVec 32), BitVec 1) → sProp 𝕄) :
    iprop(records m K ∗ levAts L lv ∗ St c ls ((3, 1) :: (5, 1) :: lr) sent
        ∗ (∀ r, (St c ls lr sent ∗ recvPay m c 3 1 ∗ atPos ER (rCell c 3 1) 1 ∅ 0 ∗ recvPay m c 5 1 ∗ atPos ER (rCell c 5 1) 1 ∅ 0) -∗ Kt r))
      ⊢ WP c (atB k0_part33_skel v2 v25) Kt := by
  unfold atB k0_part33_skel
  simp only [Prog.lift, Prog.bind_op, Prog.bind_ret, Prog.pure_eq_ret]
  iintro ⟨#HR, #Hlev, HSt, Hk⟩
  iapply (st_waitR m K c 3 1 ls ((5, 1) :: lr) sent h1) $$ HR Hlev HSt
  iintro ⟨HSt, Hp3, Ha3⟩
  iapply (st_waitR m K c 5 1 ls lr sent h2) $$ HR Hlev HSt
  iintro ⟨HSt, Hp5, Ha5⟩
  unfold WP; rw [wp_ret]; imodintro
  iapply Hk
  iframe

theorem part34 (v2 v944 v945 : BitVec 32) (v950 : BitVec 1) (ls lr sent : List JS)
    (Kt : (Σ' (v981 : BitVec 32) (c4_i32_980 : BitVec 32) (v982 : BitVec 1), BitVec 32) → sProp 𝕄) :
    iprop(records m K ∗ levAts L lv ∗ St c ls lr sent ∗ xLoad m c ∗ recvPay m c 4 1 ∗ recvPay m c 3 1 ∗ (∃ f, oRows c 1 f)
        ∗ (∀ r, (St c ls lr sent ∗ xLoad m c ∗ recvPay m c 4 1 ∗ recvPay m c 3 1 ∗ (∃ f, oRows c 1 (lowW m c 1 f))) -∗ Kt r))
      ⊢ WP c (atB k0_part34_skel c v2 v944 v945 v950) Kt := by
  unfold atB k0_part34_skel
  simp only [Prog.lift, Prog.bind_op, Prog.bind_ret, Prog.pure_eq_ret]
  rw [recvPay4_eq, recvPay3_eq]
  unfold xLoad oRows
  iintro ⟨#HR, #Hlev, HSt, Hx, Hp4, Hp3, ⟨%f, Ho⟩, Hk⟩
  iapply (wp_load 𝒱₀ (c : Thread nD τ) none Set.univ (S := Finset.univ) (Finset.subset_univ _)) $$ Hx
  iintro Hx
  iapply (wp_load 𝒱₀ (c : Thread nD τ) none Set.univ (sl4_set_eq_load 0 0 1).ge) $$ Hp4
  iintro Hp4
  iapply (wp_load 𝒱₀ (c : Thread nD τ) none Set.univ (sl4_set_eq_load 1 0 1).ge) $$ Hp3
  iintro Hp3
  iapply (wp_load 𝒱₀ (c : Thread nD τ) none Set.univ (own_load_low c 1)) $$ [Ho]
  · iexact Ho
  iintro Ho
  iapply (wp_store 𝒱₀ (c : Thread nD τ) none Set.univ (own_low_sub c 1)) $$ [Ho]
  · iexact Ho
  iintro Ho
  rw [wp_ret]; imodintro
  iapply Hk
  isplitl [HSt]; · iexact HSt
  isplitl [Hx]; · iexact Hx
  isplitl [Hp4]; · iexact Hp4
  isplitl [Hp3]; · iexact Hp3
  iexists f
  iexact Ho

theorem part35 (v2 v981 c4_i32_980 : BitVec 32) (v982 : BitVec 1) (c1_i32_982 : BitVec 32)
    (ls lr sent : List JS) (Kt : FVec F S64x256 .f32 → sProp 𝕄) :
    iprop(records m K ∗ levAts L lv ∗ St c ls lr sent ∗ xLoad m c ∗ recvPay m c 2 1 ∗ recvPay m c 5 1
        ∗ (∀ r, (⌜r = sumHi m c 1⌝
            ∗ St c ls lr sent ∗ xLoad m c ∗ recvPay m c 2 1 ∗ recvPay m c 5 1) -∗ Kt r))
      ⊢ WP c (atB k0_part35_skel c v2 v981 c4_i32_980 v982 c1_i32_982) Kt := by
  unfold atB k0_part35_skel
  simp only [Prog.lift, Prog.bind_op, Prog.bind_ret, Prog.pure_eq_ret]
  rw [recvPay2_eq, recvPay5_eq]
  unfold xLoad
  iintro ⟨#HR, #Hlev, HSt, Hx, Hp2, Hp5, Hk⟩
  iapply (wp_load 𝒱₀ (c : Thread nD τ) none Set.univ (S := Finset.univ) (Finset.subset_univ _)) $$ Hx
  iintro Hx
  iapply (wp_load 𝒱₀ (c : Thread nD τ) none Set.univ (sl4_set_eq_load 0 1 1).ge) $$ Hp2
  iintro Hp2
  iapply (wp_load 𝒱₀ (c : Thread nD τ) none Set.univ (sl4_set_eq_load 1 1 1).ge) $$ Hp5
  iintro Hp5
  rw [wp_ret]; imodintro
  iapply Hk
  isplitr; · ipureintro; rfl
  iframe

theorem part36 (v2 v25 : BitVec 32) (v1002 : FVec F S64x256 .f32) (ls lr sent : List JS)
    (hv : v1002 = sumHi m c 1)
    (Kt : PUnit → sProp 𝕄) :
    iprop(records m K ∗ levAts L lv ∗ St c ls lr sent ∗ (∃ f, oRows c 1 (lowW m c 1 f))
        ∗ (∀ r, (St c ls lr sent ∗ sendPay m c 6 1 ∗ sendPay m c 7 1) -∗ Kt r))
      ⊢ WP c (atB k0_part36_skel c v2 v25 v1002) Kt := by
  unfold atB k0_part36_skel
  simp only [Prog.lift, Prog.bind_op, Prog.bind_ret, Prog.pure_eq_ret]
  subst hv
  unfold oRows
  iintro ⟨#HR, #Hlev, HSt, ⟨%f, Ho⟩, Hk⟩
  iapply (wp_load 𝒱₀ (c : Thread nD τ) none Set.univ (own_load_high c 1)) $$ [Ho]
  · iexact Ho
  iintro Ho
  iapply (wp_store 𝒱₀ (c : Thread nD τ) none Set.univ (own_high_sub c 1)) $$ [Ho]
  · iexact Ho
  iintro Ho
  rw [wp_ret]; imodintro
  iapply Hk
  isplitl [HSt]; · iexact HSt
  iapply (own_rows_done m c 1 f)
  unfold oRows
  iexact Ho

theorem part37 (v2 : BitVec 32) (ls lr sent : List JS) (Kt : BitVec 32 → sProp 𝕄) :
    iprop(records m K ∗ levAts L lv ∗ St c ((6, 1) :: ls) lr sent ∗ sendPay m c 6 1
        ∗ (∀ r, St c ls lr ((6, 1) :: sent) -∗ Kt r))
      ⊢ WP c (atB k0_part37_skel c v2) Kt := by
  unfold atB k0_part37_skel
  simp only [Prog.lift, Prog.bind_op, Prog.bind_ret, Prog.pure_eq_ret]
  exact send_only m K c _ 6 1 ls lr sent (dev29_eq c) _ Kt

theorem part38 (v14 v25 c1_i32_1060 : BitVec 32) (ls lr sent : List JS)
    (h1 : Above (4, 2) ls) (Kt : PUnit → sProp 𝕄) :
    iprop(records m K ∗ levAts L lv ∗ St c ((7, 1) :: ls) ((4, 2) :: lr) sent ∗ sendPay m c 7 1
        ∗ (∀ r, (St c ls lr ((7, 1) :: sent) ∗ recvPay m c 4 2 ∗ atPos ER (rCell c 4 2) 1 ∅ 0) -∗ Kt r))
      ⊢ WP c (atB k0_part38_skel c v14 v25 c1_i32_1060) Kt := by
  unfold atB k0_part38_skel
  simp only [Prog.lift, Prog.bind_op, Prog.bind_ret, Prog.pure_eq_ret]
  iintro ⟨#HR, #Hlev, HSt, Hp, Hk⟩
  iapply (st_send m K c _ 7 1 ls ((4, 2) :: lr) sent (dev30_eq c)) $$ HR HSt Hp
  iintro HSt
  iapply (st_waitR m K c 4 2 ls lr ((7, 1) :: sent) h1) $$ HR Hlev HSt
  iintro ⟨HSt, Hp4, Ha4⟩
  unfold WP; rw [wp_ret]; imodintro
  iapply Hk
  iframe

end Cert.Kernel.AR

end
-- ==== Proof.ArKernel.Body4.lean ====
import proofs.«900109_g7700000000000110_dist_ar_v7x_i4_i_m1024_n512_f32_1_alg».proof.Proof.ArKernel.Flow
import proofs.«900109_g7700000000000110_dist_ar_v7x_i4_i_m1024_n512_f32_1_alg».proof.Proof.ArKernel.Geom
import proofs.«900109_g7700000000000110_dist_ar_v7x_i4_i_m1024_n512_f32_1_alg».proof.Proof.ArKernel.Body3

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cid → ℕ) (c : Dev nD)

private theorem xLoad_eq (c : Dev nD) :
    xLoad m c = (xM.view.loc (c : Thread nD τ) ↦[Finset.univ]{fullShare.left} X m c : sProp 𝕄) := rfl

private theorem oRows_eq (c : Dev nD) (s : Fin 4) (g : Buf (Elt F) ((pc5 oM c s).view.loc (c : Thread nD τ))) :
    oRows c s g = (oM.view.loc (c : Thread nD τ) ↦[(pc5 oM c s).view.set]{fullShare} g : sProp 𝕄) := rfl
private theorem oRows_acc (c : Dev nD) (s : Fin 4) (r : Rect S1024x512) (g : Buf (Elt F) ((pc5 oM c s).view.loc (c : Thread nD τ))) :
    oRows c s g = ((oM.access r).loc (c : Thread nD τ) ↦[(pc5 oM c s).view.set]{fullShare} g : sProp 𝕄) := rfl

private theorem ld_out (c : Dev nD) (s : Fin 4) (r : LoadRect S1024x512) (hS : oM.view.setOn r.set ⊆ (pc5 oM c s).view.set)
    (g : Buf (Elt F) ((pc5 oM c s).view.loc (c : Thread nD τ))) {hl : oM.view.LoadsAt r}
    {α : Type} {Q : α → sProp 𝕄} {k : (r.shape.Idx → Elt F .f32) → Prog (TpuEff nD τ sig (Elt F) Λ₀ .tc) α} :
    oRows c s g ⊢ iprop((oRows c s g -∗ WP c (k (oM.view.readAt (Elt F) r g)) Q) -∗ WP c (.op (.load oM r hl) k) Q) := by
  rw [oRows_eq c s g]
  exact wp_load 𝒱₀ (c : Thread nD τ) none Set.univ (m := oM) (r := r) (S := (pc5 oM c s).view.set) (q := fullShare) (f := g) hS

private theorem st_out (c : Dev nD) (s : Fin 4) (r : Rect S1024x512) (hS : (oM.access r).setOn Finset.univ ⊆ (pc5 oM c s).view.set)
    (g : Buf (Elt F) ((pc5 oM c s).view.loc (c : Thread nD τ))) {w : r.shape.Idx → Elt F .f32} {hx : (oM.access r).Stores Finset.univ}
    {hm : (Finset.univ : Finset r.shape.Idx) = Finset.univ ∨ ∀ a, r.stride a = 1}
    {α : Type} {Q : α → sProp 𝕄} {k : PUnit → Prog (TpuEff nD τ sig (Elt F) Λ₀ .tc) α} :
    oRows c s g ⊢ iprop((oRows c s ((oM.access r).write (Elt F) g w Finset.univ) -∗ WP c (k ⟨⟩) Q)
        -∗ WP c (.op (.store oM r w Finset.univ hx hm) k) Q) := by
  rw [oRows_acc c s r g, oRows_acc c s r ((oM.access r).write (Elt F) g w Finset.univ)]
  exact wp_store 𝒱₀ (c : Thread nD τ) none Set.univ (m := oM) (r := r) (w := w) (S := (pc5 oM c s).view.set) (f := g) hS

theorem part39 (v2 v25 : BitVec 32) (ls lr sent : List JS)
    (h1 : Above (2, 2) ls) (h2 : Above (3, 2) ls) (h3 : Above (5, 2) ls)
    (Kt : (Σ' (v1124 : BitVec 32) (c4_i32_1130 : BitVec 32) (v1125 : BitVec 1), BitVec 32) → sProp 𝕄) :
    iprop(records m K ∗ levAts L lv ∗ St c ls ((2, 2) :: (3, 2) :: (5, 2) :: lr) sent
        ∗ (∀ r, (St c ls lr sent ∗ (recvPay m c 2 2 ∗ atPos ER (rCell c 2 2) 1 ∅ 0) ∗ (recvPay m c 3 2 ∗ atPos ER (rCell c 3 2) 1 ∅ 0)
            ∗ (recvPay m c 5 2 ∗ atPos ER (rCell c 5 2) 1 ∅ 0)) -∗ Kt r))
      ⊢ WP c (atB k0_part39_skel v2 v25) Kt := by
  unfold atB k0_part39_skel
  simp only [Prog.lift, Prog.bind_op, Prog.bind_ret, Prog.pure_eq_ret]
  iintro ⟨#HR, #Hlev, HSt, Hk⟩
  iapply (st_waitR m K c 2 2 ls ((3, 2) :: (5, 2) :: lr) sent h1) $$ HR Hlev HSt
  iintro ⟨HSt, Hp1, Ha1⟩
  iapply (st_waitR m K c 3 2 ls ((5, 2) :: lr) sent h2) $$ HR Hlev HSt
  iintro ⟨HSt, Hp2, Ha2⟩
  iapply (st_waitR m K c 5 2 ls lr sent h3) $$ HR Hlev HSt
  iintro ⟨HSt, Hp3, Ha3⟩
  unfold WP; rw [wp_ret]; imodintro
  iapply Hk
  iframe

theorem part40 (v2 v1124 c4_i32_1130 : BitVec 32) (v1125 : BitVec 1) (c1_i32_1132 : BitVec 32)
    (ls lr sent : List JS) (Kt : FVec F S64x256 .f32 → sProp 𝕄) :
    iprop(records m K ∗ levAts L lv ∗ St c ls lr sent ∗ xLoad m c ∗ recvPay m c 4 2 ∗ recvPay m c 3 2
        ∗ (∀ r, (⌜r = sumLo m c 2⌝
            ∗ St c ls lr sent ∗ xLoad m c ∗ recvPay m c 4 2 ∗ recvPay m c 3 2) -∗ Kt r))
      ⊢ WP c (atB k0_part40_skel c v2 v1124 c4_i32_1130 v1125 c1_i32_1132) Kt := by
  unfold atB k0_part40_skel
  simp only [Prog.lift, Prog.bind_op, Prog.bind_ret, Prog.pure_eq_ret]
  rw [xLoad_eq, recvPay4_eq, recvPay3_eq]
  iintro ⟨#HR, #Hlev, HSt, Hx, Hr4, Hr3, Hk⟩
  iapply (wp_load 𝒱₀ (c : Thread nD τ) none Set.univ (m := xM) (r := (rx3 c 0 2).toLoadRect) (S := Finset.univ) (q := fullShare.left)
    (f := X m c) (Finset.subset_univ _)) $$ Hx
  iintro Hx
  iapply (wp_load 𝒱₀ (c : Thread nD τ) none Set.univ (m := rM) (r := (r4 0 0 2).toLoadRect) (S := (sl4 0 0 2).view.set) (q := fullShare)
    (f := lnd4 m c 2) (sl4_set_eq_load 0 0 2).superset) $$ Hr4
  iintro Hr4
  iapply (wp_load 𝒱₀ (c : Thread nD τ) none Set.univ (m := rM) (r := (r4 1 0 2).toLoadRect) (S := (sl4 1 0 2).view.set) (q := fullShare)
    (f := lnd3 m c 2) (sl4_set_eq_load 1 0 2).superset) $$ Hr3
  iintro Hr3
  rw [wp_ret]; imodintro
  iapply Hk
  isplitr; · ipureintro; rfl
  iframe

theorem part41 (v2 : BitVec 32) (v1145 : FVec F S64x256 .f32) (ls lr sent : List JS)
    (hv : v1145 = sumLo m c 2)
    (Kt : (Σ' (v1184 : FVec F S64x256 .f32) (v1188 : BitVec 32) (v1189 : BitVec 32) (v1190 : BitVec 1) (v1191 : BitVec 1), BitVec 1) → sProp 𝕄) :
    iprop(records m K ∗ levAts L lv ∗ St c ls lr sent ∗ (∃ f, oRows c 2 f) ∗ xLoad m c ∗ recvPay m c 2 2 ∗ recvPay m c 5 2
        ∗ (∀ r, (⌜r.1 = sumHi m c 2⌝
            ∗ St c ls lr sent
            ∗ (∃ f, oRows c 2 ((oM.access (rx3 c 0 2)).write (Elt F) f
                (sumLo m c 2) Finset.univ))
            ∗ xLoad m c ∗ recvPay m c 2 2 ∗ recvPay m c 5 2) -∗ Kt r))
      ⊢ WP c (atB k0_part41_skel c v2 v1145) Kt := by
  subst hv
  unfold atB k0_part41_skel
  simp only [Prog.lift, Prog.bind_op, Prog.bind_ret, Prog.pure_eq_ret]
  rw [xLoad_eq, recvPay2_eq, recvPay5_eq]
  iintro ⟨#HR, #Hlev, HSt, ⟨%f, Ho⟩, Hx, Hr2, Hr5, Hk⟩
  iapply (ld_out c 2 (rx3 c 0 2).toLoadRect (own_load_low c 2) f) $$ [Ho]
  · iexact Ho
  iintro Ho
  iapply (st_out c 2 (rx3 c 0 2) (own_low_sub c 2) f) $$ [Ho]
  · iexact Ho
  iintro Ho
  iapply (wp_load 𝒱₀ (c : Thread nD τ) none Set.univ (m := xM) (r := (rx4 c 0 2).toLoadRect) (S := Finset.univ) (q := fullShare.left)
    (f := X m c) (Finset.subset_univ _)) $$ Hx
  iintro Hx
  iapply (wp_load 𝒱₀ (c : Thread nD τ) none Set.univ (m := rM) (r := (r4 0 1 2).toLoadRect) (S := (sl4 0 1 2).view.set) (q := fullShare)
    (f := lnd2 m c 2) (sl4_set_eq_load 0 1 2).superset) $$ Hr2
  iintro Hr2
  iapply (wp_load 𝒱₀ (c : Thread nD τ) none Set.univ (m := rM) (r := (r4 1 1 2).toLoadRect) (S := (sl4 1 1 2).view.set) (q := fullShare)
    (f := lnd5 m c 2) (sl4_set_eq_load 1 1 2).superset) $$ Hr5
  iintro Hr5
  rw [wp_ret]; imodintro
  iapply Hk
  isplitr; · ipureintro; rfl
  isplitl [HSt]; · iexact HSt
  isplitl [Ho]; · iexists f; iexact Ho
  isplitl [Hx]; · iexact Hx
  isplitl [Hr2]; · iexact Hr2
  iexact Hr5

theorem part42 (v2 : BitVec 32) (v1184 : FVec F S64x256 .f32) (v1188 v1189 : BitVec 32)
    (v1190 v1191 v1192 : BitVec 1) (ls lr sent : List JS)
    (hv : v1184 = sumHi m c 2)
    (Kt : PUnit → sProp 𝕄) :
    iprop(records m K ∗ levAts L lv ∗ St c ls lr sent
        ∗ (∃ f, oRows c 2 ((oM.access (rx3 c 0 2)).write (Elt F) f
            (sumLo m c 2) Finset.univ))
        ∗ (∀ r, (St c ls lr sent ∗ sendPay m c 6 2 ∗ sendPay m c 7 2) -∗ Kt r))
      ⊢ WP c (atB k0_part42_skel c v2 v1184 v1188 v1189 v1190 v1191 v1192) Kt := by
  subst hv
  unfold atB k0_part42_skel
  simp only [Prog.lift, Prog.bind_op, Prog.bind_ret, Prog.pure_eq_ret]
  iintro ⟨#HR, #Hlev, HSt, ⟨%f, Ho⟩, Hk⟩
  iapply (ld_out c 2 (rx4 c 0 2).toLoadRect (own_load_high c 2) _) $$ [Ho]
  · iexact Ho
  iintro Ho
  iapply (st_out c 2 (rx4 c 0 2) (own_high_sub c 2) _) $$ [Ho]
  · iexact Ho
  iintro Ho
  unfold WP; rw [wp_ret]; imodintro
  iapply Hk
  isplitl [HSt]; · iexact HSt
  iapply (own_rows_done m c 2 f); unfold lowW; iexact Ho

theorem part43 (v2 v25 : BitVec 32) (ls lr sent : List JS)
    (Kt : (Σ' (v1255 : BitVec 32) (v1260 : BitVec 1), BitVec 32) → sProp 𝕄) :
    iprop(records m K ∗ levAts L lv ∗ St c ((6, 2) :: ls) lr sent ∗ sendPay m c 6 2
        ∗ (∀ r, St c ls lr ((6, 2) :: sent) -∗ Kt r))
      ⊢ WP c (atB k0_part43_skel c v2 v25) Kt := by
  unfold atB k0_part43_skel
  simp only [Prog.lift, Prog.bind_op, Prog.bind_ret, Prog.pure_eq_ret]
  exact send_only m K c _ 6 2 ls lr sent (dev31_eq c) _ Kt

theorem part44 (v14 v25 v1255 : BitVec 32) (v1260 : BitVec 1) (v1261 : BitVec 32) (ls lr sent : List JS)
    (h1 : Above (4, 3) ls)
    (Kt : (Σ' (v1281 : BitVec 32), BitVec 32) → sProp 𝕄) :
    iprop(records m K ∗ levAts L lv ∗ St c ((7, 2) :: ls) ((4, 3) :: lr) sent ∗ sendPay m c 7 2
        ∗ (∀ r, (St c ls lr ((7, 2) :: sent) ∗ (recvPay m c 4 3 ∗ atPos ER (rCell c 4 3) 1 ∅ 0)) -∗ Kt r))
      ⊢ WP c (atB k0_part44_skel c v14 v25 v1255 v1260 v1261) Kt := by
  unfold atB k0_part44_skel
  simp only [Prog.lift, Prog.bind_op, Prog.bind_ret, Prog.pure_eq_ret]
  iintro ⟨#HR, #Hlev, HSt, Hp, Hk⟩
  iapply (st_send m K c _ 7 2 ls ((4, 3) :: lr) sent (dev32_eq c)) $$ HR HSt Hp
  iintro HSt
  iapply (st_waitR m K c 4 3 ls lr ((7, 2) :: sent) h1) $$ HR Hlev HSt
  iintro ⟨HSt, Hp1, Ha1⟩
  unfold WP; rw [wp_ret]; imodintro
  iapply Hk
  iframe

theorem part45 (v25 v1281 c0_i32_1271 : BitVec 32) (ls lr sent : List JS)
    (h1 : Above (2, 3) ls) (h2 : Above (3, 3) ls)
    (Kt : PUnit → sProp 𝕄) :
    iprop(records m K ∗ levAts L lv ∗ St c ls ((2, 3) :: (3, 3) :: lr) sent
        ∗ (∀ r, (St c ls lr sent ∗ (recvPay m c 2 3 ∗ atPos ER (rCell c 2 3) 1 ∅ 0) ∗ (recvPay m c 3 3 ∗ atPos ER (rCell c 3 3) 1 ∅ 0)) -∗ Kt r))
      ⊢ WP c (atB k0_part45_skel v25 v1281 c0_i32_1271) Kt := by
  unfold atB k0_part45_skel
  simp only [Prog.lift, Prog.bind_op, Prog.bind_ret, Prog.pure_eq_ret]
  iintro ⟨#HR, #Hlev, HSt, Hk⟩
  iapply (st_waitR m K c 2 3 ls ((3, 3) :: lr) sent h1) $$ HR Hlev HSt
  iintro ⟨HSt, Hp1, Ha1⟩
  iapply (st_waitR m K c 3 3 ls lr sent h2) $$ HR Hlev HSt
  iintro ⟨HSt, Hp2, Ha2⟩
  unfold WP; rw [wp_ret]; imodintro
  iapply Hk
  iframe

theorem part46 (v2 : BitVec 32) (ls lr sent : List JS)
    (h1 : Above (5, 3) ls)
    (Kt : (Σ' (v1327 : FVec F S64x256 .f32) (v1331 : BitVec 32) (v1332 : BitVec 32) (v1333 : BitVec 1) (v1334 : BitVec 1), BitVec 1) → sProp 𝕄) :
    iprop(records m K ∗ levAts L lv ∗ St c ls ((5, 3) :: lr) sent ∗ xLoad m c ∗ recvPay m c 4 3 ∗ recvPay m c 3 3
        ∗ (∀ r, (⌜r.1 = sumLo m c 3⌝
            ∗ St c ls lr sent ∗ (recvPay m c 5 3 ∗ atPos ER (rCell c 5 3) 1 ∅ 0) ∗ xLoad m c ∗ recvPay m c 4 3 ∗ recvPay m c 3 3) -∗ Kt r))
      ⊢ WP c (atB k0_part46_skel c v2) Kt := by
  unfold atB k0_part46_skel
  simp only [Prog.lift, Prog.bind_op, Prog.bind_ret, Prog.pure_eq_ret]
  rw [xLoad_eq, recvPay4_eq, recvPay3_eq]
  iintro ⟨#HR, #Hlev, HSt, Hx, Hr4, Hr3, Hk⟩
  iapply (st_waitR m K c 5 3 ls lr sent h1) $$ HR Hlev HSt
  iintro ⟨HSt, Hp1, Ha1⟩
  iapply (wp_load 𝒱₀ (c : Thread nD τ) none Set.univ (m := xM) (r := (rx3 c 0 3).toLoadRect) (S := Finset.univ) (q := fullShare.left)
    (f := X m c) (Finset.subset_univ _)) $$ Hx
  iintro Hx
  iapply (wp_load 𝒱₀ (c : Thread nD τ) none Set.univ (m := rM) (r := (r4 0 0 3).toLoadRect) (S := (sl4 0 0 3).view.set) (q := fullShare)
    (f := lnd4 m c 3) (sl4_set_eq_load 0 0 3).superset) $$ Hr4
  iintro Hr4
  iapply (wp_load 𝒱₀ (c : Thread nD τ) none Set.univ (m := rM) (r := (r4 1 0 3).toLoadRect) (S := (sl4 1 0 3).view.set) (q := fullShare)
    (f := lnd3 m c 3) (sl4_set_eq_load 1 0 3).superset) $$ Hr3
  iintro Hr3
  rw [wp_ret]; imodintro
  iapply Hk
  isplitr; · ipureintro; rfl
  iframe

theorem part47 (v2 : BitVec 32) (v1327 : FVec F S64x256 .f32) (v1331 v1332 : BitVec 32)
    (v1333 v1334 v1335 : BitVec 1) (ls lr sent : List JS)
    (hv : v1327 = sumLo m c 3)
    (Kt : (Σ' (v1366 : FVec F S64x256 .f32) (v1368 : BitVec 32) (c4_i32_1359 : BitVec 32), BitVec 32) → sProp 𝕄) :
    iprop(records m K ∗ levAts L lv ∗ St c ls lr sent ∗ (∃ f, oRows c 3 f) ∗ xLoad m c ∗ recvPay m c 2 3 ∗ recvPay m c 5 3
        ∗ (∀ r, (⌜r.1 = sumHi m c 3⌝
            ∗ St c ls lr sent
            ∗ (∃ f, oRows c 3 ((oM.access (rx3 c 0 3)).write (Elt F) f
                (sumLo m c 3) Finset.univ))
            ∗ xLoad m c ∗ recvPay m c 2 3 ∗ recvPay m c 5 3) -∗ Kt r))
      ⊢ WP c (atB k0_part47_skel c v2 v1327 v1331 v1332 v1333 v1334 v1335) Kt := by
  subst hv
  unfold atB k0_part47_skel
  simp only [Prog.lift, Prog.bind_op, Prog.bind_ret, Prog.pure_eq_ret]
  rw [xLoad_eq, recvPay2_eq, recvPay5_eq]
  iintro ⟨#HR, #Hlev, HSt, ⟨%f, Ho⟩, Hx, Hr2, Hr5, Hk⟩
  iapply (ld_out c 3 (rx3 c 0 3).toLoadRect (own_load_low c 3) f) $$ [Ho]
  · iexact Ho
  iintro Ho
  iapply (st_out c 3 (rx3 c 0 3) (own_low_sub c 3) f) $$ [Ho]
  · iexact Ho
  iintro Ho
  iapply (wp_load 𝒱₀ (c : Thread nD τ) none Set.univ (m := xM) (r := (rx4 c 0 3).toLoadRect) (S := Finset.univ) (q := fullShare.left)
    (f := X m c) (Finset.subset_univ _)) $$ Hx
  iintro Hx
  iapply (wp_load 𝒱₀ (c : Thread nD τ) none Set.univ (m := rM) (r := (r4 0 1 3).toLoadRect) (S := (sl4 0 1 3).view.set) (q := fullShare)
    (f := lnd2 m c 3) (sl4_set_eq_load 0 1 3).superset) $$ Hr2
  iintro Hr2
  iapply (wp_load 𝒱₀ (c : Thread nD τ) none Set.univ (m := rM) (r := (r4 1 1 3).toLoadRect) (S := (sl4 1 1 3).view.set) (q := fullShare)
    (f := lnd5 m c 3) (sl4_set_eq_load 1 1 3).superset) $$ Hr5
  iintro Hr5
  rw [wp_ret]; imodintro
  iapply Hk
  isplitr; · ipureintro; rfl
  isplitl [HSt]; · iexact HSt
  isplitl [Ho]; · iexists f; iexact Ho
  isplitl [Hx]; · iexact Hx
  isplitl [Hr2]; · iexact Hr2
  iexact Hr5

theorem part48 (v2 : BitVec 32) (v1366 : FVec F S64x256 .f32) (v1368 c4_i32_1359 c0_i32_1360 : BitVec 32)
    (ls lr sent : List JS)
    (hv : v1366 = sumHi m c 3)
    (Kt : (Σ' (v1400 : BitVec 32) (v1401 : BitVec 32) (v1402 : BitVec 1), BitVec 1) → sProp 𝕄) :
    iprop(records m K ∗ levAts L lv ∗ St c ls lr sent
        ∗ (∃ f, oRows c 3 ((oM.access (rx3 c 0 3)).write (Elt F) f
            (sumLo m c 3) Finset.univ))
        ∗ (∀ r, (St c ls lr sent ∗ sendPay m c 6 3 ∗ sendPay m c 7 3) -∗ Kt r))
      ⊢ WP c (atB k0_part48_skel c v2 v1366 v1368 c4_i32_1359 c0_i32_1360) Kt := by
  subst hv
  unfold atB k0_part48_skel
  simp only [Prog.lift, Prog.bind_op, Prog.bind_ret, Prog.pure_eq_ret]
  iintro ⟨#HR, #Hlev, HSt, ⟨%f, Ho⟩, Hk⟩
  iapply (ld_out c 3 (rx4 c 0 3).toLoadRect (own_load_high c 3) _) $$ [Ho]
  · iexact Ho
  iintro Ho
  iapply (st_out c 3 (rx4 c 0 3) (own_high_sub c 3) _) $$ [Ho]
  · iexact Ho
  iintro Ho
  unfold WP; rw [wp_ret]; imodintro
  iapply Hk
  isplitl [HSt]; · iexact HSt
  iapply (own_rows_done m c 3 f); unfold lowW; iexact Ho

theorem part49 (v2 v25 v1400 v1401 : BitVec 32) (v1402 v1403 : BitVec 1) (ls lr sent : List JS)
    (Kt : (Σ' (v1434 : BitVec 32), BitVec 32) → sProp 𝕄) :
    iprop(records m K ∗ levAts L lv ∗ St c ((6, 3) :: ls) lr sent ∗ sendPay m c 6 3
        ∗ (∀ r, St c ls lr ((6, 3) :: sent) -∗ Kt r))
      ⊢ WP c (atB k0_part49_skel c v2 v25 v1400 v1401 v1402 v1403) Kt := by
  unfold atB k0_part49_skel
  simp only [Prog.lift, Prog.bind_op, Prog.bind_ret, Prog.pure_eq_ret]
  exact send_only m K c _ 6 3 ls lr sent (dev33_eq c) _ Kt

theorem part50 (v2 v14 v25 v1434 v1436 : BitVec 32) (ls lr sent : List JS)
    (h1 : Above (6, 0) ls)
    (Kt : (Σ' (v1464 : BitVec 32) (v1465 : BitVec 32), BitVec 32) → sProp 𝕄) :
    iprop(records m K ∗ levAts L lv ∗ St c ((7, 3) :: ls) ((6, 0) :: lr) sent ∗ sendPay m c 7 3
        ∗ (∀ r, (St c ls lr ((7, 3) :: sent) ∗ (recvPay m c 6 0 ∗ atPos ER (rCell c 6 0) 1 ∅ 0)) -∗ Kt r))
      ⊢ WP c (atB k0_part50_skel c v2 v14 v25 v1434 v1436) Kt := by
  unfold atB k0_part50_skel
  simp only [Prog.lift, Prog.bind_op, Prog.bind_ret, Prog.pure_eq_ret]
  iintro ⟨#HR, #Hlev, HSt, Hp, Hk⟩
  iapply (st_send m K c _ 7 3 ls ((6, 0) :: lr) sent (dev34_eq c)) $$ HR HSt Hp
  iintro HSt
  iapply (st_waitR m K c 6 0 ls lr ((7, 3) :: sent) h1) $$ HR Hlev HSt
  iintro ⟨HSt, Hp1, Ha1⟩
  unfold WP; rw [wp_ret]; imodintro
  iapply Hk
  iframe

end Cert.Kernel.AR

end
-- ==== Proof.ArKernel.Body5.lean ====
import proofs.«900109_g7700000000000110_dist_ar_v7x_i4_i_m1024_n512_f32_1_alg».proof.Proof.ArKernel.Flow
import proofs.«900109_g7700000000000110_dist_ar_v7x_i4_i_m1024_n512_f32_1_alg».proof.Proof.ArKernel.Geom

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cid → ℕ) (c : Dev nD)

def keepL (c : Dev nD) (s : Fin 4) : sProp 𝕄 :=
  ((pc5 oM (prv c) s).view.loc (c : Thread nD τ) ↦[(pc5 oM (prv c) s).view.set \ (pc1m oM c s).view.set]{fullShare} lnd6 m c s)
def keepR (c : Dev nD) (s : Fin 4) : sProp 𝕄 :=
  ((pc5 oM (nxt c) s).view.loc (c : Thread nD τ) ↦[(pc5 oM (nxt c) s).view.set \ (pc2o oM c s).view.set]{fullShare} lnd7 m c s)

omit [FloatOps F] in
private theorem split_slices (c : Dev nD) (b : Memref sig .tc .vmem S1024x512 .f32) (r1 r2 : Rect S1024x512)
    (h : (b.view.slice r1).set ⊆ (b.view.slice r2).set) (f : Buf (Elt F) (b.view.loc (c : Thread nD τ))) :
    ((b.view.slice r2).loc (c : Thread nD τ) ↦[(b.view.slice r2).set]{fullShare} f : sProp 𝕄)
      ⊢ iprop(((b.view.slice r1).loc (c : Thread nD τ) ↦[(b.view.slice r1).set]{fullShare} f)
          ∗ ((b.view.slice r2).loc (c : Thread nD τ) ↦[(b.view.slice r2).set \ (b.view.slice r1).set]{fullShare} f)) :=
  BIBase.BiEntails.mp (BI.Region.is_split_subset h)

private theorem recvPay6 (c : Dev nD) (s : Fin 4) :
    recvPay m c 6 s = ((pc5 oM (prv c) s).view.loc (c : Thread nD τ) ↦[(pc5 oM (prv c) s).view.set]{fullShare} lnd6 m c s) := rfl
private theorem recvPay7 (c : Dev nD) (s : Fin 4) :
    recvPay m c 7 s = ((pc5 oM (nxt c) s).view.loc (c : Thread nD τ) ↦[(pc5 oM (nxt c) s).view.set]{fullShare} lnd7 m c s) := rfl
private theorem sendPay8 (c : Dev nD) (s : Fin 4) :
    sendPay m c 8 s = ((pc1m oM c s).view.loc (c : Thread nD τ) ↦[(pc1m oM c s).view.set]{fullShare} lnd6 m c s) := rfl
private theorem sendPay9 (c : Dev nD) (s : Fin 4) :
    sendPay m c 9 s = ((pc2o oM c s).view.loc (c : Thread nD τ) ↦[(pc2o oM c s).view.set]{fullShare} lnd7 m c s) := rfl

theorem fwd_low_split (c : Dev nD) (s : Fin 4) : recvPay m c 6 s ⊢ iprop(sendPay m c 8 s ∗ keepL m c s) := by
  rw [recvPay6, sendPay8]; unfold keepL
  exact split_slices c oM (Rect.unit (s := S1024x512) (k0_off1 c 4294967295#32 (w64 s)) S64x256.size (Gen.k0_off1_inb c 1 s))
    (Rect.unit (s := S1024x512) (k0_off5 (prv c) (w64 s)) S64x512.size (Gen.k0_off5_inb (prv c) s)) (fwd_low_subset c s) (lnd6 m c s)
theorem fwd_high_split (c : Dev nD) (s : Fin 4) : recvPay m c 7 s ⊢ iprop(sendPay m c 9 s ∗ keepR m c s) := by
  rw [recvPay7, sendPay9]; unfold keepR
  exact split_slices c oM (Rect.unit (s := S1024x512) (k0_off2 c 1#32 (w64 s)) S64x256.size (Gen.k0_off2_inb c 0 s))
    (Rect.unit (s := S1024x512) (k0_off5 (nxt c) (w64 s)) S64x512.size (Gen.k0_off5_inb (nxt c) s)) (fwd_high_subset c s) (lnd7 m c s)

theorem part51 (v2 v25 v1464 v1465 c0_i32_1439 : BitVec 32) (ls lr sent : List JS)
    (Kt : BitVec 32 → sProp 𝕄) :
    iprop(records m K ∗ levAts L lv ∗ St c ((8, 0) :: ls) lr sent ∗ recvPay m c 6 0
        ∗ (∀ r, (St c ls lr ((8, 0) :: sent) ∗ keepL m c 0) -∗ Kt r))
      ⊢ WP c (atB k0_part51_skel c v2 v25 v1464 v1465 c0_i32_1439) Kt := by
  unfold atB k0_part51_skel
  simp only [Prog.lift, Prog.bind_op, Prog.bind_ret, Prog.pure_eq_ret]
  iintro ⟨#HR, #Hlev, HSt, Hrecv, Hk⟩
  icases (fwd_low_split m c 0) $$ Hrecv with ⟨Hpay, Hkeep⟩
  iapply (st_send m K c _ 8 0 ls lr sent (dev35_eq c)) $$ HR HSt Hpay
  iintro HSt
  unfold WP; rw [wp_ret]; imodintro
  iapply Hk
  iframe

theorem part52 (v2 v1497 : BitVec 32) (ls lr sent : List JS)
    (h : Above (7, 0) ls) (Kt : PUnit → sProp 𝕄) :
    iprop(records m K ∗ levAts L lv ∗ St c ls ((7, 0) :: lr) sent
        ∗ (∀ r, (St c ls lr sent ∗ recvPay m c 7 0 ∗ rAt c 7 0 1) -∗ Kt r))
      ⊢ WP c (atB k0_part52_skel v2 v1497) Kt := by
  unfold atB k0_part52_skel
  simp only [Prog.lift, Prog.bind_op, Prog.bind_ret, Prog.pure_eq_ret]
  iintro ⟨#HR, #Hlev, HSt, Hk⟩
  iapply (st_waitR m K c 7 0 ls lr sent h) $$ HR Hlev HSt
  iintro ⟨HSt, Hrcv, Hat⟩
  unfold WP; rw [wp_ret]; imodintro
  iapply Hk
  iframe

theorem part53 (v2 v14 v25 : BitVec 32) (ls lr sent : List JS)
    (h : Above (6, 1) ls) (Kt : (Σ' (v1559 : BitVec 32), BitVec 32) → sProp 𝕄) :
    iprop(records m K ∗ levAts L lv ∗ St c ((9, 0) :: ls) ((6, 1) :: lr) sent ∗ recvPay m c 7 0
        ∗ (∀ r, (St c ls lr ((9, 0) :: sent) ∗ keepR m c 0 ∗ recvPay m c 6 1 ∗ rAt c 6 1 1) -∗ Kt r))
      ⊢ WP c (atB k0_part53_skel c v2 v14 v25) Kt := by
  unfold atB k0_part53_skel
  simp only [Prog.lift, Prog.bind_op, Prog.bind_ret, Prog.pure_eq_ret]
  iintro ⟨#HR, #Hlev, HSt, Hrecv, Hk⟩
  icases (fwd_high_split m c 0) $$ Hrecv with ⟨Hpay, Hkeep⟩
  iapply (st_send m K c _ 9 0 ls ((6, 1) :: lr) sent (dev36_eq c)) $$ HR HSt Hpay
  iintro HSt
  iapply (st_waitR m K c 6 1 ls lr ((9, 0) :: sent) h) $$ HR Hlev HSt
  iintro ⟨HSt, Hrcv, Hat⟩
  unfold WP; rw [wp_ret]; imodintro
  iapply Hk
  iframe

theorem part54 (v2 v25 v1559 c4_i32_1521 : BitVec 32) (ls lr sent : List JS)
    (h : Above (7, 1) ls) (Kt : (Σ' (v1588 : BitVec 32), BitVec 32) → sProp 𝕄) :
    iprop(records m K ∗ levAts L lv ∗ St c ((8, 1) :: ls) ((7, 1) :: lr) sent ∗ recvPay m c 6 1
        ∗ (∀ r, (St c ls lr ((8, 1) :: sent) ∗ keepL m c 1 ∗ recvPay m c 7 1 ∗ rAt c 7 1 1) -∗ Kt r))
      ⊢ WP c (atB k0_part54_skel c v2 v25 v1559 c4_i32_1521) Kt := by
  unfold atB k0_part54_skel
  simp only [Prog.lift, Prog.bind_op, Prog.bind_ret, Prog.pure_eq_ret]
  iintro ⟨#HR, #Hlev, HSt, Hrecv, Hk⟩
  icases (fwd_low_split m c 1) $$ Hrecv with ⟨Hpay, Hkeep⟩
  iapply (st_send m K c _ 8 1 ls ((7, 1) :: lr) sent (dev37_eq c)) $$ HR HSt Hpay
  iintro HSt
  iapply (st_waitR m K c 7 1 ls lr ((8, 1) :: sent) h) $$ HR Hlev HSt
  iintro ⟨HSt, Hrcv, Hat⟩
  unfold WP; rw [wp_ret]; imodintro
  iapply Hk
  iframe

theorem part55 (v2 v14 v1588 c4_i32_1550 : BitVec 32) (ls lr sent : List JS)
    (Kt : PUnit → sProp 𝕄) :
    iprop(records m K ∗ levAts L lv ∗ St c ((9, 1) :: ls) lr sent ∗ recvPay m c 7 1
        ∗ (∀ r, (St c ls lr ((9, 1) :: sent) ∗ keepR m c 1) -∗ Kt r))
      ⊢ WP c (atB k0_part55_skel c v2 v14 v1588 c4_i32_1550) Kt := by
  unfold atB k0_part55_skel
  simp only [Prog.lift, Prog.bind_op, Prog.bind_ret, Prog.pure_eq_ret]
  iintro ⟨#HR, #Hlev, HSt, Hrecv, Hk⟩
  icases (fwd_high_split m c 1) $$ Hrecv with ⟨Hpay, Hkeep⟩
  iapply (st_send m K c _ 9 1 ls lr sent (dev38_eq c)) $$ HR HSt Hpay
  iintro HSt
  unfold WP; rw [wp_ret]; imodintro
  iapply Hk
  iframe

theorem part56 (v2 v25 : BitVec 32) (ls lr sent : List JS)
    (h : Above (6, 2) ls) (Kt : (Σ' (v1647 : BitVec 32) (v1652 : BitVec 1), BitVec 32) → sProp 𝕄) :
    iprop(records m K ∗ levAts L lv ∗ St c ls ((6, 2) :: lr) sent
        ∗ (∀ r, (St c ls lr sent ∗ recvPay m c 6 2 ∗ rAt c 6 2 1) -∗ Kt r))
      ⊢ WP c (atB k0_part56_skel v2 v25) Kt := by
  unfold atB k0_part56_skel
  simp only [Prog.lift, Prog.bind_op, Prog.bind_ret, Prog.pure_eq_ret]
  iintro ⟨#HR, #Hlev, HSt, Hk⟩
  iapply (st_waitR m K c 6 2 ls lr sent h) $$ HR Hlev HSt
  iintro ⟨HSt, Hrcv, Hat⟩
  unfold WP; rw [wp_ret]; imodintro
  iapply Hk
  iframe

theorem part57 (v2 v25 v1647 : BitVec 32) (v1652 : BitVec 1) (v1653 : BitVec 32)
    (ls lr sent : List JS) (h : Above (7, 2) ls) (Kt : (Σ' (v1682 : BitVec 32), BitVec 32) → sProp 𝕄) :
    iprop(records m K ∗ levAts L lv ∗ St c ((8, 2) :: ls) ((7, 2) :: lr) sent ∗ recvPay m c 6 2
        ∗ (∀ r, (St c ls lr ((8, 2) :: sent) ∗ keepL m c 2 ∗ recvPay m c 7 2 ∗ rAt c 7 2 1) -∗ Kt r))
      ⊢ WP c (atB k0_part57_skel c v2 v25 v1647 v1652 v1653) Kt := by
  unfold atB k0_part57_skel
  simp only [Prog.lift, Prog.bind_op, Prog.bind_ret, Prog.pure_eq_ret]
  iintro ⟨#HR, #Hlev, HSt, Hrecv, Hk⟩
  icases (fwd_low_split m c 2) $$ Hrecv with ⟨Hpay, Hkeep⟩
  iapply (st_send m K c _ 8 2 ls ((7, 2) :: lr) sent (dev39_eq c)) $$ HR HSt Hpay
  iintro HSt
  iapply (st_waitR m K c 7 2 ls lr ((8, 2) :: sent) h) $$ HR Hlev HSt
  iintro ⟨HSt, Hrcv, Hat⟩
  unfold WP; rw [wp_ret]; imodintro
  iapply Hk
  iframe

theorem part58 (v2 v14 v25 v1682 c256_i32_1632 : BitVec 32) (ls lr sent : List JS)
    (Kt : PUnit → sProp 𝕄) :
    iprop(records m K ∗ levAts L lv ∗ St c ((9, 2) :: ls) lr sent ∗ recvPay m c 7 2
        ∗ (∀ r, (St c ls lr ((9, 2) :: sent) ∗ keepR m c 2) -∗ Kt r))
      ⊢ WP c (atB k0_part58_skel c v2 v14 v25 v1682 c256_i32_1632) Kt := by
  unfold atB k0_part58_skel
  simp only [Prog.lift, Prog.bind_op, Prog.bind_ret, Prog.pure_eq_ret]
  iintro ⟨#HR, #Hlev, HSt, Hrecv, Hk⟩
  icases (fwd_high_split m c 2) $$ Hrecv with ⟨Hpay, Hkeep⟩
  iapply (st_send m K c _ 9 2 ls lr sent (dev40_eq c)) $$ HR HSt Hpay
  iintro HSt
  unfold WP; rw [wp_ret]; imodintro
  iapply Hk
  iframe

theorem part59 (v2 v25 : BitVec 32) (ls lr sent : List JS)
    (h : Above (6, 3) ls) (Kt : PUnit → sProp 𝕄) :
    iprop(records m K ∗ levAts L lv ∗ St c ls ((6, 3) :: lr) sent
        ∗ (∀ r, (St c ls lr sent ∗ recvPay m c 6 3 ∗ rAt c 6 3 1) -∗ Kt r))
      ⊢ WP c (atB k0_part59_skel v2 v25) Kt := by
  unfold atB k0_part59_skel
  simp only [Prog.lift, Prog.bind_op, Prog.bind_ret, Prog.pure_eq_ret]
  iintro ⟨#HR, #Hlev, HSt, Hk⟩
  iapply (st_waitR m K c 6 3 ls lr sent h) $$ HR Hlev HSt
  iintro ⟨HSt, Hrcv, Hat⟩
  unfold WP; rw [wp_ret]; imodintro
  iapply Hk
  iframe

theorem part60 (v2 v25 : BitVec 32) (ls lr sent : List JS)
    (h : Above (7, 3) ls) (Kt : (Σ' (v1772 : BitVec 32) (v1773 : BitVec 32) (v1774 : BitVec 1), BitVec 32) → sProp 𝕄) :
    iprop(records m K ∗ levAts L lv ∗ St c ((8, 3) :: ls) ((7, 3) :: lr) sent ∗ recvPay m c 6 3
        ∗ (∀ r, (St c ls lr ((8, 3) :: sent) ∗ keepL m c 3 ∗ recvPay m c 7 3 ∗ rAt c 7 3 1) -∗ Kt r))
      ⊢ WP c (atB k0_part60_skel c v2 v25) Kt := by
  unfold atB k0_part60_skel
  simp only [Prog.lift, Prog.bind_op, Prog.bind_ret, Prog.pure_eq_ret]
  iintro ⟨#HR, #Hlev, HSt, Hrecv, Hk⟩
  icases (fwd_low_split m c 3) $$ Hrecv with ⟨Hpay, Hkeep⟩
  iapply (st_send m K c _ 8 3 ls ((7, 3) :: lr) sent (dev41_eq c)) $$ HR HSt Hpay
  iintro HSt
  iapply (st_waitR m K c 7 3 ls lr ((8, 3) :: sent) h) $$ HR Hlev HSt
  iintro ⟨HSt, Hrcv, Hat⟩
  unfold WP; rw [wp_ret]; imodintro
  iapply Hk
  iframe

theorem part61 (v14 v25 v1772 v1773 : BitVec 32) (v1774 : BitVec 1) (c0_i32_1716 : BitVec 32)
    (ls lr sent : List JS) (h : Above (8, 0) ls) (Kt : PUnit → sProp 𝕄) :
    iprop(records m K ∗ levAts L lv ∗ St c ((9, 3) :: ls) ((8, 0) :: lr) sent ∗ recvPay m c 7 3
        ∗ (∀ r, (St c ls lr ((9, 3) :: sent) ∗ keepR m c 3 ∗ recvPay m c 8 0 ∗ rAt c 8 0 1) -∗ Kt r))
      ⊢ WP c (atB k0_part61_skel c v14 v25 v1772 v1773 v1774 c0_i32_1716) Kt := by
  unfold atB k0_part61_skel
  simp only [Prog.lift, Prog.bind_op, Prog.bind_ret, Prog.pure_eq_ret]
  iintro ⟨#HR, #Hlev, HSt, Hrecv, Hk⟩
  icases (fwd_high_split m c 3) $$ Hrecv with ⟨Hpay, Hkeep⟩
  iapply (st_send m K c _ 9 3 ls ((8, 0) :: lr) sent (dev42_eq c)) $$ HR HSt Hpay
  iintro HSt
  iapply (st_waitR m K c 8 0 ls lr ((9, 3) :: sent) h) $$ HR Hlev HSt
  iintro ⟨HSt, Hrcv, Hat⟩
  unfold WP; rw [wp_ret]; imodintro
  iapply Hk
  iframe

theorem part62 (v25 : BitVec 32) (ls lr sent : List JS)
    (h1 : Above (9, 0) ls) (h2 : Above (8, 1) ls) (h3 : Above (9, 1) ls) (h4 : Above (8, 2) ls)
    (Kt : (Σ' (v1821 : BitVec 32), BitVec 32) → sProp 𝕄) :
    iprop(records m K ∗ levAts L lv ∗ St c ls ((9, 0) :: (8, 1) :: (9, 1) :: (8, 2) :: lr) sent
        ∗ (∀ r, (St c ls lr sent ∗ recvPay m c 9 0 ∗ rAt c 9 0 1 ∗ recvPay m c 8 1 ∗ rAt c 8 1 1
            ∗ recvPay m c 9 1 ∗ rAt c 9 1 1 ∗ recvPay m c 8 2 ∗ rAt c 8 2 1) -∗ Kt r))
      ⊢ WP c (atB k0_part62_skel v25) Kt := by
  unfold atB k0_part62_skel
  simp only [Prog.lift, Prog.bind_op, Prog.bind_ret, Prog.pure_eq_ret]
  iintro ⟨#HR, #Hlev, HSt, Hk⟩
  iapply (st_waitR m K c 9 0 ls ((8, 1) :: (9, 1) :: (8, 2) :: lr) sent h1) $$ HR Hlev HSt
  iintro ⟨HSt, Hrcv1, Hat1⟩
  iapply (st_waitR m K c 8 1 ls ((9, 1) :: (8, 2) :: lr) sent h2) $$ HR Hlev HSt
  iintro ⟨HSt, Hrcv2, Hat2⟩
  iapply (st_waitR m K c 9 1 ls ((8, 2) :: lr) sent h3) $$ HR Hlev HSt
  iintro ⟨HSt, Hrcv3, Hat3⟩
  iapply (st_waitR m K c 8 2 ls lr sent h4) $$ HR Hlev HSt
  iintro ⟨HSt, Hrcv4, Hat4⟩
  unfold WP; rw [wp_ret]; imodintro
  iapply Hk
  iframe

end Cert.Kernel.AR

end
-- ==== Proof.ArKernel.Body6.lean ====
import proofs.«900109_g7700000000000110_dist_ar_v7x_i4_i_m1024_n512_f32_1_alg».proof.Proof.ArKernel.Flow
import proofs.«900109_g7700000000000110_dist_ar_v7x_i4_i_m1024_n512_f32_1_alg».proof.Proof.ArKernel.Geom

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cid → ℕ) (c : Dev nD)

theorem part63 (v25 v1821 c0_i32_1783 : BitVec 32) (sentL : List JS)
    (Kt : PUnit → sProp 𝕄) :
    iprop(records m K ∗ levAts L lv ∗ St c [] ((9, 2) :: (8, 3) :: (9, 3) :: []) ((0, 0) :: sentL)
        ∗ sAt c 0 0 0
        ∗ (∀ r, (St c [] [] sentL
              ∗ recvPay m c 9 2 ∗ rAt c 9 2 1
              ∗ recvPay m c 8 3 ∗ rAt c 8 3 1
              ∗ recvPay m c 9 3 ∗ rAt c 9 3 1
              ∗ sendPay m c 0 0 ∗ sAt c 0 0 1) -∗ Kt r))
      ⊢ WP c (atB k0_part63_skel c v25 v1821 c0_i32_1783) Kt := by
  unfold atB k0_part63_skel
  simp only [Prog.lift, Prog.bind_op, Prog.bind_ret, Prog.pure_eq_ret]
  iintro ⟨#HR, #Hlev, HSt, Hs0, Hk⟩
  iapply (st_waitR m K c 9 2 [] ((8, 3) :: (9, 3) :: []) ((0, 0) :: sentL) (fun _ h => nomatch h)) $$ HR Hlev HSt
  iintro ⟨HSt, Hp1, Ha1⟩
  iapply (st_waitR m K c 8 3 [] ((9, 3) :: []) ((0, 0) :: sentL) (fun _ h => nomatch h)) $$ HR Hlev HSt
  iintro ⟨HSt, Hp2, Ha2⟩
  iapply (st_waitR m K c 9 3 [] [] ((0, 0) :: sentL) (fun _ h => nomatch h)) $$ HR Hlev HSt
  iintro ⟨HSt, Hp3, Ha3⟩
  iapply (st_waitS m K c 0 0 sentL) $$ HR HSt Hs0
  iintro ⟨HSt, Hq0, Hb0⟩
  unfold WP; rw [wp_ret]; imodintro
  iapply Hk
  iframe

theorem part64 (sentL : List JS) (Kt : PUnit → sProp 𝕄) :
    iprop(records m K ∗ levAts L lv ∗ St c [] [] ((1, 0) :: (2, 0) :: (3, 0) :: sentL)
        ∗ sAt c 1 0 0 ∗ sAt c 2 0 0 ∗ sAt c 3 0 0
        ∗ (∀ r, (St c [] [] sentL
              ∗ sendPay m c 1 0 ∗ sAt c 1 0 1
              ∗ sendPay m c 2 0 ∗ sAt c 2 0 1
              ∗ sendPay m c 3 0 ∗ sAt c 3 0 1) -∗ Kt r))
      ⊢ WP c (atB k0_part64_skel c) Kt := by
  unfold atB k0_part64_skel
  simp only [Prog.lift, Prog.bind_op, Prog.bind_ret, Prog.pure_eq_ret]
  iintro ⟨#HR, #Hlev, HSt, Hs1, Hs2, Hs3, Hk⟩
  iapply (st_waitS m K c 1 0 ((2, 0) :: (3, 0) :: sentL)) $$ HR HSt Hs1
  iintro ⟨HSt, Hq1, Hb1⟩
  iapply (st_waitS m K c 2 0 ((3, 0) :: sentL)) $$ HR HSt Hs2
  iintro ⟨HSt, Hq2, Hb2⟩
  iapply (st_waitS m K c 3 0 sentL) $$ HR HSt Hs3
  iintro ⟨HSt, Hq3, Hb3⟩
  unfold WP; rw [wp_ret]; imodintro
  iapply Hk
  iframe

theorem part65 (sentL : List JS) (Kt : PUnit → sProp 𝕄) :
    iprop(records m K ∗ levAts L lv ∗ St c [] [] ((0, 1) :: (1, 1) :: (2, 1) :: (3, 1) :: sentL)
        ∗ sAt c 0 1 0 ∗ sAt c 1 1 0 ∗ sAt c 2 1 0 ∗ sAt c 3 1 0
        ∗ (∀ r, (St c [] [] sentL
              ∗ sendPay m c 0 1 ∗ sAt c 0 1 1
              ∗ sendPay m c 1 1 ∗ sAt c 1 1 1
              ∗ sendPay m c 2 1 ∗ sAt c 2 1 1
              ∗ sendPay m c 3 1 ∗ sAt c 3 1 1) -∗ Kt r))
      ⊢ WP c (atB k0_part65_skel c) Kt := by
  unfold atB k0_part65_skel
  simp only [Prog.lift, Prog.bind_op, Prog.bind_ret, Prog.pure_eq_ret]
  iintro ⟨#HR, #Hlev, HSt, Hs1, Hs2, Hs3, Hs4, Hk⟩
  iapply (st_waitS m K c 0 1 ((1, 1) :: (2, 1) :: (3, 1) :: sentL)) $$ HR HSt Hs1
  iintro ⟨HSt, Hq1, Hb1⟩
  iapply (st_waitS m K c 1 1 ((2, 1) :: (3, 1) :: sentL)) $$ HR HSt Hs2
  iintro ⟨HSt, Hq2, Hb2⟩
  iapply (st_waitS m K c 2 1 ((3, 1) :: sentL)) $$ HR HSt Hs3
  iintro ⟨HSt, Hq3, Hb3⟩
  iapply (st_waitS m K c 3 1 sentL) $$ HR HSt Hs4
  iintro ⟨HSt, Hq4, Hb4⟩
  unfold WP; rw [wp_ret]; imodintro
  iapply Hk
  iframe

theorem part66 (sentL : List JS) (Kt : PUnit → sProp 𝕄) :
    iprop(records m K ∗ levAts L lv ∗ St c [] [] ((0, 2) :: (1, 2) :: (2, 2) :: sentL)
        ∗ sAt c 0 2 0 ∗ sAt c 1 2 0 ∗ sAt c 2 2 0
        ∗ (∀ r, (St c [] [] sentL
              ∗ sendPay m c 0 2 ∗ sAt c 0 2 1
              ∗ sendPay m c 1 2 ∗ sAt c 1 2 1
              ∗ sendPay m c 2 2 ∗ sAt c 2 2 1) -∗ Kt r))
      ⊢ WP c (atB k0_part66_skel c) Kt := by
  unfold atB k0_part66_skel
  simp only [Prog.lift, Prog.bind_op, Prog.bind_ret, Prog.pure_eq_ret]
  iintro ⟨#HR, #Hlev, HSt, Hs1, Hs2, Hs3, Hk⟩
  iapply (st_waitS m K c 0 2 ((1, 2) :: (2, 2) :: sentL)) $$ HR HSt Hs1
  iintro ⟨HSt, Hq1, Hb1⟩
  iapply (st_waitS m K c 1 2 ((2, 2) :: sentL)) $$ HR HSt Hs2
  iintro ⟨HSt, Hq2, Hb2⟩
  iapply (st_waitS m K c 2 2 sentL) $$ HR HSt Hs3
  iintro ⟨HSt, Hq3, Hb3⟩
  unfold WP; rw [wp_ret]; imodintro
  iapply Hk
  iframe

theorem part67 (sentL : List JS) (Kt : PUnit → sProp 𝕄) :
    iprop(records m K ∗ levAts L lv ∗ St c [] [] ((3, 2) :: (0, 3) :: (1, 3) :: (2, 3) :: sentL)
        ∗ sAt c 3 2 0 ∗ sAt c 0 3 0 ∗ sAt c 1 3 0 ∗ sAt c 2 3 0
        ∗ (∀ r, (St c [] [] sentL
              ∗ sendPay m c 3 2 ∗ sAt c 3 2 1
              ∗ sendPay m c 0 3 ∗ sAt c 0 3 1
              ∗ sendPay m c 1 3 ∗ sAt c 1 3 1
              ∗ sendPay m c 2 3 ∗ sAt c 2 3 1) -∗ Kt r))
      ⊢ WP c (atB k0_part67_skel c) Kt := by
  unfold atB k0_part67_skel
  simp only [Prog.lift, Prog.bind_op, Prog.bind_ret, Prog.pure_eq_ret]
  iintro ⟨#HR, #Hlev, HSt, Hs1, Hs2, Hs3, Hs4, Hk⟩
  iapply (st_waitS m K c 3 2 ((0, 3) :: (1, 3) :: (2, 3) :: sentL)) $$ HR HSt Hs1
  iintro ⟨HSt, Hq1, Hb1⟩
  iapply (st_waitS m K c 0 3 ((1, 3) :: (2, 3) :: sentL)) $$ HR HSt Hs2
  iintro ⟨HSt, Hq2, Hb2⟩
  iapply (st_waitS m K c 1 3 ((2, 3) :: sentL)) $$ HR HSt Hs3
  iintro ⟨HSt, Hq3, Hb3⟩
  iapply (st_waitS m K c 2 3 sentL) $$ HR HSt Hs4
  iintro ⟨HSt, Hq4, Hb4⟩
  unfold WP; rw [wp_ret]; imodintro
  iapply Hk
  iframe

theorem part68 (sentL : List JS) (Kt : PUnit → sProp 𝕄) :
    iprop(records m K ∗ levAts L lv ∗ St c [] [] ((3, 3) :: (4, 0) :: (5, 0) :: sentL)
        ∗ sAt c 3 3 0 ∗ sAt c 4 0 0 ∗ sAt c 5 0 0
        ∗ (∀ r, (St c [] [] sentL
              ∗ sendPay m c 3 3 ∗ sAt c 3 3 1
              ∗ sendPay m c 4 0 ∗ sAt c 4 0 1
              ∗ sendPay m c 5 0 ∗ sAt c 5 0 1) -∗ Kt r))
      ⊢ WP c (atB k0_part68_skel c) Kt := by
  unfold atB k0_part68_skel
  simp only [Prog.lift, Prog.bind_op, Prog.bind_ret, Prog.pure_eq_ret]
  iintro ⟨#HR, #Hlev, HSt, Hs1, Hs2, Hs3, Hk⟩
  iapply (st_waitS m K c 3 3 ((4, 0) :: (5, 0) :: sentL)) $$ HR HSt Hs1
  iintro ⟨HSt, Hq1, Hb1⟩
  iapply (st_waitS m K c 4 0 ((5, 0) :: sentL)) $$ HR HSt Hs2
  iintro ⟨HSt, Hq2, Hb2⟩
  iapply (st_waitS m K c 5 0 sentL) $$ HR HSt Hs3
  iintro ⟨HSt, Hq3, Hb3⟩
  unfold WP; rw [wp_ret]; imodintro
  iapply Hk
  iframe

theorem part69 (sentL : List JS) (Kt : PUnit → sProp 𝕄) :
    iprop(records m K ∗ levAts L lv ∗ St c [] [] ((4, 1) :: (5, 1) :: (4, 2) :: sentL)
        ∗ sAt c 4 1 0 ∗ sAt c 5 1 0 ∗ sAt c 4 2 0
        ∗ (∀ r, (St c [] [] sentL
              ∗ sendPay m c 4 1 ∗ sAt c 4 1 1
              ∗ sendPay m c 5 1 ∗ sAt c 5 1 1
              ∗ sendPay m c 4 2 ∗ sAt c 4 2 1) -∗ Kt r))
      ⊢ WP c (atB k0_part69_skel) Kt := by
  unfold atB k0_part69_skel
  simp only [Prog.lift, Prog.bind_op, Prog.bind_ret, Prog.pure_eq_ret]
  iintro ⟨#HR, #Hlev, HSt, Hs1, Hs2, Hs3, Hk⟩
  iapply (st_waitS m K c 4 1 ((5, 1) :: (4, 2) :: sentL)) $$ HR HSt Hs1
  iintro ⟨HSt, Hq1, Hb1⟩
  iapply (st_waitS m K c 5 1 ((4, 2) :: sentL)) $$ HR HSt Hs2
  iintro ⟨HSt, Hq2, Hb2⟩
  iapply (st_waitS m K c 4 2 sentL) $$ HR HSt Hs3
  iintro ⟨HSt, Hq3, Hb3⟩
  unfold WP; rw [wp_ret]; imodintro
  iapply Hk
  iframe

theorem part70 (sentL : List JS) (Kt : PUnit → sProp 𝕄) :
    iprop(records m K ∗ levAts L lv ∗ St c [] [] ((5, 2) :: (4, 3) :: (5, 3) :: sentL)
        ∗ sAt c 5 2 0 ∗ sAt c 4 3 0 ∗ sAt c 5 3 0
        ∗ (∀ r, (St c [] [] sentL
              ∗ sendPay m c 5 2 ∗ sAt c 5 2 1
              ∗ sendPay m c 4 3 ∗ sAt c 4 3 1
              ∗ sendPay m c 5 3 ∗ sAt c 5 3 1) -∗ Kt r))
      ⊢ WP c (atB k0_part70_skel) Kt := by
  unfold atB k0_part70_skel
  simp only [Prog.lift, Prog.bind_op, Prog.bind_ret, Prog.pure_eq_ret]
  iintro ⟨#HR, #Hlev, HSt, Hs1, Hs2, Hs3, Hk⟩
  iapply (st_waitS m K c 5 2 ((4, 3) :: (5, 3) :: sentL)) $$ HR HSt Hs1
  iintro ⟨HSt, Hq1, Hb1⟩
  iapply (st_waitS m K c 4 3 ((5, 3) :: sentL)) $$ HR HSt Hs2
  iintro ⟨HSt, Hq2, Hb2⟩
  iapply (st_waitS m K c 5 3 sentL) $$ HR HSt Hs3
  iintro ⟨HSt, Hq3, Hb3⟩
  unfold WP; rw [wp_ret]; imodintro
  iapply Hk
  iframe

theorem part71 (sentL : List JS) (Kt : PUnit → sProp 𝕄) :
    iprop(records m K ∗ levAts L lv ∗ St c [] [] ((6, 0) :: (7, 0) :: (6, 1) :: (7, 1) :: (6, 2) :: sentL)
        ∗ sAt c 6 0 0 ∗ sAt c 7 0 0 ∗ sAt c 6 1 0 ∗ sAt c 7 1 0
        ∗ sAt c 6 2 0
        ∗ (∀ r, (St c [] [] sentL
              ∗ sendPay m c 6 0 ∗ sAt c 6 0 1
              ∗ sendPay m c 7 0 ∗ sAt c 7 0 1
              ∗ sendPay m c 6 1 ∗ sAt c 6 1 1
              ∗ sendPay m c 7 1 ∗ sAt c 7 1 1
              ∗ sendPay m c 6 2 ∗ sAt c 6 2 1) -∗ Kt r))
      ⊢ WP c (atB k0_part71_skel c) Kt := by
  unfold atB k0_part71_skel
  simp only [Prog.lift, Prog.bind_op, Prog.bind_ret, Prog.pure_eq_ret]
  iintro ⟨#HR, #Hlev, HSt, Hs1, Hs2, Hs3, Hs4, Hs5, Hk⟩
  iapply (st_waitS m K c 6 0 ((7, 0) :: (6, 1) :: (7, 1) :: (6, 2) :: sentL)) $$ HR HSt Hs1
  iintro ⟨HSt, Hq1, Hb1⟩
  iapply (st_waitS m K c 7 0 ((6, 1) :: (7, 1) :: (6, 2) :: sentL)) $$ HR HSt Hs2
  iintro ⟨HSt, Hq2, Hb2⟩
  iapply (st_waitS m K c 6 1 ((7, 1) :: (6, 2) :: sentL)) $$ HR HSt Hs3
  iintro ⟨HSt, Hq3, Hb3⟩
  iapply (st_waitS m K c 7 1 ((6, 2) :: sentL)) $$ HR HSt Hs4
  iintro ⟨HSt, Hq4, Hb4⟩
  iapply (st_waitS m K c 6 2 sentL) $$ HR HSt Hs5
  iintro ⟨HSt, Hq5, Hb5⟩
  unfold WP; rw [wp_ret]; imodintro
  iapply Hk
  iframe

theorem part72 (sentL : List JS) (Kt : PUnit → sProp 𝕄) :
    iprop(records m K ∗ levAts L lv ∗ St c [] [] ((7, 2) :: (6, 3) :: (7, 3) :: (8, 0) :: (9, 0) :: sentL)
        ∗ sAt c 7 2 0 ∗ sAt c 6 3 0 ∗ sAt c 7 3 0 ∗ sAt c 8 0 0
        ∗ sAt c 9 0 0
        ∗ (∀ r, (St c [] [] sentL
              ∗ sendPay m c 7 2 ∗ sAt c 7 2 1
              ∗ sendPay m c 6 3 ∗ sAt c 6 3 1
              ∗ sendPay m c 7 3 ∗ sAt c 7 3 1
              ∗ sendPay m c 8 0 ∗ sAt c 8 0 1
              ∗ sendPay m c 9 0 ∗ sAt c 9 0 1) -∗ Kt r))
      ⊢ WP c (atB k0_part72_skel c) Kt := by
  unfold atB k0_part72_skel
  simp only [Prog.lift, Prog.bind_op, Prog.bind_ret, Prog.pure_eq_ret]
  iintro ⟨#HR, #Hlev, HSt, Hs1, Hs2, Hs3, Hs4, Hs5, Hk⟩
  iapply (st_waitS m K c 7 2 ((6, 3) :: (7, 3) :: (8, 0) :: (9, 0) :: sentL)) $$ HR HSt Hs1
  iintro ⟨HSt, Hq1, Hb1⟩
  iapply (st_waitS m K c 6 3 ((7, 3) :: (8, 0) :: (9, 0) :: sentL)) $$ HR HSt Hs2
  iintro ⟨HSt, Hq2, Hb2⟩
  iapply (st_waitS m K c 7 3 ((8, 0) :: (9, 0) :: sentL)) $$ HR HSt Hs3
  iintro ⟨HSt, Hq3, Hb3⟩
  iapply (st_waitS m K c 8 0 ((9, 0) :: sentL)) $$ HR HSt Hs4
  iintro ⟨HSt, Hq4, Hb4⟩
  iapply (st_waitS m K c 9 0 sentL) $$ HR HSt Hs5
  iintro ⟨HSt, Hq5, Hb5⟩
  unfold WP; rw [wp_ret]; imodintro
  iapply Hk
  iframe

theorem part73 (sentL : List JS) (Kt : PUnit → sProp 𝕄) :
    iprop(records m K ∗ levAts L lv ∗ St c [] [] ((8, 1) :: (9, 1) :: (8, 2) :: (9, 2) :: (8, 3) :: sentL)
        ∗ sAt c 8 1 0 ∗ sAt c 9 1 0 ∗ sAt c 8 2 0 ∗ sAt c 9 2 0
        ∗ sAt c 8 3 0
        ∗ (∀ r, (St c [] [] sentL
              ∗ sendPay m c 8 1 ∗ sAt c 8 1 1
              ∗ sendPay m c 9 1 ∗ sAt c 9 1 1
              ∗ sendPay m c 8 2 ∗ sAt c 8 2 1
              ∗ sendPay m c 9 2 ∗ sAt c 9 2 1
              ∗ sendPay m c 8 3 ∗ sAt c 8 3 1) -∗ Kt r))
      ⊢ WP c (atB k0_part73_skel c) Kt := by
  unfold atB k0_part73_skel
  simp only [Prog.lift, Prog.bind_op, Prog.bind_ret, Prog.pure_eq_ret]
  iintro ⟨#HR, #Hlev, HSt, Hs1, Hs2, Hs3, Hs4, Hs5, Hk⟩
  iapply (st_waitS m K c 8 1 ((9, 1) :: (8, 2) :: (9, 2) :: (8, 3) :: sentL)) $$ HR HSt Hs1
  iintro ⟨HSt, Hq1, Hb1⟩
  iapply (st_waitS m K c 9 1 ((8, 2) :: (9, 2) :: (8, 3) :: sentL)) $$ HR HSt Hs2
  iintro ⟨HSt, Hq2, Hb2⟩
  iapply (st_waitS m K c 8 2 ((9, 2) :: (8, 3) :: sentL)) $$ HR HSt Hs3
  iintro ⟨HSt, Hq3, Hb3⟩
  iapply (st_waitS m K c 9 2 ((8, 3) :: sentL)) $$ HR HSt Hs4
  iintro ⟨HSt, Hq4, Hb4⟩
  iapply (st_waitS m K c 8 3 sentL) $$ HR HSt Hs5
  iintro ⟨HSt, Hq5, Hb5⟩
  unfold WP; rw [wp_ret]; imodintro
  iapply Hk
  iframe

theorem tail_wait (K : Dev nD × Cid → ℕ) (c : Dev nD) (sentL : List JS) (Kt : PUnit → sProp 𝕄) :
    iprop(records m K ∗ levAts L lv ∗ St c [] [] ((9, 3) :: sentL) ∗ sAt c 9 3 0
        ∗ (∀ r, (St c [] [] sentL ∗ sendPay m c 9 3 ∗ sAt c 9 3 1) -∗ Kt r))
      ⊢ WP c (Prog.op (TpuEff.waitDma2
            ((cc0_scratch7.slice (Rect.unit (s := S4x4) ![3, 3] S1x1.size inb_S4x4_S1x1_3_3)).squeeze S_ squeezes_S1x1_S_).sem
            ((Memref.whole cc0_stg1_0).slice (Rect.unit (s := S1024x512) (k0_off2 c 1#32 192#32) S64x256.size (k0_off2_inb c 0 3)) (fun _ => rfl)
              : Memref sig .tc .vmem S64x256 .f32)
            ((Memref.whole cc0_stg1_0).slice (Rect.unit (s := S1024x512) (k0_off2 c 1#32 192#32) S64x256.size (k0_off2_inb c 0 3)) (fun _ => rfl)
              : Memref sig .tc .vmem S64x256 .f32)
            (View.wordExact_bits rfl) (View.wordExact_bits rfl)) fun _ => Prog.ret PUnit.unit) Kt := by
  iintro ⟨#HR, #Hlev, HSt, Hs1, Hk⟩
  iapply (st_waitS m K c 9 3 sentL) $$ HR HSt Hs1
  iintro ⟨HSt, Hq1, Hb1⟩
  unfold WP; rw [wp_ret]; imodintro
  iapply Hk
  iframe

end Cert.Kernel.AR

end
-- ==== Proof.ArKernel.Assembly.lean ====
import proofs.«900109_g7700000000000110_dist_ar_v7x_i4_i_m1024_n512_f32_1_alg».proof.Proof.ArKernel.Plumb
import proofs.«900109_g7700000000000110_dist_ar_v7x_i4_i_m1024_n512_f32_1_alg».proof.Proof.ArKernel.Body1
import proofs.«900109_g7700000000000110_dist_ar_v7x_i4_i_m1024_n512_f32_1_alg».proof.Proof.ArKernel.Body2
import proofs.«900109_g7700000000000110_dist_ar_v7x_i4_i_m1024_n512_f32_1_alg».proof.Proof.ArKernel.Body3
import proofs.«900109_g7700000000000110_dist_ar_v7x_i4_i_m1024_n512_f32_1_alg».proof.Proof.ArKernel.Body4
import proofs.«900109_g7700000000000110_dist_ar_v7x_i4_i_m1024_n512_f32_1_alg».proof.Proof.ArKernel.Body5
import proofs.«900109_g7700000000000110_dist_ar_v7x_i4_i_m1024_n512_f32_1_alg».proof.Proof.ArKernel.Body6

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]
local notation "𝕄" => MT nD τ sig Unit (Elt F) ℕ UU ℕ
variable (m : (ℓ : Loc nD τ sig) → Buf (Elt F) ℓ)

macro "igive " h:ident : tactic => `(tactic| (isplitl [$h]; · iexact $h))

set_option hygiene false in
macro "istep " e:term " with " t:pmTerm " giving " "[" hs:ident,* "]" : tactic =>
  `(tactic| (rw [wp_bind, $e:term]; iapply $t; (isplitr; · iexact HR); (isplitr; · iexact Hlev); $[igive $hs]*))

abbrev oL : List JS := [(0,0),(1,0),(2,0),(3,0),(0,1),(1,1),(2,1),(3,1),(0,2),(1,2),(2,2),(3,2),(0,3),(1,3),(2,3),(3,3),
    (4,0),(5,0),(4,1),(5,1),(4,2),(5,2),(4,3),(5,3),(6,0),(7,0),(6,1),(7,1),(6,2),(7,2),(6,3),(7,3),(8,0),(9,0),(8,1),(9,1),(8,2),(9,2),(8,3),(9,3)]
theorem order_lit : order = oL := by decide
theorem rorder_lit : rorder = [(0,0),(1,0),(0,1),(1,1),(0,2),(1,2),(0,3),(1,3),
    (4,0),(2,0),(3,0),(5,0),(4,1),(2,1),(3,1),(5,1),(4,2),(2,2),(3,2),(5,2),(4,3),(2,3),(3,3),(5,3),
    (6,0),(7,0),(6,1),(7,1),(6,2),(7,2),(6,3),(7,3),(8,0),(9,0),(8,1),(9,1),(8,2),(9,2),(8,3),(9,3)] := by decide
theorem xkeys_lit : xkeys = [(0,0),(1,0),(2,0),(3,0),(0,1),(1,1),(2,1),(3,1),(0,2),(1,2),(2,2),(3,2),(0,3),(1,3),(2,3),(3,3)] := by decide
theorem mkeys_lit : mkeys = [(0,0),(1,0),(0,1),(1,1),(0,2),(1,2),(0,3),(1,3)] := by decide

theorem St_intro (c : Dev nD) (ls lr : List JS) :
    iprop((∃ W, owes (c : Thread nD τ) (owedL c ls) W) ∗ bigSepL ls (sendKit (F := F) c) ∗ bigSepL lr (recvKit (F := F) c)) ⊢ St (F := F) c ls lr [] := by
  unfold St
  iintro ⟨HO, Hl, Hr⟩
  isplitl [HO]; · iexact HO
  isplitl [Hl]; · iexact Hl
  isplitl [Hr]; · iexact Hr
  iempintro

theorem bigSepL16 {I : Type} (a0 a1 a2 a3 a4 a5 a6 a7 a8 a9 a10 a11 a12 a13 a14 a15 : I) (Φ : I → sProp 𝕄) :
    bigSepL [a0, a1, a2, a3, a4, a5, a6, a7, a8, a9, a10, a11, a12, a13, a14, a15] Φ
      = iprop(Φ a0 ∗ Φ a1 ∗ Φ a2 ∗ Φ a3 ∗ Φ a4 ∗ Φ a5 ∗ Φ a6 ∗ Φ a7 ∗ Φ a8 ∗ Φ a9 ∗ Φ a10 ∗ Φ a11 ∗ Φ a12 ∗ Φ a13 ∗ Φ a14 ∗ Φ a15) := rfl
theorem bigSepL8 {I : Type} (a0 a1 a2 a3 a4 a5 a6 a7 : I) (Φ : I → sProp 𝕄) :
    bigSepL [a0, a1, a2, a3, a4, a5, a6, a7] Φ = iprop(Φ a0 ∗ Φ a1 ∗ Φ a2 ∗ Φ a3 ∗ Φ a4 ∗ Φ a5 ∗ Φ a6 ∗ Φ a7) := rfl
theorem bigSepL4 {I : Type} (a0 a1 a2 a3 : I) (Φ : I → sProp 𝕄) :
    bigSepL [a0, a1, a2, a3] Φ = iprop(Φ a0 ∗ Φ a1 ∗ Φ a2 ∗ Φ a3) := rfl

theorem bigSepL40 {I : Type} (a0 a1 a2 a3 a4 a5 a6 a7 a8 a9 a10 a11 a12 a13 a14 a15 a16 a17 a18 a19 a20 a21 a22 a23 a24 a25 a26 a27 a28 a29
    a30 a31 a32 a33 a34 a35 a36 a37 a38 a39 : I) (Φ : I → sProp 𝕄) :
    bigSepL [a0, a1, a2, a3, a4, a5, a6, a7, a8, a9, a10, a11, a12, a13, a14, a15, a16, a17, a18, a19, a20, a21, a22, a23, a24, a25, a26, a27, a28, a29,
        a30, a31, a32, a33, a34, a35, a36, a37, a38, a39] Φ
      = iprop(Φ a0 ∗ Φ a1 ∗ Φ a2 ∗ Φ a3 ∗ Φ a4 ∗ Φ a5 ∗ Φ a6 ∗ Φ a7 ∗ Φ a8 ∗ Φ a9 ∗ Φ a10 ∗ Φ a11 ∗ Φ a12 ∗ Φ a13 ∗ Φ a14 ∗ Φ a15 ∗ Φ a16 ∗ Φ a17 ∗ Φ a18 ∗ Φ a19
        ∗ Φ a20 ∗ Φ a21 ∗ Φ a22 ∗ Φ a23 ∗ Φ a24 ∗ Φ a25 ∗ Φ a26 ∗ Φ a27 ∗ Φ a28 ∗ Φ a29 ∗ Φ a30 ∗ Φ a31 ∗ Φ a32 ∗ Φ a33 ∗ Φ a34 ∗ Φ a35 ∗ Φ a36 ∗ Φ a37 ∗ Φ a38 ∗ Φ a39) := rfl

theorem St_reorder (c : Dev nD) (ls lr : List JS) :
    St (F := F) c ls lr [(9, 3), (8, 3), (9, 2), (8, 2), (9, 1), (8, 1), (9, 0), (8, 0), (7, 3), (6, 3), (7, 2), (6, 2), (7, 1), (6, 1),
      (7, 0), (6, 0), (5, 3), (4, 3), (5, 2), (4, 2), (5, 1), (4, 1), (5, 0), (4, 0), (3, 3), (2, 3), (1, 3), (0, 3),
      (3, 2), (2, 2), (1, 2), (0, 2), (3, 1), (2, 1), (1, 1), (0, 1), (3, 0), (2, 0), (1, 0), (0, 0)] ⊢ St (F := F) c ls lr oL := by
  rw [show ([(9, 3), (8, 3), (9, 2), (8, 2), (9, 1), (8, 1), (9, 0), (8, 0), (7, 3), (6, 3), (7, 2), (6, 2), (7, 1), (6, 1),
      (7, 0), (6, 0), (5, 3), (4, 3), (5, 2), (4, 2), (5, 1), (4, 1), (5, 0), (4, 0), (3, 3), (2, 3), (1, 3), (0, 3),
      (3, 2), (2, 2), (1, 2), (0, 2), (3, 1), (2, 1), (1, 1), (0, 1), (3, 0), (2, 0), (1, 0), (0, 0)] : List JS) = oL.reverse from by decide]
  unfold St
  rw [← bigSep_eq_bigSepL oL.reverse (by decide) (sentCred (F := F) c), ← bigSep_eq_bigSepL oL (by decide) (sentCred (F := F) c), List.toFinset_reverse]

theorem fin_close (K : Dev nD × Cid → ℕ) (c : Dev nD) (Kt : PUnit → sProp 𝕄) :
    iprop(records m K ∗ Fin' m c ∗ (bodyPost m c -∗ Kt ⟨⟩)) ⊢ WP c (Prog.ret ⟨⟩) Kt := by
  iintro ⟨#HR, HF, Hk⟩
  unfold WP
  rw [wp_ret]
  imod (join' m K c) $$ [HF] with Hp
  · isplitr; · iexact HR
    iexact HF
  imodintro
  iapply Hk
  iexact Hp

set_option maxHeartbeats 4000000 in
set_option maxRecDepth 20000 in
theorem sound_body (K : Dev nD × Cid → ℕ) (c : Dev nD) (Kt : PUnit → sProp 𝕄) :
    iprop(bodyPre m K c ∗ (bodyPost m c -∗ Kt ⟨⟩)) ⊢ WP c (theBody (F := F)) Kt := by
  have hkits := kits_of_barrier' (F := F) c
  have h1 := fun W Kt => part1 (F := F) m K c W Kt
  rw [order_lit] at hkits h1
  iintro ⟨Hpre, Hk⟩
  ihave H := (prep' m K c) $$ Hpre
  icases H with ⟨#HR, #Hlev, %W, Hinit⟩
  unfold Init
  rw [order_lit, rorder_lit, xkeys_lit, mkeys_lit, bigSepL16, bigSepL8, show List.finRange 4 = [0, 1, 2, 3] from rfl, bigSepL4]
  icases Hinit with ⟨HatB, HtP, HtN, HcB, HO, HbP, HbN, Htoks, Hrk, HposS,
    ⟨⟨Hs00, Hxr00⟩, ⟨Hs10, Hxr10⟩, ⟨Hs20, Hxr20⟩, ⟨Hs30, Hxr30⟩, ⟨Hs01, Hxr01⟩, ⟨Hs11, Hxr11⟩, ⟨Hs21, Hxr21⟩, ⟨Hs31, Hxr31⟩,
      ⟨Hs02, Hxr02⟩, ⟨Hs12, Hxr12⟩, ⟨Hs22, Hxr22⟩, ⟨Hs32, Hxr32⟩, ⟨Hs03, Hxr03⟩, ⟨Hs13, Hxr13⟩, ⟨Hs23, Hxr23⟩, ⟨Hs33, Hxr33⟩⟩,
    HxL, ⟨Hm00, Hm10, Hm01, Hm11, Hm02, Hm12, Hm03, Hm13⟩, ⟨Ho0, Ho1, Ho2, Ho3⟩, HrA, HrM, HrR⟩
  unfold theBody WP
  rw [cc0_body_eq_skeleton]
  unfold cc0_body_skel
  rw [wp_bind, k0_part74_eq_skeleton]
  unfold k0_part74_skel
  rw [wp_bind, k0_part1_eq_skeleton]
  iapply (h1 W _)
  isplitr; · iexact HR
  isplitr; · iexact Hlev
  igive HatB; igive HtP; igive HtN; igive HcB; igive HO; igive HbP; igive HbN
  iintro %r ⟨%hr, HatB, HO, HbF, HbT⟩
  obtain ⟨d0, v2, v14, v25⟩ := r
  dsimp only at hr ⊢
  subst hr
  ihave Hkits := hkits $$ [HbF HbT Htoks]
  · isplitl [HbF]; · iexact HbF
    isplitl [HbT]; · iexact HbT
    iexact Htoks
  ihave HSt := (St_intro (F := F) d0 _ _) $$ [HO Hkits Hrk]
  · isplitl [HO]; · iexact HO
    isplitl [Hkits]; · iexact Hkits
    iexact Hrk
  istep k0_part2_eq_skeleton with (part2 m K d0 v2 v25 _ _ _ _) giving [HSt, Hs00]
  iintro %r HSt
  obtain ⟨v57, v58, v59, v60, v61⟩ := r
  dsimp only
  istep k0_part3_eq_skeleton with (part3 m K d0 v2 v14 v57 v58 v59 v60 v61 _ _ _ _) giving [HSt, Hs10]
  iintro %r HSt
  istep k0_part4_eq_skeleton with (part4 m K d0 v2 v14 v25 _ _ _ _) giving [HSt, Hs20]
  iintro %r HSt
  istep k0_part5_eq_skeleton with (part5 m K d0 v2 v25 _ _ _ _) giving [HSt, Hs30, Hs01]
  iintro %r HSt
  obtain ⟨v149, v150, v151, v152⟩ := r
  dsimp only
  istep k0_part6_eq_skeleton with (part6 m K d0 v2 v14 v149 v150 v151 v152 _ _ _ _) giving [HSt, Hs11]
  iintro %r HSt
  istep k0_part7_eq_skeleton with (part7 m K d0 v2 v14 v25 _ _ _ _) giving [HSt, Hs21]
  iintro %r HSt
  istep k0_part8_eq_skeleton with (part8 m K d0 v2 v25 _ _ _ _) giving [HSt, Hs31, Hs02]
  iintro %r HSt
  obtain ⟨v241, v242, v243⟩ := r
  dsimp only
  istep k0_part9_eq_skeleton with (part9 m K d0 v2 v14 v241 v242 v243 _ _ _ _) giving [HSt, Hs12]
  iintro %r HSt
  istep k0_part10_eq_skeleton with (part10 m K d0 v2 v14 v25 _ _ _ _) giving [HSt, Hs22]
  iintro %r HSt
  istep k0_part11_eq_skeleton with (part11 m K d0 v2 v25 _ _ _ _) giving [HSt, Hs32, Hs03]
  iintro %r HSt
  obtain ⟨v333, v334⟩ := r
  dsimp only
  istep k0_part12_eq_skeleton with (part12 m K d0 v2 v14 v333 v334 _ _ _ _) giving [HSt, Hs13]
  iintro %r HSt
  istep k0_part13_eq_skeleton with (part13 m K d0 v2 v14 v25 _ _ _ _) giving [HSt, Hs23]
  iintro %r HSt
  istep k0_part14_eq_skeleton with (part14 m K d0 v2 v25 (oL.drop 16) _ _ (by decide) _) giving [HSt, Hs33]
  iintro %v408 ⟨%hv408, HSt, Hr00, Ha00⟩
  istep k0_part15_eq_skeleton with (part15 m K d0 v25 v408 (oL.drop 17) _ _ (by decide) hv408 _) giving [HSt, HxL, Hm00]
  iintro %r ⟨HSt, HxL, Hr10, Ha10⟩
  istep k0_part16_eq_skeleton with (part16 m K d0 v2 v14 _ _ _ _) giving [HSt, HxL, Hm10, Hr10]
  iintro %r ⟨HSt, HxL, Hs50, Hr10⟩
  istep k0_part17_eq_skeleton with (part17 m K d0 v2 v25 (oL.drop 18) _ _ (by decide) _) giving [HSt, HxL, Hs50]
  iintro %v508 ⟨%hv508, HSt, HxL, Hr01, Ha01⟩
  istep k0_part18_eq_skeleton with (part18 m K d0 v2 v25 v508 (oL.drop 19) _ _ (by decide) hv508 _) giving [HSt, Hm01]
  iintro %r ⟨%hv531, HSt, Hr11, Ha11⟩
  obtain ⟨v531, v532⟩ := r
  dsimp only at hv531 ⊢
  istep k0_part19_eq_skeleton with (part19 m K d0 v14 v531 v532 _ _ _ hv531 _) giving [HSt, HxL, Hm11]
  iintro %r ⟨HSt, HxL⟩
  istep k0_part20_eq_skeleton with (part20 m K d0 v2 v25 (oL.drop 20) _ _ (by decide) _) giving [HSt, HxL, Hm02]
  iintro %v590 ⟨%hv590, HSt, HxL, Hm02, Hr02, Ha02⟩
  istep k0_part21_eq_skeleton with (part21 m K d0 v2 v25 v590 (oL.drop 21) _ _ (by decide) hv590 _) giving [HSt, Hm02]
  iintro %r ⟨%hv613, HSt, Hr12, Ha12⟩
  obtain ⟨v613, v615, c4_i32_590, c0_i32_591⟩ := r
  dsimp only at hv613 ⊢
  istep k0_part22_eq_skeleton with (part22 m K d0 v14 v613 v615 c4_i32_590 c0_i32_591 _ _ _ hv613 _) giving [HSt, HxL, Hm12]
  iintro %r ⟨HSt, HxL⟩
  istep k0_part23_eq_skeleton with (part23 m K d0 v2 v25 (oL.drop 22) _ _ (by decide) _) giving [HSt, HxL, Hm03]
  iintro %r ⟨HSt, HxL, Hs43, Hr03, Ha03⟩
  istep k0_part24_eq_skeleton with (part24 m K d0 v2 v25 (oL.drop 23) _ _ (by decide) _) giving [HSt, Hs43]
  iintro %r ⟨%hv695, HSt, Hr13, Ha13⟩
  obtain ⟨v695, v699, v700⟩ := r
  dsimp only at hv695 ⊢
  istep k0_part25_eq_skeleton with (part25 m K d0 v14 v695 v699 v700 _ _ _ hv695 _) giving [HSt, HxL, Hm13]
  iintro %r ⟨HSt, HxL⟩
  istep k0_part26_eq_skeleton with (part26 m K d0 v25 (oL.drop 24) _ _ (by decide) (by decide) _) giving [HSt]
  iintro %r ⟨HSt, Hr40, Ha40, Hr20, Ha20⟩
  istep k0_part27_eq_skeleton with (part27 m K d0 v2 v25 (oL.drop 24) _ _ (by decide) (by decide) _) giving [HSt, HxL]
  iintro %v775 ⟨%hv775, HSt, Hr30, Ha30, Hr50, Ha50, HxL⟩
  istep k0_part28_eq_skeleton with (part28 m K d0 v2 v775 _ _ _ hv775 _) giving [HSt, Hr40, Hr30, Ho0]
  iintro %r ⟨HSt, Hr40, Hr30, Ho0⟩
  obtain ⟨v801, v802, v807⟩ := r
  dsimp only
  istep k0_part29_eq_skeleton with (part29 m K d0 v2 v801 v802 v807 _ _ _ _) giving [HSt, HxL, Hr20, Hr50, Ho0]
  iintro %r ⟨HSt, HxL, Hr20, Hr50, Hs60, Hs70⟩
  obtain ⟨v838, c4_i32_830, v839, c1_i32_832⟩ := r
  dsimp only
  istep k0_part30_eq_skeleton with (part30 m K d0 v2 v25 v838 c4_i32_830 v839 c1_i32_832 _ _ _ _) giving [HSt, Hs60]
  iintro %r HSt
  obtain ⟨v873, c4_i32_857⟩ := r
  dsimp only
  istep k0_part31_eq_skeleton with (part31 m K d0 v2 v14 v873 c4_i32_857 _ _ _ _) giving [HSt]
  iintro %r HSt
  istep k0_part32_eq_skeleton with (part32 m K d0 v25 (oL.drop 26) _ _ (by decide) (by decide) _) giving [HSt, Hs70]
  iintro %r ⟨HSt, Hr41, Ha41, Hr21, Ha21⟩
  istep k0_part33_eq_skeleton with (part33 m K d0 v2 v25 (oL.drop 26) _ _ (by decide) (by decide) _) giving [HSt]
  iintro %r ⟨HSt, Hr31, Ha31, Hr51, Ha51⟩
  obtain ⟨v944, v945, v950⟩ := r
  dsimp only
  istep k0_part34_eq_skeleton with (part34 m K d0 v2 v944 v945 v950 _ _ _ _) giving [HSt, HxL, Hr41, Hr31, Ho1]
  iintro %r ⟨HSt, HxL, Hr41, Hr31, Ho1⟩
  obtain ⟨v981, c4_i32_980, v982, c1_i32_982⟩ := r
  dsimp only
  istep k0_part35_eq_skeleton with (part35 m K d0 v2 v981 c4_i32_980 v982 c1_i32_982 _ _ _ _) giving [HSt, HxL, Hr21, Hr51]
  iintro %v1002 ⟨%hv1002, HSt, HxL, Hr21, Hr51⟩
  istep k0_part36_eq_skeleton with (part36 m K d0 v2 v25 v1002 _ _ _ hv1002 _) giving [HSt, Ho1]
  iintro %r ⟨HSt, Hs61, Hs71⟩
  istep k0_part37_eq_skeleton with (part37 m K d0 v2 _ _ _ _) giving [HSt, Hs61]
  iintro %c1_i32_1060 HSt
  istep k0_part38_eq_skeleton with (part38 m K d0 v14 v25 c1_i32_1060 (oL.drop 28) _ _ (by decide) _) giving [HSt, Hs71]
  iintro %r ⟨HSt, Hr42, Ha42⟩
  istep k0_part39_eq_skeleton with (part39 m K d0 v2 v25 (oL.drop 28) _ _ (by decide) (by decide) (by decide) _) giving [HSt]
  iintro %r ⟨HSt, ⟨Hr22, Ha22⟩, ⟨Hr32, Ha32⟩, ⟨Hr52, Ha52⟩⟩
  obtain ⟨v1124, c4_i32_1130, v1125, c1_i32_1132⟩ := r
  dsimp only
  istep k0_part40_eq_skeleton with (part40 m K d0 v2 v1124 c4_i32_1130 v1125 c1_i32_1132 _ _ _ _) giving [HSt, HxL, Hr42, Hr32]
  iintro %v1145 ⟨%hv1145, HSt, HxL, Hr42, Hr32⟩
  istep k0_part41_eq_skeleton with (part41 m K d0 v2 v1145 _ _ _ hv1145 _) giving [HSt, Ho2, HxL, Hr22, Hr52]
  iintro %r ⟨%hv1184, HSt, Ho2, HxL, Hr22, Hr52⟩
  obtain ⟨v1184, v1188, v1189, v1190, v1191, v1192⟩ := r
  dsimp only at hv1184 ⊢
  istep k0_part42_eq_skeleton with (part42 m K d0 v2 v1184 v1188 v1189 v1190 v1191 v1192 _ _ _ hv1184 _) giving [HSt, Ho2]
  iintro %r ⟨HSt, Hs62, Hs72⟩
  istep k0_part43_eq_skeleton with (part43 m K d0 v2 v25 _ _ _ _) giving [HSt, Hs62]
  iintro %r HSt
  obtain ⟨v1255, v1260, v1261⟩ := r
  dsimp only
  istep k0_part44_eq_skeleton with (part44 m K d0 v14 v25 v1255 v1260 v1261 (oL.drop 30) _ _ (by decide) _) giving [HSt, Hs72]
  iintro %r ⟨HSt, ⟨Hr43, Ha43⟩⟩
  obtain ⟨v1281, c0_i32_1271⟩ := r
  dsimp only
  istep k0_part45_eq_skeleton with (part45 m K d0 v25 v1281 c0_i32_1271 (oL.drop 30) _ _ (by decide) (by decide) _) giving [HSt]
  iintro %r ⟨HSt, ⟨Hr23, Ha23⟩, ⟨Hr33, Ha33⟩⟩
  istep k0_part46_eq_skeleton with (part46 m K d0 v2 (oL.drop 30) _ _ (by decide) _) giving [HSt, HxL, Hr43, Hr33]
  iintro %r ⟨%hv1327, HSt, ⟨Hr53, Ha53⟩, HxL, Hr43, Hr33⟩
  obtain ⟨v1327, v1331, v1332, v1333, v1334, v1335⟩ := r
  dsimp only at hv1327 ⊢
  istep k0_part47_eq_skeleton with (part47 m K d0 v2 v1327 v1331 v1332 v1333 v1334 v1335 _ _ _ hv1327 _) giving [HSt, Ho3, HxL, Hr23, Hr53]
  iintro %r ⟨%hv1366, HSt, Ho3, HxL, Hr23, Hr53⟩
  obtain ⟨v1366, v1368, c4_i32_1359, c0_i32_1360⟩ := r
  dsimp only at hv1366 ⊢
  istep k0_part48_eq_skeleton with (part48 m K d0 v2 v1366 v1368 c4_i32_1359 c0_i32_1360 _ _ _ hv1366 _) giving [HSt, Ho3]
  iintro %r ⟨HSt, Hs63, Hs73⟩
  obtain ⟨v1400, v1401, v1402, v1403⟩ := r
  dsimp only
  istep k0_part49_eq_skeleton with (part49 m K d0 v2 v25 v1400 v1401 v1402 v1403 _ _ _ _) giving [HSt, Hs63]
  iintro %r HSt
  obtain ⟨v1434, v1436⟩ := r
  dsimp only
  istep k0_part50_eq_skeleton with (part50 m K d0 v2 v14 v25 v1434 v1436 (oL.drop 32) _ _ (by decide) _) giving [HSt, Hs73]
  iintro %r ⟨HSt, ⟨Hr60, Ha60⟩⟩
  obtain ⟨v1464, v1465, c0_i32_1439⟩ := r
  dsimp only
  istep k0_part51_eq_skeleton with (part51 m K d0 v2 v25 v1464 v1465 c0_i32_1439 _ _ _ _) giving [HSt, Hr60]
  iintro %v1497 ⟨HSt, Hk60⟩
  istep k0_part52_eq_skeleton with (part52 m K d0 v2 v1497 (oL.drop 33) _ _ (by decide) _) giving [HSt]
  iintro %r ⟨HSt, Hr70, Ha70⟩
  istep k0_part53_eq_skeleton with (part53 m K d0 v2 v14 v25 (oL.drop 34) _ _ (by decide) _) giving [HSt, Hr70]
  iintro %r ⟨HSt, Hk70, Hr61, Ha61⟩
  obtain ⟨v1559, c4_i32_1521⟩ := r
  dsimp only
  istep k0_part54_eq_skeleton with (part54 m K d0 v2 v25 v1559 c4_i32_1521 (oL.drop 35) _ _ (by decide) _) giving [HSt, Hr61]
  iintro %r ⟨HSt, Hk61, Hr71, Ha71⟩
  obtain ⟨v1588, c4_i32_1550⟩ := r
  dsimp only
  istep k0_part55_eq_skeleton with (part55 m K d0 v2 v14 v1588 c4_i32_1550 _ _ _ _) giving [HSt, Hr71]
  iintro %r ⟨HSt, Hk71⟩
  istep k0_part56_eq_skeleton with (part56 m K d0 v2 v25 (oL.drop 36) _ _ (by decide) _) giving [HSt]
  iintro %r ⟨HSt, Hr62, Ha62⟩
  obtain ⟨v1647, v1652, v1653⟩ := r
  dsimp only
  istep k0_part57_eq_skeleton with (part57 m K d0 v2 v25 v1647 v1652 v1653 (oL.drop 37) _ _ (by decide) _) giving [HSt, Hr62]
  iintro %r ⟨HSt, Hk62, Hr72, Ha72⟩
  obtain ⟨v1682, c256_i32_1632⟩ := r
  dsimp only
  istep k0_part58_eq_skeleton with (part58 m K d0 v2 v14 v25 v1682 c256_i32_1632 _ _ _ _) giving [HSt, Hr72]
  iintro %r ⟨HSt, Hk72⟩
  istep k0_part59_eq_skeleton with (part59 m K d0 v2 v25 (oL.drop 38) _ _ (by decide) _) giving [HSt]
  iintro %r ⟨HSt, Hr63, Ha63⟩
  rw [wp_bind, k0_part60_eq_skeleton]
  iapply (part60 m K d0 v2 v25 (oL.drop 39) _ _ (by decide) _)
  isplitr; · iexact HR
  isplitr; · iexact Hlev
  igive HSt; igive Hr63
  iintro %r ⟨HSt, Hk63, Hr73, Ha73⟩
  obtain ⟨v1772, v1773, v1774, c0_i32_1716⟩ := r
  dsimp only
  rw [Prog.pure_eq_ret, wp_ret]
  imodintro
  dsimp only
  istep k0_part61_eq_skeleton with (part61 m K d0 v14 v25 v1772 v1773 v1774 c0_i32_1716 (oL.drop 40) _ _ (by decide) _) giving [HSt, Hr73]
  iintro %r ⟨HSt, Hk73, Hr80, Ha80⟩
  istep k0_part62_eq_skeleton with (part62 m K d0 v25 (oL.drop 40) _ _ (by decide) (by decide) (by decide) (by decide) _) giving [HSt]
  iintro %r ⟨HSt, Hr90, Ha90, Hr81, Ha81, Hr91, Ha91, Hr82, Ha82⟩
  obtain ⟨v1821, c0_i32_1783⟩ := r
  dsimp only
  ihave HSt := (St_reorder (F := F) d0 (oL.drop 40) [(9, 2), (8, 3), (9, 3)]) $$ HSt
  ihave Hq := (BIBase.Entails.of_eq (bigSepL40 _ _ _ _ _ _ _ _ _ _ _ _ _ _ _ _ _ _ _ _ _ _ _ _ _ _ _ _ _ _ _ _ _ _ _ _ _ _ _ _ (fun js : JS => (atPos ER (sCell d0 js.1 js.2) 0 ∅ 0 : sProp 𝕄)))) $$ HposS
  icases Hq with ⟨Hq00, Hq10, Hq20, Hq30, Hq01, Hq11, Hq21, Hq31, Hq02, Hq12, Hq22, Hq32, Hq03, Hq13, Hq23, Hq33,
    Hq40, Hq50, Hq41, Hq51, Hq42, Hq52, Hq43, Hq53, Hq60, Hq70, Hq61, Hq71, Hq62, Hq72, Hq63, Hq73, Hq80, Hq90, Hq81, Hq91, Hq82, Hq92, Hq83, Hq93⟩
  istep k0_part63_eq_skeleton with (part63 m K d0 v25 v1821 c0_i32_1783 (oL.drop 1) _) giving [HSt, Hq00]
  iintro %r ⟨HSt, Hr92, Ha92, Hr83, Ha83, Hr93, Ha93, Hs00, Hq00⟩
  istep k0_part64_eq_skeleton with (part64 m K d0 (oL.drop 4) _) giving [HSt, Hq10, Hq20, Hq30]
  iintro %r ⟨HSt, Hs10, Hq10, Hs20, Hq20, Hs30, Hq30⟩
  istep k0_part65_eq_skeleton with (part65 m K d0 (oL.drop 8) _) giving [HSt, Hq01, Hq11, Hq21, Hq31]
  iintro %r ⟨HSt, Hs01, Hq01, Hs11, Hq11, Hs21, Hq21, Hs31, Hq31⟩
  istep k0_part66_eq_skeleton with (part66 m K d0 (oL.drop 11) _) giving [HSt, Hq02, Hq12, Hq22]
  iintro %r ⟨HSt, Hs02, Hq02, Hs12, Hq12, Hs22, Hq22⟩
  istep k0_part67_eq_skeleton with (part67 m K d0 (oL.drop 15) _) giving [HSt, Hq32, Hq03, Hq13, Hq23]
  iintro %r ⟨HSt, Hs32, Hq32, Hs03, Hq03, Hs13, Hq13, Hs23, Hq23⟩
  istep k0_part68_eq_skeleton with (part68 m K d0 (oL.drop 18) _) giving [HSt, Hq33, Hq40, Hq50]
  iintro %r ⟨HSt, Hs33, Hq33, Hs40, Hq40, Hs50, Hq50⟩
  istep k0_part69_eq_skeleton with (part69 m K d0 (oL.drop 21) _) giving [HSt, Hq41, Hq51, Hq42]
  iintro %r ⟨HSt, Hs41, Hq41, Hs51, Hq51, Hs42, Hq42⟩
  istep k0_part70_eq_skeleton with (part70 m K d0 (oL.drop 24) _) giving [HSt, Hq52, Hq43, Hq53]
  iintro %r ⟨HSt, Hs52, Hq52, Hs43, Hq43, Hs53, Hq53⟩
  istep k0_part71_eq_skeleton with (part71 m K d0 (oL.drop 29) _) giving [HSt, Hq60, Hq70, Hq61, Hq71, Hq62]
  iintro %r ⟨HSt, Hs60, Hq60, Hs70, Hq70, Hs61, Hq61, Hs71, Hq71, Hs62, Hq62⟩
  istep k0_part72_eq_skeleton with (part72 m K d0 (oL.drop 34) _) giving [HSt, Hq72, Hq63, Hq73, Hq80, Hq90]
  iintro %r ⟨HSt, Hs72, Hq72, Hs63, Hq63, Hs73, Hq73, Hs80, Hq80, Hs90, Hq90⟩
  istep k0_part73_eq_skeleton with (part73 m K d0 (oL.drop 39) _) giving [HSt, Hq81, Hq91, Hq82, Hq92, Hq83]
  iintro %r ⟨HSt, Hs81, Hq81, Hs91, Hq91, Hs82, Hq82, Hs92, Hq92, Hs83, Hq83⟩
  iapply (st_waitS m K d0 9 3 []) $$ HR [HSt] Hq93
  · iexact HSt
  iintro ⟨HSt, Hs93, Hq93⟩
  unfold St
  rw [owedL_nil]
  icases HSt with ⟨⟨%W9, HO⟩, -, -, -⟩
  iapply (fin_close m K d0 Kt)
  isplitr; · iexact HR
  isplitr [Hk]
  · unfold Fin'
    rw [order_lit, rorder_lit, xkeys_lit, bigSepL40, bigSepL40, bigSepL16]
    simp only [landedEnd, Fin.reduceEq, ↓reduceIte]
    unfold stayed6 stayed7 keepL keepR
    sl_close
  iexact Hk

end Cert.Kernel.AR

end
-- ==== Proof.ArKernel.Launch.lean ====
import proofs.«900109_g7700000000000110_dist_ar_v7x_i4_i_m1024_n512_f32_1_alg».proof.Proof.ArKernel.Assembly
import proofs.«900109_g7700000000000110_dist_ar_v7x_i4_i_m1024_n512_f32_1_alg».proof.Proof.Gen.Kernel.Frame

noncomputable section

namespace Cert.Kernel.AR

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem owns_whole_eq (c : Dev nD) (b : Ref sig .tc) (X : b.ty.Contents (Elt F)) :
    (owns (c : Thread nD τ) (Memref.whole b) fullShare X : sProp 𝕄) = stg c b X := by
  unfold owns; simp only [Memref.view_whole, View.read_whole, View.set_whole]

theorem body_obligation (c : Dev nD) : BodyObligation (dats (F := F) m 0 c) (defs₀ (F := F)) 𝒱₀ () Set.univ := fun t => by
  rw [fin_N t, bigSep_W0, bigSep_W0]
  simp only [owns_whole_eq]
  show iprop(Φ₀ m c ∗ _) ⊢ _
  unfold Φ₀ start
  iintro ⟨⟨⟨⟨%K, Hg⟩, Hcr, Hlev⟩, Hs0, Hs1, Hs2⟩, Ho, Hx, Hout⟩
  iapply (sound_body m K c fun _ => bodyPost m c)
  unfold bodyPre
  iframe
  iintro H; iexact H

abbrev Own : Type := Bool × Fin 10 × Fin 4
abbrev osem : Own → SemLoc sig := fun k => csem (.inr k)

theorem csem_injective : Function.Injective csem := by
  rintro (_ | ⟨b, j, s⟩) (_ | ⟨b', j', s'⟩) h
  · rfl
  · cases b' <;> cases h
  · cases b <;> cases h
  · cases b <;> cases b'
    · cases (decR_rsem j s).symm.trans ((congrArg decR (SemLoc.dma.inj h)).trans (decR_rsem j' s')); rfl
    · cases (decS_rsem j s).symm.trans ((congrArg decS (SemLoc.dma.inj h)).trans (decS_ssem j' s'))
    · cases (decS_ssem j s).symm.trans ((congrArg decS (SemLoc.dma.inj h)).trans (decS_rsem j' s'))
    · cases (decS_ssem j s).symm.trans ((congrArg decS (SemLoc.dma.inj h)).trans (decS_ssem j' s')); rfl

theorem kcell_injective : Function.Injective (kcell : Dev nD × Cid → GSem nD τ sig) := fun _ _ h =>
  Prod.ext (congrArg (fun g : GSem nD τ sig => g.1.1) h) (csem_injective (congrArg Prod.snd h))

theorem ownSemFacts : Pipeline.OwnSemFacts cfg0.spec osem := by decide +kernel

theorem share_eq (c : Dev nD) (w : Fin cfg0.W) : (dats m 0 c).share w = fullShare := by unfold Dat.share; split <;> rfl

abbrev Tid : Type := Bool ⊕ Own
abbrev tokOf (ct : Dev nD × Tid) : GSem nD τ sig × ℕ × Bool := match ct.2 with
  | .inl d => (barCell ct.1, 0, d)
  | .inr k => (kcell (ct.1, .inr k), 0, false)
theorem tokOf_injective : Function.Injective (tokOf : Dev nD × Tid → GSem nD τ sig × ℕ × Bool) := by
  rintro ⟨c, d | k⟩ ⟨c', d' | k'⟩ h
  · cases kcell_injective (congrArg (·.1) h : kcell (c, .inl ()) = kcell (c', .inl ()))
    cases (congrArg (·.2.2) h : d = d'); rfl
  · cases kcell_injective (congrArg (·.1) h : kcell (c, .inl ()) = kcell (c', .inr k'))
  · cases kcell_injective (congrArg (·.1) h : kcell (c, .inr k) = kcell (c', .inl ()))
  · cases kcell_injective (congrArg (·.1) h : kcell (c, .inr k) = kcell (c', .inr k')); rfl

def ringCells : Finset (GSem nD τ sig) := Finset.univ.map ⟨kcell, kcell_injective⟩
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

def toks (c : Dev nD) : sProp 𝕄 :=
  iprop((bigSep Finset.univ fun d : Bool => dutyTok ER (barCell c) 0 d) ∗ bigSep Finset.univ fun k : Own => dutyTok ER (kcell (c, .inr k)) 0 false)

def posToks (c : Dev nD) : sProp 𝕄 :=
  iprop((bigSep Finset.univ fun k : Cid => iprop(atPos ER (kcell (c, k)) 0 ∅ 0 ∗ reached ER (kcell (c, k)) 0)) ∗ toks c)

def G (c : Dev nD) : sProp 𝕄 := iprop((bigSep Finset.univ fun k : Cid => roundState ER (ringRd m) (kcell (c, k)) 0) ∗ posToks c)

def G' (c : Dev nD) : sProp 𝕄 := iprop(∃ K, ghost m K c)

theorem bigSep_bool (Φ : Bool → sProp 𝕄) : bigSep Finset.univ Φ = iprop(Φ false ∗ Φ true) :=
  bigSep_univ_eq_bigSepL [false, true] (by decide) (by decide) Φ

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Cid => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum]; rfl
  have h := Rounds.fund ER (ringRd m) ringCells ringToks
  rw [hX, hX, hX, hT] at h
  iintro HX
  imod (h) $$ HX with ⟨Hst, Hr, Hat, Htok⟩
  imodintro
  unfold G posToks; simp only [bigSep_sep']
  iframe

instance bigSepL_storable {I : Type} (l : List I) (Φ : I → sProp 𝕄) [∀ i, BI.Storable (upEmb : UEmb _ 𝕄) (Φ i)] :
    BI.Storable (upEmb : UEmb _ 𝕄) (bigSepL l Φ) := by
  induction l with
  | nil => exact inferInstanceAs (BI.Storable _ iprop(emp))
  | cons i l ih => rw [bigSepL_cons]; exact inferInstanceAs (BI.Storable _ iprop(Φ i ∗ bigSepL l Φ))

instance ringRd_payload_storable (g : GSem nD τ sig) (r : ℕ) (d : Bool) :
    BI.Storable (upEmb : UEmb _ 𝕄) ((ringRd (F := F) m).payload g r d) := by
  rcases g with ⟨t, sm⟩
  cases sm with
  | reg _ =>
    show BI.Storable upEmb (barPay t.1 d)
    unfold barPay dstAny; infer_instance
  | dma q =>
    show BI.Storable upEmb (match decS q with
      | some js => sendPay m t.1 js.1 js.2
      | none => match decR q with
        | some js => recvPay m t.1 js.1 js.2
        | none => iprop(emp))
    cases decS q with
    | some js => dsimp only; unfold sendPay; infer_instance
    | none => cases decR q with
      | some js => dsimp only; unfold recvPay; infer_instance
      | none => dsimp only; infer_instance

theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 osem c ∗ unscopedSems0 c)
      ⊢ (bigSep Finset.univ fun k : Cid => semVal (kcell (c, k)) 0 : sProp 𝕄) := by
  rw [unscopedSems0_eq, bigSep_univ_sum, bigSep_univ_of_subsingleton ()]
  exact BI.sep_comm

theorem core_alloc (c : Dev nD) :
    iprop(Pipeline.ownSems0 osem c ∗ unscopedSems0 c ∗ G m c)
      ⊢ |={Set.univ}=> iprop((bigSep Finset.univ fun k => iprop(∃ κ : ℕ, cellInv ER (ringRd m) κ (kcell (c, k)))) ∗ posToks c) := by
  unfold G
  iintro ⟨Hos, Hus, Hst, HR⟩
  ihave Hv := (sems0_eq (F := F) c) $$ [Hos Hus]
  · iframe
  imod (show iprop((bigSep Finset.univ fun k : Cid => semVal (kcell (c, k)) 0) ∗ bigSep Finset.univ fun k : Cid => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · iframe
  imodintro
  iframe

theorem ghost_intro (K : Dev nD × Cid → ℕ) (c : Dev nD) : iprop(records m K ∗ positions c ∗ payToks c) ⊢ G' m c := by
  unfold G' ghost
  iintro H
  iexists K
  iexact H

def toRecv : Dev nD × JS ≃ Dev nD × JS where
  toFun x := (nb (geo x.2.1).side x.1, x.2)
  invFun x := (bn (geo x.2.1).side x.1, x.2)
  left_inv _ := Prod.ext (bn_nb _ _) rfl
  right_inv _ := Prod.ext (nb_bn _ _) rfl

theorem toks_around : (bigSep Finset.univ fun c : Dev nD => (toks c : sProp 𝕄)) ⊢ bigSep Finset.univ fun c : Dev nD => payToks c := by
  have hOwn (c : Dev nD) : (bigSep Finset.univ fun k : Own => (dutyTok ER (kcell (c, .inr k)) 0 false : sProp 𝕄))
      = iprop((bigSep Finset.univ fun js : JS => dutyTok ER (rCell c js.1 js.2) 0 false) ∗ bigSep Finset.univ fun js : JS => dutyTok ER (sCell c js.1 js.2) 0 false) := by
    rw [bigSep_univ_prod, bigSep_bool]; rfl
  have hR : (bigSep Finset.univ fun c : Dev nD => bigSep Finset.univ fun js : JS => (dutyTok ER (rCell c js.1 js.2) 0 false : sProp 𝕄))
      = bigSep Finset.univ fun c : Dev nD => bigSep Finset.univ fun js : JS => dutyTok ER (rCell (nb (geo js.1).side c) js.1 js.2) 0 false := by
    rw [← bigSep_univ_prod (fun x : Dev nD × JS => (dutyTok ER (rCell x.1 x.2.1 x.2.2) 0 false : sProp 𝕄)),
      bigSep_univ_equiv toRecv, bigSep_univ_prod]; rfl
  unfold toks payToks copyToks
  simp only [hOwn, bigSep_bool, bigSep_sep']
  rw [hR, bigSep_univ_equiv ring (fun c : Dev nD => (dutyTok ER (barCell c) 0 false : sProp 𝕄)),
    bigSep_univ_equiv ring.symm (fun c : Dev nD => (dutyTok ER (barCell c) 0 true : sProp 𝕄))]
  iintro ⟨⟨HF, HT⟩, HR, HS⟩
  iframe
  isplitl [HT]; · iexact HT
  iexact HF

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd m) κ (kcell (c, k)))) ∗ posToks c) : sProp 𝕄)
      ⊢ bigSep Finset.univ (G' m) := by
  unfold posToks
  rw [bigSep_sep', bigSep_sep', ← bigSep_univ_prod (fun ck : Dev nD × Cid => iprop(∃ κ : ℕ, cellInv ER (ringRd m) κ (kcell ck))),
    bigSep_congr (s := Finset.univ) (fun (c : Dev nD) _ => bigSep_sep' Finset.univ (fun k : Cid => (atPos ER (kcell (c, k)) 0 ∅ 0 : sProp 𝕄)) (fun k => reached ER (kcell (c, k)) 0)),
    bigSep_sep', ← bigSep_univ_prod (fun ck : Dev nD × Cid => (reached ER (kcell ck) 0 : sProp 𝕄))]
  iintro ⟨HI, ⟨Hat, #HR⟩, Htok⟩
  ihave HK := (BI.bigSep_exists_pi Finset.univ (fun (ck : Dev nD × Cid) (κ : ℕ) => (cellInv ER (ringRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; iframe HI HR
  · iapply (Entails.of_eq (bigSep_sep' Finset.univ (fun c : Dev nD => (positions c : sProp 𝕄)) payToks).symm)
    iframe
    iexact Hat

theorem glob : (bigSep Finset.univ fun c => iprop(Pipeline.ownSems0 osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem order_univ : (Finset.univ : Finset JS) = order.toFinset := by decide
theorem order_nodup : order.Nodup := by decide

theorem owedL_order (c : Dev nD) : owedL c order = ∑ js : JS, owedTo c js := by
  unfold owedL; rw [order_univ, List.sum_toFinset _ order_nodup]

theorem O₀_eq : (O₀ : Dev nD → CellTallies nD τ sig Unit)
    = fun d => ((∑ js : JS, owedTo d js) + tallyAt (barCell (nxt d)) () 1) + tallyAt (barCell (prv d)) () 1 :=
  funext fun d => by unfold O₀ O₁; rw [owedL_order]

theorem creds_of (c : Dev nD) : (Pipeline.launchCred O₀ c : sProp 𝕄) ⊢ creds c := by
  rw [O₀_eq, Pipeline.launchCred_add, Pipeline.launchCred_add, Pipeline.launchCred_sum]
  unfold creds
  iintro ⟨⟨HR, HN⟩, HP⟩
  ihave HN' := (Pipeline.launchCred_tallyAt (.reg barS) nxt prv nxt_prv prv_nxt () 1 c) $$ HN
  ihave HP' := (Pipeline.launchCred_tallyAt (.reg barS) prv nxt prv_nxt nxt_prv () 1 c) $$ HP
  isplitl [HN' HP']
  · rw [← tallyAt_add (barCell c) () 1 1]
    iapply (cred_add _ _).2
    iframe
  · iapply (show (bigSep Finset.univ fun js : JS => (Pipeline.launchCred (fun d => owedTo d js) c : sProp 𝕄))
        ⊢ bigSep Finset.univ fun js : JS => cred (tallyAt (rCell c js.1 js.2) () (Ncr js.1)) from
      bigSep_mono fun js _ => Pipeline.launchCred_tallyAt (.dma ((geo js.1).rsem js.2)) (nb (geo js.1).side) (bn (geo js.1).side)
        (nb_bn _) (bn_nb _) () (Ncr js.1) c)
    iexact HR

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_of (F := F) c) $$ Hcr
  imodintro
  unfold start G'
  iframe

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  iframe

theorem ownSems0_eq (c : Dev nD) : (Pipeline.ownSems0 osem c : sProp 𝕄) = ownZero c := by
  have h : (bigSep Finset.univ fun k : Own => (semVal ((c : Thread nD τ), osem k) 0 : sProp 𝕄))
      = iprop((bigSep Finset.univ fun js : JS => semVal (rCell c js.1 js.2) 0) ∗ bigSep Finset.univ fun js : JS => semVal (sCell c js.1 js.2) 0) := by
    rw [bigSep_univ_prod, bigSep_bool]; rfl
  unfold Pipeline.ownSems0 ownZero
  rw [h, bigSep_sep']
  exact BI.Entails.antisymm BI.sep_comm BI.sep_comm

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁
  iintro ⟨Hr, Hz⟩
  iframe

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide +kernel) _ (by
      rcases t with ⟨_ | _, ht⟩
      · exact Or.inl rfl
      · exact Or.inr rfl)

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

theorem run_main : θ_run defs (onTc (τ := τ) (main (F := F))) (s₀ m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      iframe)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      iframe)
    (hQ := fun _ h c w => (h c).1 w)

theorem finalA_x (c : Dev nD) : finalA m c (0 : Fin 2) = m (win0_0.arr.view.loc (c : Thread nD τ)) :=
  (dats (F := F) m 0 c).arrAt_in (0 : Fin 2) rfl _

theorem finalA_out (c : Dev nD) : finalA m c (1 : Fin 2) = outFinal m c := by
  have h := (dats (F := F) m 0 c).arrAt_succ (1 : Fin 2) t₀
  rw [flush0_1 t₀, if_pos rfl] at h
  show (dats m 0 c).arrAt (1 : Fin 2) (t₀.val + 1) = _
  rw [h]
  exact Memref.write_access_unit_zero_univ (Elt F) main_v1 (funext fun a => Nat.zero_mul _) _ _ _

theorem X_eq (d : Dev nD) : X m d = m ((d : Thread nD τ).loc main_arg0) :=
  Memref.read_access_unit_zero (Elt F) main_arg0 (funext fun a => Nat.zero_mul _) _ _

end Cert.Kernel.AR

end
-- ==== Proof.ClaimsBits.lean ====
import proofs.«900109_g7700000000000110_dist_ar_v7x_i4_i_m1024_n512_f32_1_alg».proof.Defs
import proofs.«900109_g7700000000000110_dist_ar_v7x_i4_i_m1024_n512_f32_1_alg».proof.Proof.ArKernel.Launch
import proofs.«900109_g7700000000000110_dist_ar_v7x_i4_i_m1024_n512_f32_1_alg».proof.Proof.Gen.Pre_finite_inputs_Kernel

noncomputable section

namespace Cert.Kernel.AR

open Cert.Kernel Cert.Kernel.Gen
open Idealize.ShloMosaic Idealize.ShloMosaic.TcCoe Idealize.SL.Sem

theorem frame_k : Cert.frame_Kernel := fun m ρ _ =>
  (θ_run Cert.Kernel.defs _ _).mono (fun r h c => ((h c (0 : Fin 2)).trans (finalA_x (F := Bits) m c))) (run_main (F := Bits) m ρ)

end Cert.Kernel.AR

end
-- ==== Proof.lean ====
import proofs.«900109_g7700000000000110_dist_ar_v7x_i4_i_m1024_n512_f32_1_alg».proof.Defs
import proofs.«900109_g7700000000000110_dist_ar_v7x_i4_i_m1024_n512_f32_1_alg».proof.Proof.Gen.Kernel
import proofs.«900109_g7700000000000110_dist_ar_v7x_i4_i_m1024_n512_f32_1_alg».proof.Proof.Gen.Kernel.Skeleton
import proofs.«900109_g7700000000000110_dist_ar_v7x_i4_i_m1024_n512_f32_1_alg».proof.Proof.Gen.Kernel.Launch
import proofs.«900109_g7700000000000110_dist_ar_v7x_i4_i_m1024_n512_f32_1_alg».proof.Proof.Gen.Kernel.Points
import proofs.«900109_g7700000000000110_dist_ar_v7x_i4_i_m1024_n512_f32_1_alg».proof.Proof.Gen.Kernel.Frame
import proofs.«900109_g7700000000000110_dist_ar_v7x_i4_i_m1024_n512_f32_1_alg».proof.Proof.Gen.KernelIdeal
import proofs.«900109_g7700000000000110_dist_ar_v7x_i4_i_m1024_n512_f32_1_alg».proof.Proof.Gen.KernelIdeal.Skeleton
import proofs.«900109_g7700000000000110_dist_ar_v7x_i4_i_m1024_n512_f32_1_alg».proof.Proof.Gen.KernelIdeal.Launch
import proofs.«900109_g7700000000000110_dist_ar_v7x_i4_i_m1024_n512_f32_1_alg».proof.Proof.Gen.KernelIdeal.Points
import proofs.«900109_g7700000000000110_dist_ar_v7x_i4_i_m1024_n512_f32_1_alg».proof.Proof.Gen.KernelIdeal.Frame
import proofs.«900109_g7700000000000110_dist_ar_v7x_i4_i_m1024_n512_f32_1_alg».proof.Proof.Gen.ReferenceIdeal
import proofs.«900109_g7700000000000110_dist_ar_v7x_i4_i_m1024_n512_f32_1_alg».proof.Proof.Gen.Pre_finite_inputs_Kernel
import proofs.«900109_g7700000000000110_dist_ar_v7x_i4_i_m1024_n512_f32_1_alg».proof.Proof.Gen.Pre_finite_inputs_ReferenceIdeal
import proofs.«900109_g7700000000000110_dist_ar_v7x_i4_i_m1024_n512_f32_1_alg».proof.Proof.ArKernelIdeal.Claims
import proofs.«900109_g7700000000000110_dist_ar_v7x_i4_i_m1024_n512_f32_1_alg».proof.Proof.ClaimsBits
import proofs.«900109_g7700000000000110_dist_ar_v7x_i4_i_m1024_n512_f32_1_alg».proof.Proof.RefValue
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts, ⟨Cert.Kernel.AR.frame_k, Cert.KernelIdeal.AR.frame_ki, Cert.ReferenceIdeal.RefValue.frame_ri, trivial, Cert.KernelIdeal.AR.algebraic⟩⟩

end Cert.Proof

end
